-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v272)) (v1 : (c : Dev Cert.KernelIdeal.nD) → Buf (Elt Ideal) ((c.tc : Thread Cert.KernelIdeal.nD Cert.KernelIdeal.τ).loc Cert.KernelIdeal.main_v274)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v272) = v0 c
          ∧ r.2.mem ((c.tc : Thread Cert.KernelIdeal.nD Cert.KernelIdeal.τ).loc Cert.KernelIdeal.main_v274) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v536) = v0 c
          ∧ r.2.mem ((c.tc : Thread Cert.ReferenceIdeal.nD Cert.ReferenceIdeal.τ).loc Cert.ReferenceIdeal.main_v545) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S128x512x512 : Shape := ⟨3, ![128, 512, 512]⟩
abbrev S128x512x512x3 : Shape := ⟨4, ![128, 512, 512, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S128x512x512 : S_.BroadcastsInDim S128x512x512 (![] : Fin 0 → Fin S128x512x512.rank)
  reducesTo_S128x512x512_S_d0_1_2 : S128x512x512.ReducesTo [0, 1, 2] S_
  bcast_S_S128x512x512x3 : S_.BroadcastsInDim S128x512x512x3 (![] : Fin 0 → Fin S128x512x512x3.rank)
  reducesTo_S128x512x512x3_S_d0_1_2_3 : S128x512x512x3.ReducesTo [0, 1, 2, 3] S_

variable [Facts]

def fn {F : FTy → Type} [FloatOps F] (main_arg0 : FVec F S2000000x3 .f32) (main_arg1 : FVec F S128x512x512 .f32) (main_arg2 : FVec F S128x512x512x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S128x512x512 .f32 := Host.absf main_arg1
  let main_cst_0 : FVec F S_ .f32 := constant S_ .f32 0x7F800000#32
  let main_v5 : FVec F S128x512x512 .f32 := broadcastInDim S128x512x512 ![] bcast_S_S128x512x512 main_cst_0
  let main_v6 : IVec S128x512x512 1 := cmpf .olt main_v4 main_v5
  let main_c_1 : IVec S_ 1 := constantI S_ 1 1#1
  let main_v7 : IVec S_ 1 := (fun x v => Host.reduce IntOp.andi x v reducesTo_S128x512x512_S_d0_1_2 h_S_) main_v6 main_c_1
  let main_v8 : IVec S_ 1 := andi main_v3 main_v7
  let main_v9 : FVec F S128x512x512x3 .f32 := Host.absf main_arg2
  let main_cst_2 : FVec F S_ .f32 := constant S_ .f32 0x7F800000#32
  let main_v10 : FVec F S128x512x512x3 .f32 := broadcastInDim S128x512x512x3 ![] bcast_S_S128x512x512x3 main_cst_2
  let main_v11 : IVec S128x512x512x3 1 := cmpf .olt main_v9 main_v10
  let main_c_3 : IVec S_ 1 := constantI S_ 1 1#1
  let main_v12 : IVec S_ 1 := (fun x v => Host.reduce IntOp.andi x v reducesTo_S128x512x512x3_S_d0_1_2_3 h_S_) main_v11 main_c_3
  let main_v13 : IVec S_ 1 := andi main_v8 main_v12
  main_v13
-- ==== Kernel.lean ====
abbrev S2000000x3 : Shape := ⟨2, ![2000000, 3]⟩
abbrev S128x512x512 : Shape := ⟨3, ![128, 512, 512]⟩
abbrev S128x512x512x3 : Shape := ⟨4, ![128, 512, 512, 3]⟩
abbrev S3 : Shape := ⟨1, ![3]⟩
abbrev S_ : Shape := ⟨0, ![]⟩
abbrev S1x3 : Shape := ⟨2, ![1, 3]⟩
abbrev S2000000x1 : Shape := ⟨2, ![2000000, 1]⟩
abbrev S2000000 : Shape := ⟨1, ![2000000]⟩
abbrev S33554432 : Shape := ⟨1, ![33554432]⟩
abbrev S33554432x3 : Shape := ⟨2, ![33554432, 3]⟩
abbrev S1x2000000 : Shape := ⟨2, ![1, 2000000]⟩
abbrev S4x2000000 : Shape := ⟨2, ![4, 2000000]⟩
abbrev S4x400000 : Shape := ⟨2, ![4, 400000]⟩
abbrev S1x400000 : Shape := ⟨2, ![1, 400000]⟩
abbrev S3x2000000 : Shape := ⟨2, ![3, 2000000]⟩

abbrev nBuf : Space → Nat
  | .hbm => 331
  | .vmem => 4
  | .smem => 0
  | _ => 0

abbrev hbmTy0_0 (i : Nat) : BufTy := match i % 128 with
  | 0 => ⟨S2000000x3, .f32⟩
  | 1 => ⟨S128x512x512, .f32⟩
  | 2 => ⟨S128x512x512x3, .f32⟩
  | 3 => ⟨S3, .i32⟩
  | 4 => ⟨S2000000x3, .f32⟩
  | 5 => ⟨S2000000x3, .f32⟩
  | 6 => ⟨S2000000x3, .i32⟩
  | 7 => ⟨S_, .i32⟩
  | 8 => ⟨S_, .i32⟩
  | 9 => ⟨S2000000x3, .i32⟩
  | 10 => ⟨S2000000x3, .i32⟩
  | 11 => ⟨S1x3, .i32⟩
  | 12 => ⟨S2000000x3, .i32⟩
  | 13 => ⟨S2000000x3, .i32⟩
  | 14 => ⟨S_, .i32⟩
  | 15 => ⟨S2000000x3, .i32⟩
  | 16 => ⟨S2000000x3, .i32⟩
  | 17 => ⟨S_, .i32⟩
  | 18 => ⟨S_, .i32⟩
  | 19 => ⟨S2000000x3, .i32⟩
  | 20 => ⟨S2000000x3, .i32⟩
  | 21 => ⟨S1x3, .i32⟩
  | 22 => ⟨S2000000x3, .i32⟩
  | 23 => ⟨S2000000x3, .i32⟩
  | 24 => ⟨S2000000x1, .f32⟩
  | 25 => ⟨S2000000, .f32⟩
  | 26 => ⟨S2000000x1, .f32⟩
  | 27 => ⟨S2000000, .f32⟩
  | 28 => ⟨S2000000x1, .f32⟩
  | 29 => ⟨S2000000, .f32⟩
  | 30 => ⟨S2000000x1, .i32⟩
  | 31 => ⟨S2000000, .i32⟩
  | 32 => ⟨S2000000x1, .i32⟩
  | 33 => ⟨S2000000, .i32⟩
  | 34 => ⟨S2000000x1, .i32⟩
  | 35 => ⟨S2000000, .i32⟩
  | 36 => ⟨S2000000x1, .i32⟩
  | 37 => ⟨S2000000, .i32⟩
  | 38 => ⟨S2000000x1, .i32⟩
  | 39 => ⟨S2000000, .i32⟩
  | 40 => ⟨S2000000x1, .i32⟩
  | 41 => ⟨S2000000, .i32⟩
  | 42 => ⟨S2000000x1, .i32⟩
  | 43 => ⟨S2000000, .i32⟩
  | 44 => ⟨S2000000x1, .i32⟩
  | 45 => ⟨S2000000, .i32⟩
  | 46 => ⟨S2000000x1, .i32⟩
  | 47 => ⟨S2000000, .i32⟩
  | 48 => ⟨S2000000x1, .i32⟩
  | 49 => ⟨S2000000, .i32⟩
  | 50 => ⟨S2000000x1, .i32⟩
  | 51 => ⟨S2000000, .i32⟩
  | 52 => ⟨S2000000x1, .i32⟩
  | 53 => ⟨S2000000, .i32⟩
  | 54 => ⟨S2000000x1, .i32⟩
  | 55 => ⟨S2000000, .i32⟩
  | 56 => ⟨S2000000x1, .i32⟩
  | 57 => ⟨S2000000, .i32⟩
  | 58 => ⟨S2000000x1, .i32⟩
  | 59 => ⟨S2000000, .i32⟩
  | 60 => ⟨S2000000x1, .i32⟩
  | 61 => ⟨S2000000, .i32⟩
  | 62 => ⟨S2000000x1, .i32⟩
  | 63 => ⟨S2000000, .i32⟩
  | 64 => ⟨S2000000x1, .i32⟩
  | 65 => ⟨S2000000, .i32⟩
  | 66 => ⟨S2000000x1, .i32⟩
  | 67 => ⟨S2000000, .i32⟩
  | 68 => ⟨S2000000x1, .i32⟩
  | 69 => ⟨S2000000, .i32⟩
  | 70 => ⟨S2000000x1, .i32⟩
  | 71 => ⟨S2000000, .i32⟩
  | 72 => ⟨S2000000x1, .i32⟩
  | 73 => ⟨S2000000, .i32⟩
  | 74 => ⟨S2000000x1, .i32⟩
  | 75 => ⟨S2000000, .i32⟩
  | 76 => ⟨S2000000x1, .i32⟩
  | 77 => ⟨S2000000, .i32⟩
  | 78 => ⟨S_, .i32⟩
  | 79 => ⟨S2000000, .i32⟩
  | 80 => ⟨S2000000, .i32⟩
  | 81 => ⟨S2000000, .i32⟩
  | 82 => ⟨S_, .i32⟩
  | 83 => ⟨S2000000, .i32⟩
  | 84 => ⟨S2000000, .i32⟩
  | 85 => ⟨S2000000, .i32⟩
  | 86 => ⟨S_, .i32⟩
  | 87 => ⟨S2000000, .i32⟩
  | 88 => ⟨S2000000, .i32⟩
  | 89 => ⟨S2000000, .i32⟩
  | 90 => ⟨S_, .i32⟩
  | 91 => ⟨S2000000, .i32⟩
  | 92 => ⟨S2000000, .i32⟩
  | 93 => ⟨S2000000, .i32⟩
  | 94 => ⟨S_, .i32⟩
  | 95 => ⟨S2000000, .i32⟩
  | 96 => ⟨S2000000, .i32⟩
  | 97 => ⟨S2000000, .i32⟩
  | 98 => ⟨S_, .i32⟩
  | 99 => ⟨S2000000, .i32⟩
  | 100 => ⟨S2000000, .i32⟩
  | 101 => ⟨S2000000, .i32⟩
  | 102 => ⟨S_, .i32⟩
  | 103 => ⟨S2000000, .i32⟩
  | 104 => ⟨S2000000, .i32⟩
  | 105 => ⟨S2000000, .i32⟩
  | 106 => ⟨S_, .i32⟩
  | 107 => ⟨S2000000, .i32⟩
  | 108 => ⟨S2000000, .i32⟩
  | 109 => ⟨S2000000, .i32⟩
  | 110 => ⟨S_, .i32⟩
  | 111 => ⟨S2000000, .i32⟩
  | 112 => ⟨S2000000, .i32⟩
  | 113 => ⟨S2000000, .i32⟩
  | 114 => ⟨S_, .i32⟩
  | 115 => ⟨S2000000, .i32⟩
  | 116 => ⟨S2000000, .i32⟩
  | 117 => ⟨S2000000, .i32⟩
  | 118 => ⟨S_, .i32⟩
  | 119 => ⟨S2000000, .i32⟩
  | 120 => ⟨S2000000, .i32⟩
  | 121 => ⟨S2000000, .i32⟩
  | 122 => ⟨S_, .i32⟩
  | 123 => ⟨S2000000, .i32⟩
  | 124 => ⟨S2000000, .i32⟩
  | 125 => ⟨S2000000, .i32⟩
  | 126 => ⟨S_, .i32⟩
  | 127 => ⟨S2000000, .i32⟩
  | _ => ⟨S2000000x3, .f32⟩

abbrev hbmTy0_1 (i : Nat) : BufTy := match i % 128 with
  | 0 => ⟨S2000000, .i32⟩
  | 1 => ⟨S2000000, .i32⟩
  | 2 => ⟨S_, .i32⟩
  | 3 => ⟨S2000000, .i32⟩
  | 4 => ⟨S2000000, .i32⟩
  | 5 => ⟨S2000000, .i32⟩
  | 6 => ⟨S_, .i32⟩
  | 7 => ⟨S2000000, .i32⟩
  | 8 => ⟨S2000000, .i32⟩
  | 9 => ⟨S2000000, .i32⟩
  | 10 => ⟨S_, .i32⟩
  | 11 => ⟨S2000000, .i32⟩
  | 12 => ⟨S2000000, .i32⟩
  | 13 => ⟨S2000000, .i32⟩
  | 14 => ⟨S33554432, .f32⟩
  | 15 => ⟨S33554432x3, .f32⟩
  | 16 => ⟨S_, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S2000000, .f32⟩
  | 27 => ⟨S2000000, .f32⟩
  | 28 => ⟨S2000000, .f32⟩
  | 29 => ⟨S2000000, .f32⟩
  | 30 => ⟨S2000000, .f32⟩
  | 31 => ⟨S2000000, .f32⟩
  | 32 => ⟨S2000000, .f32⟩
  | 33 => ⟨S2000000, .f32⟩
  | 34 => ⟨S2000000, .f32⟩
  | 35 => ⟨S2000000, .f32⟩
  | 36 => ⟨S2000000, .f32⟩
  | 37 => ⟨S2000000, .f32⟩
  | 38 => ⟨S2000000, .f32⟩
  | 39 => ⟨S2000000, .f32⟩
  | 40 => ⟨S2000000, .f32⟩
  | 41 => ⟨S_, .f32⟩
  | 42 => ⟨S2000000, .f32⟩
  | 43 => ⟨S_, .f32⟩
  | 44 => ⟨S2000000, .f32⟩
  | 45 => ⟨S_, .f32⟩
  | 46 => ⟨S2000000, .f32⟩
  | 47 => ⟨S_, .f32⟩
  | 48 => ⟨S2000000, .f32⟩
  | 49 => ⟨S2000000x1, .i32⟩
  | 50 => ⟨S2000000, .f32⟩
  | 51 => ⟨S2000000x1, .i32⟩
  | 52 => ⟨S2000000x3, .f32⟩
  | 53 => ⟨S2000000, .f32⟩
  | 54 => ⟨S2000000, .f32⟩
  | 55 => ⟨S2000000x1, .f32⟩
  | 56 => ⟨S2000000, .f32⟩
  | 57 => ⟨S2000000, .f32⟩
  | 58 => ⟨S2000000, .f32⟩
  | 59 => ⟨S2000000x1, .f32⟩
  | 60 => ⟨S2000000, .f32⟩
  | 61 => ⟨S2000000, .f32⟩
  | 62 => ⟨S2000000, .f32⟩
  | 63 => ⟨S2000000x1, .f32⟩
  | 64 => ⟨S2000000, .f32⟩
  | 65 => ⟨S2000000, .f32⟩
  | 66 => ⟨S2000000, .f32⟩
  | 67 => ⟨S2000000x1, .i32⟩
  | 68 => ⟨S2000000, .f32⟩
  | 69 => ⟨S2000000x1, .i32⟩
  | 70 => ⟨S2000000x3, .f32⟩
  | 71 => ⟨S2000000, .f32⟩
  | 72 => ⟨S2000000, .f32⟩
  | 73 => ⟨S2000000x1, .f32⟩
  | 74 => ⟨S2000000, .f32⟩
  | 75 => ⟨S2000000, .f32⟩
  | 76 => ⟨S2000000, .f32⟩
  | 77 => ⟨S2000000x1, .f32⟩
  | 78 => ⟨S2000000, .f32⟩
  | 79 => ⟨S2000000, .f32⟩
  | 80 => ⟨S2000000, .f32⟩
  | 81 => ⟨S2000000x1, .f32⟩
  | 82 => ⟨S2000000, .f32⟩
  | 83 => ⟨S2000000, .f32⟩
  | 84 => ⟨S2000000, .f32⟩
  | 85 => ⟨S2000000x1, .i32⟩
  | 86 => ⟨S2000000, .f32⟩
  | 87 => ⟨S2000000x1, .i32⟩
  | 88 => ⟨S2000000x3, .f32⟩
  | 89 => ⟨S2000000, .f32⟩
  | 90 => ⟨S2000000, .f32⟩
  | 91 => ⟨S2000000x1, .f32⟩
  | 92 => ⟨S2000000, .f32⟩
  | 93 => ⟨S2000000, .f32⟩
  | 94 => ⟨S2000000, .f32⟩
  | 95 => ⟨S2000000x1, .f32⟩
  | 96 => ⟨S2000000, .f32⟩
  | 97 => ⟨S2000000, .f32⟩
  | 98 => ⟨S2000000, .f32⟩
  | 99 => ⟨S2000000x1, .f32⟩
  | 100 => ⟨S2000000, .f32⟩
  | 101 => ⟨S2000000, .f32⟩
  | 102 => ⟨S2000000, .f32⟩
  | 103 => ⟨S2000000x1, .i32⟩
  | 104 => ⟨S2000000, .f32⟩
  | 105 => ⟨S2000000x1, .i32⟩
  | 106 => ⟨S2000000x3, .f32⟩
  | 107 => ⟨S2000000, .f32⟩
  | 108 => ⟨S2000000, .f32⟩
  | 109 => ⟨S2000000x1, .f32⟩
  | 110 => ⟨S2000000, .f32⟩
  | 111 => ⟨S2000000, .f32⟩
  | 112 => ⟨S2000000, .f32⟩
  | 113 => ⟨S2000000x1, .f32⟩
  | 114 => ⟨S2000000, .f32⟩
  | 115 => ⟨S2000000, .f32⟩
  | 116 => ⟨S2000000, .f32⟩
  | 117 => ⟨S2000000x1, .f32⟩
  | 118 => ⟨S2000000, .f32⟩
  | 119 => ⟨S2000000, .f32⟩
  | 120 => ⟨S2000000, .f32⟩
  | 121 => ⟨S2000000x1, .i32⟩
  | 122 => ⟨S2000000, .f32⟩
  | 123 => ⟨S2000000x1, .i32⟩
  | 124 => ⟨S2000000x3, .f32⟩
  | 125 => ⟨S2000000, .f32⟩
  | 126 => ⟨S2000000, .f32⟩
  | 127 => ⟨S2000000x1, .f32⟩
  | _ => ⟨S2000000x3, .f32⟩

abbrev hbmTy0_2 (i : Nat) : BufTy := match i % 128 with
  | 0 => ⟨S2000000, .f32⟩
  | 1 => ⟨S2000000, .f32⟩
  | 2 => ⟨S2000000, .f32⟩
  | 3 => ⟨S2000000x1, .f32⟩
  | 4 => ⟨S2000000, .f32⟩
  | 5 => ⟨S2000000, .f32⟩
  | 6 => ⟨S2000000, .f32⟩
  | 7 => ⟨S2000000x1, .f32⟩
  | 8 => ⟨S2000000, .f32⟩
  | 9 => ⟨S2000000, .f32⟩
  | 10 => ⟨S2000000, .f32⟩
  | 11 => ⟨S2000000x1, .i32⟩
  | 12 => ⟨S2000000, .f32⟩
  | 13 => ⟨S2000000x1, .i32⟩
  | 14 => ⟨S2000000x3, .f32⟩
  | 15 => ⟨S2000000, .f32⟩
  | 16 => ⟨S2000000, .f32⟩
  | 17 => ⟨S2000000x1, .f32⟩
  | 18 => ⟨S2000000, .f32⟩
  | 19 => ⟨S2000000, .f32⟩
  | 20 => ⟨S2000000, .f32⟩
  | 21 => ⟨S2000000x1, .f32⟩
  | 22 => ⟨S2000000, .f32⟩
  | 23 => ⟨S2000000, .f32⟩
  | 24 => ⟨S2000000, .f32⟩
  | 25 => ⟨S2000000x1, .f32⟩
  | 26 => ⟨S2000000, .f32⟩
  | 27 => ⟨S2000000, .f32⟩
  | 28 => ⟨S2000000, .f32⟩
  | 29 => ⟨S2000000x1, .i32⟩
  | 30 => ⟨S2000000, .f32⟩
  | 31 => ⟨S2000000x1, .i32⟩
  | 32 => ⟨S2000000x3, .f32⟩
  | 33 => ⟨S2000000, .f32⟩
  | 34 => ⟨S2000000, .f32⟩
  | 35 => ⟨S2000000x1, .f32⟩
  | 36 => ⟨S2000000, .f32⟩
  | 37 => ⟨S2000000, .f32⟩
  | 38 => ⟨S2000000, .f32⟩
  | 39 => ⟨S2000000x1, .f32⟩
  | 40 => ⟨S2000000, .f32⟩
  | 41 => ⟨S2000000, .f32⟩
  | 42 => ⟨S2000000, .f32⟩
  | 43 => ⟨S2000000x1, .f32⟩
  | 44 => ⟨S2000000, .f32⟩
  | 45 => ⟨S2000000, .f32⟩
  | 46 => ⟨S2000000, .f32⟩
  | 47 => ⟨S2000000x1, .i32⟩
  | 48 => ⟨S2000000, .f32⟩
  | 49 => ⟨S2000000x1, .i32⟩
  | 50 => ⟨S2000000x3, .f32⟩
  | 51 => ⟨S2000000, .f32⟩
  | 52 => ⟨S2000000, .f32⟩
  | 53 => ⟨S2000000x1, .f32⟩
  | 54 => ⟨S2000000, .f32⟩
  | 55 => ⟨S2000000, .f32⟩
  | 56 => ⟨S2000000, .f32⟩
  | 57 => ⟨S2000000x1, .f32⟩
  | 58 => ⟨S2000000, .f32⟩
  | 59 => ⟨S2000000, .f32⟩
  | 60 => ⟨S2000000, .f32⟩
  | 61 => ⟨S2000000x1, .f32⟩
  | 62 => ⟨S2000000, .f32⟩
  | 63 => ⟨S2000000, .f32⟩
  | 64 => ⟨S2000000, .f32⟩
  | 65 => ⟨S1x2000000, .f32⟩
  | 66 => ⟨S1x2000000, .f32⟩
  | 67 => ⟨S1x2000000, .f32⟩
  | 68 => ⟨S1x2000000, .f32⟩
  | 69 => ⟨S4x2000000, .f32⟩
  | 70 => ⟨S4x2000000, .f32⟩
  | 71 => ⟨S1x2000000, .f32⟩
  | 72 => ⟨S2000000, .f32⟩
  | 73 => ⟨S3x2000000, .f32⟩
  | 74 => ⟨S2000000x3, .f32⟩
  | _ => ⟨S2000000x3, .f32⟩

abbrev hbmTy (i : Nat) : BufTy := match i / 128 with
  | 0 => hbmTy0_0 i
  | 1 => hbmTy0_1 i
  | 2 => hbmTy0_2 i
  | _ => ⟨S2000000x3, .f32⟩

abbrev bufTy : (tb : Table) → Fin (tcTables nBuf tb) → BufTy
  | .hbm, ⟨i, _⟩ => hbmTy i
  | .local _ .vmem, ⟨0, _⟩ => ⟨S4x400000, .f32⟩
  | .local _ .vmem, ⟨1, _⟩ => ⟨S4x400000, .f32⟩
  | .local _ .vmem, ⟨2, _⟩ => ⟨S4x400000, .f32⟩
  | .local _ .vmem, ⟨3, _⟩ => ⟨S4x400000, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_3 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_4 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_5 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_6 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_8 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_9 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_10 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_11 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_12 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_13 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_14 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_15 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_16 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_17 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_c_18 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst : Ref sig .tc := ⟨.hbm, 144, rfl⟩
abbrev main_v111 : Ref sig .tc := ⟨.hbm, 145, rfl⟩
abbrev main_v112 : Ref sig .tc := ⟨.hbm, 146, rfl⟩
abbrev main_cst_19 : Ref sig .tc := ⟨.hbm, 147, rfl⟩
abbrev main_v113 : Ref sig .tc := ⟨.hbm, 148, rfl⟩
abbrev main_v114 : Ref sig .tc := ⟨.hbm, 149, rfl⟩
abbrev main_cst_20 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_21 : Ref sig .tc := ⟨.hbm, 169, rfl⟩
abbrev main_v133 : Ref sig .tc := ⟨.hbm, 170, rfl⟩
abbrev main_cst_22 : Ref sig .tc := ⟨.hbm, 171, rfl⟩
abbrev main_v134 : Ref sig .tc := ⟨.hbm, 172, rfl⟩
abbrev main_cst_23 : Ref sig .tc := ⟨.hbm, 173, rfl⟩
abbrev main_v135 : Ref sig .tc := ⟨.hbm, 174, rfl⟩
abbrev main_cst_24 : Ref sig .tc := ⟨.hbm, 175, rfl⟩
abbrev main_v136 : Ref sig .tc := ⟨.hbm, 176, rfl⟩
abbrev main_call2_v0 : Ref sig .tc := ⟨.hbm, 177, rfl⟩
abbrev main_v137 : Ref sig .tc := ⟨.hbm, 178, rfl⟩
abbrev main_call3_v0 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_call4_v0 : Ref sig .tc := ⟨.hbm, 195, rfl⟩
abbrev main_v153 : Ref sig .tc := ⟨.hbm, 196, rfl⟩
abbrev main_call5_v0 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_call6_v0 : Ref sig .tc := ⟨.hbm, 213, rfl⟩
abbrev main_v169 : Ref sig .tc := ⟨.hbm, 214, rfl⟩
abbrev main_call7_v0 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_call8_v0 : Ref sig .tc := ⟨.hbm, 231, rfl⟩
abbrev main_v185 : Ref sig .tc := ⟨.hbm, 232, rfl⟩
abbrev main_call9_v0 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_call10_v0 : Ref sig .tc := ⟨.hbm, 249, rfl⟩
abbrev main_v201 : Ref sig .tc := ⟨.hbm, 250, rfl⟩
abbrev main_call11_v0 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_call12_v0 : Ref sig .tc := ⟨.hbm, 267, rfl⟩
abbrev main_v217 : Ref sig .tc := ⟨.hbm, 268, rfl⟩
abbrev main_call13_v0 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_call14_v0 : Ref sig .tc := ⟨.hbm, 285, rfl⟩
abbrev main_v233 : Ref sig .tc := ⟨.hbm, 286, rfl⟩
abbrev main_call15_v0 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_call16_v0 : Ref sig .tc := ⟨.hbm, 303, rfl⟩
abbrev main_v249 : Ref sig .tc := ⟨.hbm, 304, rfl⟩
abbrev main_call17_v0 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x400000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x400000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S2000000x3 : S_.BroadcastsInDim S2000000x3 (![] : Fin 0 → Fin S2000000x3.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  shapeCasts_S128x512x512_S33554432 : S128x512x512.ShapeCasts S33554432
  shapeCasts_S128x512x512x3_S33554432x3 : S128x512x512x3.ShapeCasts S33554432x3
  bcast_S2000000_S2000000x1_0 : S2000000.BroadcastsInDim S2000000x1 (![0] : Fin 1 → Fin S2000000x1.rank)
  bcast_S2000000_S1x2000000_1 : S2000000.BroadcastsInDim S1x2000000 (![1] : Fin 1 → Fin S1x2000000.rank)
  concatenates_S1x2000000_S1x2000000_S1x2000000_S1x2000000_S4x2000000_d0 : Shape.Concatenates [S1x2000000, S1x2000000, S1x2000000, S1x2000000] S4x2000000 0
  inb_S4x400000_S1x400000_0_0 : ∀ a, (![0, 0] : Fin 2 → Nat) a + S1x400000.size a ≤ S4x400000.size a
  h_S1x400000 : 0 < S1x400000.numel
  shapeCasts_S1x400000_S1x400000 : S1x400000.ShapeCasts S1x400000
  inb_S4x400000_S1x400000_1_0 : ∀ a, (![1, 0] : Fin 2 → Nat) a + S1x400000.size a ≤ S4x400000.size a
  inb_S4x400000_S1x400000_2_0 : ∀ a, (![2, 0] : Fin 2 → Nat) a + S1x400000.size a ≤ S4x400000.size a
  inb_S4x400000_S1x400000_3_0 : ∀ a, (![3, 0] : Fin 2 → Nat) a + S1x400000.size a ≤ S4x400000.size a
  slices_S4x2000000_S1x2000000_0_0 : S4x2000000.Slices ![0, 0] S1x2000000
  shapeCasts_S1x2000000_S2000000 : S1x2000000.ShapeCasts S2000000
  slices_S4x2000000_S3x2000000_1_0 : S4x2000000.Slices ![1, 0] S3x2000000
  transposes_S3x2000000_S2000000x3_1_0 : S3x2000000.Transposes [1, 0] S2000000x3
  gather_S33554432_S2000000x1_S2000000_n_0_n_n_0_1_1_wf : GatherDims.WF S33554432 S2000000x1 S2000000 [] [0] [] [0] [] 1 ![1]
  gather_S33554432x3_S2000000x1_S2000000x3_1_0_n_n_0_1_13_wf : GatherDims.WF S33554432x3 S2000000x1 S2000000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x400000.size a ≤ S4x2000000.size a
  hwx0_0 : ∀ i : grid0.Coords, EltTy.bits .f32 = 32 ∨ (Rect.block (s := S4x2000000) S4x400000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x400000.size a ≤ S4x2000000.size a
  hwx0_1 : ∀ i : grid0.Coords, EltTy.bits .f32 = 32 ∨ (Rect.block (s := S4x2000000) S4x400000.size (cc0_transform_1 i) (hinb0_1 i)).WholeWords (EltTy.packing .f32)

variable [Facts₀]

def gather_S33554432_S2000000x1_S2000000_n_0_n_n_0_1_1 : GatherDims S33554432 S2000000x1 S2000000 where
  offsetDims := []
  collapsedSliceDims := [0]
  operandBatchingDims := []
  startIndicesBatchingDims := []
  startIndexMap := [0]
  indexVectorDim := 1
  sliceSizes := ![1]
  wf := gather_S33554432_S2000000x1_S2000000_n_0_n_n_0_1_1_wf
def gather_S33554432x3_S2000000x1_S2000000x3_1_0_n_n_0_1_13 : GatherDims S33554432x3 S2000000x1 S2000000x3 where
  offsetDims := [1]
  collapsedSliceDims := [0]
  operandBatchingDims := []
  startIndicesBatchingDims := []
  startIndexMap := [0]
  indexVectorDim := 1
  sliceSizes := ![1, 3]
  wf := gather_S33554432x3_S2000000x1_S2000000x3_1_0_n_n_0_1_13_wf

abbrev win0_0 : Pipeline.Window sig grid0 :=
  Pipeline.Window.ofSpec (Memref.whole main_v269) S4x400000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v270) S4x400000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S128x512x512 : Shape := ⟨3, ![128, 512, 512]⟩
abbrev S128x512x512x3 : Shape := ⟨4, ![128, 512, 512, 3]⟩
abbrev S3 : Shape := ⟨1, ![3]⟩
abbrev S128x512x512x1 : Shape := ⟨4, ![128, 512, 512, 1]⟩
abbrev S_ : Shape := ⟨0, ![]⟩
abbrev S1x3 : Shape := ⟨2, ![1, 3]⟩
abbrev S2000000x1 : Shape := ⟨2, ![2000000, 1]⟩
abbrev S2000000 : Shape := ⟨1, ![2000000]⟩

abbrev nBuf : Space → Nat
  | .hbm => 699
  | .vmem => 0
  | .smem => 0
  | _ => 0

abbrev hbmTy0_0 (i : Nat) : BufTy := match i % 128 with
  | 0 => ⟨S2000000x3, .f32⟩
  | 1 => ⟨S128x512x512, .f32⟩
  | 2 => ⟨S128x512x512x3, .f32⟩
  | 3 => ⟨S3, .f32⟩
  | 4 => ⟨S3, .i32⟩
  | 5 => ⟨S3, .i32⟩
  | 6 => ⟨S128x512x512x1, .f32⟩
  | 7 => ⟨S2000000x3, .f32⟩
  | 8 => ⟨S2000000x3, .f32⟩
  | 9 => ⟨S2000000x3, .i32⟩
  | 10 => ⟨S_, .i32⟩
  | 11 => ⟨S_, .i32⟩
  | 12 => ⟨S2000000x3, .i32⟩
  | 13 => ⟨S2000000x3, .i32⟩
  | 14 => ⟨S1x3, .i32⟩
  | 15 => ⟨S2000000x3, .i32⟩
  | 16 => ⟨S2000000x3, .i32⟩
  | 17 => ⟨S_, .i32⟩
  | 18 => ⟨S2000000x3, .i32⟩
  | 19 => ⟨S2000000x3, .i32⟩
  | 20 => ⟨S_, .i32⟩
  | 21 => ⟨S_, .i32⟩
  | 22 => ⟨S2000000x3, .i32⟩
  | 23 => ⟨S2000000x3, .i32⟩
  | 24 => ⟨S1x3, .i32⟩
  | 25 => ⟨S2000000x3, .i32⟩
  | 26 => ⟨S2000000x3, .i32⟩
  | 27 => ⟨S2000000x1, .f32⟩
  | 28 => ⟨S2000000x1, .f32⟩
  | 29 => ⟨S2000000x1, .f32⟩
  | 30 => ⟨S_, .f32⟩
  | 31 => ⟨S2000000x1, .f32⟩
  | 32 => ⟨S2000000x1, .f32⟩
  | 33 => ⟨S_, .f32⟩
  | 34 => ⟨S2000000x1, .f32⟩
  | 35 => ⟨S2000000x1, .f32⟩
  | 36 => ⟨S_, .f32⟩
  | 37 => ⟨S2000000x1, .f32⟩
  | 38 => ⟨S2000000x1, .f32⟩
  | 39 => ⟨S2000000x1, .i32⟩
  | 40 => ⟨S2000000, .i32⟩
  | 41 => ⟨S2000000x1, .i32⟩
  | 42 => ⟨S2000000, .i32⟩
  | 43 => ⟨S2000000x1, .i32⟩
  | 44 => ⟨S2000000, .i32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x1, .i32⟩
  | 68 => ⟨S2000000x1, .i32⟩
  | 69 => ⟨S2000000x3, .i32⟩
  | 70 => ⟨S2000000x1, .f32⟩
  | 71 => ⟨S2000000x1, .f32⟩
  | 72 => ⟨S2000000x1, .f32⟩
  | 73 => ⟨S2000000x1, .f32⟩
  | 74 => ⟨S2000000x1, .i32⟩
  | 75 => ⟨S2000000, .i32⟩
  | 76 => ⟨S2000000x1, .i32⟩
  | 77 => ⟨S2000000, .i32⟩
  | 78 => ⟨S2000000x1, .i32⟩
  | 79 => ⟨S2000000, .i32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i32⟩
  | 100 => ⟨S2000000, .i32⟩
  | 101 => ⟨S2000000x1, .i32⟩
  | 102 => ⟨S2000000x1, .i32⟩
  | 103 => ⟨S2000000x1, .i32⟩
  | 104 => ⟨S2000000x3, .i32⟩
  | 105 => ⟨S2000000x1, .f32⟩
  | 106 => ⟨S2000000x1, .f32⟩
  | 107 => ⟨S2000000x1, .f32⟩
  | 108 => ⟨S2000000x1, .f32⟩
  | 109 => ⟨S2000000x1, .f32⟩
  | 110 => ⟨S2000000x1, .i32⟩
  | 111 => ⟨S2000000, .i32⟩
  | 112 => ⟨S2000000x1, .i32⟩
  | 113 => ⟨S2000000, .i32⟩
  | 114 => ⟨S2000000x1, .i32⟩
  | 115 => ⟨S2000000, .i32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S2000000, .i32⟩
  | _ => ⟨S2000000x3, .f32⟩

abbrev hbmTy0_1 (i : Nat) : BufTy := match i % 128 with
  | 0 => ⟨S2000000, .i32⟩
  | 1 => ⟨S2000000, .i32⟩
  | 2 => ⟨S_, .i32⟩
  | 3 => ⟨S2000000, .i32⟩
  | 4 => ⟨S2000000, .i1⟩
  | 5 => ⟨S_, .i32⟩
  | 6 => ⟨S2000000, .i32⟩
  | 7 => ⟨S2000000, .i32⟩
  | 8 => ⟨S2000000, .i32⟩
  | 9 => ⟨S2000000x1, .i32⟩
  | 10 => ⟨S2000000x1, .i32⟩
  | 11 => ⟨S2000000x1, .i32⟩
  | 12 => ⟨S2000000x3, .i32⟩
  | 13 => ⟨S2000000x1, .f32⟩
  | 14 => ⟨S2000000x1, .f32⟩
  | 15 => ⟨S2000000x1, .f32⟩
  | 16 => ⟨S2000000x1, .f32⟩
  | 17 => ⟨S2000000x1, .f32⟩
  | 18 => ⟨S2000000x1, .i32⟩
  | 19 => ⟨S2000000, .i32⟩
  | 20 => ⟨S2000000x1, .i32⟩
  | 21 => ⟨S2000000, .i32⟩
  | 22 => ⟨S2000000x1, .i32⟩
  | 23 => ⟨S2000000, .i32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x1, .i32⟩
  | 47 => ⟨S2000000x1, .i32⟩
  | 48 => ⟨S2000000x3, .i32⟩
  | 49 => ⟨S2000000x1, .f32⟩
  | 50 => ⟨S2000000x1, .f32⟩
  | 51 => ⟨S2000000x1, .f32⟩
  | 52 => ⟨S2000000x1, .f32⟩
  | 53 => ⟨S2000000x1, .f32⟩
  | 54 => ⟨S2000000x1, .i32⟩
  | 55 => ⟨S2000000, .i32⟩
  | 56 => ⟨S2000000x1, .i32⟩
  | 57 => ⟨S2000000, .i32⟩
  | 58 => ⟨S2000000x1, .i32⟩
  | 59 => ⟨S2000000, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000x1, .i32⟩
  | 83 => ⟨S2000000x1, .i32⟩
  | 84 => ⟨S2000000x3, .i32⟩
  | 85 => ⟨S2000000x1, .f32⟩
  | 86 => ⟨S2000000x1, .f32⟩
  | 87 => ⟨S2000000x1, .f32⟩
  | 88 => ⟨S2000000x1, .f32⟩
  | 89 => ⟨S2000000x1, .f32⟩
  | 90 => ⟨S2000000x1, .i32⟩
  | 91 => ⟨S2000000, .i32⟩
  | 92 => ⟨S2000000x1, .i32⟩
  | 93 => ⟨S2000000, .i32⟩
  | 94 => ⟨S2000000x1, .i32⟩
  | 95 => ⟨S2000000, .i32⟩
  | 96 => ⟨S_, .i32⟩
  | 97 => ⟨S2000000, .i32⟩
  | 98 => ⟨S2000000, .i1⟩
  | 99 => ⟨S_, .i32⟩
  | 100 => ⟨S2000000, .i32⟩
  | 101 => ⟨S2000000, .i32⟩
  | 102 => ⟨S2000000, .i32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S2000000x1, .i32⟩
  | 119 => ⟨S2000000x1, .i32⟩
  | 120 => ⟨S2000000x3, .i32⟩
  | 121 => ⟨S2000000x1, .f32⟩
  | 122 => ⟨S2000000x1, .f32⟩
  | 123 => ⟨S2000000x1, .f32⟩
  | 124 => ⟨S2000000x1, .f32⟩
  | 125 => ⟨S2000000x1, .f32⟩
  | 126 => ⟨S2000000x1, .i32⟩
  | 127 => ⟨S2000000, .i32⟩
  | _ => ⟨S2000000x3, .f32⟩

abbrev hbmTy0_2 (i : Nat) : BufTy := match i % 128 with
  | 0 => ⟨S2000000x1, .i32⟩
  | 1 => ⟨S2000000, .i32⟩
  | 2 => ⟨S2000000x1, .i32⟩
  | 3 => ⟨S2000000, .i32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x1, .i32⟩
  | 27 => ⟨S2000000x1, .i32⟩
  | 28 => ⟨S2000000x3, .i32⟩
  | 29 => ⟨S2000000x1, .f32⟩
  | 30 => ⟨S2000000x1, .f32⟩
  | 31 => ⟨S2000000x1, .f32⟩
  | 32 => ⟨S2000000x1, .f32⟩
  | 33 => ⟨S2000000x1, .f32⟩
  | 34 => ⟨S2000000x1, .i32⟩
  | 35 => ⟨S2000000, .i32⟩
  | 36 => ⟨S2000000x1, .i32⟩
  | 37 => ⟨S2000000, .i32⟩
  | 38 => ⟨S2000000x1, .i32⟩
  | 39 => ⟨S2000000, .i32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x1, .i32⟩
  | 63 => ⟨S2000000x1, .i32⟩
  | 64 => ⟨S2000000x3, .i32⟩
  | 65 => ⟨S2000000x1, .f32⟩
  | 66 => ⟨S2000000x1, .f32⟩
  | 67 => ⟨S2000000x1, .f32⟩
  | 68 => ⟨S2000000x1, .f32⟩
  | 69 => ⟨S2000000x1, .f32⟩
  | 70 => ⟨S2000000, .f32⟩
  | 71 => ⟨S2000000x3, .f32⟩
  | 72 => ⟨S2000000x3, .f32⟩
  | 73 => ⟨S2000000x3, .i32⟩
  | 74 => ⟨S_, .i32⟩
  | 75 => ⟨S_, .i32⟩
  | 76 => ⟨S2000000x3, .i32⟩
  | 77 => ⟨S2000000x3, .i32⟩
  | 78 => ⟨S1x3, .i32⟩
  | 79 => ⟨S2000000x3, .i32⟩
  | 80 => ⟨S2000000x3, .i32⟩
  | 81 => ⟨S_, .i32⟩
  | 82 => ⟨S2000000x3, .i32⟩
  | 83 => ⟨S2000000x3, .i32⟩
  | 84 => ⟨S_, .i32⟩
  | 85 => ⟨S_, .i32⟩
  | 86 => ⟨S2000000x3, .i32⟩
  | 87 => ⟨S2000000x3, .i32⟩
  | 88 => ⟨S1x3, .i32⟩
  | 89 => ⟨S2000000x3, .i32⟩
  | 90 => ⟨S2000000x3, .i32⟩
  | 91 => ⟨S2000000x1, .f32⟩
  | 92 => ⟨S2000000x1, .f32⟩
  | 93 => ⟨S2000000x1, .f32⟩
  | 94 => ⟨S_, .f32⟩
  | 95 => ⟨S2000000x1, .f32⟩
  | 96 => ⟨S2000000x1, .f32⟩
  | 97 => ⟨S_, .f32⟩
  | 98 => ⟨S2000000x1, .f32⟩
  | 99 => ⟨S2000000x1, .f32⟩
  | 100 => ⟨S_, .f32⟩
  | 101 => ⟨S2000000x1, .f32⟩
  | 102 => ⟨S2000000x1, .f32⟩
  | 103 => ⟨S2000000x1, .i32⟩
  | 104 => ⟨S2000000, .i32⟩
  | 105 => ⟨S2000000x1, .i32⟩
  | 106 => ⟨S2000000, .i32⟩
  | 107 => ⟨S2000000x1, .i32⟩
  | 108 => ⟨S2000000, .i32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S2000000, .i32⟩
  | _ => ⟨S2000000x3, .f32⟩

abbrev hbmTy0_3 (i : Nat) : BufTy := match i % 128 with
  | 0 => ⟨S2000000, .i32⟩
  | 1 => ⟨S2000000, .i32⟩
  | 2 => ⟨S2000000x1, .i32⟩
  | 3 => ⟨S2000000x1, .i32⟩
  | 4 => ⟨S2000000x1, .i32⟩
  | 5 => ⟨S2000000x3, .i32⟩
  | 6 => ⟨S2000000x3, .f32⟩
  | 7 => ⟨S2000000x3, .f32⟩
  | 8 => ⟨S2000000x3, .f32⟩
  | 9 => ⟨S2000000x3, .f32⟩
  | 10 => ⟨S2000000x3, .f32⟩
  | 11 => ⟨S2000000x3, .f32⟩
  | 12 => ⟨S2000000x3, .f32⟩
  | 13 => ⟨S2000000x1, .i32⟩
  | 14 => ⟨S2000000, .i32⟩
  | 15 => ⟨S2000000x1, .i32⟩
  | 16 => ⟨S2000000, .i32⟩
  | 17 => ⟨S2000000x1, .i32⟩
  | 18 => ⟨S2000000, .i32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i32⟩
  | 39 => ⟨S2000000, .i32⟩
  | 40 => ⟨S2000000x1, .i32⟩
  | 41 => ⟨S2000000x1, .i32⟩
  | 42 => ⟨S2000000x1, .i32⟩
  | 43 => ⟨S2000000x3, .i32⟩
  | 44 => ⟨S2000000x3, .f32⟩
  | 45 => ⟨S2000000x3, .f32⟩
  | 46 => ⟨S2000000x3, .f32⟩
  | 47 => ⟨S2000000x3, .f32⟩
  | 48 => ⟨S2000000x3, .f32⟩
  | 49 => ⟨S2000000x3, .f32⟩
  | 50 => ⟨S2000000x3, .f32⟩
  | 51 => ⟨S2000000x3, .f32⟩
  | 52 => ⟨S2000000x1, .i32⟩
  | 53 => ⟨S2000000, .i32⟩
  | 54 => ⟨S2000000x1, .i32⟩
  | 55 => ⟨S2000000, .i32⟩
  | 56 => ⟨S2000000x1, .i32⟩
  | 57 => ⟨S2000000, .i32⟩
  | 58 => ⟨S_, .i32⟩
  | 59 => ⟨S2000000, .i32⟩
  | 60 => ⟨S2000000, .i1⟩
  | 61 => ⟨S_, .i32⟩
  | 62 => ⟨S2000000, .i32⟩
  | 63 => ⟨S2000000, .i32⟩
  | 64 => ⟨S2000000, .i32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000x1, .i32⟩
  | 81 => ⟨S2000000x1, .i32⟩
  | 82 => ⟨S2000000x3, .i32⟩
  | 83 => ⟨S2000000x3, .f32⟩
  | 84 => ⟨S2000000x3, .f32⟩
  | 85 => ⟨S2000000x3, .f32⟩
  | 86 => ⟨S2000000x3, .f32⟩
  | 87 => ⟨S2000000x3, .f32⟩
  | 88 => ⟨S2000000x3, .f32⟩
  | 89 => ⟨S2000000x3, .f32⟩
  | 90 => ⟨S2000000x3, .f32⟩
  | 91 => ⟨S2000000x1, .i32⟩
  | 92 => ⟨S2000000, .i32⟩
  | 93 => ⟨S2000000x1, .i32⟩
  | 94 => ⟨S2000000, .i32⟩
  | 95 => ⟨S2000000x1, .i32⟩
  | 96 => ⟨S2000000, .i32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S2000000x1, .i32⟩
  | 120 => ⟨S2000000x1, .i32⟩
  | 121 => ⟨S2000000x3, .i32⟩
  | 122 => ⟨S2000000x3, .f32⟩
  | 123 => ⟨S2000000x3, .f32⟩
  | 124 => ⟨S2000000x3, .f32⟩
  | 125 => ⟨S2000000x3, .f32⟩
  | 126 => ⟨S2000000x3, .f32⟩
  | 127 => ⟨S2000000x3, .f32⟩
  | _ => ⟨S2000000x3, .f32⟩

abbrev hbmTy0_4 (i : Nat) : BufTy := match i % 128 with
  | 0 => ⟨S2000000x3, .f32⟩
  | 1 => ⟨S2000000x3, .f32⟩
  | 2 => ⟨S2000000x1, .i32⟩
  | 3 => ⟨S2000000, .i32⟩
  | 4 => ⟨S2000000x1, .i32⟩
  | 5 => ⟨S2000000, .i32⟩
  | 6 => ⟨S2000000x1, .i32⟩
  | 7 => ⟨S2000000, .i32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000x1, .i32⟩
  | 31 => ⟨S2000000x1, .i32⟩
  | 32 => ⟨S2000000x3, .i32⟩
  | 33 => ⟨S2000000x3, .f32⟩
  | 34 => ⟨S2000000x3, .f32⟩
  | 35 => ⟨S2000000x3, .f32⟩
  | 36 => ⟨S2000000x3, .f32⟩
  | 37 => ⟨S2000000x3, .f32⟩
  | 38 => ⟨S2000000x3, .f32⟩
  | 39 => ⟨S2000000x3, .f32⟩
  | 40 => ⟨S2000000x3, .f32⟩
  | 41 => ⟨S2000000x1, .i32⟩
  | 42 => ⟨S2000000, .i32⟩
  | 43 => ⟨S2000000x1, .i32⟩
  | 44 => ⟨S2000000, .i32⟩
  | 45 => ⟨S2000000x1, .i32⟩
  | 46 => ⟨S2000000, .i32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x1, .i32⟩
  | 70 => ⟨S2000000x1, .i32⟩
  | 71 => ⟨S2000000x3, .i32⟩
  | 72 => ⟨S2000000x3, .f32⟩
  | 73 => ⟨S2000000x3, .f32⟩
  | 74 => ⟨S2000000x3, .f32⟩
  | 75 => ⟨S2000000x3, .f32⟩
  | 76 => ⟨S2000000x3, .f32⟩
  | 77 => ⟨S2000000x3, .f32⟩
  | 78 => ⟨S2000000x3, .f32⟩
  | 79 => ⟨S2000000x3, .f32⟩
  | 80 => ⟨S2000000x1, .i32⟩
  | 81 => ⟨S2000000, .i32⟩
  | 82 => ⟨S2000000x1, .i32⟩
  | 83 => ⟨S2000000, .i32⟩
  | 84 => ⟨S2000000x1, .i32⟩
  | 85 => ⟨S2000000, .i32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i32⟩
  | 99 => ⟨S2000000, .i32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i32⟩
  | 106 => ⟨S2000000, .i32⟩
  | 107 => ⟨S2000000x1, .i32⟩
  | 108 => ⟨S2000000x1, .i32⟩
  | 109 => ⟨S2000000x1, .i32⟩
  | 110 => ⟨S2000000x3, .i32⟩
  | 111 => ⟨S2000000x3, .f32⟩
  | 112 => ⟨S2000000x3, .f32⟩
  | 113 => ⟨S2000000x3, .f32⟩
  | 114 => ⟨S2000000x3, .f32⟩
  | 115 => ⟨S2000000x3, .f32⟩
  | 116 => ⟨S2000000x3, .f32⟩
  | 117 => ⟨S2000000x3, .f32⟩
  | 118 => ⟨S2000000x3, .f32⟩
  | 119 => ⟨S2000000x1, .i32⟩
  | 120 => ⟨S2000000, .i32⟩
  | 121 => ⟨S2000000x1, .i32⟩
  | 122 => ⟨S2000000, .i32⟩
  | 123 => ⟨S2000000x1, .i32⟩
  | 124 => ⟨S2000000, .i32⟩
  | 125 => ⟨S_, .i32⟩
  | 126 => ⟨S2000000, .i32⟩
  | 127 => ⟨S2000000, .i1⟩
  | _ => ⟨S2000000x3, .f32⟩

abbrev hbmTy0_5 (i : Nat) : BufTy := match i % 128 with
  | 0 => ⟨S_, .i32⟩
  | 1 => ⟨S2000000, .i32⟩
  | 2 => ⟨S2000000, .i32⟩
  | 3 => ⟨S2000000, .i32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x1, .i32⟩
  | 20 => ⟨S2000000x1, .i32⟩
  | 21 => ⟨S2000000x3, .i32⟩
  | 22 => ⟨S2000000x3, .f32⟩
  | 23 => ⟨S2000000x3, .f32⟩
  | 24 => ⟨S2000000x3, .f32⟩
  | 25 => ⟨S2000000x3, .f32⟩
  | 26 => ⟨S2000000x3, .f32⟩
  | 27 => ⟨S2000000x3, .f32⟩
  | 28 => ⟨S2000000x3, .f32⟩
  | 29 => ⟨S2000000x3, .f32⟩
  | 30 => ⟨S_, .f32⟩
  | 31 => ⟨S2000000, .f32⟩
  | 32 => ⟨S2000000, .i1⟩
  | 33 => ⟨S_, .f32⟩
  | 34 => ⟨S2000000, .f32⟩
  | 35 => ⟨S2000000, .i1⟩
  | 36 => ⟨S_, .f32⟩
  | 37 => ⟨S_, .f32⟩
  | 38 => ⟨S2000000, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S2000000, .f32⟩
  | 45 => ⟨S2000000x3, .f32⟩
  | 46 => ⟨S1x3, .f32⟩
  | 47 => ⟨S2000000x3, .f32⟩
  | 48 => ⟨S2000000x3, .f32⟩
  | 49 => ⟨S2000000x3, .f32⟩
  | 50 => ⟨S_, .f32⟩
  | 51 => ⟨S2000000, .f32⟩
  | 52 => ⟨S2000000x1, .f32⟩
  | 53 => ⟨S2000000x1, .f32⟩
  | 54 => ⟨S_, .f32⟩
  | 55 => ⟨S2000000x1, .f32⟩
  | 56 => ⟨S2000000x1, .f32⟩
  | 57 => ⟨S2000000x3, .f32⟩
  | 58 => ⟨S2000000x3, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_c_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_cst_5 : Ref sig .tc := ⟨.hbm, 33, rfl⟩
abbrev main_v13 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_c_12 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_c_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_17 : Ref sig .tc := ⟨.hbm, 94, rfl⟩
abbrev main_v62 : Ref sig .tc := ⟨.hbm, 95, rfl⟩
abbrev main_v63 : Ref sig .tc := ⟨.hbm, 96, rfl⟩
abbrev main_c_18 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_19 : Ref sig .tc := ⟨.hbm, 116, rfl⟩
abbrev main_v82 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_21 : Ref sig .tc := ⟨.hbm, 123, rfl⟩
abbrev main_v87 : Ref sig .tc := ⟨.hbm, 124, rfl⟩
abbrev main_v88 : Ref sig .tc := ⟨.hbm, 125, rfl⟩
abbrev main_c_22 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_23 : Ref sig .tc := ⟨.hbm, 130, rfl⟩
abbrev main_v92 : Ref sig .tc := ⟨.hbm, 131, rfl⟩
abbrev main_v93 : Ref sig .tc := ⟨.hbm, 132, rfl⟩
abbrev main_c_24 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_25 : Ref sig .tc := ⟨.hbm, 152, rfl⟩
abbrev main_v112 : Ref sig .tc := ⟨.hbm, 153, rfl⟩
abbrev main_v113 : Ref sig .tc := ⟨.hbm, 154, rfl⟩
abbrev main_c_26 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_27 : Ref sig .tc := ⟨.hbm, 159, rfl⟩
abbrev main_v117 : Ref sig .tc := ⟨.hbm, 160, rfl⟩
abbrev main_v118 : Ref sig .tc := ⟨.hbm, 161, rfl⟩
abbrev main_c_28 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_29 : Ref sig .tc := ⟨.hbm, 166, rfl⟩
abbrev main_v122 : Ref sig .tc := ⟨.hbm, 167, rfl⟩
abbrev main_v123 : Ref sig .tc := ⟨.hbm, 168, rfl⟩
abbrev main_c_30 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_c_31 : Ref sig .tc := ⟨.hbm, 188, rfl⟩
abbrev main_v142 : Ref sig .tc := ⟨.hbm, 189, rfl⟩
abbrev main_v143 : Ref sig .tc := ⟨.hbm, 190, rfl⟩
abbrev main_c_32 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_c_33 : Ref sig .tc := ⟨.hbm, 195, rfl⟩
abbrev main_v147 : Ref sig .tc := ⟨.hbm, 196, rfl⟩
abbrev main_v148 : Ref sig .tc := ⟨.hbm, 197, rfl⟩
abbrev main_c_34 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_c_35 : Ref sig .tc := ⟨.hbm, 202, rfl⟩
abbrev main_v152 : Ref sig .tc := ⟨.hbm, 203, rfl⟩
abbrev main_v153 : Ref sig .tc := ⟨.hbm, 204, rfl⟩
abbrev main_c_36 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_c_37 : Ref sig .tc := ⟨.hbm, 224, rfl⟩
abbrev main_v172 : Ref sig .tc := ⟨.hbm, 225, rfl⟩
abbrev main_v173 : Ref sig .tc := ⟨.hbm, 226, rfl⟩
abbrev main_c_38 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_c_39 : Ref sig .tc := ⟨.hbm, 231, rfl⟩
abbrev main_v177 : Ref sig .tc := ⟨.hbm, 232, rfl⟩
abbrev main_v178 : Ref sig .tc := ⟨.hbm, 233, rfl⟩
abbrev main_c_40 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_c_41 : Ref sig .tc := ⟨.hbm, 238, rfl⟩
abbrev main_v182 : Ref sig .tc := ⟨.hbm, 239, rfl⟩
abbrev main_v183 : Ref sig .tc := ⟨.hbm, 240, rfl⟩
abbrev main_c_42 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_c_43 : Ref sig .tc := ⟨.hbm, 260, rfl⟩
abbrev main_v202 : Ref sig .tc := ⟨.hbm, 261, rfl⟩
abbrev main_v203 : Ref sig .tc := ⟨.hbm, 262, rfl⟩
abbrev main_c_44 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_c_45 : Ref sig .tc := ⟨.hbm, 267, rfl⟩
abbrev main_v207 : Ref sig .tc := ⟨.hbm, 268, rfl⟩
abbrev main_v208 : Ref sig .tc := ⟨.hbm, 269, rfl⟩
abbrev main_c_46 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_c_47 : Ref sig .tc := ⟨.hbm, 274, rfl⟩
abbrev main_v212 : Ref sig .tc := ⟨.hbm, 275, rfl⟩
abbrev main_v213 : Ref sig .tc := ⟨.hbm, 276, rfl⟩
abbrev main_c_48 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_c_49 : Ref sig .tc := ⟨.hbm, 296, rfl⟩
abbrev main_v232 : Ref sig .tc := ⟨.hbm, 297, rfl⟩
abbrev main_v233 : Ref sig .tc := ⟨.hbm, 298, rfl⟩
abbrev main_c_50 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_c_51 : Ref sig .tc := ⟨.hbm, 303, rfl⟩
abbrev main_v237 : Ref sig .tc := ⟨.hbm, 304, rfl⟩
abbrev main_v238 : Ref sig .tc := ⟨.hbm, 305, rfl⟩
abbrev main_c_52 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_c_53 : Ref sig .tc := ⟨.hbm, 310, rfl⟩
abbrev main_v242 : Ref sig .tc := ⟨.hbm, 311, rfl⟩
abbrev main_v243 : Ref sig .tc := ⟨.hbm, 312, rfl⟩
abbrev main_c_54 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_c_55 : Ref sig .tc := ⟨.hbm, 330, rfl⟩
abbrev main_call2_v0 : Ref sig .tc := ⟨.hbm, 331, rfl⟩
abbrev main_call2_v1 : Ref sig .tc := ⟨.hbm, 332, rfl⟩
abbrev main_call2_v2 : Ref sig .tc := ⟨.hbm, 333, rfl⟩
abbrev main_call2_v3 : Ref sig .tc := ⟨.hbm, 334, rfl⟩
abbrev main_call2_v4 : Ref sig .tc := ⟨.hbm, 335, rfl⟩
abbrev main_v260 : Ref sig .tc := ⟨.hbm, 336, rfl⟩
abbrev main_c_56 : Ref sig .tc := ⟨.hbm, 337, rfl⟩
abbrev main_v261 : Ref sig .tc := ⟨.hbm, 338, rfl⟩
abbrev main_v262 : Ref sig .tc := ⟨.hbm, 339, rfl⟩
abbrev main_c_57 : Ref sig .tc := ⟨.hbm, 340, rfl⟩
abbrev main_call3_v0 : Ref sig .tc := ⟨.hbm, 341, rfl⟩
abbrev main_call3_v1 : Ref sig .tc := ⟨.hbm, 342, rfl⟩
abbrev main_call3_v2 : Ref sig .tc := ⟨.hbm, 343, rfl⟩
abbrev main_call3_v3 : Ref sig .tc := ⟨.hbm, 344, rfl⟩
abbrev main_call3_v4 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_cst_58 : Ref sig .tc := ⟨.hbm, 350, rfl⟩
abbrev main_v267 : Ref sig .tc := ⟨.hbm, 351, rfl⟩
abbrev main_v268 : Ref sig .tc := ⟨.hbm, 352, rfl⟩
abbrev main_cst_59 : Ref sig .tc := ⟨.hbm, 353, rfl⟩
abbrev main_v269 : Ref sig .tc := ⟨.hbm, 354, rfl⟩
abbrev main_v270 : Ref sig .tc := ⟨.hbm, 355, rfl⟩
abbrev main_cst_60 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_c_61 : Ref sig .tc := ⟨.hbm, 365, rfl⟩
abbrev main_v279 : Ref sig .tc := ⟨.hbm, 366, rfl⟩
abbrev main_v280 : Ref sig .tc := ⟨.hbm, 367, rfl⟩
abbrev main_c_62 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_c_63 : Ref sig .tc := ⟨.hbm, 372, rfl⟩
abbrev main_v284 : Ref sig .tc := ⟨.hbm, 373, rfl⟩
abbrev main_v285 : Ref sig .tc := ⟨.hbm, 374, rfl⟩
abbrev main_c_64 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_c_65 : Ref sig .tc := ⟨.hbm, 379, rfl⟩
abbrev main_v289 : Ref sig .tc := ⟨.hbm, 380, rfl⟩
abbrev main_v290 : Ref sig .tc := ⟨.hbm, 381, rfl⟩
abbrev main_c_66 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_v306 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_c_67 : Ref sig .tc := ⟨.hbm, 403, rfl⟩
abbrev main_v311 : Ref sig .tc := ⟨.hbm, 404, rfl⟩
abbrev main_v312 : Ref sig .tc := ⟨.hbm, 405, rfl⟩
abbrev main_c_68 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_c_69 : Ref sig .tc := ⟨.hbm, 410, rfl⟩
abbrev main_v316 : Ref sig .tc := ⟨.hbm, 411, rfl⟩
abbrev main_v317 : Ref sig .tc := ⟨.hbm, 412, rfl⟩
abbrev main_c_70 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_c_71 : Ref sig .tc := ⟨.hbm, 417, rfl⟩
abbrev main_v321 : Ref sig .tc := ⟨.hbm, 418, rfl⟩
abbrev main_v322 : Ref sig .tc := ⟨.hbm, 419, rfl⟩
abbrev main_c_72 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_v333 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_c_73 : Ref sig .tc := ⟨.hbm, 442, rfl⟩
abbrev main_v344 : Ref sig .tc := ⟨.hbm, 443, rfl⟩
abbrev main_v345 : Ref sig .tc := ⟨.hbm, 444, rfl⟩
abbrev main_c_74 : Ref sig .tc := ⟨.hbm, 445, rfl⟩
abbrev main_v346 : Ref sig .tc := ⟨.hbm, 446, rfl⟩
abbrev main_v347 : Ref sig .tc := ⟨.hbm, 447, rfl⟩
abbrev main_v348 : Ref sig .tc := ⟨.hbm, 448, rfl⟩
abbrev main_c_75 : Ref sig .tc := ⟨.hbm, 449, rfl⟩
abbrev main_v349 : Ref sig .tc := ⟨.hbm, 450, rfl⟩
abbrev main_v350 : Ref sig .tc := ⟨.hbm, 451, rfl⟩
abbrev main_c_76 : Ref sig .tc := ⟨.hbm, 452, rfl⟩
abbrev main_v351 : Ref sig .tc := ⟨.hbm, 453, rfl⟩
abbrev main_v352 : Ref sig .tc := ⟨.hbm, 454, rfl⟩
abbrev main_v353 : Ref sig .tc := ⟨.hbm, 455, rfl⟩
abbrev main_c_77 : Ref sig .tc := ⟨.hbm, 456, rfl⟩
abbrev main_v354 : Ref sig .tc := ⟨.hbm, 457, rfl⟩
abbrev main_v355 : Ref sig .tc := ⟨.hbm, 458, rfl⟩
abbrev main_c_78 : Ref sig .tc := ⟨.hbm, 459, rfl⟩
abbrev main_v356 : Ref sig .tc := ⟨.hbm, 460, rfl⟩
abbrev main_v357 : Ref sig .tc := ⟨.hbm, 461, rfl⟩
abbrev main_v358 : Ref sig .tc := ⟨.hbm, 462, rfl⟩
abbrev main_v359 : Ref sig .tc := ⟨.hbm, 463, rfl⟩
abbrev main_v360 : Ref sig .tc := ⟨.hbm, 464, rfl⟩
abbrev main_v361 : Ref sig .tc := ⟨.hbm, 465, rfl⟩
abbrev main_v362 : Ref sig .tc := ⟨.hbm, 466, rfl⟩
abbrev main_v363 : Ref sig .tc := ⟨.hbm, 467, rfl⟩
abbrev main_v364 : Ref sig .tc := ⟨.hbm, 468, rfl⟩
abbrev main_v365 : Ref sig .tc := ⟨.hbm, 469, rfl⟩
abbrev main_v366 : Ref sig .tc := ⟨.hbm, 470, rfl⟩
abbrev main_v367 : Ref sig .tc := ⟨.hbm, 471, rfl⟩
abbrev main_v368 : Ref sig .tc := ⟨.hbm, 472, rfl⟩
abbrev main_v369 : Ref sig .tc := ⟨.hbm, 473, rfl⟩
abbrev main_v370 : Ref sig .tc := ⟨.hbm, 474, rfl⟩
abbrev main_v371 : Ref sig .tc := ⟨.hbm, 475, rfl⟩
abbrev main_v372 : Ref sig .tc := ⟨.hbm, 476, rfl⟩
abbrev main_v373 : Ref sig .tc := ⟨.hbm, 477, rfl⟩
abbrev main_v374 : Ref sig .tc := ⟨.hbm, 478, rfl⟩
abbrev main_v375 : Ref sig .tc := ⟨.hbm, 479, rfl⟩
abbrev main_v376 : Ref sig .tc := ⟨.hbm, 480, rfl⟩
abbrev main_c_79 : Ref sig .tc := ⟨.hbm, 481, rfl⟩
abbrev main_v377 : Ref sig .tc := ⟨.hbm, 482, rfl⟩
abbrev main_v378 : Ref sig .tc := ⟨.hbm, 483, rfl⟩
abbrev main_c_80 : Ref sig .tc := ⟨.hbm, 484, rfl⟩
abbrev main_v379 : Ref sig .tc := ⟨.hbm, 485, rfl⟩
abbrev main_v380 : Ref sig .tc := ⟨.hbm, 486, rfl⟩
abbrev main_v381 : Ref sig .tc := ⟨.hbm, 487, rfl⟩
abbrev main_c_81 : Ref sig .tc := ⟨.hbm, 488, rfl⟩
abbrev main_v382 : Ref sig .tc := ⟨.hbm, 489, rfl⟩
abbrev main_v383 : Ref sig .tc := ⟨.hbm, 490, rfl⟩
abbrev main_c_82 : Ref sig .tc := ⟨.hbm, 491, rfl⟩
abbrev main_v384 : Ref sig .tc := ⟨.hbm, 492, rfl⟩
abbrev main_v385 : Ref sig .tc := ⟨.hbm, 493, rfl⟩
abbrev main_v386 : Ref sig .tc := ⟨.hbm, 494, rfl⟩
abbrev main_c_83 : Ref sig .tc := ⟨.hbm, 495, rfl⟩
abbrev main_v387 : Ref sig .tc := ⟨.hbm, 496, rfl⟩
abbrev main_v388 : Ref sig .tc := ⟨.hbm, 497, rfl⟩
abbrev main_c_84 : Ref sig .tc := ⟨.hbm, 498, rfl⟩
abbrev main_v389 : Ref sig .tc := ⟨.hbm, 499, rfl⟩
abbrev main_v390 : Ref sig .tc := ⟨.hbm, 500, rfl⟩
abbrev main_v391 : Ref sig .tc := ⟨.hbm, 501, rfl⟩
abbrev main_v392 : Ref sig .tc := ⟨.hbm, 502, rfl⟩
abbrev main_v393 : Ref sig .tc := ⟨.hbm, 503, rfl⟩
abbrev main_v394 : Ref sig .tc := ⟨.hbm, 504, rfl⟩
abbrev main_v395 : Ref sig .tc := ⟨.hbm, 505, rfl⟩
abbrev main_v396 : Ref sig .tc := ⟨.hbm, 506, rfl⟩
abbrev main_v397 : Ref sig .tc := ⟨.hbm, 507, rfl⟩
abbrev main_v398 : Ref sig .tc := ⟨.hbm, 508, rfl⟩
abbrev main_v399 : Ref sig .tc := ⟨.hbm, 509, rfl⟩
abbrev main_v400 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_v405 : Ref sig .tc := ⟨.hbm, 515, rfl⟩
abbrev main_v406 : Ref sig .tc := ⟨.hbm, 516, rfl⟩
abbrev main_v407 : Ref sig .tc := ⟨.hbm, 517, rfl⟩
abbrev main_v408 : Ref sig .tc := ⟨.hbm, 518, rfl⟩
abbrev main_v409 : Ref sig .tc := ⟨.hbm, 519, rfl⟩
abbrev main_c_85 : Ref sig .tc := ⟨.hbm, 520, rfl⟩
abbrev main_v410 : Ref sig .tc := ⟨.hbm, 521, rfl⟩
abbrev main_v411 : Ref sig .tc := ⟨.hbm, 522, rfl⟩
abbrev main_c_86 : Ref sig .tc := ⟨.hbm, 523, rfl⟩
abbrev main_v412 : Ref sig .tc := ⟨.hbm, 524, rfl⟩
abbrev main_v413 : Ref sig .tc := ⟨.hbm, 525, rfl⟩
abbrev main_v414 : Ref sig .tc := ⟨.hbm, 526, rfl⟩
abbrev main_c_87 : Ref sig .tc := ⟨.hbm, 527, rfl⟩
abbrev main_v415 : Ref sig .tc := ⟨.hbm, 528, rfl⟩
abbrev main_v416 : Ref sig .tc := ⟨.hbm, 529, rfl⟩
abbrev main_c_88 : Ref sig .tc := ⟨.hbm, 530, rfl⟩
abbrev main_v417 : Ref sig .tc := ⟨.hbm, 531, rfl⟩
abbrev main_v418 : Ref sig .tc := ⟨.hbm, 532, rfl⟩
abbrev main_v419 : Ref sig .tc := ⟨.hbm, 533, rfl⟩
abbrev main_c_89 : Ref sig .tc := ⟨.hbm, 534, rfl⟩
abbrev main_v420 : Ref sig .tc := ⟨.hbm, 535, rfl⟩
abbrev main_v421 : Ref sig .tc := ⟨.hbm, 536, rfl⟩
abbrev main_c_90 : Ref sig .tc := ⟨.hbm, 537, rfl⟩
abbrev main_v422 : Ref sig .tc := ⟨.hbm, 538, rfl⟩
abbrev main_v423 : Ref sig .tc := ⟨.hbm, 539, rfl⟩
abbrev main_v424 : Ref sig .tc := ⟨.hbm, 540, rfl⟩
abbrev main_v425 : Ref sig .tc := ⟨.hbm, 541, rfl⟩
abbrev main_v426 : Ref sig .tc := ⟨.hbm, 542, rfl⟩
abbrev main_v427 : Ref sig .tc := ⟨.hbm, 543, rfl⟩
abbrev main_v428 : Ref sig .tc := ⟨.hbm, 544, rfl⟩
abbrev main_v429 : Ref sig .tc := ⟨.hbm, 545, rfl⟩
abbrev main_v430 : Ref sig .tc := ⟨.hbm, 546, rfl⟩
abbrev main_v431 : Ref sig .tc := ⟨.hbm, 547, rfl⟩
abbrev main_v432 : Ref sig .tc := ⟨.hbm, 548, rfl⟩
abbrev main_v433 : Ref sig .tc := ⟨.hbm, 549, rfl⟩
abbrev main_v434 : Ref sig .tc := ⟨.hbm, 550, rfl⟩
abbrev main_v435 : Ref sig .tc := ⟨.hbm, 551, rfl⟩
abbrev main_v436 : Ref sig .tc := ⟨.hbm, 552, rfl⟩
abbrev main_v437 : Ref sig .tc := ⟨.hbm, 553, rfl⟩
abbrev main_v438 : Ref sig .tc := ⟨.hbm, 554, rfl⟩
abbrev main_v439 : Ref sig .tc := ⟨.hbm, 555, rfl⟩
abbrev main_v440 : Ref sig .tc := ⟨.hbm, 556, rfl⟩
abbrev main_v441 : Ref sig .tc := ⟨.hbm, 557, rfl⟩
abbrev main_v442 : Ref sig .tc := ⟨.hbm, 558, rfl⟩
abbrev main_c_91 : Ref sig .tc := ⟨.hbm, 559, rfl⟩
abbrev main_v443 : Ref sig .tc := ⟨.hbm, 560, rfl⟩
abbrev main_v444 : Ref sig .tc := ⟨.hbm, 561, rfl⟩
abbrev main_c_92 : Ref sig .tc := ⟨.hbm, 562, rfl⟩
abbrev main_v445 : Ref sig .tc := ⟨.hbm, 563, rfl⟩
abbrev main_v446 : Ref sig .tc := ⟨.hbm, 564, rfl⟩
abbrev main_v447 : Ref sig .tc := ⟨.hbm, 565, rfl⟩
abbrev main_c_93 : Ref sig .tc := ⟨.hbm, 566, rfl⟩
abbrev main_v448 : Ref sig .tc := ⟨.hbm, 567, rfl⟩
abbrev main_v449 : Ref sig .tc := ⟨.hbm, 568, rfl⟩
abbrev main_c_94 : Ref sig .tc := ⟨.hbm, 569, rfl⟩
abbrev main_v450 : Ref sig .tc := ⟨.hbm, 570, rfl⟩
abbrev main_v451 : Ref sig .tc := ⟨.hbm, 571, rfl⟩
abbrev main_v452 : Ref sig .tc := ⟨.hbm, 572, rfl⟩
abbrev main_c_95 : Ref sig .tc := ⟨.hbm, 573, rfl⟩
abbrev main_v453 : Ref sig .tc := ⟨.hbm, 574, rfl⟩
abbrev main_v454 : Ref sig .tc := ⟨.hbm, 575, rfl⟩
abbrev main_c_96 : Ref sig .tc := ⟨.hbm, 576, rfl⟩
abbrev main_v455 : Ref sig .tc := ⟨.hbm, 577, rfl⟩
abbrev main_v456 : Ref sig .tc := ⟨.hbm, 578, rfl⟩
abbrev main_v457 : Ref sig .tc := ⟨.hbm, 579, rfl⟩
abbrev main_v458 : Ref sig .tc := ⟨.hbm, 580, rfl⟩
abbrev main_v459 : Ref sig .tc := ⟨.hbm, 581, rfl⟩
abbrev main_v460 : Ref sig .tc := ⟨.hbm, 582, rfl⟩
abbrev main_v461 : Ref sig .tc := ⟨.hbm, 583, rfl⟩
abbrev main_v462 : Ref sig .tc := ⟨.hbm, 584, rfl⟩
abbrev main_v463 : Ref sig .tc := ⟨.hbm, 585, rfl⟩
abbrev main_v464 : Ref sig .tc := ⟨.hbm, 586, rfl⟩
abbrev main_v465 : Ref sig .tc := ⟨.hbm, 587, rfl⟩
abbrev main_v466 : Ref sig .tc := ⟨.hbm, 588, rfl⟩
abbrev main_v467 : Ref sig .tc := ⟨.hbm, 589, rfl⟩
abbrev main_v468 : Ref sig .tc := ⟨.hbm, 590, rfl⟩
abbrev main_v469 : Ref sig .tc := ⟨.hbm, 591, rfl⟩
abbrev main_v470 : Ref sig .tc := ⟨.hbm, 592, rfl⟩
abbrev main_v471 : Ref sig .tc := ⟨.hbm, 593, rfl⟩
abbrev main_v472 : Ref sig .tc := ⟨.hbm, 594, rfl⟩
abbrev main_v473 : Ref sig .tc := ⟨.hbm, 595, rfl⟩
abbrev main_v474 : Ref sig .tc := ⟨.hbm, 596, rfl⟩
abbrev main_v475 : Ref sig .tc := ⟨.hbm, 597, rfl⟩
abbrev main_c_97 : Ref sig .tc := ⟨.hbm, 598, rfl⟩
abbrev main_v476 : Ref sig .tc := ⟨.hbm, 599, rfl⟩
abbrev main_v477 : Ref sig .tc := ⟨.hbm, 600, rfl⟩
abbrev main_c_98 : Ref sig .tc := ⟨.hbm, 601, rfl⟩
abbrev main_v478 : Ref sig .tc := ⟨.hbm, 602, rfl⟩
abbrev main_v479 : Ref sig .tc := ⟨.hbm, 603, rfl⟩
abbrev main_v480 : Ref sig .tc := ⟨.hbm, 604, rfl⟩
abbrev main_c_99 : Ref sig .tc := ⟨.hbm, 605, rfl⟩
abbrev main_v481 : Ref sig .tc := ⟨.hbm, 606, rfl⟩
abbrev main_v482 : Ref sig .tc := ⟨.hbm, 607, rfl⟩
abbrev main_c_100 : Ref sig .tc := ⟨.hbm, 608, rfl⟩
abbrev main_v483 : Ref sig .tc := ⟨.hbm, 609, rfl⟩
abbrev main_v484 : Ref sig .tc := ⟨.hbm, 610, rfl⟩
abbrev main_v485 : Ref sig .tc := ⟨.hbm, 611, rfl⟩
abbrev main_c_101 : Ref sig .tc := ⟨.hbm, 612, rfl⟩
abbrev main_v486 : Ref sig .tc := ⟨.hbm, 613, rfl⟩
abbrev main_v487 : Ref sig .tc := ⟨.hbm, 614, rfl⟩
abbrev main_c_102 : Ref sig .tc := ⟨.hbm, 615, rfl⟩
abbrev main_v488 : Ref sig .tc := ⟨.hbm, 616, rfl⟩
abbrev main_v489 : Ref sig .tc := ⟨.hbm, 617, rfl⟩
abbrev main_v490 : Ref sig .tc := ⟨.hbm, 618, rfl⟩
abbrev main_v491 : Ref sig .tc := ⟨.hbm, 619, rfl⟩
abbrev main_v492 : Ref sig .tc := ⟨.hbm, 620, rfl⟩
abbrev main_v493 : Ref sig .tc := ⟨.hbm, 621, rfl⟩
abbrev main_v494 : Ref sig .tc := ⟨.hbm, 622, rfl⟩
abbrev main_v495 : Ref sig .tc := ⟨.hbm, 623, rfl⟩
abbrev main_v496 : Ref sig .tc := ⟨.hbm, 624, rfl⟩
abbrev main_v497 : Ref sig .tc := ⟨.hbm, 625, rfl⟩
abbrev main_v498 : Ref sig .tc := ⟨.hbm, 626, rfl⟩
abbrev main_v499 : Ref sig .tc := ⟨.hbm, 627, rfl⟩
abbrev main_v500 : Ref sig .tc := ⟨.hbm, 628, rfl⟩
abbrev main_v501 : Ref sig .tc := ⟨.hbm, 629, rfl⟩
abbrev main_v502 : Ref sig .tc := ⟨.hbm, 630, rfl⟩
abbrev main_v503 : Ref sig .tc := ⟨.hbm, 631, rfl⟩
abbrev main_v504 : Ref sig .tc := ⟨.hbm, 632, rfl⟩
abbrev main_v505 : Ref sig .tc := ⟨.hbm, 633, rfl⟩
abbrev main_v506 : Ref sig .tc := ⟨.hbm, 634, rfl⟩
abbrev main_v507 : Ref sig .tc := ⟨.hbm, 635, rfl⟩
abbrev main_v508 : Ref sig .tc := ⟨.hbm, 636, rfl⟩
abbrev main_c_103 : Ref sig .tc := ⟨.hbm, 637, rfl⟩
abbrev main_v509 : Ref sig .tc := ⟨.hbm, 638, rfl⟩
abbrev main_v510 : Ref sig .tc := ⟨.hbm, 639, rfl⟩
abbrev main_c_104 : Ref sig .tc := ⟨.hbm, 640, rfl⟩
abbrev main_v511 : Ref sig .tc := ⟨.hbm, 641, rfl⟩
abbrev main_v512 : Ref sig .tc := ⟨.hbm, 642, rfl⟩
abbrev main_v513 : Ref sig .tc := ⟨.hbm, 643, rfl⟩
abbrev main_c_105 : Ref sig .tc := ⟨.hbm, 644, rfl⟩
abbrev main_v514 : Ref sig .tc := ⟨.hbm, 645, rfl⟩
abbrev main_v515 : Ref sig .tc := ⟨.hbm, 646, rfl⟩
abbrev main_c_106 : Ref sig .tc := ⟨.hbm, 647, rfl⟩
abbrev main_v516 : Ref sig .tc := ⟨.hbm, 648, rfl⟩
abbrev main_v517 : Ref sig .tc := ⟨.hbm, 649, rfl⟩
abbrev main_v518 : Ref sig .tc := ⟨.hbm, 650, rfl⟩
abbrev main_c_107 : Ref sig .tc := ⟨.hbm, 651, rfl⟩
abbrev main_v519 : Ref sig .tc := ⟨.hbm, 652, rfl⟩
abbrev main_v520 : Ref sig .tc := ⟨.hbm, 653, rfl⟩
abbrev main_c_108 : Ref sig .tc := ⟨.hbm, 654, rfl⟩
abbrev main_v521 : Ref sig .tc := ⟨.hbm, 655, rfl⟩
abbrev main_v522 : Ref sig .tc := ⟨.hbm, 656, rfl⟩
abbrev main_v523 : Ref sig .tc := ⟨.hbm, 657, rfl⟩
abbrev main_v524 : Ref sig .tc := ⟨.hbm, 658, rfl⟩
abbrev main_v525 : Ref sig .tc := ⟨.hbm, 659, rfl⟩
abbrev main_v526 : Ref sig .tc := ⟨.hbm, 660, rfl⟩
abbrev main_v527 : Ref sig .tc := ⟨.hbm, 661, rfl⟩
abbrev main_v528 : Ref sig .tc := ⟨.hbm, 662, rfl⟩
abbrev main_v529 : Ref sig .tc := ⟨.hbm, 663, rfl⟩
abbrev main_v530 : Ref sig .tc := ⟨.hbm, 664, rfl⟩
abbrev main_v531 : Ref sig .tc := ⟨.hbm, 665, rfl⟩
abbrev main_v532 : Ref sig .tc := ⟨.hbm, 666, rfl⟩
abbrev main_v533 : Ref sig .tc := ⟨.hbm, 667, rfl⟩
abbrev main_v534 : Ref sig .tc := ⟨.hbm, 668, rfl⟩
abbrev main_v535 : Ref sig .tc := ⟨.hbm, 669, rfl⟩
abbrev main_call4_cst : Ref sig .tc := ⟨.hbm, 670, rfl⟩
abbrev main_call4_v0 : Ref sig .tc := ⟨.hbm, 671, rfl⟩
abbrev main_call4_v1 : Ref sig .tc := ⟨.hbm, 672, rfl⟩
abbrev main_call4_cst_0 : Ref sig .tc := ⟨.hbm, 673, rfl⟩
abbrev main_call4_v2 : Ref sig .tc := ⟨.hbm, 674, rfl⟩
abbrev main_call4_v3 : Ref sig .tc := ⟨.hbm, 675, rfl⟩
abbrev main_call4_cst_1 : Ref sig .tc := ⟨.hbm, 676, rfl⟩
abbrev main_call4_call0_v0 : Ref sig .tc := ⟨.hbm, 677, rfl⟩
abbrev main_call4_call0_v1 : Ref sig .tc := ⟨.hbm, 678, rfl⟩
abbrev main_call4_v4 : Ref sig .tc := ⟨.hbm, 679, rfl⟩
abbrev main_call4_v5 : Ref sig .tc := ⟨.hbm, 680, rfl⟩
abbrev main_call4_cst_2 : Ref sig .tc := ⟨.hbm, 681, rfl⟩
abbrev main_call4_v6 : Ref sig .tc := ⟨.hbm, 682, rfl⟩
abbrev main_call4_v7 : Ref sig .tc := ⟨.hbm, 683, rfl⟩
abbrev main_v536 : Ref sig .tc := ⟨.hbm, 684, rfl⟩
abbrev main_v537 : Ref sig .tc := ⟨.hbm, 685, rfl⟩
abbrev main_v538 : Ref sig .tc := ⟨.hbm, 686, rfl⟩
abbrev main_v539 : Ref sig .tc := ⟨.hbm, 687, rfl⟩
abbrev main_v540 : Ref sig .tc := ⟨.hbm, 688, rfl⟩
abbrev main_call5_v0 : Ref sig .tc := ⟨.hbm, 689, rfl⟩
abbrev main_call5_cst : Ref sig .tc := ⟨.hbm, 690, rfl⟩
abbrev main_call5_v1 : Ref sig .tc := ⟨.hbm, 691, rfl⟩
abbrev main_call5_v2 : Ref sig .tc := ⟨.hbm, 692, rfl⟩
abbrev main_v541 : Ref sig .tc := ⟨.hbm, 693, rfl⟩
abbrev main_cst_109 : Ref sig .tc := ⟨.hbm, 694, rfl⟩
abbrev main_v542 : Ref sig .tc := ⟨.hbm, 695, rfl⟩
abbrev main_v543 : Ref sig .tc := ⟨.hbm, 696, rfl⟩
abbrev main_v544 : Ref sig .tc := ⟨.hbm, 697, rfl⟩
abbrev main_v545 : Ref sig .tc := ⟨.hbm, 698, rfl⟩

abbrev nD : Nat := 1
abbrev τ : Topo := Topo.v7x

variable {F : FTy → Type} [FloatOps F]

class Facts₀ : Prop where
  bcast_S128x512x512_S128x512x512x1_0_1_2 : S128x512x512.BroadcastsInDim S128x512x512x1 (![0, 1, 2] : Fin 3 → Fin S128x512x512x1.rank)
  bcast_S_S2000000x3 : S_.BroadcastsInDim S2000000x3 (![] : Fin 0 → Fin S2000000x3.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  slices_S2000000x3_S2000000x1_0_0 : S2000000x3.Slices ![0, 0] S2000000x1
  slices_S2000000x3_S2000000x1_0_1 : S2000000x3.Slices ![0, 1] S2000000x1
  slices_S2000000x3_S2000000x1_0_2 : S2000000x3.Slices ![0, 2] S2000000x1
  bcast_S_S2000000x1 : S_.BroadcastsInDim S2000000x1 (![] : Fin 0 → Fin S2000000x1.rank)
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S2000000x1_S2000000x3_0_1 : S2000000x1.BroadcastsInDim S2000000x3 (![0, 1] : Fin 2 → Fin S2000000x3.rank)
  reducesTo_S2000000x3_S2000000_d1 : S2000000x3.ReducesTo [1] S2000000
  h_S_ : 0 < S_.numel
  gather_S128x512x512x1_S2000000x3_S2000000x1_1_012_n_n_012_1_1111_wf : GatherDims.WF S128x512x512x1 S2000000x3 S2000000x1 [1] [0, 1, 2] [] [0, 1, 2] [] 1 ![1, 1, 1, 1]
  gather_S128x512x512x3_S2000000x3_S2000000x3_1_012_n_n_012_1_1113_wf : GatherDims.WF S128x512x512x3 S2000000x3 S2000000x3 [1] [0, 1, 2] [] [0, 1, 2] [] 1 ![1, 1, 1, 3]

variable [Facts₀]

def gather_S128x512x512x1_S2000000x3_S2000000x1_1_012_n_n_012_1_1111 : GatherDims S128x512x512x1 S2000000x3 S2000000x1 where
  offsetDims := [1]
  collapsedSliceDims := [0, 1, 2]
  operandBatchingDims := []
  startIndicesBatchingDims := []
  startIndexMap := [0, 1, 2]
  indexVectorDim := 1
  sliceSizes := ![1, 1, 1, 1]
  wf := gather_S128x512x512x1_S2000000x3_S2000000x1_1_012_n_n_012_1_1111_wf
def gather_S128x512x512x3_S2000000x3_S2000000x3_1_012_n_n_012_1_1113 : GatherDims S128x512x512x3 S2000000x3 S2000000x3 where
  offsetDims := [1]
  collapsedSliceDims := [0, 1, 2]
  operandBatchingDims := []
  startIndicesBatchingDims := []
  startIndexMap := [0, 1, 2]
  indexVectorDim := 1
  sliceSizes := ![1, 1, 1, 3]
  wf := gather_S128x512x512x3_S2000000x3_S2000000x3_1_012_n_n_012_1_1113_wf

class Facts : Prop extends Facts₀ where

variable [Facts]
-- ==== Proof.KFrame.lean ====
import proofs.«415693_j15238543966484_3_alg».proof.Proof.Gen.KernelIdeal.Launch
import proofs.«415693_j15238543966484_3_alg».proof.Proof.Gen.KernelIdeal.Skeleton
import proofs.«415693_j15238543966484_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28]) (fun b => m (c, b))

abbrev V (c : Dev nD) (b : Ref sig .tc) : Buf (Elt F) ((c : Thread nD τ).loc b) := V0 m c (Proc.devRef .tc b)

theorem prefix_sub : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] : List (List (HloOp τ sig (Elt F)))).Forall
    fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub⟩

theorem prefix_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] : List (List (HloOp τ sig (Elt F)))).Forall
    fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] [hostOps1] prefix_sub prefix_fresh main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.unary_writes, StableHlo.reshape_writes, Finset.mem_singleton] <;> exact StableHlo.devRef_ne_of_ne (by decide)

def KeepsArgs (ops : List (HloOp τ sig (Elt F))) : Prop :=
  ops.Forall fun op => Proc.devRef (τ := τ) .tc main_arg0 ∉ op.writes ∧ Proc.devRef (τ := τ) .tc main_arg1 ∉ op.writes
    ∧ Proc.devRef (τ := τ) .tc main_arg2 ∉ op.writes

local macro "keeps_args" : tactic => `(tactic|
  (simp only [KeepsArgs, List.Forall, StableHlo.nullary_writes, StableHlo.unary_writes, StableHlo.binary_writes,
      StableHlo.reshape_writes, StableHlo.nary_writes, Finset.mem_singleton]
   repeat' apply And.intro
   all_goals exact StableHlo.devRef_ne_of_ne (by decide)))

theorem keeps0 : KeepsArgs (F := F) hostOps0 := by keeps_args
theorem keeps0_1 : KeepsArgs (F := F) hostOps0_1 := by keeps_args
theorem keeps0_2 : KeepsArgs (F := F) hostOps0_2 := by keeps_args
theorem keeps0_3 : KeepsArgs (F := F) hostOps0_3 := by keeps_args
theorem keeps0_4 : KeepsArgs (F := F) hostOps0_4 := by keeps_args
theorem keeps0_5 : KeepsArgs (F := F) hostOps0_5 := by keeps_args
theorem keeps0_6 : KeepsArgs (F := F) hostOps0_6 := by keeps_args
theorem keeps0_7 : KeepsArgs (F := F) hostOps0_7 := by keeps_args
theorem keeps0_8 : KeepsArgs (F := F) hostOps0_8 := by keeps_args
theorem keeps0_9 : KeepsArgs (F := F) hostOps0_9 := by keeps_args
theorem keeps0_10 : KeepsArgs (F := F) hostOps0_10 := by keeps_args
theorem keeps0_11 : KeepsArgs (F := F) hostOps0_11 := by keeps_args
theorem keeps0_12 : KeepsArgs (F := F) hostOps0_12 := by keeps_args
theorem keeps0_13 : KeepsArgs (F := F) hostOps0_13 := by keeps_args
theorem keeps0_14 : KeepsArgs (F := F) hostOps0_14 := by keeps_args
theorem keeps0_15 : KeepsArgs (F := F) hostOps0_15 := by keeps_args
theorem keeps0_16 : KeepsArgs (F := F) hostOps0_16 := by keeps_args
theorem keeps0_17 : KeepsArgs (F := F) hostOps0_17 := by keeps_args
theorem keeps0_18 : KeepsArgs (F := F) hostOps0_18 := by keeps_args
theorem keeps0_19 : KeepsArgs (F := F) hostOps0_19 := by keeps_args
theorem keeps0_20 : KeepsArgs (F := F) hostOps0_20 := by keeps_args
theorem keeps0_21 : KeepsArgs (F := F) hostOps0_21 := by keeps_args
theorem keeps0_22 : KeepsArgs (F := F) hostOps0_22 := by keeps_args
theorem keeps0_23 : KeepsArgs (F := F) hostOps0_23 := by keeps_args
theorem keeps0_24 : KeepsArgs (F := F) hostOps0_24 := by keeps_args
theorem keeps0_25 : KeepsArgs (F := F) hostOps0_25 := by keeps_args
theorem keeps0_26 : KeepsArgs (F := F) hostOps0_26 := by keeps_args
theorem keeps0_27 : KeepsArgs (F := F) hostOps0_27 := by keeps_args
theorem keeps0_28 : KeepsArgs (F := F) hostOps0_28 := by keeps_args
theorem keeps1 : KeepsArgs (F := F) hostOps1 := by keeps_args

theorem prefix_keeps : ∀ op ∈ (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] : List (HloOp τ sig (Elt F))),
    Proc.devRef (τ := τ) .tc main_arg0 ∉ op.writes ∧ Proc.devRef (τ := τ) .tc main_arg1 ∉ op.writes
      ∧ Proc.devRef (τ := τ) .tc main_arg2 ∉ op.writes := by
  have h : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] : List (List (HloOp τ sig (Elt F)))).Forall KeepsArgs :=
    ⟨keeps0, keeps0_1, keeps0_2, keeps0_3, keeps0_4, keeps0_5, keeps0_6, keeps0_7, keeps0_8, keeps0_9, keeps0_10, keeps0_11, keeps0_12, keeps0_13, keeps0_14, keeps0_15, keeps0_16, keeps0_17, keeps0_18, keeps0_19, keeps0_20, keeps0_21, keeps0_22, keeps0_23, keeps0_24, keeps0_25, keeps0_26, keeps0_27, keeps0_28⟩
  intro op hop
  obtain ⟨ops, hops, hmem⟩ := List.mem_flatten.mp hop
  exact (List.forall_iff_forall_mem.mp ((List.forall_iff_forall_mem.mp h) ops hops)) op hmem

theorem V_main_arg0 (c : Dev nD) : V m c main_arg0 = m ((c : Thread nD τ).loc main_arg0) :=
  StableHlo.after_of_forall_not_mem (b := Proc.devRef .tc main_arg0) _ _ fun op hop => (prefix_keeps op hop).1
theorem V_main_arg1 (c : Dev nD) : V m c main_arg1 = m ((c : Thread nD τ).loc main_arg1) :=
  StableHlo.after_of_forall_not_mem (b := Proc.devRef .tc main_arg1) _ _ fun op hop => (prefix_keeps op hop).2.1
theorem V_main_arg2 (c : Dev nD) : V m c main_arg2 = m ((c : Thread nD τ).loc main_arg2) :=
  StableHlo.after_of_forall_not_mem (b := Proc.devRef .tc main_arg2) _ _ fun op hop => (prefix_keeps op hop).2.2

theorem tail_keeps : ∀ op ∈ (List.flatten [hostOps1] : List (HloOp τ sig (Elt F))),
    Proc.devRef (τ := τ) .tc main_arg0 ∉ op.writes ∧ Proc.devRef (τ := τ) .tc main_arg1 ∉ op.writes
      ∧ Proc.devRef (τ := τ) .tc main_arg2 ∉ op.writes := by
  intro op hop
  rw [List.flatten_cons, List.flatten_nil, List.append_nil] at hop
  exact (List.forall_iff_forall_mem.mp keeps1) op hop

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ fun op hop => (tail_keeps op hop).1,
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ fun op hop => (tail_keeps op hop).2.1,
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ fun op hop => (tail_keeps op hop).2.2,
    Pipeline.withArrays_of_ne _ c (V0 m c) _ main_arg2 (by exact (by decide : ∀ w, Pipeline.arrRef spec0 w ≠ main_arg2))]
  exact V_main_arg2 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

abbrev row0 : Rect S4x400000 := Rect.unit (s := S4x400000) ![0, 0] S1x400000.size inb_S4x400000_S1x400000_0_0
abbrev row1 : Rect S4x400000 := Rect.unit (s := S4x400000) ![1, 0] S1x400000.size inb_S4x400000_S1x400000_1_0
abbrev row2 : Rect S4x400000 := Rect.unit (s := S4x400000) ![2, 0] S1x400000.size inb_S4x400000_S1x400000_2_0
abbrev row3 : Rect S4x400000 := Rect.unit (s := S4x400000) ![3, 0] S1x400000.size inb_S4x400000_S1x400000_3_0

def outBlock (x : Vec F S4x400000 .f32) : Vec F S4x400000 .f32 :=
  View.canon [⟨row3, k0_pay8 (View.ld x row1) (View.ld x row2) (View.ld x row3)⟩,
    ⟨row2, k0_pay7 (View.ld x row1) (View.ld x row2) (View.ld x row3)⟩,
    ⟨row1, k0_pay6 (View.ld x row1) (View.ld x row2) (View.ld x row3)⟩,
    ⟨row0, k0_pay1 (View.ld x row0)⟩]

theorem rows_cover (p3 p2 p1 p0 : Vec F S1x400000 .f32) (y : S4x400000.Idx) :
    ∃ pc ∈ ([⟨row3, p3⟩, ⟨row2, p2⟩, ⟨row1, p1⟩, ⟨row0, p0⟩] : List (View.Piece (Elt F) S4x400000 .f32)), y ∈ pc.1.set :=
  View.cover_of_tiled [⟨row3, p3⟩, ⟨row2, p2⟩, ⟨row1, p1⟩, ⟨row0, p0⟩] S1x400000.size (by rfl) y

set_option maxHeartbeats 1000000 in
theorem sound_kernel (c : Dev nD) (E : Set ℕ) (i : grid0.Coords) (arg1 : Memref sig .tc .vmem S4x400000 .f32) (harg1 : arg1.IsWhole)
    (arg2 : Memref sig .tc .vmem S4x400000 .f32) (harg2 : arg2.IsWhole)
    (x : Vec F S4x400000 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBlock x)) -∗ K ⟨⟩))
      ⊢ wp frame (wpE (defs₀ (F := F)) Variants.none c none) E (cc0__chain_kernel i arg1 harg1 arg2 harg2) K := by
  simp only [cc0__chain_kernel_eq_skeleton]; unfold cc0__chain_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (rows_cover _ _ _ _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

theorem before_in (c : Dev nD) (t : Fin cfg0.N) (d) : (dats m 0 c).before 0 t d = iblk m c 0 t :=
  before0_0_of m (dats m 0 c) (A_eq m c 0) (after_in m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KFrameB.lean ====
import proofs.«415693_j15238543966484_3_alg».proof.Proof.Gen.Kernel.Launch
import proofs.«415693_j15238543966484_3_alg».proof.Proof.Gen.Kernel.Skeleton
import proofs.«415693_j15238543966484_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28]) (fun b => m (c, b))

abbrev V (c : Dev nD) (b : Ref sig .tc) : Buf (Elt F) ((c : Thread nD τ).loc b) := V0 m c (Proc.devRef .tc b)

theorem prefix_sub : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] : List (List (HloOp τ sig (Elt F)))).Forall
    fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub⟩

theorem prefix_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] : List (List (HloOp τ sig (Elt F)))).Forall
    fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] [hostOps1] prefix_sub prefix_fresh main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.unary_writes, StableHlo.reshape_writes, Finset.mem_singleton] <;> exact StableHlo.devRef_ne_of_ne (by decide)

def KeepsArgs (ops : List (HloOp τ sig (Elt F))) : Prop :=
  ops.Forall fun op => Proc.devRef (τ := τ) .tc main_arg0 ∉ op.writes ∧ Proc.devRef (τ := τ) .tc main_arg1 ∉ op.writes
    ∧ Proc.devRef (τ := τ) .tc main_arg2 ∉ op.writes

local macro "keeps_args" : tactic => `(tactic|
  (simp only [KeepsArgs, List.Forall, StableHlo.nullary_writes, StableHlo.unary_writes, StableHlo.binary_writes,
      StableHlo.reshape_writes, StableHlo.nary_writes, Finset.mem_singleton]
   repeat' apply And.intro
   all_goals exact StableHlo.devRef_ne_of_ne (by decide)))

theorem keeps0 : KeepsArgs (F := F) hostOps0 := by keeps_args
theorem keeps0_1 : KeepsArgs (F := F) hostOps0_1 := by keeps_args
theorem keeps0_2 : KeepsArgs (F := F) hostOps0_2 := by keeps_args
theorem keeps0_3 : KeepsArgs (F := F) hostOps0_3 := by keeps_args
theorem keeps0_4 : KeepsArgs (F := F) hostOps0_4 := by keeps_args
theorem keeps0_5 : KeepsArgs (F := F) hostOps0_5 := by keeps_args
theorem keeps0_6 : KeepsArgs (F := F) hostOps0_6 := by keeps_args
theorem keeps0_7 : KeepsArgs (F := F) hostOps0_7 := by keeps_args
theorem keeps0_8 : KeepsArgs (F := F) hostOps0_8 := by keeps_args
theorem keeps0_9 : KeepsArgs (F := F) hostOps0_9 := by keeps_args
theorem keeps0_10 : KeepsArgs (F := F) hostOps0_10 := by keeps_args
theorem keeps0_11 : KeepsArgs (F := F) hostOps0_11 := by keeps_args
theorem keeps0_12 : KeepsArgs (F := F) hostOps0_12 := by keeps_args
theorem keeps0_13 : KeepsArgs (F := F) hostOps0_13 := by keeps_args
theorem keeps0_14 : KeepsArgs (F := F) hostOps0_14 := by keeps_args
theorem keeps0_15 : KeepsArgs (F := F) hostOps0_15 := by keeps_args
theorem keeps0_16 : KeepsArgs (F := F) hostOps0_16 := by keeps_args
theorem keeps0_17 : KeepsArgs (F := F) hostOps0_17 := by keeps_args
theorem keeps0_18 : KeepsArgs (F := F) hostOps0_18 := by keeps_args
theorem keeps0_19 : KeepsArgs (F := F) hostOps0_19 := by keeps_args
theorem keeps0_20 : KeepsArgs (F := F) hostOps0_20 := by keeps_args
theorem keeps0_21 : KeepsArgs (F := F) hostOps0_21 := by keeps_args
theorem keeps0_22 : KeepsArgs (F := F) hostOps0_22 := by keeps_args
theorem keeps0_23 : KeepsArgs (F := F) hostOps0_23 := by keeps_args
theorem keeps0_24 : KeepsArgs (F := F) hostOps0_24 := by keeps_args
theorem keeps0_25 : KeepsArgs (F := F) hostOps0_25 := by keeps_args
theorem keeps0_26 : KeepsArgs (F := F) hostOps0_26 := by keeps_args
theorem keeps0_27 : KeepsArgs (F := F) hostOps0_27 := by keeps_args
theorem keeps0_28 : KeepsArgs (F := F) hostOps0_28 := by keeps_args
theorem keeps1 : KeepsArgs (F := F) hostOps1 := by keeps_args

theorem prefix_keeps : ∀ op ∈ (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] : List (HloOp τ sig (Elt F))),
    Proc.devRef (τ := τ) .tc main_arg0 ∉ op.writes ∧ Proc.devRef (τ := τ) .tc main_arg1 ∉ op.writes
      ∧ Proc.devRef (τ := τ) .tc main_arg2 ∉ op.writes := by
  have h : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28] : List (List (HloOp τ sig (Elt F)))).Forall KeepsArgs :=
    ⟨keeps0, keeps0_1, keeps0_2, keeps0_3, keeps0_4, keeps0_5, keeps0_6, keeps0_7, keeps0_8, keeps0_9, keeps0_10, keeps0_11, keeps0_12, keeps0_13, keeps0_14, keeps0_15, keeps0_16, keeps0_17, keeps0_18, keeps0_19, keeps0_20, keeps0_21, keeps0_22, keeps0_23, keeps0_24, keeps0_25, keeps0_26, keeps0_27, keeps0_28⟩
  intro op hop
  obtain ⟨ops, hops, hmem⟩ := List.mem_flatten.mp hop
  exact (List.forall_iff_forall_mem.mp ((List.forall_iff_forall_mem.mp h) ops hops)) op hmem

theorem V_main_arg0 (c : Dev nD) : V m c main_arg0 = m ((c : Thread nD τ).loc main_arg0) :=
  StableHlo.after_of_forall_not_mem (b := Proc.devRef .tc main_arg0) _ _ fun op hop => (prefix_keeps op hop).1
theorem V_main_arg1 (c : Dev nD) : V m c main_arg1 = m ((c : Thread nD τ).loc main_arg1) :=
  StableHlo.after_of_forall_not_mem (b := Proc.devRef .tc main_arg1) _ _ fun op hop => (prefix_keeps op hop).2.1
theorem V_main_arg2 (c : Dev nD) : V m c main_arg2 = m ((c : Thread nD τ).loc main_arg2) :=
  StableHlo.after_of_forall_not_mem (b := Proc.devRef .tc main_arg2) _ _ fun op hop => (prefix_keeps op hop).2.2

theorem tail_keeps : ∀ op ∈ (List.flatten [hostOps1] : List (HloOp τ sig (Elt F))),
    Proc.devRef (τ := τ) .tc main_arg0 ∉ op.writes ∧ Proc.devRef (τ := τ) .tc main_arg1 ∉ op.writes
      ∧ Proc.devRef (τ := τ) .tc main_arg2 ∉ op.writes := by
  intro op hop
  rw [List.flatten_cons, List.flatten_nil, List.append_nil] at hop
  exact (List.forall_iff_forall_mem.mp keeps1) op hop

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ fun op hop => (tail_keeps op hop).1,
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ fun op hop => (tail_keeps op hop).2.1,
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ fun op hop => (tail_keeps op hop).2.2,
    Pipeline.withArrays_of_ne _ c (V0 m c) _ main_arg2 (by exact (by decide : ∀ w, Pipeline.arrRef spec0 w ≠ main_arg2))]
  exact V_main_arg2 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

abbrev row0 : Rect S4x400000 := Rect.unit (s := S4x400000) ![0, 0] S1x400000.size inb_S4x400000_S1x400000_0_0
abbrev row1 : Rect S4x400000 := Rect.unit (s := S4x400000) ![1, 0] S1x400000.size inb_S4x400000_S1x400000_1_0
abbrev row2 : Rect S4x400000 := Rect.unit (s := S4x400000) ![2, 0] S1x400000.size inb_S4x400000_S1x400000_2_0
abbrev row3 : Rect S4x400000 := Rect.unit (s := S4x400000) ![3, 0] S1x400000.size inb_S4x400000_S1x400000_3_0

def outBlock (x : Vec F S4x400000 .f32) : Vec F S4x400000 .f32 :=
  View.canon [⟨row3, k0_pay8 (View.ld x row1) (View.ld x row2) (View.ld x row3)⟩,
    ⟨row2, k0_pay7 (View.ld x row1) (View.ld x row2) (View.ld x row3)⟩,
    ⟨row1, k0_pay6 (View.ld x row1) (View.ld x row2) (View.ld x row3)⟩,
    ⟨row0, k0_pay1 (View.ld x row0)⟩]

theorem rows_cover (p3 p2 p1 p0 : Vec F S1x400000 .f32) (y : S4x400000.Idx) :
    ∃ pc ∈ ([⟨row3, p3⟩, ⟨row2, p2⟩, ⟨row1, p1⟩, ⟨row0, p0⟩] : List (View.Piece (Elt F) S4x400000 .f32)), y ∈ pc.1.set :=
  View.cover_of_tiled [⟨row3, p3⟩, ⟨row2, p2⟩, ⟨row1, p1⟩, ⟨row0, p0⟩] S1x400000.size (by rfl) y

set_option maxHeartbeats 1000000 in
theorem sound_kernel (c : Dev nD) (E : Set ℕ) (i : grid0.Coords) (arg1 : Memref sig .tc .vmem S4x400000 .f32) (harg1 : arg1.IsWhole)
    (arg2 : Memref sig .tc .vmem S4x400000 .f32) (harg2 : arg2.IsWhole)
    (x : Vec F S4x400000 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBlock x)) -∗ K ⟨⟩))
      ⊢ wp frame (wpE (defs₀ (F := F)) Variants.none c none) E (cc0__chain_kernel i arg1 harg1 arg2 harg2) K := by
  simp only [cc0__chain_kernel_eq_skeleton]; unfold cc0__chain_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (rows_cover _ _ _ _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

theorem before_in (c : Dev nD) (t : Fin cfg0.N) (d) : (dats m 0 c).before 0 t d = iblk m c 0 t :=
  before0_0_of m (dats m 0 c) (A_eq m c 0) (after_in m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

abbrev zeroF : EReal := Ideal.ofBits .f32 0x00000000#32
abbrev oneF : EReal := Ideal.ofBits .f32 0x3F800000#32
abbrev negOneF : EReal := Ideal.ofBits .f32 0xBF800000#32

abbrev dF : EReal := Ideal.ofBits .f32 0x2B8CBCCC#32

abbrev kappaV : EReal := ((5316911940649 / 5316911983139663491615228241121378304 : ℝ) : EReal)

theorem zeroF_eq : zeroF = 0 := Ideal.ofBits_zero_f32

theorem oneF_eq : oneF = 1 := by
  simp [Ideal.ofBits, Ideal.ieee, -EReal.coe_mul]
  norm_num

theorem negOneF_eq : negOneF = -1 := by
  simp [Ideal.ofBits, Ideal.ieee, -EReal.coe_mul]
  norm_num

theorem dF_eq : dF = ((2305843 / 2305843009213693952 : ℝ) : EReal) := by
  simp [Ideal.ofBits, Ideal.ieee, -EReal.coe_mul]
  norm_num

def eluK (a : EReal) : EReal :=
  Scalar.select (Ideal.cmp .ogt a zeroF) a (Ideal.exp (min a zeroF) - oneF)

def eluR (a : EReal) : EReal :=
  Scalar.select (Ideal.cmp .ogt a zeroF) a
    (oneF * (Ideal.exp (Scalar.select (Ideal.cmp .ogt a zeroF) zeroF a) - 1))

theorem cmp_ogt_zero (a : EReal) : Ideal.cmp .ogt a 0 = BitVec.ofBool (decide (0 < a)) := rfl

/-- The two spellings of the activation agree: `min a 0 = a` when `a ≤ 0`, and elsewhere both return `a`. -/
theorem elu_eq (a : EReal) : eluK a = eluR a := by
  unfold eluK eluR
  rw [zeroF_eq, oneF_eq, cmp_ogt_zero]
  by_cases h : 0 < a
  · simp [Scalar.select, h]
  · have ha : min a 0 = a := min_eq_left (not_lt.mp h)
    simp [Scalar.select, h, ha]

def tK (x y z : EReal) : Fin 3 → EReal := ![Ideal.tanh x - oneF, Ideal.tanh y, Ideal.tanh z]

def normK (x y z : EReal) (k : Fin 3) : EReal :=
  tK x y z k * Ideal.rsqrt (max ((tK x y z 0 * tK x y z 0 + tK x y z 1 * tK x y z 1) + tK x y z 2 * tK x y z 2) kappaV)

def tR (x y z : EReal) : Fin 3 → EReal := ![Ideal.tanh x + negOneF, Ideal.tanh y + zeroF, Ideal.tanh z + zeroF]

def normR (x y z : EReal) (k : Fin 3) : EReal :=
  Ideal.div (tR x y z k) (max (Ideal.sqrt (zeroF + ∑ k' : Fin 3, tR x y z k' * tR x y z k')) dF)

theorem tanh_real (x : EReal) : ∃ r : ℝ, Ideal.tanh x = (r : EReal) := by
  induction x using EReal.rec with
  | bot => exact ⟨-1, by simp⟩
  | coe r => exact ⟨Real.tanh r, rfl⟩
  | top => exact ⟨1, rfl⟩

theorem ereal_coe_max (a b : ℝ) : max (a : EReal) (b : EReal) = ((max a b : ℝ) : EReal) :=
  (EReal.coe_strictMono.monotone.map_max).symm

/-- The square root is monotone, so it commutes with `max`; and `sqrt (D²) = D` for `D ≥ 0`. -/
theorem sqrt_max_sq (s D : ℝ) (hD : 0 ≤ D) : Real.sqrt (max s (D ^ 2)) = max (Real.sqrt s) D := by
  rw [Real.sqrt_monotone.map_max, Real.sqrt_sq hD]

theorem scale_eq (a b c : ℝ) (v : EReal) :
    v * Ideal.rsqrt (max (((a : EReal) * a + b * b) + c * c) kappaV)
      = Ideal.div v (max (Ideal.sqrt (zeroF + (((a : EReal) * a + b * b) + c * c))) dF) := by
  have hD : (0 : ℝ) < 2305843 / 2305843009213693952 := by norm_num
  have hs0 : 0 ≤ a * a + b * b + c * c :=
    add_nonneg (add_nonneg (mul_self_nonneg a) (mul_self_nonneg b)) (mul_self_nonneg c)
  have hsum : ((a : EReal) * a + b * b) + c * c = ((a * a + b * b + c * c : ℝ) : EReal) := by
    push_cast; rfl
  have hk : kappaV = (((2305843 / 2305843009213693952 : ℝ) ^ 2 : ℝ) : EReal) := by
    unfold kappaV; congr 1; norm_num
  have hm : 0 < max (a * a + b * b + c * c) ((2305843 / 2305843009213693952 : ℝ) ^ 2) :=
    lt_max_of_lt_right (by positivity)
  have hne : max (Real.sqrt (a * a + b * b + c * c)) (2305843 / 2305843009213693952 : ℝ) ≠ 0 :=
    (lt_max_of_lt_right hD).ne'
  rw [hsum, hk, dF_eq, zeroF_eq, zero_add, ereal_coe_max, Ideal.rsqrt_coe, Ideal.sqrt_coe, if_neg (not_lt.mpr hs0),
    ereal_coe_max, if_neg (not_lt.mpr hm.le), if_neg hm.ne', sqrt_max_sq _ _ hD.le, Ideal.div_coe hne, one_div]

/-- Multiplying by `rsqrt (max s κ)` is dividing by `max (sqrt s) d`: `κ = d²`, and every `tanh` is a real, so `s` is a nonnegative real. -/
theorem norm_eq (x y z : EReal) (k : Fin 3) : normK x y z k = normR x y z k := by
  obtain ⟨tx, hx⟩ := tanh_real x
  obtain ⟨ty, hy⟩ := tanh_real y
  obtain ⟨tz, hz⟩ := tanh_real z
  have hK : tK x y z = ![((tx - 1 : ℝ) : EReal), (ty : EReal), (tz : EReal)] := by
    unfold tK; rw [hx, hy, hz, oneF_eq]; simp
  have hR : tR x y z = ![((tx - 1 : ℝ) : EReal), (ty : EReal), (tz : EReal)] := by
    unfold tR; rw [hx, hy, hz, negOneF_eq, zeroF_eq]; simp [sub_eq_add_neg]
  unfold normK normR
  rw [hK, hR, Fin.sum_univ_three]
  simp only [Matrix.cons_val_zero, Matrix.cons_val_one, Matrix.cons_val_two, Matrix.head_cons, Matrix.tail_cons]
  exact scale_eq _ _ _ _

/-- The eight-corner blend in both associations: only associativity of the product and `0 + v = v`, which need no finiteness. -/
theorem blend_assoc (g0 g1 g2 g3 g4 g5 g6 g7 a0 a1 a2 a3 a4 a5 a6 a7 b0 b1 b2 b3 b4 b5 b6 b7 c0 c1 c2 c3 c4 c5 c6 c7 : EReal) :
    ((((((((zeroF + g0 * ((a0 * b0) * c0)) + g1 * ((a1 * b1) * c1)) + g2 * ((a2 * b2) * c2)) + g3 * ((a3 * b3) * c3))
      + g4 * ((a4 * b4) * c4)) + g5 * ((a5 * b5) * c5)) + g6 * ((a6 * b6) * c6)) + g7 * ((a7 * b7) * c7))
    = ((((((((g0 * a0) * b0) * c0 + ((g1 * a1) * b1) * c1) + ((g2 * a2) * b2) * c2) + ((g3 * a3) * b3) * c3)
      + ((g4 * a4) * b4) * c4) + ((g5 * a5) * b5) * c5) + ((g6 * a6) * b6) * c6) + ((g7 * a7) * b7) * c7 := by
  rw [zeroF_eq, zero_add]
  simp only [mul_assoc]

end Cert.Spec

end
-- ==== Proof.KValue.lean ====
import proofs.«415693_j15238543966484_3_alg».proof.Proof.KFrame
import proofs.«415693_j15238543966484_3_alg».proof.Proof.Spec
import Idealize.ShloMosaic.Lib.Pipeline.Value
import Idealize.ShloMosaic.Lib.ValueIdx
import Idealize.ShloMosaic.PureOps.IdealRules

set_option maxRecDepth 16384

noncomputable section

namespace Cert.KernelIdeal.Hand

open Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem eps_sq : Named.named (F := Ideal) κ "eps_sq" (φ := .f32) 0x179ABE15#32 = Cert.Spec.kappaV :=
  IdealRules.named_const.ideal_named_scalar _ _ _ _ rfl

theorem pay1_apply (v0 : Vec Ideal S1x400000 .f32) (i : S1x400000.Idx) : k0_pay1 v0 i = Cert.Spec.eluK (v0 i) := by
  unfold k0_pay1 Cert.Spec.eluK
  rw [shapeCast_self]
  rfl

theorem pay2_apply (v : Vec Ideal S1x400000 .f32) (i : S1x400000.Idx) : k0_pay2 v i = Ideal.tanh (v i) - Cert.Spec.oneF := by
  unfold k0_pay2
  rw [shapeCast_self]
  rfl
theorem pay3_apply (v : Vec Ideal S1x400000 .f32) (i : S1x400000.Idx) : k0_pay3 v i = Ideal.tanh (v i) := by
  unfold k0_pay3
  rw [shapeCast_self]
  rfl
theorem pay4_apply (v : Vec Ideal S1x400000 .f32) (i : S1x400000.Idx) : k0_pay4 v i = Ideal.tanh (v i) := by
  unfold k0_pay4
  rw [shapeCast_self]
  rfl

theorem pay5_apply (x y z : Vec Ideal S1x400000 .f32) (i : S1x400000.Idx) :
    k0_pay5 x y z i = Ideal.rsqrt (max ((Cert.Spec.tK (x i) (y i) (z i) 0 * Cert.Spec.tK (x i) (y i) (z i) 0
      + Cert.Spec.tK (x i) (y i) (z i) 1 * Cert.Spec.tK (x i) (y i) (z i) 1) + Cert.Spec.tK (x i) (y i) (z i) 2 * Cert.Spec.tK (x i) (y i) (z i) 2) Cert.Spec.kappaV) := by
  unfold k0_pay5
  show Ideal.rsqrt (max ((k0_pay2 x i * k0_pay2 x i + k0_pay3 y i * k0_pay3 y i) + k0_pay4 z i * k0_pay4 z i)
    (Named.named (F := Ideal) κ "eps_sq" (φ := .f32) 0x179ABE15#32)) = _
  rw [pay2_apply, pay3_apply, pay4_apply, eps_sq]
  rfl

theorem pay6_apply (x y z : Vec Ideal S1x400000 .f32) (i : S1x400000.Idx) :
    k0_pay6 x y z i = Cert.Spec.normK (x i) (y i) (z i) 0 := by
  unfold k0_pay6
  show k0_pay2 x i * k0_pay5 x y z i = _
  rw [pay2_apply, pay5_apply]; rfl
theorem pay7_apply (x y z : Vec Ideal S1x400000 .f32) (i : S1x400000.Idx) :
    k0_pay7 x y z i = Cert.Spec.normK (x i) (y i) (z i) 1 := by
  unfold k0_pay7
  show k0_pay3 y i * k0_pay5 x y z i = _
  rw [pay3_apply, pay5_apply]; rfl
theorem pay8_apply (x y z : Vec Ideal S1x400000 .f32) (i : S1x400000.Idx) :
    k0_pay8 x y z i = Cert.Spec.normK (x i) (y i) (z i) 2 := by
  unfold k0_pay8
  show k0_pay4 z i * k0_pay5 x y z i = _
  rw [pay4_apply, pay5_apply]; rfl

def colK (a x y z : EReal) : ℕ → EReal
  | 0 => Cert.Spec.eluK a
  | 1 => Cert.Spec.normK x y z 0
  | 2 => Cert.Spec.normK x y z 1
  | _ => Cert.Spec.normK x y z 2

def blockG (x : Vec Ideal S4x400000 .f32) : Vec Ideal S4x400000 .f32 := fun y =>
  colK (x (ix2 (0 : Fin 4) (y 1 : Fin 400000))) (x (ix2 (1 : Fin 4) (y 1 : Fin 400000))) (x (ix2 (2 : Fin 4) (y 1 : Fin 400000)))
    (x (ix2 (3 : Fin 4) (y 1 : Fin 400000))) (y 0).val

def bodyG (X : FVec Ideal S4x2000000 .f32) : FVec Ideal S4x2000000 .f32 := fun i =>
  colK (X (ix2 (0 : Fin 4) (i 1 : Fin 2000000))) (X (ix2 (1 : Fin 4) (i 1 : Fin 2000000))) (X (ix2 (2 : Fin 4) (i 1 : Fin 2000000)))
    (X (ix2 (3 : Fin 4) (i 1 : Fin 2000000))) (i 0).val

theorem row_emb (k : Fin 4) (inb : ∀ a, (![k.val, 0] : Fin 2 → Nat) a + S1x400000.size a ≤ S4x400000.size a) (x' : S1x400000.Idx) :
    (Rect.unit (s := S4x400000) ![k.val, 0] S1x400000.size inb).emb x' = ix2 k (x' 1 : Fin 400000) := by
  refine Shape.idx_ext₂ ?_ ?_
  · show k.val + 1 * (x' 0).val = k.val
    have h : (x' 0).val < 1 := (x' 0).isLt
    omega
  · show 0 + 1 * (x' 1).val = (x' 1).val
    omega

theorem outBlock_eq (x : Vec Ideal S4x400000 .f32) : outBlock x = blockG x := by
  funext y
  unfold outBlock
  refine View.canon_apply_of_pieces (blockG x) _ ?_ y (rows_cover _ _ _ _ y)
  intro p hp
  simp only [List.mem_cons, List.mem_nil_iff, or_false] at hp
  rcases hp with rfl | rfl | rfl | rfl <;> intro x'
  · refine (pay8_apply _ _ _ x').trans ?_
    show _ = blockG x ((Rect.unit (s := S4x400000) ![(3 : Fin 4).val, 0] S1x400000.size inb_S4x400000_S1x400000_3_0).emb x')
    rw [row_emb 3]
    show Cert.Spec.normK (x ((Rect.unit (s := S4x400000) ![(1 : Fin 4).val, 0] S1x400000.size inb_S4x400000_S1x400000_1_0).emb x'))
      (x ((Rect.unit (s := S4x400000) ![(2 : Fin 4).val, 0] S1x400000.size inb_S4x400000_S1x400000_2_0).emb x'))
      (x ((Rect.unit (s := S4x400000) ![(3 : Fin 4).val, 0] S1x400000.size inb_S4x400000_S1x400000_3_0).emb x')) 2 = _
    rw [row_emb 1, row_emb 2, row_emb 3]
    rfl
  · refine (pay7_apply _ _ _ x').trans ?_
    show _ = blockG x ((Rect.unit (s := S4x400000) ![(2 : Fin 4).val, 0] S1x400000.size inb_S4x400000_S1x400000_2_0).emb x')
    rw [row_emb 2]
    show Cert.Spec.normK (x ((Rect.unit (s := S4x400000) ![(1 : Fin 4).val, 0] S1x400000.size inb_S4x400000_S1x400000_1_0).emb x'))
      (x ((Rect.unit (s := S4x400000) ![(2 : Fin 4).val, 0] S1x400000.size inb_S4x400000_S1x400000_2_0).emb x'))
      (x ((Rect.unit (s := S4x400000) ![(3 : Fin 4).val, 0] S1x400000.size inb_S4x400000_S1x400000_3_0).emb x')) 1 = _
    rw [row_emb 1, row_emb 2, row_emb 3]
    rfl
  · refine (pay6_apply _ _ _ x').trans ?_
    show _ = blockG x ((Rect.unit (s := S4x400000) ![(1 : Fin 4).val, 0] S1x400000.size inb_S4x400000_S1x400000_1_0).emb x')
    rw [row_emb 1]
    show Cert.Spec.normK (x ((Rect.unit (s := S4x400000) ![(1 : Fin 4).val, 0] S1x400000.size inb_S4x400000_S1x400000_1_0).emb x'))
      (x ((Rect.unit (s := S4x400000) ![(2 : Fin 4).val, 0] S1x400000.size inb_S4x400000_S1x400000_2_0).emb x'))
      (x ((Rect.unit (s := S4x400000) ![(3 : Fin 4).val, 0] S1x400000.size inb_S4x400000_S1x400000_3_0).emb x')) 0 = _
    rw [row_emb 1, row_emb 2, row_emb 3]
    rfl
  · refine (pay1_apply _ x').trans ?_
    show _ = blockG x ((Rect.unit (s := S4x400000) ![(0 : Fin 4).val, 0] S1x400000.size inb_S4x400000_S1x400000_0_0).emb x')
    rw [row_emb 0]
    show Cert.Spec.eluK (x ((Rect.unit (s := S4x400000) ![(0 : Fin 4).val, 0] S1x400000.size inb_S4x400000_S1x400000_0_0).emb x')) = _
    rw [row_emb 0]
    rfl

theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

theorem in_blk_apply (A : FVec Ideal S4x2000000 .f32) (t : Fin cfg0.N) (x : S4x400000.Idx) (k : S4x2000000.Idx)
    (hk0 : (k 0).val = (x 0).val) (hk1 : (k 1).val = 400000 * t.val + (x 1).val) :
    (((cfg0.win 0).blk t).view.read (Elt Ideal) A : Vec Ideal S4x400000 .f32) x = A k := by
  show A (((cfg0.win 0).blk t).view.emb x) = A k
  refine congrArg A (Shape.idx_ext₂ ?_ ?_)
  · show win0_0.index t (0 : Fin 2) * 4 + 1 * (x 0).val = (k 0).val
    rw [(idx_facts t).1, hk0]; omega
  · show win0_0.index t (1 : Fin 2) * 400000 + 1 * (x 1).val = (k 1).val
    rw [(idx_facts t).2.1, hk1]; omega

theorem iblk_apply (c : Dev nD) (t : Fin cfg0.N) (x : S4x400000.Idx) (k : S4x2000000.Idx)
    (hk0 : (k 0).val = (x 0).val) (hk1 : (k 1).val = 400000 * t.val + (x 1).val) :
    (iblk m c 0 t : Vec Ideal S4x400000 .f32) x = (V m c main_v269 : FVec Ideal S4x2000000 .f32) k := by
  unfold iblk
  exact in_blk_apply (V m c main_v269) t x k hk0 hk1

theorem colK_congr {a x y z a' x' y' z' : EReal} {n n' : ℕ} (ha : a = a') (hx : x = x') (hy : y = y') (hz : z = z')
    (hn : n = n') : colK a x y z n = colK a' x' y' z' n' := by
  subst ha hx hy hz hn; rfl

theorem flushed_eq (c : Dev nD) (t : Fin cfg0.N) :
    (dats m 0 c).flushed 1 t = ((cfg0.win 1).blk t).view.read (Elt Ideal) (bodyG (V m c main_v269)) := by
  show (cfg0.win 1).cut (grid0.coords t) ((dats m 0 c).after 1 t) = _
  rw [after_out, outBlock_eq]
  funext y
  show blockG (iblk m c 0 t) y = bodyG (V m c main_v269) (((cfg0.win 1).blk t).view.emb y)
  have he0 : ((((cfg0.win 1).blk t).view.emb y) 0).val = (y 0).val := by
    show win0_1.index t (0 : Fin 2) * 4 + 1 * (y 0).val = (y 0).val
    rw [(idx_facts t).2.2.1]; omega
  have he1 : ((((cfg0.win 1).blk t).view.emb y) 1).val = 400000 * t.val + (y 1).val := by
    show win0_1.index t (1 : Fin 2) * 400000 + 1 * (y 1).val = _
    rw [(idx_facts t).2.2.2]; omega
  unfold blockG bodyG
  exact colK_congr (iblk_apply m c t _ _ rfl he1) (iblk_apply m c t _ _ rfl he1) (iblk_apply m c t _ _ rfl he1)
    (iblk_apply m c t _ _ rfl he1) he0.symm

theorem mem_out_blk (t : Fin cfg0.N) (i : S4x2000000.Idx) :
    i ∈ ((cfg0.win 1).blk t).view.set ↔ ∀ a : Fin 2, win0_1.index t a * S4x400000.size a ≤ (i a).val
      ∧ (i a).val < win0_1.index t a * S4x400000.size a + S4x400000.size a := by
  show i ∈ ((View.whole main_v270).slice (win0_1.rect t)).set ↔ _
  rw [View.set_slice_whole, Rect.mem_set_unit]
  exact Iff.rfl

theorem out_cover (i : S4x2000000.Idx) :
    ∃ t : Fin cfg0.N, (cfg0.win 1).flush t = true ∧ i ∈ ((cfg0.win 1).blk t).view.set := by
  have hi0 : (i 0).val < 4 := idx2_lt0 i
  have hi1 : (i 1).val < 2000000 := idx2_lt1 i
  have hN : cfg0.N = 5 := N_0
  have ht : (i 1).val / 400000 < cfg0.N := by rw [hN]; omega
  obtain ⟨-, -, e0, e1⟩ := idx_facts ⟨(i 1).val / 400000, ht⟩
  refine ⟨⟨(i 1).val / 400000, ht⟩, flush0_1 _, ?_⟩
  rw [mem_out_blk]
  intro a
  match a with
  | ⟨0, _⟩ =>
    show win0_1.index ⟨(i 1).val / 400000, ht⟩ (0 : Fin 2) * 4 ≤ (i 0).val
      ∧ (i 0).val < win0_1.index ⟨(i 1).val / 400000, ht⟩ (0 : Fin 2) * 4 + 4
    rw [e0]; omega
  | ⟨1, _⟩ =>
    show win0_1.index ⟨(i 1).val / 400000, ht⟩ (1 : Fin 2) * 400000 ≤ (i 1).val
      ∧ (i 1).val < win0_1.index ⟨(i 1).val / 400000, ht⟩ (1 : Fin 2) * 400000 + 400000
    rw [e1]
    show (i 1).val / 400000 * 400000 ≤ (i 1).val ∧ (i 1).val < (i 1).val / 400000 * 400000 + 400000
    omega

/-- The five blocks are restrictions of one column-wise function of the input array, and they cover the output array. -/
theorem final_out (c : Dev nD) : (dats m 0 c).arrAt 1 cfg0.N = bodyG (V m c main_v269) :=
  (dats m 0 c).arrAt_eq_of_cover 1 (bodyG (V m c main_v269)) (fun t _ => flushed_eq m c t) out_cover

def resA (X : FVec Ideal S4x2000000 .f32) : FVec Ideal S2000000 .f32 :=
  shapeCast S2000000 (extractStridedSlice S1x2000000 ![0, 0] (bodyG X) slices_S4x2000000_S1x2000000_0_0)
    shapeCasts_S1x2000000_S2000000

def resN (X : FVec Ideal S4x2000000 .f32) : FVec Ideal S2000000x3 .f32 :=
  transpose S2000000x3 [1, 0] (extractStridedSlice S3x2000000 ![1, 0] (bodyG X) slices_S4x2000000_S3x2000000_1_0)
    transposes_S3x2000000_S2000000x3_1_0

theorem resA_apply (X : FVec Ideal S4x2000000 .f32) (j : Fin 2000000) :
    resA X (ix1 j) = Cert.Spec.eluK (X (ix2 (0 : Fin 4) j)) := by
  unfold resA
  refine (shapeCast_apply _ _ (ix1 j) (ix2 (0 : Fin 1) j) ?_).trans ?_
  · rw [Shape.rowMajor_val_two, Shape.rowMajor_val_one]
    show (0 : ℕ) * _ + j.val = j.val
    omega
  refine (extractStridedSlice_apply _ _ _ (ix2 (0 : Fin 1) j) (ix2 (0 : Fin 4) j) ?_).trans ?_
  · intro a
    match a with
    | ⟨0, _⟩ => rfl
    | ⟨1, _⟩ => show j.val = 0 + j.val; omega
  rfl

theorem resN_apply (X : FVec Ideal S4x2000000 .f32) (j : Fin 2000000) (k : Fin 3) :
    resN X (ix2 j k) = Cert.Spec.normK (X (ix2 (1 : Fin 4) j)) (X (ix2 (2 : Fin 4) j)) (X (ix2 (3 : Fin 4) j)) k := by
  unfold resN
  refine (transpose_apply _ _ _ (ix2 j k) (ix2 k j) ?_).trans ?_
  · intro b
    match b with
    | ⟨0, _⟩ => rfl
    | ⟨1, _⟩ => rfl
  refine (extractStridedSlice_apply _ _ _ (ix2 k j) (ix2 (⟨1 + k.val, by omega⟩ : Fin 4) j) ?_).trans ?_
  · intro a
    match a with
    | ⟨0, _⟩ => rfl
    | ⟨1, _⟩ => show j.val = 0 + j.val; omega
  match k with
  | ⟨0, _⟩ => rfl
  | ⟨1, _⟩ => rfl
  | ⟨2, _⟩ => rfl

theorem tail_v272 (W : Valuation τ sig (Elt Ideal)) :
    StableHlo.after (List.flatten [(hostOps1 : List (HloOp τ sig (Elt Ideal)))]) W (Proc.devRef .tc main_v272)
      = (shapeCast S2000000 (extractStridedSlice S1x2000000 ![0, 0] (W (Proc.devRef .tc main_v270) : FVec Ideal S4x2000000 .f32)
          slices_S4x2000000_S1x2000000_0_0) shapeCasts_S1x2000000_S2000000 : FVec Ideal S2000000 .f32) := by
  simp only [hostOps1, List.flatten_cons, List.flatten_nil, List.append_nil]
  after_results
  rfl
theorem tail_v274 (W : Valuation τ sig (Elt Ideal)) :
    StableHlo.after (List.flatten [(hostOps1 : List (HloOp τ sig (Elt Ideal)))]) W (Proc.devRef .tc main_v274)
      = (transpose S2000000x3 [1, 0] (extractStridedSlice S3x2000000 ![1, 0] (W (Proc.devRef .tc main_v270) : FVec Ideal S4x2000000 .f32)
          slices_S4x2000000_S3x2000000_1_0) transposes_S3x2000000_S2000000x3_1_0 : FVec Ideal S2000000x3 .f32) := by
  simp only [hostOps1, List.flatten_cons, List.flatten_nil, List.append_nil]
  after_results

theorem region_out (c : Dev nD) :
    Pipeline.withArrays spec0 c (V0 m c) (fun w => (dats m 0 c).arrAt w cfg0.N) (Proc.devRef .tc main_v270)
      = bodyG (V m c main_v269) :=
  (Pipeline.withArrays_arr spec0 launch0.win.arr_inj c (V0 m c) _ 1).trans (final_out m c)

theorem tail_resA (c : Dev nD) :
    Pipeline.afterTail₀ cfgs (dats m) 0 (V0 m) [hostOps1] c main_v272 = resA (V m c main_v269) := by
  unfold Pipeline.afterTail₀
  refine (tail_v272 _).trans ?_
  unfold resA
  rw [region_out m c]
theorem tail_resN (c : Dev nD) :
    Pipeline.afterTail₀ cfgs (dats m) 0 (V0 m) [hostOps1] c main_v274 = resN (V m c main_v269) := by
  unfold Pipeline.afterTail₀
  refine (tail_v274 _).trans ?_
  unfold resN
  rw [region_out m c]

theorem run_vals : θ_run defs (onTc (τ := τ) (main (F := Ideal))) ⟨m, fun _ => 0, ρ⟩ (fun r => ∀ c : Dev nD,
      r.2.mem ((c.tc : Thread nD τ).loc main_v272) = resA (V m c main_v269)
      ∧ r.2.mem ((c.tc : Thread nD τ).loc main_v274) = resN (V m c main_v269)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v272 (Pipeline.mem_restRefs_of main_v272 (by decide) (by decide))).trans (tail_resA m c),
     ((h c).2 main_v274 (Pipeline.mem_restRefs_of main_v274 (by decide) (by decide))).trans (tail_resN m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.LibLine.lean ====
import Idealize.ShloMosaic.Lib.StableHlo.Run

noncomputable section

namespace Cert.Line

open Idealize.ShloMosaic Idealize.SL.Sem Idealize.ShloMosaic.StableHlo

variable {nD : Nat} {τ : Topo} {sig : RefSig} {Val : EltTy → Type} {Λ : Labels}

/-- A write set that is one reference of a list lies in the list's image. -/
theorem writes_sub_of_mem {s : Finset (DevRef τ sig)} {y : Ref sig .tc} {W : List (Ref sig .tc)}
    (hs : s = {Proc.devRef .tc y}) (hy : y ∈ W) : s ⊆ (W.map (Proc.devRef (τ := τ) .tc)).toFinset :=
  hs ▸ Finset.singleton_subset_iff.mpr (List.mem_toFinset.mpr (List.mem_map_of_mem hy))

/-- A line run in consecutive pieces of the given lengths, the rest last. -/
def seqCut : List Nat → List (HloOp τ sig Val) → Prog (TpuEff nD τ sig Val Λ .tc) PUnit
  | [], l => seq l
  | n :: ns, l => seq (l.take n) >>= fun _ => seqCut ns (l.drop n)

/-- The pieces run in turn are the line run whole, since `take n l ++ drop n l = l`. -/
theorem seqCut_eq : ∀ (ns : List Nat) (l : List (HloOp τ sig Val)),
    (seqCut ns l : Prog (TpuEff nD τ sig Val Λ .tc) PUnit) = seq l
  | [], _ => rfl
  | n :: ns, l => by rw [seqCut, seqCut_eq ns, ← seq_append, List.take_append_drop]

end Cert.Line

end
-- ==== Proof.KVals.lean ====
import proofs.«415693_j15238543966484_3_alg».proof.Proof.Gen.KernelIdeal.Launch
import Idealize.ShloMosaic.Lib.StableHlo.Run
import proofs.«415693_j15238543966484_3_alg».proof.Proof.LibLine

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F]

/-- The references a stretch of host operations writes; any other reference keeps its contents through it. -/
abbrev hostOps0_W : List (Ref sig .tc) := [main_c, main_v0, main_v1, main_v2, main_c_0]
theorem hostOps0_writes : (hostOps0 : List (HloOp τ sig (Elt F))).Forall fun op => op.writes ⊆ (hostOps0_W.map (Proc.devRef (τ := τ) .tc)).toFinset := by
  simp only [List.Forall]
  repeat' apply And.intro
  all_goals exact Cert.Line.writes_sub_of_mem rfl (by decide)

theorem hostOps0_keep (V : Valuation τ sig (Elt F)) (r : Ref sig .tc) (h : r ∉ hostOps0_W) :
    after hostOps0 V (Proc.devRef .tc r) = V (Proc.devRef .tc r) := after_of_writes_sub hostOps0 _ hostOps0_writes h

abbrev hostOps0_1_W : List (Ref sig .tc) := [main_call0_v0, main_call0_v1, main_call0_v2, main_call0_v3, main_call0_v4, main_v3]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals exact Cert.Line.writes_sub_of_mem rfl (by decide)

theorem hostOps0_1_keep (V : Valuation τ sig (Elt F)) (r : Ref sig .tc) (h : r ∉ hostOps0_1_W) :
    after hostOps0_1 V (Proc.devRef .tc r) = V (Proc.devRef .tc r) := after_of_writes_sub hostOps0_1 _ hostOps0_1_writes h

abbrev hostOps0_2_W : List (Ref sig .tc) := [main_c_1, main_v4, main_v5, main_c_2]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals exact Cert.Line.writes_sub_of_mem rfl (by decide)

theorem hostOps0_2_keep (V : Valuation τ sig (Elt F)) (r : Ref sig .tc) (h : r ∉ hostOps0_2_W) :
    after hostOps0_2 V (Proc.devRef .tc r) = V (Proc.devRef .tc r) := after_of_writes_sub hostOps0_2 _ hostOps0_2_writes h

abbrev hostOps0_3_W : List (Ref sig .tc) := [main_call1_v0, main_call1_v1, main_call1_v2, main_call1_v3, main_call1_v4, main_v6]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals exact Cert.Line.writes_sub_of_mem rfl (by decide)

theorem hostOps0_3_keep (V : Valuation τ sig (Elt F)) (r : Ref sig .tc) (h : r ∉ hostOps0_3_W) :
    after hostOps0_3 V (Proc.devRef .tc r) = V (Proc.devRef .tc r) := after_of_writes_sub hostOps0_3 _ hostOps0_3_writes h

abbrev hostOps0_4_W : List (Ref sig .tc) := [main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_c_3, main_v61, main_v62, main_v63, main_c_4, main_v64, main_v65, main_v66, main_c_5, main_v67, main_v68, main_v69, main_c_6, main_v70, main_v71, main_v72, main_c_7, main_v73, main_v74, main_v75, main_c_8, main_v76, main_v77, main_v78, main_c_9, main_v79, main_v80, main_v81, main_c_10, main_v82, main_v83, main_v84, main_c_11, main_v85, main_v86, main_v87, main_c_12, main_v88, main_v89, main_v90, main_c_13, main_v91, main_v92, main_v93, main_c_14, main_v94, main_v95, main_v96, main_c_15, main_v97, main_v98, main_v99, main_c_16, main_v100, main_v101, main_v102, main_c_17, main_v103, main_v104, main_v105, main_c_18, main_v106, main_v107, main_v108, main_v109, main_v110, main_cst, main_v111, main_v112, main_cst_19, main_v113, main_v114, main_cst_20, main_v115, main_v116, main_v117, main_v118, main_v119, main_v120, main_v121, main_v122, main_v123, main_v124, main_v125, main_v126, main_v127, main_v128, main_v129, main_v130, main_v131, main_v132, main_cst_21, main_v133, main_cst_22, main_v134, main_cst_23, main_v135, main_cst_24, main_v136]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals exact Cert.Line.writes_sub_of_mem rfl (by decide)

theorem hostOps0_4_keep (V : Valuation τ sig (Elt F)) (r : Ref sig .tc) (h : r ∉ hostOps0_4_W) :
    after hostOps0_4 V (Proc.devRef .tc r) = V (Proc.devRef .tc r) := after_of_writes_sub hostOps0_4 _ hostOps0_4_writes h

abbrev hostOps0_5_W : List (Ref sig .tc) := [main_call2_v0, main_v137]
theorem hostOps0_5_writes : (hostOps0_5 : List (HloOp τ sig (Elt F))).Forall fun op => op.writes ⊆ (hostOps0_5_W.map (Proc.devRef (τ := τ) .tc)).toFinset := by
  simp only [List.Forall]
  repeat' apply And.intro
  all_goals exact Cert.Line.writes_sub_of_mem rfl (by decide)

theorem hostOps0_5_keep (V : Valuation τ sig (Elt F)) (r : Ref sig .tc) (h : r ∉ hostOps0_5_W) :
    after hostOps0_5 V (Proc.devRef .tc r) = V (Proc.devRef .tc r) := after_of_writes_sub hostOps0_5 _ hostOps0_5_writes h

abbrev hostOps0_6_W : List (Ref sig .tc) := [main_call3_v0, main_v138]
theorem hostOps0_6_writes : (hostOps0_6 : List (HloOp τ sig (Elt F))).Forall fun op => op.writes ⊆ (hostOps0_6_W.map (Proc.devRef (τ := τ) .tc)).toFinset := by
  simp only [List.Forall]
  repeat' apply And.intro
  all_goals exact Cert.Line.writes_sub_of_mem rfl (by decide)

theorem hostOps0_6_keep (V : Valuation τ sig (Elt F)) (r : Ref sig .tc) (h : r ∉ hostOps0_6_W) :
    after hostOps0_6 V (Proc.devRef .tc r) = V (Proc.devRef .tc r) := after_of_writes_sub hostOps0_6 _ hostOps0_6_writes h

abbrev hostOps0_7_W : List (Ref sig .tc) := [main_v139, main_v140, main_v141, main_v142, main_v143, main_v144, main_v145, main_v146, main_v147, main_v148, main_v149, main_v150, main_v151, main_v152]
theorem hostOps0_7_writes : (hostOps0_7 : List (HloOp τ sig (Elt F))).Forall fun op => op.writes ⊆ (hostOps0_7_W.map (Proc.devRef (τ := τ) .tc)).toFinset := by
  simp only [List.Forall]
  repeat' apply And.intro
  all_goals exact Cert.Line.writes_sub_of_mem rfl (by decide)

theorem hostOps0_7_keep (V : Valuation τ sig (Elt F)) (r : Ref sig .tc) (h : r ∉ hostOps0_7_W) :
    after hostOps0_7 V (Proc.devRef .tc r) = V (Proc.devRef .tc r) := after_of_writes_sub hostOps0_7 _ hostOps0_7_writes h

abbrev hostOps0_8_W : List (Ref sig .tc) := [main_call4_v0, main_v153]
theorem hostOps0_8_writes : (hostOps0_8 : List (HloOp τ sig (Elt F))).Forall fun op => op.writes ⊆ (hostOps0_8_W.map (Proc.devRef (τ := τ) .tc)).toFinset := by
  simp only [List.Forall]
  repeat' apply And.intro
  all_goals exact Cert.Line.writes_sub_of_mem rfl (by decide)

theorem hostOps0_8_keep (V : Valuation τ sig (Elt F)) (r : Ref sig .tc) (h : r ∉ hostOps0_8_W) :
    after hostOps0_8 V (Proc.devRef .tc r) = V (Proc.devRef .tc r) := after_of_writes_sub hostOps0_8 _ hostOps0_8_writes h

abbrev hostOps0_9_W : List (Ref sig .tc) := [main_call5_v0, main_v154]
theorem hostOps0_9_writes : (hostOps0_9 : List (HloOp τ sig (Elt F))).Forall fun op => op.writes ⊆ (hostOps0_9_W.map (Proc.devRef (τ := τ) .tc)).toFinset := by
  simp only [List.Forall]
  repeat' apply And.intro
  all_goals exact Cert.Line.writes_sub_of_mem rfl (by decide)

theorem hostOps0_9_keep (V : Valuation τ sig (Elt F)) (r : Ref sig .tc) (h : r ∉ hostOps0_9_W) :
    after hostOps0_9 V (Proc.devRef .tc r) = V (Proc.devRef .tc r) := after_of_writes_sub hostOps0_9 _ hostOps0_9_writes h

abbrev hostOps0_10_W : List (Ref sig .tc) := [main_v155, main_v156, main_v157, main_v158, main_v159, main_v160, main_v161, main_v162, main_v163, main_v164, main_v165, main_v166, main_v167, main_v168]
theorem hostOps0_10_writes : (hostOps0_10 : List (HloOp τ sig (Elt F))).Forall fun op => op.writes ⊆ (hostOps0_10_W.map (Proc.devRef (τ := τ) .tc)).toFinset := by
  simp only [List.Forall]
  repeat' apply And.intro
  all_goals exact Cert.Line.writes_sub_of_mem rfl (by decide)

theorem hostOps0_10_keep (V : Valuation τ sig (Elt F)) (r : Ref sig .tc) (h : r ∉ hostOps0_10_W) :
    after hostOps0_10 V (Proc.devRef .tc r) = V (Proc.devRef .tc r) := after_of_writes_sub hostOps0_10 _ hostOps0_10_writes h

abbrev hostOps0_11_W : List (Ref sig .tc) := [main_call6_v0, main_v169]
theorem hostOps0_11_writes : (hostOps0_11 : List (HloOp τ sig (Elt F))).Forall fun op => op.writes ⊆ (hostOps0_11_W.map (Proc.devRef (τ := τ) .tc)).toFinset := by
  simp only [List.Forall]
  repeat' apply And.intro
  all_goals exact Cert.Line.writes_sub_of_mem rfl (by decide)

theorem hostOps0_11_keep (V : Valuation τ sig (Elt F)) (r : Ref sig .tc) (h : r ∉ hostOps0_11_W) :
    after hostOps0_11 V (Proc.devRef .tc r) = V (Proc.devRef .tc r) := after_of_writes_sub hostOps0_11 _ hostOps0_11_writes h

abbrev hostOps0_12_W : List (Ref sig .tc) := [main_call7_v0, main_v170]
theorem hostOps0_12_writes : (hostOps0_12 : List (HloOp τ sig (Elt F))).Forall fun op => op.writes ⊆ (hostOps0_12_W.map (Proc.devRef (τ := τ) .tc)).toFinset := by
  simp only [List.Forall]
  repeat' apply And.intro
  all_goals exact Cert.Line.writes_sub_of_mem rfl (by decide)

theorem hostOps0_12_keep (V : Valuation τ sig (Elt F)) (r : Ref sig .tc) (h : r ∉ hostOps0_12_W) :
    after hostOps0_12 V (Proc.devRef .tc r) = V (Proc.devRef .tc r) := after_of_writes_sub hostOps0_12 _ hostOps0_12_writes h

abbrev hostOps0_13_W : List (Ref sig .tc) := [main_v171, main_v172, main_v173, main_v174, main_v175, main_v176, main_v177, main_v178, main_v179, main_v180, main_v181, main_v182, main_v183, main_v184]
theorem hostOps0_13_writes : (hostOps0_13 : List (HloOp τ sig (Elt F))).Forall fun op => op.writes ⊆ (hostOps0_13_W.map (Proc.devRef (τ := τ) .tc)).toFinset := by
  simp only [List.Forall]
  repeat' apply And.intro
  all_goals exact Cert.Line.writes_sub_of_mem rfl (by decide)

theorem hostOps0_13_keep (V : Valuation τ sig (Elt F)) (r : Ref sig .tc) (h : r ∉ hostOps0_13_W) :
    after hostOps0_13 V (Proc.devRef .tc r) = V (Proc.devRef .tc r) := after_of_writes_sub hostOps0_13 _ hostOps0_13_writes h

abbrev hostOps0_14_W : List (Ref sig .tc) := [main_call8_v0, main_v185]
theorem hostOps0_14_writes : (hostOps0_14 : List (HloOp τ sig (Elt F))).Forall fun op => op.writes ⊆ (hostOps0_14_W.map (Proc.devRef (τ := τ) .tc)).toFinset := by
  simp only [List.Forall]
  repeat' apply And.intro
  all_goals exact Cert.Line.writes_sub_of_mem rfl (by decide)

theorem hostOps0_14_keep (V : Valuation τ sig (Elt F)) (r : Ref sig .tc) (h : r ∉ hostOps0_14_W) :
    after hostOps0_14 V (Proc.devRef .tc r) = V (Proc.devRef .tc r) := after_of_writes_sub hostOps0_14 _ hostOps0_14_writes h

abbrev hostOps0_15_W : List (Ref sig .tc) := [main_call9_v0, main_v186]
theorem hostOps0_15_writes : (hostOps0_15 : List (HloOp τ sig (Elt F))).Forall fun op => op.writes ⊆ (hostOps0_15_W.map (Proc.devRef (τ := τ) .tc)).toFinset := by
  simp only [List.Forall]
  repeat' apply And.intro
  all_goals exact Cert.Line.writes_sub_of_mem rfl (by decide)

theorem hostOps0_15_keep (V : Valuation τ sig (Elt F)) (r : Ref sig .tc) (h : r ∉ hostOps0_15_W) :
    after hostOps0_15 V (Proc.devRef .tc r) = V (Proc.devRef .tc r) := after_of_writes_sub hostOps0_15 _ hostOps0_15_writes h

abbrev hostOps0_16_W : List (Ref sig .tc) := [main_v187, main_v188, main_v189, main_v190, main_v191, main_v192, main_v193, main_v194, main_v195, main_v196, main_v197, main_v198, main_v199, main_v200]
theorem hostOps0_16_writes : (hostOps0_16 : List (HloOp τ sig (Elt F))).Forall fun op => op.writes ⊆ (hostOps0_16_W.map (Proc.devRef (τ := τ) .tc)).toFinset := by
  simp only [List.Forall]
  repeat' apply And.intro
  all_goals exact Cert.Line.writes_sub_of_mem rfl (by decide)

theorem hostOps0_16_keep (V : Valuation τ sig (Elt F)) (r : Ref sig .tc) (h : r ∉ hostOps0_16_W) :
    after hostOps0_16 V (Proc.devRef .tc r) = V (Proc.devRef .tc r) := after_of_writes_sub hostOps0_16 _ hostOps0_16_writes h

abbrev hostOps0_17_W : List (Ref sig .tc) := [main_call10_v0, main_v201]
theorem hostOps0_17_writes : (hostOps0_17 : List (HloOp τ sig (Elt F))).Forall fun op => op.writes ⊆ (hostOps0_17_W.map (Proc.devRef (τ := τ) .tc)).toFinset := by
  simp only [List.Forall]
  repeat' apply And.intro
  all_goals exact Cert.Line.writes_sub_of_mem rfl (by decide)

theorem hostOps0_17_keep (V : Valuation τ sig (Elt F)) (r : Ref sig .tc) (h : r ∉ hostOps0_17_W) :
    after hostOps0_17 V (Proc.devRef .tc r) = V (Proc.devRef .tc r) := after_of_writes_sub hostOps0_17 _ hostOps0_17_writes h

abbrev hostOps0_18_W : List (Ref sig .tc) := [main_call11_v0, main_v202]
theorem hostOps0_18_writes : (hostOps0_18 : List (HloOp τ sig (Elt F))).Forall fun op => op.writes ⊆ (hostOps0_18_W.map (Proc.devRef (τ := τ) .tc)).toFinset := by
  simp only [List.Forall]
  repeat' apply And.intro
  all_goals exact Cert.Line.writes_sub_of_mem rfl (by decide)

theorem hostOps0_18_keep (V : Valuation τ sig (Elt F)) (r : Ref sig .tc) (h : r ∉ hostOps0_18_W) :
    after hostOps0_18 V (Proc.devRef .tc r) = V (Proc.devRef .tc r) := after_of_writes_sub hostOps0_18 _ hostOps0_18_writes h

abbrev hostOps0_19_W : List (Ref sig .tc) := [main_v203, main_v204, main_v205, main_v206, main_v207, main_v208, main_v209, main_v210, main_v211, main_v212, main_v213, main_v214, main_v215, main_v216]
theorem hostOps0_19_writes : (hostOps0_19 : List (HloOp τ sig (Elt F))).Forall fun op => op.writes ⊆ (hostOps0_19_W.map (Proc.devRef (τ := τ) .tc)).toFinset := by
  simp only [List.Forall]
  repeat' apply And.intro
  all_goals exact Cert.Line.writes_sub_of_mem rfl (by decide)

theorem hostOps0_19_keep (V : Valuation τ sig (Elt F)) (r : Ref sig .tc) (h : r ∉ hostOps0_19_W) :
    after hostOps0_19 V (Proc.devRef .tc r) = V (Proc.devRef .tc r) := after_of_writes_sub hostOps0_19 _ hostOps0_19_writes h

abbrev hostOps0_20_W : List (Ref sig .tc) := [main_call12_v0, main_v217]
theorem hostOps0_20_writes : (hostOps0_20 : List (HloOp τ sig (Elt F))).Forall fun op => op.writes ⊆ (hostOps0_20_W.map (Proc.devRef (τ := τ) .tc)).toFinset := by
  simp only [List.Forall]
  repeat' apply And.intro
  all_goals exact Cert.Line.writes_sub_of_mem rfl (by decide)

theorem hostOps0_20_keep (V : Valuation τ sig (Elt F)) (r : Ref sig .tc) (h : r ∉ hostOps0_20_W) :
    after hostOps0_20 V (Proc.devRef .tc r) = V (Proc.devRef .tc r) := after_of_writes_sub hostOps0_20 _ hostOps0_20_writes h

abbrev hostOps0_21_W : List (Ref sig .tc) := [main_call13_v0, main_v218]
theorem hostOps0_21_writes : (hostOps0_21 : List (HloOp τ sig (Elt F))).Forall fun op => op.writes ⊆ (hostOps0_21_W.map (Proc.devRef (τ := τ) .tc)).toFinset := by
  simp only [List.Forall]
  repeat' apply And.intro
  all_goals exact Cert.Line.writes_sub_of_mem rfl (by decide)

theorem hostOps0_21_keep (V : Valuation τ sig (Elt F)) (r : Ref sig .tc) (h : r ∉ hostOps0_21_W) :
    after hostOps0_21 V (Proc.devRef .tc r) = V (Proc.devRef .tc r) := after_of_writes_sub hostOps0_21 _ hostOps0_21_writes h

abbrev hostOps0_22_W : List (Ref sig .tc) := [main_v219, main_v220, main_v221, main_v222, main_v223, main_v224, main_v225, main_v226, main_v227, main_v228, main_v229, main_v230, main_v231, main_v232]
theorem hostOps0_22_writes : (hostOps0_22 : List (HloOp τ sig (Elt F))).Forall fun op => op.writes ⊆ (hostOps0_22_W.map (Proc.devRef (τ := τ) .tc)).toFinset := by
  simp only [List.Forall]
  repeat' apply And.intro
  all_goals exact Cert.Line.writes_sub_of_mem rfl (by decide)

theorem hostOps0_22_keep (V : Valuation τ sig (Elt F)) (r : Ref sig .tc) (h : r ∉ hostOps0_22_W) :
    after hostOps0_22 V (Proc.devRef .tc r) = V (Proc.devRef .tc r) := after_of_writes_sub hostOps0_22 _ hostOps0_22_writes h

abbrev hostOps0_23_W : List (Ref sig .tc) := [main_call14_v0, main_v233]
theorem hostOps0_23_writes : (hostOps0_23 : List (HloOp τ sig (Elt F))).Forall fun op => op.writes ⊆ (hostOps0_23_W.map (Proc.devRef (τ := τ) .tc)).toFinset := by
  simp only [List.Forall]
  repeat' apply And.intro
  all_goals exact Cert.Line.writes_sub_of_mem rfl (by decide)

theorem hostOps0_23_keep (V : Valuation τ sig (Elt F)) (r : Ref sig .tc) (h : r ∉ hostOps0_23_W) :
    after hostOps0_23 V (Proc.devRef .tc r) = V (Proc.devRef .tc r) := after_of_writes_sub hostOps0_23 _ hostOps0_23_writes h

abbrev hostOps0_24_W : List (Ref sig .tc) := [main_call15_v0, main_v234]
theorem hostOps0_24_writes : (hostOps0_24 : List (HloOp τ sig (Elt F))).Forall fun op => op.writes ⊆ (hostOps0_24_W.map (Proc.devRef (τ := τ) .tc)).toFinset := by
  simp only [List.Forall]
  repeat' apply And.intro
  all_goals exact Cert.Line.writes_sub_of_mem rfl (by decide)

theorem hostOps0_24_keep (V : Valuation τ sig (Elt F)) (r : Ref sig .tc) (h : r ∉ hostOps0_24_W) :
    after hostOps0_24 V (Proc.devRef .tc r) = V (Proc.devRef .tc r) := after_of_writes_sub hostOps0_24 _ hostOps0_24_writes h

abbrev hostOps0_25_W : List (Ref sig .tc) := [main_v235, main_v236, main_v237, main_v238, main_v239, main_v240, main_v241, main_v242, main_v243, main_v244, main_v245, main_v246, main_v247, main_v248]
theorem hostOps0_25_writes : (hostOps0_25 : List (HloOp τ sig (Elt F))).Forall fun op => op.writes ⊆ (hostOps0_25_W.map (Proc.devRef (τ := τ) .tc)).toFinset := by
  simp only [List.Forall]
  repeat' apply And.intro
  all_goals exact Cert.Line.writes_sub_of_mem rfl (by decide)

theorem hostOps0_25_keep (V : Valuation τ sig (Elt F)) (r : Ref sig .tc) (h : r ∉ hostOps0_25_W) :
    after hostOps0_25 V (Proc.devRef .tc r) = V (Proc.devRef .tc r) := after_of_writes_sub hostOps0_25 _ hostOps0_25_writes h

abbrev hostOps0_26_W : List (Ref sig .tc) := [main_call16_v0, main_v249]
theorem hostOps0_26_writes : (hostOps0_26 : List (HloOp τ sig (Elt F))).Forall fun op => op.writes ⊆ (hostOps0_26_W.map (Proc.devRef (τ := τ) .tc)).toFinset := by
  simp only [List.Forall]
  repeat' apply And.intro
  all_goals exact Cert.Line.writes_sub_of_mem rfl (by decide)

theorem hostOps0_26_keep (V : Valuation τ sig (Elt F)) (r : Ref sig .tc) (h : r ∉ hostOps0_26_W) :
    after hostOps0_26 V (Proc.devRef .tc r) = V (Proc.devRef .tc r) := after_of_writes_sub hostOps0_26 _ hostOps0_26_writes h

abbrev hostOps0_27_W : List (Ref sig .tc) := [main_call17_v0, main_v250]
theorem hostOps0_27_writes : (hostOps0_27 : List (HloOp τ sig (Elt F))).Forall fun op => op.writes ⊆ (hostOps0_27_W.map (Proc.devRef (τ := τ) .tc)).toFinset := by
  simp only [List.Forall]
  repeat' apply And.intro
  all_goals exact Cert.Line.writes_sub_of_mem rfl (by decide)

theorem hostOps0_27_keep (V : Valuation τ sig (Elt F)) (r : Ref sig .tc) (h : r ∉ hostOps0_27_W) :
    after hostOps0_27 V (Proc.devRef .tc r) = V (Proc.devRef .tc r) := after_of_writes_sub hostOps0_27 _ hostOps0_27_writes h

abbrev hostOps0_28_W : List (Ref sig .tc) := [main_v251, main_v252, main_v253, main_v254, main_v255, main_v256, main_v257, main_v258, main_v259, main_v260, main_v261, main_v262, main_v263, main_v264, main_v265, main_v266, main_v267, main_v268, main_v269]
theorem hostOps0_28_writes : (hostOps0_28 : List (HloOp τ sig (Elt F))).Forall fun op => op.writes ⊆ (hostOps0_28_W.map (Proc.devRef (τ := τ) .tc)).toFinset := by
  simp only [List.Forall]
  repeat' apply And.intro
  all_goals exact Cert.Line.writes_sub_of_mem rfl (by decide)

theorem hostOps0_28_keep (V : Valuation τ sig (Elt F)) (r : Ref sig .tc) (h : r ∉ hostOps0_28_W) :
    after hostOps0_28 V (Proc.devRef .tc r) = V (Proc.devRef .tc r) := after_of_writes_sub hostOps0_28 _ hostOps0_28_writes h

/-- One accumulation step of the first interpolation: `acc + gather g idx · wt`. -/
def stepA (acc : FVec F S2000000 .f32) (g : FVec F S33554432 .f32) (iw : IVec S2000000 32) (wt : FVec F S2000000 .f32) :
    FVec F S2000000 .f32 :=
  addf acc (mulf (Host.gather gather_S33554432_S2000000x1_S2000000_n_0_n_n_0_1_1 g
    (broadcastInDim S2000000x1 ![0] bcast_S2000000_S2000000x1_0 iw)) wt)

/-- One accumulation step of the second interpolation, on the channel the slice `off` picks out of the gathered rows. -/
def stepN (acc : FVec F S2000000 .f32) (g : FVec F S33554432x3 .f32) (iw : IVec S2000000 32) (off : Fin 2 → Nat)
    (hs : S2000000x3.Slices off S2000000x1) (wt : FVec F S2000000 .f32) : FVec F S2000000 .f32 :=
  addf acc (mulf (shapeCast S2000000 (extractStridedSlice S2000000x1 off
    (Host.gather gather_S33554432x3_S2000000x1_S2000000x3_1_0_n_n_0_1_13 g
      (broadcastInDim S2000000x1 ![0] bcast_S2000000_S2000000x1_0 iw)) hs) shapeCasts_S2000000x1_S2000000) wt)

/-- The contents after each window of stretches in turn, and each live buffer there as the operations composed over the contents before. -/
def v_wA (V : Valuation τ sig (Elt F)) : Valuation τ sig (Elt F) := (after hostOps0_3 (after hostOps0_2 (after hostOps0_1 (after hostOps0 V))))
theorem v_wA_keep {V : Valuation τ sig (Elt F)} (r : Ref sig .tc) (h0 : r ∉ hostOps0_W) (h1 : r ∉ hostOps0_1_W) (h2 : r ∉ hostOps0_2_W) (h3 : r ∉ hostOps0_3_W) :
    v_wA V (Proc.devRef .tc r) = V (Proc.devRef .tc r) := by
  unfold v_wA
  rw [hostOps0_3_keep _ r h3, hostOps0_2_keep _ r h2, hostOps0_1_keep _ r h1, hostOps0_keep _ r h0]

set_option maxHeartbeats 4000000 in
theorem v_wA_main_v1_eq (V : Valuation τ sig (Elt F)) : v_wA V (Proc.devRef .tc main_v1) =
      ((subf : (⟨S2000000x3, .f32⟩ : BufTy).Contents (Elt F) → (⟨S2000000x3, .f32⟩ : BufTy).Contents (Elt F) → (⟨S2000000x3, .f32⟩ : BufTy).Contents (Elt F)) (V (Proc.devRef .tc main_arg0)) ((Host.floor : (⟨S2000000x3, .f32⟩ : BufTy).Contents (Elt F) → (⟨S2000000x3, .f32⟩ : BufTy).Contents (Elt F)) (V (Proc.devRef .tc main_arg0)))) := by
  unfold v_wA
  simp only [hostOps0, hostOps0_1, hostOps0_2, hostOps0_3]
  after_results_simp
  all_goals rfl

set_option maxHeartbeats 4000000 in
theorem v_wA_main_v6_eq (V : Valuation τ sig (Elt F)) : v_wA V (Proc.devRef .tc main_v6) =
      (minsi ((broadcastInDim S2000000x3 ![0, 1] bcast_S1x3_S2000000x3_0_1) ((broadcastInDim S1x3 ![1] bcast_S3_S1x3_1) (fun i => lit0 (S3.rowMajor i)))) (maxsi ((broadcastInDim S2000000x3 ![] bcast_S_S2000000x3) (id (constantI S_ 32 0#32))) ((addi : (⟨S2000000x3, .i32⟩ : BufTy).Contents (Elt F) → (⟨S2000000x3, .i32⟩ : BufTy).Contents (Elt F) → (⟨S2000000x3, .i32⟩ : BufTy).Contents (Elt F)) (minsi ((broadcastInDim S2000000x3 ![0, 1] bcast_S1x3_S2000000x3_0_1) ((broadcastInDim S1x3 ![1] bcast_S3_S1x3_1) (fun i => lit0 (S3.rowMajor i)))) (maxsi ((broadcastInDim S2000000x3 ![] bcast_S_S2000000x3) (id (constantI S_ 32 0#32))) ((fptosi 32 : (⟨S2000000x3, .f32⟩ : BufTy).Contents (Elt F) → (⟨S2000000x3, .i32⟩ : BufTy).Contents (Elt F)) ((Host.floor : (⟨S2000000x3, .f32⟩ : BufTy).Contents (Elt F) → (⟨S2000000x3, .f32⟩ : BufTy).Contents (Elt F)) (V (Proc.devRef .tc main_arg0)))))) ((broadcastInDim S2000000x3 ![] bcast_S_S2000000x3 : (⟨S_, .i32⟩ : BufTy).Contents (Elt F) → (⟨S2000000x3, .i32⟩ : BufTy).Contents (Elt F)) (constantI S_ 32 1#32))))) := by
  unfold v_wA
  simp only [hostOps0, hostOps0_1, hostOps0_2, hostOps0_3]
  after_results_simp
  all_goals rfl

set_option maxHeartbeats 4000000 in
theorem v_wA_main_v3_eq (V : Valuation τ sig (Elt F)) : v_wA V (Proc.devRef .tc main_v3) =
      (minsi ((broadcastInDim S2000000x3 ![0, 1] bcast_S1x3_S2000000x3_0_1) ((broadcastInDim S1x3 ![1] bcast_S3_S1x3_1) (fun i => lit0 (S3.rowMajor i)))) (maxsi ((broadcastInDim S2000000x3 ![] bcast_S_S2000000x3) (id (constantI S_ 32 0#32))) ((fptosi 32 : (⟨S2000000x3, .f32⟩ : BufTy).Contents (Elt F) → (⟨S2000000x3, .i32⟩ : BufTy).Contents (Elt F)) ((Host.floor : (⟨S2000000x3, .f32⟩ : BufTy).Contents (Elt F) → (⟨S2000000x3, .f32⟩ : BufTy).Contents (Elt F)) (V (Proc.devRef .tc main_arg0)))))) := by
  unfold v_wA
  simp only [hostOps0, hostOps0_1, hostOps0_2, hostOps0_3]
  after_results_simp
  all_goals rfl

def v_wB (V : Valuation τ sig (Elt F)) : Valuation τ sig (Elt F) := (after hostOps0_4 (v_wA V))
theorem v_wB_keep {V : Valuation τ sig (Elt F)} (r : Ref sig .tc) (h0 : r ∉ hostOps0_4_W) :
    v_wB V (Proc.devRef .tc r) = (v_wA V) (Proc.devRef .tc r) := by
  unfold v_wB
  rw [hostOps0_4_keep _ r h0]

set_option maxHeartbeats 4000000 in
theorem v_wB_main_v132_eq (V : Valuation τ sig (Elt F)) : v_wB V (Proc.devRef .tc main_v132) =
      ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (shapeCast _ (((extractStridedSlice S2000000x1 ![0, 0] · slices_S2000000x3_S2000000x1_0_0) : (⟨S2000000x3, .f32⟩ : BufTy).Contents (Elt F) → (⟨S2000000x1, .f32⟩ : BufTy).Contents (Elt F)) ((v_wA V) (Proc.devRef .tc main_v1))) shapeCasts_S2000000x1_S2000000) (shapeCast _ (((extractStridedSlice S2000000x1 ![0, 1] · slices_S2000000x3_S2000000x1_0_1) : (⟨S2000000x3, .f32⟩ : BufTy).Contents (Elt F) → (⟨S2000000x1, .f32⟩ : BufTy).Contents (Elt F)) ((v_wA V) (Proc.devRef .tc main_v1))) shapeCasts_S2000000x1_S2000000)) (shapeCast _ (((extractStridedSlice S2000000x1 ![0, 2] · slices_S2000000x3_S2000000x1_0_2) : (⟨S2000000x3, .f32⟩ : BufTy).Contents (Elt F) → (⟨S2000000x1, .f32⟩ : BufTy).Contents (Elt F)) ((v_wA V) (Proc.devRef .tc main_v1))) shapeCasts_S2000000x1_S2000000)) := by
  unfold v_wB
  generalize v_wA V = V
  simp only [hostOps0_4]
  after_results_simp
  all_goals rfl

set_option maxHeartbeats 4000000 in
theorem v_wB_main_v108_eq (V : Valuation τ sig (Elt F)) : v_wB V (Proc.devRef .tc main_v108) =
      ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) (shapeCast _ (((extractStridedSlice S2000000x1 ![0, 0] · slices_S2000000x3_S2000000x1_0_0) : (⟨S2000000x3, .i32⟩ : BufTy).Contents (Elt F) → (⟨S2000000x1, .i32⟩ : BufTy).Contents (Elt F)) ((v_wA V) (Proc.devRef .tc main_v6))) shapeCasts_S2000000x1_S2000000) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 1] · slices_S2000000x3_S2000000x1_0_1) : (⟨S2000000x3, .i32⟩ : BufTy).Contents (Elt F) → (⟨S2000000x1, .i32⟩ : BufTy).Contents (Elt F)) ((v_wA V) (Proc.devRef .tc main_v6))) shapeCasts_S2000000x1_S2000000)) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 2] · slices_S2000000x3_S2000000x1_0_2) : (⟨S2000000x3, .i32⟩ : BufTy).Contents (Elt F) → (⟨S2000000x1, .i32⟩ : BufTy).Contents (Elt F)) ((v_wA V) (Proc.devRef .tc main_v6))) shapeCasts_S2000000x1_S2000000)) := by
  unfold v_wB
  generalize v_wA V = V
  simp only [hostOps0_4]
  after_results_simp
  all_goals rfl

set_option maxHeartbeats 4000000 in
theorem v_wB_main_v110_eq (V : Valuation τ sig (Elt F)) : v_wB V (Proc.devRef .tc main_v110) =
      (shapeCast _ ((v_wA V) (Proc.devRef .tc main_arg2)) shapeCasts_S128x512x512x3_S33554432x3) := by
  unfold v_wB
  generalize v_wA V = V
  simp only [hostOps0_4]
  after_results_simp
  all_goals rfl

set_option maxHeartbeats 4000000 in
theorem v_wB_main_v109_eq (V : Valuation τ sig (Elt F)) : v_wB V (Proc.devRef .tc main_v109) =
      (shapeCast _ ((v_wA V) (Proc.devRef .tc main_arg1)) shapeCasts_S128x512x512_S33554432) := by
  unfold v_wB
  generalize v_wA V = V
  simp only [hostOps0_4]
  after_results_simp
  all_goals rfl

set_option maxHeartbeats 4000000 in
theorem v_wB_main_v130_eq (V : Valuation τ sig (Elt F)) : v_wB V (Proc.devRef .tc main_v130) =
      ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (shapeCast _ (((extractStridedSlice S2000000x1 ![0, 0] · slices_S2000000x3_S2000000x1_0_0) : (⟨S2000000x3, .f32⟩ : BufTy).Contents (Elt F) → (⟨S2000000x1, .f32⟩ : BufTy).Contents (Elt F)) ((v_wA V) (Proc.devRef .tc main_v1))) shapeCasts_S2000000x1_S2000000) (shapeCast _ (((extractStridedSlice S2000000x1 ![0, 1] · slices_S2000000x3_S2000000x1_0_1) : (⟨S2000000x3, .f32⟩ : BufTy).Contents (Elt F) → (⟨S2000000x1, .f32⟩ : BufTy).Contents (Elt F)) ((v_wA V) (Proc.devRef .tc main_v1))) shapeCasts_S2000000x1_S2000000)) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 2] · slices_S2000000x3_S2000000x1_0_2) : (⟨S2000000x3, .f32⟩ : BufTy).Contents (Elt F) → (⟨S2000000x1, .f32⟩ : BufTy).Contents (Elt F)) ((v_wA V) (Proc.devRef .tc main_v1))) shapeCasts_S2000000x1_S2000000))) := by
  unfold v_wB
  generalize v_wA V = V
  simp only [hostOps0_4]
  after_results_simp
  all_goals rfl

set_option maxHeartbeats 4000000 in
theorem v_wB_main_v102_eq (V : Valuation τ sig (Elt F)) : v_wB V (Proc.devRef .tc main_v102) =
      ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) (shapeCast _ (((extractStridedSlice S2000000x1 ![0, 0] · slices_S2000000x3_S2000000x1_0_0) : (⟨S2000000x3, .i32⟩ : BufTy).Contents (Elt F) → (⟨S2000000x1, .i32⟩ : BufTy).Contents (Elt F)) ((v_wA V) (Proc.devRef .tc main_v6))) shapeCasts_S2000000x1_S2000000) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 1] · slices_S2000000x3_S2000000x1_0_1) : (⟨S2000000x3, .i32⟩ : BufTy).Contents (Elt F) → (⟨S2000000x1, .i32⟩ : BufTy).Contents (Elt F)) ((v_wA V) (Proc.devRef .tc main_v6))) shapeCasts_S2000000x1_S2000000)) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 2] · slices_S2000000x3_S2000000x1_0_2) : (⟨S2000000x3, .i32⟩ : BufTy).Contents (Elt F) → (⟨S2000000x1, .i32⟩ : BufTy).Contents (Elt F)) ((v_wA V) (Proc.devRef .tc main_v3))) shapeCasts_S2000000x1_S2000000)) := by
  unfold v_wB
  generalize v_wA V = V
  simp only [hostOps0_4]
  after_results_simp
  all_goals rfl

set_option maxHeartbeats 4000000 in
theorem v_wB_main_v128_eq (V : Valuation τ sig (Elt F)) : v_wB V (Proc.devRef .tc main_v128) =
      ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (shapeCast _ (((extractStridedSlice S2000000x1 ![0, 0] · slices_S2000000x3_S2000000x1_0_0) : (⟨S2000000x3, .f32⟩ : BufTy).Contents (Elt F) → (⟨S2000000x1, .f32⟩ : BufTy).Contents (Elt F)) ((v_wA V) (Proc.devRef .tc main_v1))) shapeCasts_S2000000x1_S2000000) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 1] · slices_S2000000x3_S2000000x1_0_1) : (⟨S2000000x3, .f32⟩ : BufTy).Contents (Elt F) → (⟨S2000000x1, .f32⟩ : BufTy).Contents (Elt F)) ((v_wA V) (Proc.devRef .tc main_v1))) shapeCasts_S2000000x1_S2000000))) (shapeCast _ (((extractStridedSlice S2000000x1 ![0, 2] · slices_S2000000x3_S2000000x1_0_2) : (⟨S2000000x3, .f32⟩ : BufTy).Contents (Elt F) → (⟨S2000000x1, .f32⟩ : BufTy).Contents (Elt F)) ((v_wA V) (Proc.devRef .tc main_v1))) shapeCasts_S2000000x1_S2000000)) := by
  unfold v_wB
  generalize v_wA V = V
  simp only [hostOps0_4]
  after_results_simp
  all_goals rfl

set_option maxHeartbeats 4000000 in
theorem v_wB_main_v96_eq (V : Valuation τ sig (Elt F)) : v_wB V (Proc.devRef .tc main_v96) =
      ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) (shapeCast _ (((extractStridedSlice S2000000x1 ![0, 0] · slices_S2000000x3_S2000000x1_0_0) : (⟨S2000000x3, .i32⟩ : BufTy).Contents (Elt F) → (⟨S2000000x1, .i32⟩ : BufTy).Contents (Elt F)) ((v_wA V) (Proc.devRef .tc main_v6))) shapeCasts_S2000000x1_S2000000) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 1] · slices_S2000000x3_S2000000x1_0_1) : (⟨S2000000x3, .i32⟩ : BufTy).Contents (Elt F) → (⟨S2000000x1, .i32⟩ : BufTy).Contents (Elt F)) ((v_wA V) (Proc.devRef .tc main_v3))) shapeCasts_S2000000x1_S2000000)) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 2] · slices_S2000000x3_S2000000x1_0_2) : (⟨S2000000x3, .i32⟩ : BufTy).Contents (Elt F) → (⟨S2000000x1, .i32⟩ : BufTy).Contents (Elt F)) ((v_wA V) (Proc.devRef .tc main_v6))) shapeCasts_S2000000x1_S2000000)) := by
  unfold v_wB
  generalize v_wA V = V
  simp only [hostOps0_4]
  after_results_simp
  all_goals rfl

set_option maxHeartbeats 4000000 in
theorem v_wB_main_v126_eq (V : Valuation τ sig (Elt F)) : v_wB V (Proc.devRef .tc main_v126) =
      ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (shapeCast _ (((extractStridedSlice S2000000x1 ![0, 0] · slices_S2000000x3_S2000000x1_0_0) : (⟨S2000000x3, .f32⟩ : BufTy).Contents (Elt F) → (⟨S2000000x1, .f32⟩ : BufTy).Contents (Elt F)) ((v_wA V) (Proc.devRef .tc main_v1))) shapeCasts_S2000000x1_S2000000) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 1] · slices_S2000000x3_S2000000x1_0_1) : (⟨S2000000x3, .f32⟩ : BufTy).Contents (Elt F) → (⟨S2000000x1, .f32⟩ : BufTy).Contents (Elt F)) ((v_wA V) (Proc.devRef .tc main_v1))) shapeCasts_S2000000x1_S2000000))) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 2] · slices_S2000000x3_S2000000x1_0_2) : (⟨S2000000x3, .f32⟩ : BufTy).Contents (Elt F) → (⟨S2000000x1, .f32⟩ : BufTy).Contents (Elt F)) ((v_wA V) (Proc.devRef .tc main_v1))) shapeCasts_S2000000x1_S2000000))) := by
  unfold v_wB
  generalize v_wA V = V
  simp only [hostOps0_4]
  after_results_simp
  all_goals rfl

set_option maxHeartbeats 4000000 in
theorem v_wB_main_v90_eq (V : Valuation τ sig (Elt F)) : v_wB V (Proc.devRef .tc main_v90) =
      ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) (shapeCast _ (((extractStridedSlice S2000000x1 ![0, 0] · slices_S2000000x3_S2000000x1_0_0) : (⟨S2000000x3, .i32⟩ : BufTy).Contents (Elt F) → (⟨S2000000x1, .i32⟩ : BufTy).Contents (Elt F)) ((v_wA V) (Proc.devRef .tc main_v6))) shapeCasts_S2000000x1_S2000000) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 1] · slices_S2000000x3_S2000000x1_0_1) : (⟨S2000000x3, .i32⟩ : BufTy).Contents (Elt F) → (⟨S2000000x1, .i32⟩ : BufTy).Contents (Elt F)) ((v_wA V) (Proc.devRef .tc main_v3))) shapeCasts_S2000000x1_S2000000)) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 2] · slices_S2000000x3_S2000000x1_0_2) : (⟨S2000000x3, .i32⟩ : BufTy).Contents (Elt F) → (⟨S2000000x1, .i32⟩ : BufTy).Contents (Elt F)) ((v_wA V) (Proc.devRef .tc main_v3))) shapeCasts_S2000000x1_S2000000)) := by
  unfold v_wB
  generalize v_wA V = V
  simp only [hostOps0_4]
  after_results_simp
  all_goals rfl

set_option maxHeartbeats 4000000 in
theorem v_wB_main_v124_eq (V : Valuation τ sig (Elt F)) : v_wB V (Proc.devRef .tc main_v124) =
      ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 0] · slices_S2000000x3_S2000000x1_0_0) : (⟨S2000000x3, .f32⟩ : BufTy).Contents (Elt F) → (⟨S2000000x1, .f32⟩ : BufTy).Contents (Elt F)) ((v_wA V) (Proc.devRef .tc main_v1))) shapeCasts_S2000000x1_S2000000)) (shapeCast _ (((extractStridedSlice S2000000x1 ![0, 1] · slices_S2000000x3_S2000000x1_0_1) : (⟨S2000000x3, .f32⟩ : BufTy).Contents (Elt F) → (⟨S2000000x1, .f32⟩ : BufTy).Contents (Elt F)) ((v_wA V) (Proc.devRef .tc main_v1))) shapeCasts_S2000000x1_S2000000)) (shapeCast _ (((extractStridedSlice S2000000x1 ![0, 2] · slices_S2000000x3_S2000000x1_0_2) : (⟨S2000000x3, .f32⟩ : BufTy).Contents (Elt F) → (⟨S2000000x1, .f32⟩ : BufTy).Contents (Elt F)) ((v_wA V) (Proc.devRef .tc main_v1))) shapeCasts_S2000000x1_S2000000)) := by
  unfold v_wB
  generalize v_wA V = V
  simp only [hostOps0_4]
  after_results_simp
  all_goals rfl

set_option maxHeartbeats 4000000 in
theorem v_wB_main_v84_eq (V : Valuation τ sig (Elt F)) : v_wB V (Proc.devRef .tc main_v84) =
      ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) (shapeCast _ (((extractStridedSlice S2000000x1 ![0, 0] · slices_S2000000x3_S2000000x1_0_0) : (⟨S2000000x3, .i32⟩ : BufTy).Contents (Elt F) → (⟨S2000000x1, .i32⟩ : BufTy).Contents (Elt F)) ((v_wA V) (Proc.devRef .tc main_v3))) shapeCasts_S2000000x1_S2000000) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 1] · slices_S2000000x3_S2000000x1_0_1) : (⟨S2000000x3, .i32⟩ : BufTy).Contents (Elt F) → (⟨S2000000x1, .i32⟩ : BufTy).Contents (Elt F)) ((v_wA V) (Proc.devRef .tc main_v6))) shapeCasts_S2000000x1_S2000000)) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 2] · slices_S2000000x3_S2000000x1_0_2) : (⟨S2000000x3, .i32⟩ : BufTy).Contents (Elt F) → (⟨S2000000x1, .i32⟩ : BufTy).Contents (Elt F)) ((v_wA V) (Proc.devRef .tc main_v6))) shapeCasts_S2000000x1_S2000000)) := by
  unfold v_wB
  generalize v_wA V = V
  simp only [hostOps0_4]
  after_results_simp
  all_goals rfl

set_option maxHeartbeats 4000000 in
theorem v_wB_main_v122_eq (V : Valuation τ sig (Elt F)) : v_wB V (Proc.devRef .tc main_v122) =
      ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 0] · slices_S2000000x3_S2000000x1_0_0) : (⟨S2000000x3, .f32⟩ : BufTy).Contents (Elt F) → (⟨S2000000x1, .f32⟩ : BufTy).Contents (Elt F)) ((v_wA V) (Proc.devRef .tc main_v1))) shapeCasts_S2000000x1_S2000000)) (shapeCast _ (((extractStridedSlice S2000000x1 ![0, 1] · slices_S2000000x3_S2000000x1_0_1) : (⟨S2000000x3, .f32⟩ : BufTy).Contents (Elt F) → (⟨S2000000x1, .f32⟩ : BufTy).Contents (Elt F)) ((v_wA V) (Proc.devRef .tc main_v1))) shapeCasts_S2000000x1_S2000000)) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 2] · slices_S2000000x3_S2000000x1_0_2) : (⟨S2000000x3, .f32⟩ : BufTy).Contents (Elt F) → (⟨S2000000x1, .f32⟩ : BufTy).Contents (Elt F)) ((v_wA V) (Proc.devRef .tc main_v1))) shapeCasts_S2000000x1_S2000000))) := by
  unfold v_wB
  generalize v_wA V = V
  simp only [hostOps0_4]
  after_results_simp
  all_goals rfl

set_option maxHeartbeats 4000000 in
theorem v_wB_main_v78_eq (V : Valuation τ sig (Elt F)) : v_wB V (Proc.devRef .tc main_v78) =
      ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) (shapeCast _ (((extractStridedSlice S2000000x1 ![0, 0] · slices_S2000000x3_S2000000x1_0_0) : (⟨S2000000x3, .i32⟩ : BufTy).Contents (Elt F) → (⟨S2000000x1, .i32⟩ : BufTy).Contents (Elt F)) ((v_wA V) (Proc.devRef .tc main_v3))) shapeCasts_S2000000x1_S2000000) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 1] · slices_S2000000x3_S2000000x1_0_1) : (⟨S2000000x3, .i32⟩ : BufTy).Contents (Elt F) → (⟨S2000000x1, .i32⟩ : BufTy).Contents (Elt F)) ((v_wA V) (Proc.devRef .tc main_v6))) shapeCasts_S2000000x1_S2000000)) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 2] · slices_S2000000x3_S2000000x1_0_2) : (⟨S2000000x3, .i32⟩ : BufTy).Contents (Elt F) → (⟨S2000000x1, .i32⟩ : BufTy).Contents (Elt F)) ((v_wA V) (Proc.devRef .tc main_v3))) shapeCasts_S2000000x1_S2000000)) := by
  unfold v_wB
  generalize v_wA V = V
  simp only [hostOps0_4]
  after_results_simp
  all_goals rfl

set_option maxHeartbeats 4000000 in
theorem v_wB_main_v120_eq (V : Valuation τ sig (Elt F)) : v_wB V (Proc.devRef .tc main_v120) =
      ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 0] · slices_S2000000x3_S2000000x1_0_0) : (⟨S2000000x3, .f32⟩ : BufTy).Contents (Elt F) → (⟨S2000000x1, .f32⟩ : BufTy).Contents (Elt F)) ((v_wA V) (Proc.devRef .tc main_v1))) shapeCasts_S2000000x1_S2000000)) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 1] · slices_S2000000x3_S2000000x1_0_1) : (⟨S2000000x3, .f32⟩ : BufTy).Contents (Elt F) → (⟨S2000000x1, .f32⟩ : BufTy).Contents (Elt F)) ((v_wA V) (Proc.devRef .tc main_v1))) shapeCasts_S2000000x1_S2000000))) (shapeCast _ (((extractStridedSlice S2000000x1 ![0, 2] · slices_S2000000x3_S2000000x1_0_2) : (⟨S2000000x3, .f32⟩ : BufTy).Contents (Elt F) → (⟨S2000000x1, .f32⟩ : BufTy).Contents (Elt F)) ((v_wA V) (Proc.devRef .tc main_v1))) shapeCasts_S2000000x1_S2000000)) := by
  unfold v_wB
  generalize v_wA V = V
  simp only [hostOps0_4]
  after_results_simp
  all_goals rfl

set_option maxHeartbeats 4000000 in
theorem v_wB_main_v72_eq (V : Valuation τ sig (Elt F)) : v_wB V (Proc.devRef .tc main_v72) =
      ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) (shapeCast _ (((extractStridedSlice S2000000x1 ![0, 0] · slices_S2000000x3_S2000000x1_0_0) : (⟨S2000000x3, .i32⟩ : BufTy).Contents (Elt F) → (⟨S2000000x1, .i32⟩ : BufTy).Contents (Elt F)) ((v_wA V) (Proc.devRef .tc main_v3))) shapeCasts_S2000000x1_S2000000) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 1] · slices_S2000000x3_S2000000x1_0_1) : (⟨S2000000x3, .i32⟩ : BufTy).Contents (Elt F) → (⟨S2000000x1, .i32⟩ : BufTy).Contents (Elt F)) ((v_wA V) (Proc.devRef .tc main_v3))) shapeCasts_S2000000x1_S2000000)) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 2] · slices_S2000000x3_S2000000x1_0_2) : (⟨S2000000x3, .i32⟩ : BufTy).Contents (Elt F) → (⟨S2000000x1, .i32⟩ : BufTy).Contents (Elt F)) ((v_wA V) (Proc.devRef .tc main_v6))) shapeCasts_S2000000x1_S2000000)) := by
  unfold v_wB
  generalize v_wA V = V
  simp only [hostOps0_4]
  after_results_simp
  all_goals rfl

set_option maxHeartbeats 4000000 in
theorem v_wB_main_v118_eq (V : Valuation τ sig (Elt F)) : v_wB V (Proc.devRef .tc main_v118) =
      ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 0] · slices_S2000000x3_S2000000x1_0_0) : (⟨S2000000x3, .f32⟩ : BufTy).Contents (Elt F) → (⟨S2000000x1, .f32⟩ : BufTy).Contents (Elt F)) ((v_wA V) (Proc.devRef .tc main_v1))) shapeCasts_S2000000x1_S2000000)) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 1] · slices_S2000000x3_S2000000x1_0_1) : (⟨S2000000x3, .f32⟩ : BufTy).Contents (Elt F) → (⟨S2000000x1, .f32⟩ : BufTy).Contents (Elt F)) ((v_wA V) (Proc.devRef .tc main_v1))) shapeCasts_S2000000x1_S2000000))) ((subf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F800000#32)) (shapeCast _ (((extractStridedSlice S2000000x1 ![0, 2] · slices_S2000000x3_S2000000x1_0_2) : (⟨S2000000x3, .f32⟩ : BufTy).Contents (Elt F) → (⟨S2000000x1, .f32⟩ : BufTy).Contents (Elt F)) ((v_wA V) (Proc.devRef .tc main_v1))) shapeCasts_S2000000x1_S2000000))) := by
  unfold v_wB
  generalize v_wA V = V
  simp only [hostOps0_4]
  after_results_simp
  all_goals rfl

set_option maxHeartbeats 4000000 in
theorem v_wB_main_v66_eq (V : Valuation τ sig (Elt F)) : v_wB V (Proc.devRef .tc main_v66) =
      ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) ((addi : (⟨S2000000, .i32⟩ : BufTy).Contents (Elt F) → (⟨S2000000, .i32⟩ : BufTy).Contents (Elt F) → (⟨S2000000, .i32⟩ : BufTy).Contents (Elt F)) ((muli : (⟨S2000000, .i32⟩ : BufTy).Contents (Elt F) → (⟨S2000000, .i32⟩ : BufTy).Contents (Elt F) → (⟨S2000000, .i32⟩ : BufTy).Contents (Elt F)) (shapeCast _ (((extractStridedSlice S2000000x1 ![0, 0] · slices_S2000000x3_S2000000x1_0_0) : (⟨S2000000x3, .i32⟩ : BufTy).Contents (Elt F) → (⟨S2000000x1, .i32⟩ : BufTy).Contents (Elt F)) ((v_wA V) (Proc.devRef .tc main_v3))) shapeCasts_S2000000x1_S2000000) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 1] · slices_S2000000x3_S2000000x1_0_1) : (⟨S2000000x3, .i32⟩ : BufTy).Contents (Elt F) → (⟨S2000000x1, .i32⟩ : BufTy).Contents (Elt F)) ((v_wA V) (Proc.devRef .tc main_v3))) shapeCasts_S2000000x1_S2000000)) ((broadcastInDim S2000000 ![] bcast_S_S2000000 : (⟨S_, .i32⟩ : BufTy).Contents (Elt F) → (⟨S2000000, .i32⟩ : BufTy).Contents (Elt F)) (constantI S_ 32 512#32))) (shapeCast _ (((extractStridedSlice S2000000x1 ![0, 2] · slices_S2000000x3_S2000000x1_0_2) : (⟨S2000000x3, .i32⟩ : BufTy).Contents (Elt F) → (⟨S2000000x1, .i32⟩ : BufTy).Contents (Elt F)) ((v_wA V) (Proc.devRef .tc main_v3))) shapeCasts_S2000000x1_S2000000)) := by
  unfold v_wB
  generalize v_wA V = V
  simp only [hostOps0_4]
  after_results_simp
  all_goals rfl

set_option maxHeartbeats 4000000 in
theorem v_wB_main_v136_eq (V : Valuation τ sig (Elt F)) : v_wB V (Proc.devRef .tc main_v136) =
      ((broadcastInDim S2000000 ![] bcast_S_S2000000 : (⟨S_, .f32⟩ : BufTy).Contents (Elt F) → (⟨S2000000, .f32⟩ : BufTy).Contents (Elt F)) (constant S_ .f32 0x00000000#32)) := by
  unfold v_wB
  generalize v_wA V = V
  simp only [hostOps0_4]
  after_results_simp
  all_goals rfl

set_option maxHeartbeats 4000000 in
theorem v_wB_main_v135_eq (V : Valuation τ sig (Elt F)) : v_wB V (Proc.devRef .tc main_v135) =
      ((broadcastInDim S2000000 ![] bcast_S_S2000000 : (⟨S_, .f32⟩ : BufTy).Contents (Elt F) → (⟨S2000000, .f32⟩ : BufTy).Contents (Elt F)) (constant S_ .f32 0x00000000#32)) := by
  unfold v_wB
  generalize v_wA V = V
  simp only [hostOps0_4]
  after_results_simp
  all_goals rfl

set_option maxHeartbeats 4000000 in
theorem v_wB_main_v134_eq (V : Valuation τ sig (Elt F)) : v_wB V (Proc.devRef .tc main_v134) =
      ((broadcastInDim S2000000 ![] bcast_S_S2000000 : (⟨S_, .f32⟩ : BufTy).Contents (Elt F) → (⟨S2000000, .f32⟩ : BufTy).Contents (Elt F)) (constant S_ .f32 0x00000000#32)) := by
  unfold v_wB
  generalize v_wA V = V
  simp only [hostOps0_4]
  after_results_simp
  all_goals rfl

set_option maxHeartbeats 4000000 in
theorem v_wB_main_v133_eq (V : Valuation τ sig (Elt F)) : v_wB V (Proc.devRef .tc main_v133) =
      ((broadcastInDim S2000000 ![] bcast_S_S2000000 : (⟨S_, .f32⟩ : BufTy).Contents (Elt F) → (⟨S2000000, .f32⟩ : BufTy).Contents (Elt F)) (constant S_ .f32 0x00000000#32)) := by
  unfold v_wB
  generalize v_wA V = V
  simp only [hostOps0_4]
  after_results_simp
  all_goals rfl

def v_wC0 (V : Valuation τ sig (Elt F)) : Valuation τ sig (Elt F) := (after hostOps0_7 (after hostOps0_6 (after hostOps0_5 (v_wB V))))
theorem v_wC0_keep {V : Valuation τ sig (Elt F)} (r : Ref sig .tc) (h0 : r ∉ hostOps0_5_W) (h1 : r ∉ hostOps0_6_W) (h2 : r ∉ hostOps0_7_W) :
    v_wC0 V (Proc.devRef .tc r) = (v_wB V) (Proc.devRef .tc r) := by
  unfold v_wC0
  rw [hostOps0_7_keep _ r h2, hostOps0_6_keep _ r h1, hostOps0_5_keep _ r h0]

set_option maxHeartbeats 3600000 in
theorem v_wC0_main_v152_eq (V : Valuation τ sig (Elt F)) : v_wC0 V (Proc.devRef .tc main_v152) =
      (stepN (F := F) ((v_wB V) (Proc.devRef .tc main_v136)) ((v_wB V) (Proc.devRef .tc main_v110)) ((v_wB V) (Proc.devRef .tc main_v66)) ![0, 2] slices_S2000000x3_S2000000x1_0_2 ((v_wB V) (Proc.devRef .tc main_v118))) := by
  unfold v_wC0
  generalize v_wB V = V
  simp only [hostOps0_5, hostOps0_6, hostOps0_7]
  after_results_simp
  all_goals rfl

set_option maxHeartbeats 3600000 in
theorem v_wC0_main_v148_eq (V : Valuation τ sig (Elt F)) : v_wC0 V (Proc.devRef .tc main_v148) =
      (stepN (F := F) ((v_wB V) (Proc.devRef .tc main_v135)) ((v_wB V) (Proc.devRef .tc main_v110)) ((v_wB V) (Proc.devRef .tc main_v66)) ![0, 1] slices_S2000000x3_S2000000x1_0_1 ((v_wB V) (Proc.devRef .tc main_v118))) := by
  unfold v_wC0
  generalize v_wB V = V
  simp only [hostOps0_5, hostOps0_6, hostOps0_7]
  after_results_simp
  all_goals rfl

set_option maxHeartbeats 3600000 in
theorem v_wC0_main_v144_eq (V : Valuation τ sig (Elt F)) : v_wC0 V (Proc.devRef .tc main_v144) =
      (stepN (F := F) ((v_wB V) (Proc.devRef .tc main_v134)) ((v_wB V) (Proc.devRef .tc main_v110)) ((v_wB V) (Proc.devRef .tc main_v66)) ![0, 0] slices_S2000000x3_S2000000x1_0_0 ((v_wB V) (Proc.devRef .tc main_v118))) := by
  unfold v_wC0
  generalize v_wB V = V
  simp only [hostOps0_5, hostOps0_6, hostOps0_7]
  after_results_simp
  all_goals rfl

set_option maxHeartbeats 3600000 in
theorem v_wC0_main_v140_eq (V : Valuation τ sig (Elt F)) : v_wC0 V (Proc.devRef .tc main_v140) =
      (stepA (F := F) ((v_wB V) (Proc.devRef .tc main_v133)) ((v_wB V) (Proc.devRef .tc main_v109)) ((v_wB V) (Proc.devRef .tc main_v66)) ((v_wB V) (Proc.devRef .tc main_v118))) := by
  unfold v_wC0
  generalize v_wB V = V
  simp only [hostOps0_5, hostOps0_6, hostOps0_7]
  after_results_simp
  all_goals rfl

def v_wC1 (V : Valuation τ sig (Elt F)) : Valuation τ sig (Elt F) := (after hostOps0_10 (after hostOps0_9 (after hostOps0_8 (v_wC0 V))))
theorem v_wC1_keep {V : Valuation τ sig (Elt F)} (r : Ref sig .tc) (h0 : r ∉ hostOps0_8_W) (h1 : r ∉ hostOps0_9_W) (h2 : r ∉ hostOps0_10_W) :
    v_wC1 V (Proc.devRef .tc r) = (v_wC0 V) (Proc.devRef .tc r) := by
  unfold v_wC1
  rw [hostOps0_10_keep _ r h2, hostOps0_9_keep _ r h1, hostOps0_8_keep _ r h0]

set_option maxHeartbeats 3600000 in
theorem v_wC1_main_v168_eq (V : Valuation τ sig (Elt F)) : v_wC1 V (Proc.devRef .tc main_v168) =
      (stepN (F := F) ((v_wC0 V) (Proc.devRef .tc main_v152)) ((v_wC0 V) (Proc.devRef .tc main_v110)) ((v_wC0 V) (Proc.devRef .tc main_v72)) ![0, 2] slices_S2000000x3_S2000000x1_0_2 ((v_wC0 V) (Proc.devRef .tc main_v120))) := by
  unfold v_wC1
  generalize v_wC0 V = V
  simp only [hostOps0_8, hostOps0_9, hostOps0_10]
  after_results_simp
  all_goals rfl

set_option maxHeartbeats 3600000 in
theorem v_wC1_main_v164_eq (V : Valuation τ sig (Elt F)) : v_wC1 V (Proc.devRef .tc main_v164) =
      (stepN (F := F) ((v_wC0 V) (Proc.devRef .tc main_v148)) ((v_wC0 V) (Proc.devRef .tc main_v110)) ((v_wC0 V) (Proc.devRef .tc main_v72)) ![0, 1] slices_S2000000x3_S2000000x1_0_1 ((v_wC0 V) (Proc.devRef .tc main_v120))) := by
  unfold v_wC1
  generalize v_wC0 V = V
  simp only [hostOps0_8, hostOps0_9, hostOps0_10]
  after_results_simp
  all_goals rfl

set_option maxHeartbeats 3600000 in
theorem v_wC1_main_v160_eq (V : Valuation τ sig (Elt F)) : v_wC1 V (Proc.devRef .tc main_v160) =
      (stepN (F := F) ((v_wC0 V) (Proc.devRef .tc main_v144)) ((v_wC0 V) (Proc.devRef .tc main_v110)) ((v_wC0 V) (Proc.devRef .tc main_v72)) ![0, 0] slices_S2000000x3_S2000000x1_0_0 ((v_wC0 V) (Proc.devRef .tc main_v120))) := by
  unfold v_wC1
  generalize v_wC0 V = V
  simp only [hostOps0_8, hostOps0_9, hostOps0_10]
  after_results_simp
  all_goals rfl

set_option maxHeartbeats 3600000 in
theorem v_wC1_main_v156_eq (V : Valuation τ sig (Elt F)) : v_wC1 V (Proc.devRef .tc main_v156) =
      (stepA (F := F) ((v_wC0 V) (Proc.devRef .tc main_v140)) ((v_wC0 V) (Proc.devRef .tc main_v109)) ((v_wC0 V) (Proc.devRef .tc main_v72)) ((v_wC0 V) (Proc.devRef .tc main_v120))) := by
  unfold v_wC1
  generalize v_wC0 V = V
  simp only [hostOps0_8, hostOps0_9, hostOps0_10]
  after_results_simp
  all_goals rfl

def v_wC2 (V : Valuation τ sig (Elt F)) : Valuation τ sig (Elt F) := (after hostOps0_13 (after hostOps0_12 (after hostOps0_11 (v_wC1 V))))
theorem v_wC2_keep {V : Valuation τ sig (Elt F)} (r : Ref sig .tc) (h0 : r ∉ hostOps0_11_W) (h1 : r ∉ hostOps0_12_W) (h2 : r ∉ hostOps0_13_W) :
    v_wC2 V (Proc.devRef .tc r) = (v_wC1 V) (Proc.devRef .tc r) := by
  unfold v_wC2
  rw [hostOps0_13_keep _ r h2, hostOps0_12_keep _ r h1, hostOps0_11_keep _ r h0]

set_option maxHeartbeats 3600000 in
theorem v_wC2_main_v184_eq (V : Valuation τ sig (Elt F)) : v_wC2 V (Proc.devRef .tc main_v184) =
      (stepN (F := F) ((v_wC1 V) (Proc.devRef .tc main_v168)) ((v_wC1 V) (Proc.devRef .tc main_v110)) ((v_wC1 V) (Proc.devRef .tc main_v78)) ![0, 2] slices_S2000000x3_S2000000x1_0_2 ((v_wC1 V) (Proc.devRef .tc main_v122))) := by
  unfold v_wC2
  generalize v_wC1 V = V
  simp only [hostOps0_11, hostOps0_12, hostOps0_13]
  after_results_simp
  all_goals rfl

set_option maxHeartbeats 3600000 in
theorem v_wC2_main_v180_eq (V : Valuation τ sig (Elt F)) : v_wC2 V (Proc.devRef .tc main_v180) =
      (stepN (F := F) ((v_wC1 V) (Proc.devRef .tc main_v164)) ((v_wC1 V) (Proc.devRef .tc main_v110)) ((v_wC1 V) (Proc.devRef .tc main_v78)) ![0, 1] slices_S2000000x3_S2000000x1_0_1 ((v_wC1 V) (Proc.devRef .tc main_v122))) := by
  unfold v_wC2
  generalize v_wC1 V = V
  simp only [hostOps0_11, hostOps0_12, hostOps0_13]
  after_results_simp
  all_goals rfl

set_option maxHeartbeats 3600000 in
theorem v_wC2_main_v176_eq (V : Valuation τ sig (Elt F)) : v_wC2 V (Proc.devRef .tc main_v176) =
      (stepN (F := F) ((v_wC1 V) (Proc.devRef .tc main_v160)) ((v_wC1 V) (Proc.devRef .tc main_v110)) ((v_wC1 V) (Proc.devRef .tc main_v78)) ![0, 0] slices_S2000000x3_S2000000x1_0_0 ((v_wC1 V) (Proc.devRef .tc main_v122))) := by
  unfold v_wC2
  generalize v_wC1 V = V
  simp only [hostOps0_11, hostOps0_12, hostOps0_13]
  after_results_simp
  all_goals rfl

set_option maxHeartbeats 3600000 in
theorem v_wC2_main_v172_eq (V : Valuation τ sig (Elt F)) : v_wC2 V (Proc.devRef .tc main_v172) =
      (stepA (F := F) ((v_wC1 V) (Proc.devRef .tc main_v156)) ((v_wC1 V) (Proc.devRef .tc main_v109)) ((v_wC1 V) (Proc.devRef .tc main_v78)) ((v_wC1 V) (Proc.devRef .tc main_v122))) := by
  unfold v_wC2
  generalize v_wC1 V = V
  simp only [hostOps0_11, hostOps0_12, hostOps0_13]
  after_results_simp
  all_goals rfl

def v_wC3 (V : Valuation τ sig (Elt F)) : Valuation τ sig (Elt F) := (after hostOps0_16 (after hostOps0_15 (after hostOps0_14 (v_wC2 V))))
theorem v_wC3_keep {V : Valuation τ sig (Elt F)} (r : Ref sig .tc) (h0 : r ∉ hostOps0_14_W) (h1 : r ∉ hostOps0_15_W) (h2 : r ∉ hostOps0_16_W) :
    v_wC3 V (Proc.devRef .tc r) = (v_wC2 V) (Proc.devRef .tc r) := by
  unfold v_wC3
  rw [hostOps0_16_keep _ r h2, hostOps0_15_keep _ r h1, hostOps0_14_keep _ r h0]

set_option maxHeartbeats 3600000 in
theorem v_wC3_main_v200_eq (V : Valuation τ sig (Elt F)) : v_wC3 V (Proc.devRef .tc main_v200) =
      (stepN (F := F) ((v_wC2 V) (Proc.devRef .tc main_v184)) ((v_wC2 V) (Proc.devRef .tc main_v110)) ((v_wC2 V) (Proc.devRef .tc main_v84)) ![0, 2] slices_S2000000x3_S2000000x1_0_2 ((v_wC2 V) (Proc.devRef .tc main_v124))) := by
  unfold v_wC3
  generalize v_wC2 V = V
  simp only [hostOps0_14, hostOps0_15, hostOps0_16]
  after_results_simp
  all_goals rfl

set_option maxHeartbeats 3600000 in
theorem v_wC3_main_v196_eq (V : Valuation τ sig (Elt F)) : v_wC3 V (Proc.devRef .tc main_v196) =
      (stepN (F := F) ((v_wC2 V) (Proc.devRef .tc main_v180)) ((v_wC2 V) (Proc.devRef .tc main_v110)) ((v_wC2 V) (Proc.devRef .tc main_v84)) ![0, 1] slices_S2000000x3_S2000000x1_0_1 ((v_wC2 V) (Proc.devRef .tc main_v124))) := by
  unfold v_wC3
  generalize v_wC2 V = V
  simp only [hostOps0_14, hostOps0_15, hostOps0_16]
  after_results_simp
  all_goals rfl

set_option maxHeartbeats 3600000 in
theorem v_wC3_main_v192_eq (V : Valuation τ sig (Elt F)) : v_wC3 V (Proc.devRef .tc main_v192) =
      (stepN (F := F) ((v_wC2 V) (Proc.devRef .tc main_v176)) ((v_wC2 V) (Proc.devRef .tc main_v110)) ((v_wC2 V) (Proc.devRef .tc main_v84)) ![0, 0] slices_S2000000x3_S2000000x1_0_0 ((v_wC2 V) (Proc.devRef .tc main_v124))) := by
  unfold v_wC3
  generalize v_wC2 V = V
  simp only [hostOps0_14, hostOps0_15, hostOps0_16]
  after_results_simp
  all_goals rfl

set_option maxHeartbeats 3600000 in
theorem v_wC3_main_v188_eq (V : Valuation τ sig (Elt F)) : v_wC3 V (Proc.devRef .tc main_v188) =
      (stepA (F := F) ((v_wC2 V) (Proc.devRef .tc main_v172)) ((v_wC2 V) (Proc.devRef .tc main_v109)) ((v_wC2 V) (Proc.devRef .tc main_v84)) ((v_wC2 V) (Proc.devRef .tc main_v124))) := by
  unfold v_wC3
  generalize v_wC2 V = V
  simp only [hostOps0_14, hostOps0_15, hostOps0_16]
  after_results_simp
  all_goals rfl

def v_wC4 (V : Valuation τ sig (Elt F)) : Valuation τ sig (Elt F) := (after hostOps0_19 (after hostOps0_18 (after hostOps0_17 (v_wC3 V))))
theorem v_wC4_keep {V : Valuation τ sig (Elt F)} (r : Ref sig .tc) (h0 : r ∉ hostOps0_17_W) (h1 : r ∉ hostOps0_18_W) (h2 : r ∉ hostOps0_19_W) :
    v_wC4 V (Proc.devRef .tc r) = (v_wC3 V) (Proc.devRef .tc r) := by
  unfold v_wC4
  rw [hostOps0_19_keep _ r h2, hostOps0_18_keep _ r h1, hostOps0_17_keep _ r h0]

set_option maxHeartbeats 3600000 in
theorem v_wC4_main_v216_eq (V : Valuation τ sig (Elt F)) : v_wC4 V (Proc.devRef .tc main_v216) =
      (stepN (F := F) ((v_wC3 V) (Proc.devRef .tc main_v200)) ((v_wC3 V) (Proc.devRef .tc main_v110)) ((v_wC3 V) (Proc.devRef .tc main_v90)) ![0, 2] slices_S2000000x3_S2000000x1_0_2 ((v_wC3 V) (Proc.devRef .tc main_v126))) := by
  unfold v_wC4
  generalize v_wC3 V = V
  simp only [hostOps0_17, hostOps0_18, hostOps0_19]
  after_results_simp
  all_goals rfl

set_option maxHeartbeats 3600000 in
theorem v_wC4_main_v212_eq (V : Valuation τ sig (Elt F)) : v_wC4 V (Proc.devRef .tc main_v212) =
      (stepN (F := F) ((v_wC3 V) (Proc.devRef .tc main_v196)) ((v_wC3 V) (Proc.devRef .tc main_v110)) ((v_wC3 V) (Proc.devRef .tc main_v90)) ![0, 1] slices_S2000000x3_S2000000x1_0_1 ((v_wC3 V) (Proc.devRef .tc main_v126))) := by
  unfold v_wC4
  generalize v_wC3 V = V
  simp only [hostOps0_17, hostOps0_18, hostOps0_19]
  after_results_simp
  all_goals rfl

set_option maxHeartbeats 3600000 in
theorem v_wC4_main_v208_eq (V : Valuation τ sig (Elt F)) : v_wC4 V (Proc.devRef .tc main_v208) =
      (stepN (F := F) ((v_wC3 V) (Proc.devRef .tc main_v192)) ((v_wC3 V) (Proc.devRef .tc main_v110)) ((v_wC3 V) (Proc.devRef .tc main_v90)) ![0, 0] slices_S2000000x3_S2000000x1_0_0 ((v_wC3 V) (Proc.devRef .tc main_v126))) := by
  unfold v_wC4
  generalize v_wC3 V = V
  simp only [hostOps0_17, hostOps0_18, hostOps0_19]
  after_results_simp
  all_goals rfl

set_option maxHeartbeats 3600000 in
theorem v_wC4_main_v204_eq (V : Valuation τ sig (Elt F)) : v_wC4 V (Proc.devRef .tc main_v204) =
      (stepA (F := F) ((v_wC3 V) (Proc.devRef .tc main_v188)) ((v_wC3 V) (Proc.devRef .tc main_v109)) ((v_wC3 V) (Proc.devRef .tc main_v90)) ((v_wC3 V) (Proc.devRef .tc main_v126))) := by
  unfold v_wC4
  generalize v_wC3 V = V
  simp only [hostOps0_17, hostOps0_18, hostOps0_19]
  after_results_simp
  all_goals rfl

def v_wC5 (V : Valuation τ sig (Elt F)) : Valuation τ sig (Elt F) := (after hostOps0_22 (after hostOps0_21 (after hostOps0_20 (v_wC4 V))))
theorem v_wC5_keep {V : Valuation τ sig (Elt F)} (r : Ref sig .tc) (h0 : r ∉ hostOps0_20_W) (h1 : r ∉ hostOps0_21_W) (h2 : r ∉ hostOps0_22_W) :
    v_wC5 V (Proc.devRef .tc r) = (v_wC4 V) (Proc.devRef .tc r) := by
  unfold v_wC5
  rw [hostOps0_22_keep _ r h2, hostOps0_21_keep _ r h1, hostOps0_20_keep _ r h0]

set_option maxHeartbeats 3600000 in
theorem v_wC5_main_v232_eq (V : Valuation τ sig (Elt F)) : v_wC5 V (Proc.devRef .tc main_v232) =
      (stepN (F := F) ((v_wC4 V) (Proc.devRef .tc main_v216)) ((v_wC4 V) (Proc.devRef .tc main_v110)) ((v_wC4 V) (Proc.devRef .tc main_v96)) ![0, 2] slices_S2000000x3_S2000000x1_0_2 ((v_wC4 V) (Proc.devRef .tc main_v128))) := by
  unfold v_wC5
  generalize v_wC4 V = V
  simp only [hostOps0_20, hostOps0_21, hostOps0_22]
  after_results_simp
  all_goals rfl

set_option maxHeartbeats 3600000 in
theorem v_wC5_main_v228_eq (V : Valuation τ sig (Elt F)) : v_wC5 V (Proc.devRef .tc main_v228) =
      (stepN (F := F) ((v_wC4 V) (Proc.devRef .tc main_v212)) ((v_wC4 V) (Proc.devRef .tc main_v110)) ((v_wC4 V) (Proc.devRef .tc main_v96)) ![0, 1] slices_S2000000x3_S2000000x1_0_1 ((v_wC4 V) (Proc.devRef .tc main_v128))) := by
  unfold v_wC5
  generalize v_wC4 V = V
  simp only [hostOps0_20, hostOps0_21, hostOps0_22]
  after_results_simp
  all_goals rfl

set_option maxHeartbeats 3600000 in
theorem v_wC5_main_v224_eq (V : Valuation τ sig (Elt F)) : v_wC5 V (Proc.devRef .tc main_v224) =
      (stepN (F := F) ((v_wC4 V) (Proc.devRef .tc main_v208)) ((v_wC4 V) (Proc.devRef .tc main_v110)) ((v_wC4 V) (Proc.devRef .tc main_v96)) ![0, 0] slices_S2000000x3_S2000000x1_0_0 ((v_wC4 V) (Proc.devRef .tc main_v128))) := by
  unfold v_wC5
  generalize v_wC4 V = V
  simp only [hostOps0_20, hostOps0_21, hostOps0_22]
  after_results_simp
  all_goals rfl

set_option maxHeartbeats 3600000 in
theorem v_wC5_main_v220_eq (V : Valuation τ sig (Elt F)) : v_wC5 V (Proc.devRef .tc main_v220) =
      (stepA (F := F) ((v_wC4 V) (Proc.devRef .tc main_v204)) ((v_wC4 V) (Proc.devRef .tc main_v109)) ((v_wC4 V) (Proc.devRef .tc main_v96)) ((v_wC4 V) (Proc.devRef .tc main_v128))) := by
  unfold v_wC5
  generalize v_wC4 V = V
  simp only [hostOps0_20, hostOps0_21, hostOps0_22]
  after_results_simp
  all_goals rfl

def v_wC6 (V : Valuation τ sig (Elt F)) : Valuation τ sig (Elt F) := (after hostOps0_25 (after hostOps0_24 (after hostOps0_23 (v_wC5 V))))
theorem v_wC6_keep {V : Valuation τ sig (Elt F)} (r : Ref sig .tc) (h0 : r ∉ hostOps0_23_W) (h1 : r ∉ hostOps0_24_W) (h2 : r ∉ hostOps0_25_W) :
    v_wC6 V (Proc.devRef .tc r) = (v_wC5 V) (Proc.devRef .tc r) := by
  unfold v_wC6
  rw [hostOps0_25_keep _ r h2, hostOps0_24_keep _ r h1, hostOps0_23_keep _ r h0]

set_option maxHeartbeats 3600000 in
theorem v_wC6_main_v248_eq (V : Valuation τ sig (Elt F)) : v_wC6 V (Proc.devRef .tc main_v248) =
      (stepN (F := F) ((v_wC5 V) (Proc.devRef .tc main_v232)) ((v_wC5 V) (Proc.devRef .tc main_v110)) ((v_wC5 V) (Proc.devRef .tc main_v102)) ![0, 2] slices_S2000000x3_S2000000x1_0_2 ((v_wC5 V) (Proc.devRef .tc main_v130))) := by
  unfold v_wC6
  generalize v_wC5 V = V
  simp only [hostOps0_23, hostOps0_24, hostOps0_25]
  after_results_simp
  all_goals rfl

set_option maxHeartbeats 3600000 in
theorem v_wC6_main_v244_eq (V : Valuation τ sig (Elt F)) : v_wC6 V (Proc.devRef .tc main_v244) =
      (stepN (F := F) ((v_wC5 V) (Proc.devRef .tc main_v228)) ((v_wC5 V) (Proc.devRef .tc main_v110)) ((v_wC5 V) (Proc.devRef .tc main_v102)) ![0, 1] slices_S2000000x3_S2000000x1_0_1 ((v_wC5 V) (Proc.devRef .tc main_v130))) := by
  unfold v_wC6
  generalize v_wC5 V = V
  simp only [hostOps0_23, hostOps0_24, hostOps0_25]
  after_results_simp
  all_goals rfl

set_option maxHeartbeats 3600000 in
theorem v_wC6_main_v240_eq (V : Valuation τ sig (Elt F)) : v_wC6 V (Proc.devRef .tc main_v240) =
      (stepN (F := F) ((v_wC5 V) (Proc.devRef .tc main_v224)) ((v_wC5 V) (Proc.devRef .tc main_v110)) ((v_wC5 V) (Proc.devRef .tc main_v102)) ![0, 0] slices_S2000000x3_S2000000x1_0_0 ((v_wC5 V) (Proc.devRef .tc main_v130))) := by
  unfold v_wC6
  generalize v_wC5 V = V
  simp only [hostOps0_23, hostOps0_24, hostOps0_25]
  after_results_simp
  all_goals rfl

set_option maxHeartbeats 3600000 in
theorem v_wC6_main_v236_eq (V : Valuation τ sig (Elt F)) : v_wC6 V (Proc.devRef .tc main_v236) =
      (stepA (F := F) ((v_wC5 V) (Proc.devRef .tc main_v220)) ((v_wC5 V) (Proc.devRef .tc main_v109)) ((v_wC5 V) (Proc.devRef .tc main_v102)) ((v_wC5 V) (Proc.devRef .tc main_v130))) := by
  unfold v_wC6
  generalize v_wC5 V = V
  simp only [hostOps0_23, hostOps0_24, hostOps0_25]
  after_results_simp
  all_goals rfl

def v_wC7 (V : Valuation τ sig (Elt F)) : Valuation τ sig (Elt F) := (after hostOps0_28 (after hostOps0_27 (after hostOps0_26 (v_wC6 V))))
theorem v_wC7_keep {V : Valuation τ sig (Elt F)} (r : Ref sig .tc) (h0 : r ∉ hostOps0_26_W) (h1 : r ∉ hostOps0_27_W) (h2 : r ∉ hostOps0_28_W) :
    v_wC7 V (Proc.devRef .tc r) = (v_wC6 V) (Proc.devRef .tc r) := by
  unfold v_wC7
  rw [hostOps0_28_keep _ r h2, hostOps0_27_keep _ r h1, hostOps0_26_keep _ r h0]

set_option maxHeartbeats 4000000 in
theorem v_wC7_main_v269_eq (V : Valuation τ sig (Elt F)) : v_wC7 V (Proc.devRef .tc main_v269) =
      (concatenate S4x2000000 0 [⟨S1x2000000, ((broadcastInDim S1x2000000 ![1] bcast_S2000000_S1x2000000_1 : (⟨S2000000, .f32⟩ : BufTy).Contents (Elt F) → (⟨S1x2000000, .f32⟩ : BufTy).Contents (Elt F)) (stepA (F := F) ((v_wC6 V) (Proc.devRef .tc main_v236)) ((v_wC6 V) (Proc.devRef .tc main_v109)) ((v_wC6 V) (Proc.devRef .tc main_v108)) ((v_wC6 V) (Proc.devRef .tc main_v132))))⟩, ⟨S1x2000000, ((broadcastInDim S1x2000000 ![1] bcast_S2000000_S1x2000000_1 : (⟨S2000000, .f32⟩ : BufTy).Contents (Elt F) → (⟨S1x2000000, .f32⟩ : BufTy).Contents (Elt F)) (stepN (F := F) ((v_wC6 V) (Proc.devRef .tc main_v240)) ((v_wC6 V) (Proc.devRef .tc main_v110)) ((v_wC6 V) (Proc.devRef .tc main_v108)) ![0, 0] slices_S2000000x3_S2000000x1_0_0 ((v_wC6 V) (Proc.devRef .tc main_v132))))⟩, ⟨S1x2000000, ((broadcastInDim S1x2000000 ![1] bcast_S2000000_S1x2000000_1 : (⟨S2000000, .f32⟩ : BufTy).Contents (Elt F) → (⟨S1x2000000, .f32⟩ : BufTy).Contents (Elt F)) (stepN (F := F) ((v_wC6 V) (Proc.devRef .tc main_v244)) ((v_wC6 V) (Proc.devRef .tc main_v110)) ((v_wC6 V) (Proc.devRef .tc main_v108)) ![0, 1] slices_S2000000x3_S2000000x1_0_1 ((v_wC6 V) (Proc.devRef .tc main_v132))))⟩, ⟨S1x2000000, ((broadcastInDim S1x2000000 ![1] bcast_S2000000_S1x2000000_1 : (⟨S2000000, .f32⟩ : BufTy).Contents (Elt F) → (⟨S1x2000000, .f32⟩ : BufTy).Contents (Elt F)) (stepN (F := F) ((v_wC6 V) (Proc.devRef .tc main_v248)) ((v_wC6 V) (Proc.devRef .tc main_v110)) ((v_wC6 V) (Proc.devRef .tc main_v108)) ![0, 2] slices_S2000000x3_S2000000x1_0_2 ((v_wC6 V) (Proc.devRef .tc main_v132))))⟩] concatenates_S1x2000000_S1x2000000_S1x2000000_S1x2000000_S4x2000000_d0) := by
  unfold v_wC7
  generalize v_wC6 V = V
  simp only [hostOps0_26, hostOps0_27, hostOps0_28]
  after_results_simp
  all_goals rfl

end Cert.KernelIdeal.Hand

end
-- ==== Proof.Index.lean ====
import Idealize.ShloMosaic.PureOps
import Idealize.ShloMosaic.Lib.ValueIdx
import Idealize.ShloMosaic.Lib.Pipeline.Value
import Idealize.ShloMosaic.Lib.ValueLayout

noncomputable section

namespace Cert.Index

open Idealize.ShloMosaic Idealize.ShloMosaic.ValueIdx

abbrev SM : Shape := ⟨1, ![2000000]⟩

abbrev SM1 : Shape := ⟨2, ![2000000, 1]⟩

abbrev SM3 : Shape := ⟨2, ![2000000, 3]⟩

abbrev SA : Shape := ⟨3, ![128, 512, 512]⟩

abbrev SA1 : Shape := ⟨4, ![128, 512, 512, 1]⟩

abbrev SN : Shape := ⟨4, ![128, 512, 512, 3]⟩

abbrev SF : Shape := ⟨1, ![33554432]⟩

abbrev SF3 : Shape := ⟨2, ![33554432, 3]⟩

section Gather
variable {α : Type}

abbrev gK1 (wf : GatherDims.WF SF SM1 SM [] [0] [] [0] [] 1 ![1]) : GatherDims SF SM1 SM where
  offsetDims := []
  collapsedSliceDims := [0]
  operandBatchingDims := []
  startIndicesBatchingDims := []
  startIndexMap := [0]
  indexVectorDim := 1
  sliceSizes := ![1]
  wf := wf

theorem gK1_apply (wf : GatherDims.WF SF SM1 SM [] [0] [] [0] [] 1 ![1])
    (x : SF.Idx → α) (idx : IVec SM1 32) (j : Fin 2000000) :
    Host.gather (gK1 wf) x idx (ix1 j)
      = x (ix1 ⟨min (idx (ix2 j 0)).toInt.toNat (33554432 - 1), by omega⟩) := by
  unfold Host.gather
  congr 1
  funext a
  obtain rfl : a = 0 := Subsingleton.elim _ _
  refine Fin.ext ?_
  show (gK1 wf).start (ix1 j) idx 0 + (gK1 wf).batchCoord (ix1 j) 0 + (gK1 wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gK1 wf).startIndexMap from List.mem_singleton.mpr rfl)]
  have hsi : (gK1 wf).siIdx (ix1 j) ⟨List.idxOf (0 : Fin 1) (gK1 wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

theorem operandIdx_collapsed {s si t : Shape} {w : Nat} (d : GatherDims s si t) (j : t.Idx) (idx : IVec si w)
    (a : Fin s.rank) (hm : a ∈ d.startIndexMap) (hc : a ∈ d.collapsedSliceDims) (hb : a ∉ d.operandBatchingDims) :
    (d.operandIdx j idx a).val
      = min (idx (d.siIdx j ⟨d.startIndexMap.idxOf a, List.idxOf_lt_length_iff.2 hm⟩)).toInt.toNat
          (s.size a - d.sliceSizes a) := by
  show d.start j idx a + d.batchCoord j a + d.offCoord j a = _
  rw [d.batchCoord_eq_zero j a hb, d.offCoord_eq_zero j a (fun h => ((d.mem_sKept a).1 h).1 hc)]
  simp only [Nat.add_zero]
  unfold GatherDims.start
  rw [dif_pos hm]

theorem operandIdx_offset {s si t : Shape} {w : Nat} (d : GatherDims s si t) (j : t.Idx) (idx : IVec si w)
    (a : Fin s.rank) (hm : a ∉ d.startIndexMap) (hb : a ∉ d.operandBatchingDims) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero j a hb, Nat.add_zero]
  unfold GatherDims.start GatherDims.offCoord
  rw [dif_neg hm, dif_pos hk, Nat.zero_add]

abbrev gR1 (wf : GatherDims.WF SA1 SM3 SM1 [1] [0, 1, 2] [] [0, 1, 2] [] 1 ![1, 1, 1, 1]) : GatherDims SA1 SM3 SM1 where
  offsetDims := [1]
  collapsedSliceDims := [0, 1, 2]
  operandBatchingDims := []
  startIndicesBatchingDims := []
  startIndexMap := [0, 1, 2]
  indexVectorDim := 1
  sliceSizes := ![1, 1, 1, 1]
  wf := wf

theorem gR1_apply (wf : GatherDims.WF SA1 SM3 SM1 [1] [0, 1, 2] [] [0, 1, 2] [] 1 ![1, 1, 1, 1])
    (x : SA1.Idx → α) (idx : IVec SM3 32) (j : Fin 2000000) :
    Host.gather (gR1 wf) x idx (ix2 j 0)
      = x (ix4 ⟨min (idx (ix2 j 0)).toInt.toNat 127, by omega⟩ ⟨min (idx (ix2 j 1)).toInt.toNat 511, by omega⟩
            ⟨min (idx (ix2 j 2)).toInt.toNat 511, by omega⟩ 0) := by
  unfold Host.gather
  congr 1
  funext a
  refine Fin.ext ?_
  match a with
  | ⟨0, _⟩ =>
    have hm : (0 : Fin 4) ∈ (gR1 wf).startIndexMap := show (0 : Fin 4) ∈ [0, 1, 2] from by decide
    have hsi : (gR1 wf).siIdx (ix2 j 0) ⟨List.idxOf (0 : Fin 4) (gR1 wf).startIndexMap,
        List.idxOf_lt_length_iff.2 hm⟩ = ix2 j 0 := by
      funext b; refine Fin.ext ?_
      match b with
      | ⟨0, _⟩ => rfl
      | ⟨1, _⟩ => rfl
    refine (operandIdx_collapsed (gR1 wf) (ix2 j 0) idx 0 hm
      (show (0 : Fin 4) ∈ [0, 1, 2] from by decide) List.not_mem_nil).trans ?_
    rw [hsi]
    rfl
  | ⟨1, _⟩ =>
    have hm : (1 : Fin 4) ∈ (gR1 wf).startIndexMap := show (1 : Fin 4) ∈ [0, 1, 2] from by decide
    have hsi : (gR1 wf).siIdx (ix2 j 0) ⟨List.idxOf (1 : Fin 4) (gR1 wf).startIndexMap,
        List.idxOf_lt_length_iff.2 hm⟩ = ix2 j 1 := by
      funext b; refine Fin.ext ?_
      match b with
      | ⟨0, _⟩ => rfl
      | ⟨1, _⟩ => rfl
    refine (operandIdx_collapsed (gR1 wf) (ix2 j 0) idx 1 hm
      (show (1 : Fin 4) ∈ [0, 1, 2] from by decide) List.not_mem_nil).trans ?_
    rw [hsi]
    rfl
  | ⟨2, _⟩ =>
    have hm : (2 : Fin 4) ∈ (gR1 wf).startIndexMap := show (2 : Fin 4) ∈ [0, 1, 2] from by decide
    have hsi : (gR1 wf).siIdx (ix2 j 0) ⟨List.idxOf (2 : Fin 4) (gR1 wf).startIndexMap,
        List.idxOf_lt_length_iff.2 hm⟩ = ix2 j 2 := by
      funext b; refine Fin.ext ?_
      match b with
      | ⟨0, _⟩ => rfl
      | ⟨1, _⟩ => rfl
    refine (operandIdx_collapsed (gR1 wf) (ix2 j 0) idx 2 hm
      (show (2 : Fin 4) ∈ [0, 1, 2] from by decide) List.not_mem_nil).trans ?_
    rw [hsi]
    rfl
  | ⟨3, _⟩ =>
    have h3 : (3 : Fin 4) ∉ ([0, 1, 2] : List (Fin 4)) := by decide
    refine (operandIdx_offset (gR1 wf) (ix2 j 0) idx 3 h3 List.not_mem_nil
      ((GatherDims.mem_sKept (gR1 wf) 3).2 ⟨h3, List.not_mem_nil⟩)).trans ?_
    rfl

abbrev gK3 (wf : GatherDims.WF SF3 SM1 SM3 [1] [0] [] [0] [] 1 ![1, 3]) : GatherDims SF3 SM1 SM3 where
  offsetDims := [1]
  collapsedSliceDims := [0]
  operandBatchingDims := []
  startIndicesBatchingDims := []
  startIndexMap := [0]
  indexVectorDim := 1
  sliceSizes := ![1, 3]
  wf := wf

theorem gK3_apply (wf : GatherDims.WF SF3 SM1 SM3 [1] [0] [] [0] [] 1 ![1, 3])
    (x : SF3.Idx → α) (idx : IVec SM1 32) (j : Fin 2000000) (k : Fin 3) :
    Host.gather (gK3 wf) x idx (ix2 j k)
      = x (ix2 ⟨min (idx (ix2 j 0)).toInt.toNat (33554432 - 1), by omega⟩ k) := by
  unfold Host.gather
  congr 1
  funext a
  refine Fin.ext ?_
  match a with
  | ⟨0, _⟩ =>
    have hm : (0 : Fin 2) ∈ (gK3 wf).startIndexMap := show (0 : Fin 2) ∈ [0] from by decide
    have hsi : (gK3 wf).siIdx (ix2 j k) ⟨List.idxOf (0 : Fin 2) (gK3 wf).startIndexMap,
        List.idxOf_lt_length_iff.2 hm⟩ = ix2 j 0 := by
      funext b; refine Fin.ext ?_
      match b with
      | ⟨0, _⟩ => rfl
      | ⟨1, _⟩ => rfl
    refine (operandIdx_collapsed (gK3 wf) (ix2 j k) idx 0 hm
      (show (0 : Fin 2) ∈ [0] from by decide) List.not_mem_nil).trans ?_
    rw [hsi]
    rfl
  | ⟨1, _⟩ =>
    have h1 : (1 : Fin 2) ∉ ([0] : List (Fin 2)) := by decide
    refine (operandIdx_offset (gK3 wf) (ix2 j k) idx 1 h1 List.not_mem_nil
      ((GatherDims.mem_sKept (gK3 wf) 1).2 ⟨h1, List.not_mem_nil⟩)).trans ?_
    rfl

abbrev gR3 (wf : GatherDims.WF SN SM3 SM3 [1] [0, 1, 2] [] [0, 1, 2] [] 1 ![1, 1, 1, 3]) : GatherDims SN SM3 SM3 where
  offsetDims := [1]
  collapsedSliceDims := [0, 1, 2]
  operandBatchingDims := []
  startIndicesBatchingDims := []
  startIndexMap := [0, 1, 2]
  indexVectorDim := 1
  sliceSizes := ![1, 1, 1, 3]
  wf := wf

theorem gR3_apply (wf : GatherDims.WF SN SM3 SM3 [1] [0, 1, 2] [] [0, 1, 2] [] 1 ![1, 1, 1, 3])
    (x : SN.Idx → α) (idx : IVec SM3 32) (j : Fin 2000000) (k : Fin 3) :
    Host.gather (gR3 wf) x idx (ix2 j k)
      = x (ix4 ⟨min (idx (ix2 j 0)).toInt.toNat 127, by omega⟩ ⟨min (idx (ix2 j 1)).toInt.toNat 511, by omega⟩
            ⟨min (idx (ix2 j 2)).toInt.toNat 511, by omega⟩ k) := by
  unfold Host.gather
  congr 1
  funext a
  refine Fin.ext ?_
  match a with
  | ⟨0, _⟩ =>
    have hm : (0 : Fin 4) ∈ (gR3 wf).startIndexMap := show (0 : Fin 4) ∈ [0, 1, 2] from by decide
    have hsi : (gR3 wf).siIdx (ix2 j k) ⟨List.idxOf (0 : Fin 4) (gR3 wf).startIndexMap,
        List.idxOf_lt_length_iff.2 hm⟩ = ix2 j 0 := by
      funext b; refine Fin.ext ?_
      match b with
      | ⟨0, _⟩ => rfl
      | ⟨1, _⟩ => rfl
    refine (operandIdx_collapsed (gR3 wf) (ix2 j k) idx 0 hm
      (show (0 : Fin 4) ∈ [0, 1, 2] from by decide) List.not_mem_nil).trans ?_
    rw [hsi]
    rfl
  | ⟨1, _⟩ =>
    have hm : (1 : Fin 4) ∈ (gR3 wf).startIndexMap := show (1 : Fin 4) ∈ [0, 1, 2] from by decide
    have hsi : (gR3 wf).siIdx (ix2 j k) ⟨List.idxOf (1 : Fin 4) (gR3 wf).startIndexMap,
        List.idxOf_lt_length_iff.2 hm⟩ = ix2 j 1 := by
      funext b; refine Fin.ext ?_
      match b with
      | ⟨0, _⟩ => rfl
      | ⟨1, _⟩ => rfl
    refine (operandIdx_collapsed (gR3 wf) (ix2 j k) idx 1 hm
      (show (1 : Fin 4) ∈ [0, 1, 2] from by decide) List.not_mem_nil).trans ?_
    rw [hsi]
    rfl
  | ⟨2, _⟩ =>
    have hm : (2 : Fin 4) ∈ (gR3 wf).startIndexMap := show (2 : Fin 4) ∈ [0, 1, 2] from by decide
    have hsi : (gR3 wf).siIdx (ix2 j k) ⟨List.idxOf (2 : Fin 4) (gR3 wf).startIndexMap,
        List.idxOf_lt_length_iff.2 hm⟩ = ix2 j 2 := by
      funext b; refine Fin.ext ?_
      match b with
      | ⟨0, _⟩ => rfl
      | ⟨1, _⟩ => rfl
    refine (operandIdx_collapsed (gR3 wf) (ix2 j k) idx 2 hm
      (show (2 : Fin 4) ∈ [0, 1, 2] from by decide) List.not_mem_nil).trans ?_
    rw [hsi]
    rfl
  | ⟨3, _⟩ =>
    have h3 : (3 : Fin 4) ∉ ([0, 1, 2] : List (Fin 4)) := by decide
    refine (operandIdx_offset (gR3 wf) (ix2 j k) idx 3 h3 List.not_mem_nil
      ((GatherDims.mem_sKept (gR3 wf) 3).2 ⟨h3, List.not_mem_nil⟩)).trans ?_
    rfl

end Gather

section Layout
variable {α : Type}

theorem flatA_apply (a : SA.Idx → α) (h : SA.ShapeCasts SF) (z : Fin 128) (u v : Fin 512) :
    shapeCast SF a h (ix1 ⟨(z.val * 512 + u.val) * 512 + v.val, by omega⟩) = a (ix3 z u v) := by
  refine shapeCast_apply a h _ (ix3 z u v) ?_
  rw [Shape.rowMajor_val_three, Shape.rowMajor_val_one]
  rfl

theorem flatN_apply (n : SN.Idx → α) (h : SN.ShapeCasts SF3) (z : Fin 128) (u v : Fin 512) (k : Fin 3) :
    shapeCast SF3 n h (ix2 ⟨(z.val * 512 + u.val) * 512 + v.val, by omega⟩ k) = n (ix4 z u v k) := by
  refine shapeCast_apply n h _ (ix4 z u v k) ?_
  rw [Shape.rowMajor_val_four, Shape.rowMajor_val_two]
  rfl

theorem bcastA_apply (a : SA.Idx → α) (h : SA.BroadcastsInDim SA1 ![0, 1, 2]) (z : Fin 128) (u v : Fin 512) :
    broadcastInDim SA1 ![0, 1, 2] h a (ix4 z u v 0) = a (ix3 z u v) := by
  refine broadcastInDim_apply ![0, 1, 2] h a _ (ix3 z u v) fun b => ?_
  match b with
  | ⟨0, _⟩ => rfl
  | ⟨1, _⟩ => rfl
  | ⟨2, _⟩ => rfl

end Layout

section Words

theorem flat_toInt (z u v : BitVec 32) (hz0 : 0 ≤ z.toInt) (hz1 : z.toInt ≤ 127) (hu0 : 0 ≤ u.toInt)
    (hu1 : u.toInt ≤ 511) (hv0 : 0 ≤ v.toInt) (hv1 : v.toInt ≤ 511) :
    (IntOp.addi (IntOp.muli (IntOp.addi (IntOp.muli z 512#32) u) 512#32) v).toInt
      = (z.toInt * 512 + u.toInt) * 512 + v.toInt := by
  have h512 : (512#32 : BitVec 32).toInt = 512 := by decide
  have e1 : (z * 512#32).toInt = z.toInt * 512 := by
    rw [BitVec.toInt_mul, h512]
    exact Int.bmod_eq_of_le_mul_two (by omega) (by omega)
  have e2 : (z * 512#32 + u).toInt = z.toInt * 512 + u.toInt := by
    rw [BitVec.toInt_add, e1]
    exact Int.bmod_eq_of_le_mul_two (by omega) (by omega)
  have e3 : ((z * 512#32 + u) * 512#32).toInt = (z.toInt * 512 + u.toInt) * 512 := by
    rw [BitVec.toInt_mul, e2, h512]
    exact Int.bmod_eq_of_le_mul_two (by omega) (by omega)
  show ((z * 512#32 + u) * 512#32 + v).toInt = _
  rw [BitVec.toInt_add, e3]
  exact Int.bmod_eq_of_le_mul_two (by omega) (by omega)

theorem wrap_neg (n : BitVec 32) (x : BitVec 32) (h0 : 0 ≤ x.toInt) :
    Scalar.select (IntOp.cmpi .slt x 0#32) (IntOp.addi x n) x = x := by
  have h : x.slt 0#32 = false := by
    rw [BitVec.slt_eq_decide, BitVec.toInt_zero]
    exact decide_eq_false (by omega)
  show Scalar.select (BitVec.ofBool (x.slt 0#32)) (IntOp.addi x n) x = x
  rw [h]
  exact select_zero _ _

theorem clip_bounds (x lo hi : BitVec 32) (h : lo.toInt ≤ hi.toInt) :
    lo.toInt ≤ (IntOp.minsi hi (IntOp.maxsi lo x)).toInt ∧ (IntOp.minsi hi (IntOp.maxsi lo x)).toInt ≤ hi.toInt := by
  unfold IntOp.minsi IntOp.maxsi
  by_cases h1 : x.toInt < lo.toInt
  · have e1 : x.slt lo = true := by rw [BitVec.slt_eq_decide]; exact decide_eq_true h1
    rw [e1, if_pos (show true = true from rfl)]
    by_cases h2 : hi.toInt < lo.toInt
    · omega
    · have e2 : hi.slt lo = false := by rw [BitVec.slt_eq_decide]; exact decide_eq_false h2
      rw [e2, if_neg Bool.false_ne_true]
      omega
  · have e1 : x.slt lo = false := by rw [BitVec.slt_eq_decide]; exact decide_eq_false h1
    rw [e1, if_neg Bool.false_ne_true]
    by_cases h2 : hi.toInt < x.toInt
    · have e2 : hi.slt x = true := by rw [BitVec.slt_eq_decide]; exact decide_eq_true h2
      rw [e2, if_pos (show true = true from rfl)]
      omega
    · have e2 : hi.slt x = false := by rw [BitVec.slt_eq_decide]; exact decide_eq_false h2
      rw [e2, if_neg Bool.false_ne_true]
      omega

end Words

end Cert.Index

end
-- ==== Proof.Rows.lean ====
import proofs.«415693_j15238543966484_3_alg».proof.Proof.Spec
import proofs.«415693_j15238543966484_3_alg».proof.Proof.Index

noncomputable section

namespace Cert.Rows

open Idealize.ShloMosaic Idealize.ShloMosaic.ValueIdx Cert.Index Cert.Spec

def cellA {α : Type} (al : SA.Idx → α) (z x y : BitVec 32) : α :=
  al (ix3 ⟨min z.toInt.toNat 127, by omega⟩ ⟨min x.toInt.toNat 511, by omega⟩ ⟨min y.toInt.toNat 511, by omega⟩)

def cellN {α : Type} (nm : SN.Idx → α) (z x y : BitVec 32) (k : Fin 3) : α :=
  nm (ix4 ⟨min z.toInt.toNat 127, by omega⟩ ⟨min x.toInt.toNat 511, by omega⟩ ⟨min y.toInt.toNat 511, by omega⟩ k)

def cornerZ (lo hi : Fin 3 → BitVec 32) (k : Fin 8) : BitVec 32 := if k.val / 4 % 2 = 1 then hi 0 else lo 0
def cornerX (lo hi : Fin 3 → BitVec 32) (k : Fin 8) : BitVec 32 := if k.val / 2 % 2 = 1 then hi 1 else lo 1
def cornerY (lo hi : Fin 3 → BitVec 32) (k : Fin 8) : BitVec 32 := if k.val % 2 = 1 then hi 2 else lo 2

def blendK (g : Fin 8 → EReal) (fz fx fy : EReal) : EReal :=
  ((((((((zeroF + g 0 * (((oneF - fz) * (oneF - fx)) * (oneF - fy))) + g 1 * (((oneF - fz) * (oneF - fx)) * fy))
    + g 2 * (((oneF - fz) * fx) * (oneF - fy))) + g 3 * (((oneF - fz) * fx) * fy))
    + g 4 * ((fz * (oneF - fx)) * (oneF - fy))) + g 5 * ((fz * (oneF - fx)) * fy))
    + g 6 * ((fz * fx) * (oneF - fy))) + g 7 * ((fz * fx) * fy))

def blendR (g : Fin 8 → EReal) (fz fx fy : EReal) : EReal :=
  (((((((((g 0 * (oneF - fz)) * (oneF - fx)) * (oneF - fy) + ((g 1 * (oneF - fz)) * (oneF - fx)) * fy)
    + ((g 2 * (oneF - fz)) * fx) * (oneF - fy)) + ((g 3 * (oneF - fz)) * fx) * fy)
    + ((g 4 * fz) * (oneF - fx)) * (oneF - fy)) + ((g 5 * fz) * (oneF - fx)) * fy)
    + ((g 6 * fz) * fx) * (oneF - fy)) + ((g 7 * fz) * fx) * fy)

/-- The kernel's and the reference's blends of eight corner values are one sum. -/
theorem blend_eq (g : Fin 8 → EReal) (fz fx fy : EReal) : blendK g fz fx fy = blendR g fz fx fy :=
  blend_assoc _ _ _ _ _ _ _ _ _ _ _ _ _ _ _ _ _ _ _ _ _ _ _ _ _ _ _ _ _ _ _ _

def pointA (al : SA.Idx → EReal) (lo hi : Fin 3 → BitVec 32) (f : Fin 3 → EReal) : EReal :=
  blendK (fun k => cellA al (cornerZ lo hi k) (cornerX lo hi k) (cornerY lo hi k)) (f 0) (f 1) (f 2)

def pointN (nm : SN.Idx → EReal) (lo hi : Fin 3 → BitVec 32) (f : Fin 3 → EReal) (ch : Fin 3) : EReal :=
  blendK (fun k => cellN nm (cornerZ lo hi k) (cornerX lo hi k) (cornerY lo hi k) ch) (f 0) (f 1) (f 2)

end Cert.Rows

end
-- ==== Proof.KRows.lean ====
import proofs.«415693_j15238543966484_3_alg».proof.Proof.KVals
import proofs.«415693_j15238543966484_3_alg».proof.Proof.Rows
import proofs.«415693_j15238543966484_3_alg».proof.Proof.Index
import proofs.«415693_j15238543966484_3_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

section Generic
variable {α : Type}

theorem col_apply (x : S2000000x3.Idx → α) (off : Fin 2 → Nat) (hs : S2000000x3.Slices off S2000000x1)
    (hc : S2000000x1.ShapeCasts S2000000) (j : Fin 2000000) (r : Fin 3) (h0 : off 0 = 0) (h1 : off 1 = r.val) :
    shapeCast S2000000 (extractStridedSlice S2000000x1 off x hs) hc (ix1 j) = x (ix2 j r) := by
  refine (shapeCast_apply _ hc (ix1 j) (ix2 j (0 : Fin 1)) ?_).trans ?_
  · rw [Shape.rowMajor_val_two, Shape.rowMajor_val_one]
    show j.val * 1 + 0 = j.val
    omega
  · refine extractStridedSlice_apply off x hs (ix2 j (0 : Fin 1)) (ix2 j r) fun a => ?_
    match a with
    | ⟨0, _⟩ => show j.val = off 0 + j.val; omega
    | ⟨1, _⟩ => show r.val = off 1 + 0; omega

theorem bcast_col_apply (w : S2000000.Idx → α) (hb : S2000000.BroadcastsInDim S2000000x1 ![0]) (j : Fin 2000000) :
    broadcastInDim S2000000x1 ![0] hb w (ix2 j (0 : Fin 1)) = w (ix1 j) := by
  refine broadcastInDim_apply ![0] hb w _ (ix1 j) fun a => ?_
  match a with
  | ⟨0, _⟩ => rfl

theorem bcast_row_apply (w : S2000000.Idx → α) (hb : S2000000.BroadcastsInDim S1x2000000 ![1]) (j : Fin 2000000) :
    broadcastInDim S1x2000000 ![1] hb w (ix2 (0 : Fin 1) j) = w (ix1 j) := by
  refine broadcastInDim_apply ![1] hb w _ (ix1 j) fun a => ?_
  match a with
  | ⟨0, _⟩ => rfl

theorem bcast_scalar_apply (c : S_.Idx → α) (hb : S_.BroadcastsInDim S2000000 ![]) (j : Fin 2000000) :
    broadcastInDim S2000000 ![] hb c (ix1 j) = c ix0 := by
  refine broadcastInDim_apply ![] hb c _ ix0 fun a => a.elim0

theorem flatA_cell (al : S128x512x512.Idx → α) (h : S128x512x512.ShapeCasts S33554432) (zw xw yw : BitVec 32)
    (hz0 : 0 ≤ zw.toInt) (hz1 : zw.toInt ≤ 127) (hx0 : 0 ≤ xw.toInt) (hx1 : xw.toInt ≤ 511)
    (hy0 : 0 ≤ yw.toInt) (hy1 : yw.toInt ≤ 511) :
    shapeCast S33554432 al h (ix1 ⟨min (IntOp.addi (IntOp.muli (IntOp.addi (IntOp.muli zw 512#32) xw) 512#32) yw).toInt.toNat
        (33554432 - 1), by omega⟩) = Cert.Rows.cellA al zw xw yw := by
  have hf := Cert.Index.flat_toInt zw xw yw hz0 hz1 hx0 hx1 hy0 hy1
  unfold Cert.Rows.cellA
  rw [← Cert.Index.flatA_apply al h ⟨min zw.toInt.toNat 127, by omega⟩ ⟨min xw.toInt.toNat 511, by omega⟩
    ⟨min yw.toInt.toNat 511, by omega⟩]
  refine congrArg (fun i => shapeCast S33554432 al h (ix1 i)) (Fin.ext ?_)
  show min (IntOp.addi (IntOp.muli (IntOp.addi (IntOp.muli zw 512#32) xw) 512#32) yw).toInt.toNat (33554432 - 1)
    = (min zw.toInt.toNat 127 * 512 + min xw.toInt.toNat 511) * 512 + min yw.toInt.toNat 511
  rw [hf]
  omega

theorem flatN_cell (nm : S128x512x512x3.Idx → α) (h : S128x512x512x3.ShapeCasts S33554432x3) (zw xw yw : BitVec 32)
    (hz0 : 0 ≤ zw.toInt) (hz1 : zw.toInt ≤ 127) (hx0 : 0 ≤ xw.toInt) (hx1 : xw.toInt ≤ 511)
    (hy0 : 0 ≤ yw.toInt) (hy1 : yw.toInt ≤ 511) (k : Fin 3) :
    shapeCast S33554432x3 nm h (ix2 ⟨min (IntOp.addi (IntOp.muli (IntOp.addi (IntOp.muli zw 512#32) xw) 512#32) yw).toInt.toNat
        (33554432 - 1), by omega⟩ k) = Cert.Rows.cellN nm zw xw yw k := by
  have hf := Cert.Index.flat_toInt zw xw yw hz0 hz1 hx0 hx1 hy0 hy1
  unfold Cert.Rows.cellN
  rw [← Cert.Index.flatN_apply nm h ⟨min zw.toInt.toNat 127, by omega⟩ ⟨min xw.toInt.toNat 511, by omega⟩
    ⟨min yw.toInt.toNat 511, by omega⟩ k]
  refine congrArg (fun i => shapeCast S33554432x3 nm h (ix2 i k)) (Fin.ext ?_)
  show min (IntOp.addi (IntOp.muli (IntOp.addi (IntOp.muli zw 512#32) xw) 512#32) yw).toInt.toNat (33554432 - 1)
    = (min zw.toInt.toNat 127 * 512 + min xw.toInt.toNat 511) * 512 + min yw.toInt.toNat 511
  rw [hf]
  omega

end Generic

section Steps

def flatW (zw xw yw : BitVec 32) : BitVec 32 :=
  IntOp.addi (IntOp.muli (IntOp.addi (IntOp.muli zw 512#32) xw) 512#32) yw

theorem gatherA_row (g : FVec Ideal S33554432 .f32) (iw : IVec S2000000 32) (j : Fin 2000000) :
    Host.gather gather_S33554432_S2000000x1_S2000000_n_0_n_n_0_1_1 g
        (broadcastInDim S2000000x1 ![0] bcast_S2000000_S2000000x1_0 iw) (ix1 j)
      = g (ix1 ⟨min (iw (ix1 j)).toInt.toNat (33554432 - 1), by omega⟩) := by
  refine (Cert.Index.gK1_apply gather_S33554432_S2000000x1_S2000000_n_0_n_n_0_1_1_wf g _ j).trans ?_
  refine congrArg g (congrArg ix1 (Fin.ext ?_))
  show min ((broadcastInDim S2000000x1 ![0] bcast_S2000000_S2000000x1_0 iw) (ix2 j (0 : Fin 1))).toInt.toNat (33554432 - 1)
    = min (iw (ix1 j)).toInt.toNat (33554432 - 1)
  rw [bcast_col_apply]

theorem gatherN_row (g : FVec Ideal S33554432x3 .f32) (iw : IVec S2000000 32) (j : Fin 2000000) (r : Fin 3) :
    Host.gather gather_S33554432x3_S2000000x1_S2000000x3_1_0_n_n_0_1_13 g
        (broadcastInDim S2000000x1 ![0] bcast_S2000000_S2000000x1_0 iw) (ix2 j r)
      = g (ix2 ⟨min (iw (ix1 j)).toInt.toNat (33554432 - 1), by omega⟩ r) := by
  refine (Cert.Index.gK3_apply gather_S33554432x3_S2000000x1_S2000000x3_1_0_n_n_0_1_13_wf g _ j r).trans ?_
  refine congrArg g (congrArg (fun i => ix2 i r) (Fin.ext ?_))
  show min ((broadcastInDim S2000000x1 ![0] bcast_S2000000_S2000000x1_0 iw) (ix2 j (0 : Fin 1))).toInt.toNat (33554432 - 1)
    = min (iw (ix1 j)).toInt.toNat (33554432 - 1)
  rw [bcast_col_apply]

theorem stepA_apply (acc wt : FVec Ideal S2000000 .f32) (g : FVec Ideal S33554432 .f32) (iw : IVec S2000000 32)
    (j : Fin 2000000) :
    stepA acc g iw wt (ix1 j)
      = acc (ix1 j) + g (ix1 ⟨min (iw (ix1 j)).toInt.toNat (33554432 - 1), by omega⟩) * wt (ix1 j) := by
  unfold stepA
  rw [addf_apply, mulf_apply]
  show acc (ix1 j) + Host.gather gather_S33554432_S2000000x1_S2000000_n_0_n_n_0_1_1 g
      (broadcastInDim S2000000x1 ![0] bcast_S2000000_S2000000x1_0 iw) (ix1 j) * wt (ix1 j) = _
  rw [gatherA_row]

theorem stepN_apply (acc wt : FVec Ideal S2000000 .f32) (g : FVec Ideal S33554432x3 .f32) (iw : IVec S2000000 32)
    (off : Fin 2 → Nat) (hs : S2000000x3.Slices off S2000000x1) (r : Fin 3) (h0 : off 0 = 0) (h1 : off 1 = r.val)
    (j : Fin 2000000) :
    stepN acc g iw off hs wt (ix1 j)
      = acc (ix1 j) + g (ix2 ⟨min (iw (ix1 j)).toInt.toNat (33554432 - 1), by omega⟩ r) * wt (ix1 j) := by
  unfold stepN
  rw [addf_apply, mulf_apply, col_apply _ off hs _ j r h0 h1]
  show acc (ix1 j) + Host.gather gather_S33554432x3_S2000000x1_S2000000x3_1_0_n_n_0_1_13 g
      (broadcastInDim S2000000x1 ![0] bcast_S2000000_S2000000x1_0 iw) (ix2 j r) * wt (ix1 j) = _
  rw [gatherN_row]

theorem stepA_cell (acc wt : FVec Ideal S2000000 .f32) (al : FVec Ideal S128x512x512 .f32) (iw : IVec S2000000 32)
    (j : Fin 2000000) (zw xw yw : BitVec 32) (hi : iw (ix1 j) = flatW zw xw yw)
    (hz0 : 0 ≤ zw.toInt) (hz1 : zw.toInt ≤ 127) (hx0 : 0 ≤ xw.toInt) (hx1 : xw.toInt ≤ 511)
    (hy0 : 0 ≤ yw.toInt) (hy1 : yw.toInt ≤ 511) :
    stepA acc (shapeCast S33554432 al shapeCasts_S128x512x512_S33554432) iw wt (ix1 j)
      = acc (ix1 j) + Cert.Rows.cellA al zw xw yw * wt (ix1 j) := by
  rw [stepA_apply]
  have e := flatA_cell al shapeCasts_S128x512x512_S33554432 zw xw yw hz0 hz1 hx0 hx1 hy0 hy1
  rw [← e]
  congr 3
  refine congrArg ix1 (Fin.ext ?_)
  show min (iw (ix1 j)).toInt.toNat (33554432 - 1) = _
  rw [hi]
  rfl

theorem stepN_cell (acc wt : FVec Ideal S2000000 .f32) (nm : FVec Ideal S128x512x512x3 .f32) (iw : IVec S2000000 32)
    (off : Fin 2 → Nat) (hs : S2000000x3.Slices off S2000000x1) (r : Fin 3) (h0 : off 0 = 0) (h1 : off 1 = r.val)
    (j : Fin 2000000) (zw xw yw : BitVec 32) (hi : iw (ix1 j) = flatW zw xw yw)
    (hz0 : 0 ≤ zw.toInt) (hz1 : zw.toInt ≤ 127) (hx0 : 0 ≤ xw.toInt) (hx1 : xw.toInt ≤ 511)
    (hy0 : 0 ≤ yw.toInt) (hy1 : yw.toInt ≤ 511) :
    stepN acc (shapeCast S33554432x3 nm shapeCasts_S128x512x512x3_S33554432x3) iw off hs wt (ix1 j)
      = acc (ix1 j) + Cert.Rows.cellN nm zw xw yw r * wt (ix1 j) := by
  rw [stepN_apply _ _ _ _ off hs r h0 h1]
  have e := flatN_cell nm shapeCasts_S128x512x512x3_S33554432x3 zw xw yw hz0 hz1 hx0 hx1 hy0 hy1 r
  rw [← e]
  congr 3
  refine congrArg (fun i => ix2 i r) (Fin.ext ?_)
  show min (iw (ix1 j)).toInt.toNat (33554432 - 1) = _
  rw [hi]
  rfl

end Steps

section Clip

theorem litrow_apply (j : Fin 2000000) (r : Fin 3) :
    (broadcastInDim S2000000x3 ![0, 1] bcast_S1x3_S2000000x3_0_1
      (broadcastInDim S1x3 ![1] bcast_S3_S1x3_1 (fun i => lit0 (S3.rowMajor i)))) (ix2 j r) = lit0 r := by
  refine (broadcastInDim_apply ![0, 1] bcast_S1x3_S2000000x3_0_1 _ (ix2 j r) (ix2 (0 : Fin 1) r) fun a => ?_).trans ?_
  · match a with
    | ⟨0, _⟩ => rfl
    | ⟨1, _⟩ => rfl
  refine (broadcastInDim_apply ![1] bcast_S3_S1x3_1 _ (ix2 (0 : Fin 1) r) (ix1 r) fun a => ?_).trans ?_
  · match a with
    | ⟨0, _⟩ => rfl
  show lit0 (S3.rowMajor (ix1 r)) = lit0 r
  congr 1
  exact Fin.ext (Shape.rowMajor_val_one (ix1 r))

theorem clip_row_bounds (x : IVec S2000000x3 32) (j : Fin 2000000) (r : Fin 3) :
    0 ≤ ((minsi (broadcastInDim S2000000x3 ![0, 1] bcast_S1x3_S2000000x3_0_1
          (broadcastInDim S1x3 ![1] bcast_S3_S1x3_1 (fun i => lit0 (S3.rowMajor i))))
        (maxsi (broadcastInDim S2000000x3 ![] bcast_S_S2000000x3 (id (constantI S_ 32 0#32))) x)) (ix2 j r)).toInt
    ∧ ((minsi (broadcastInDim S2000000x3 ![0, 1] bcast_S1x3_S2000000x3_0_1
          (broadcastInDim S1x3 ![1] bcast_S3_S1x3_1 (fun i => lit0 (S3.rowMajor i))))
        (maxsi (broadcastInDim S2000000x3 ![] bcast_S_S2000000x3 (id (constantI S_ 32 0#32))) x)) (ix2 j r)).toInt
      ≤ (![127, 511, 511] : Fin 3 → Int) r := by
  show 0 ≤ (IntOp.minsi ((broadcastInDim S2000000x3 ![0, 1] bcast_S1x3_S2000000x3_0_1
          (broadcastInDim S1x3 ![1] bcast_S3_S1x3_1 (fun i => lit0 (S3.rowMajor i)))) (ix2 j r))
        (IntOp.maxsi 0#32 (x (ix2 j r)))).toInt
    ∧ (IntOp.minsi ((broadcastInDim S2000000x3 ![0, 1] bcast_S1x3_S2000000x3_0_1
          (broadcastInDim S1x3 ![1] bcast_S3_S1x3_1 (fun i => lit0 (S3.rowMajor i)))) (ix2 j r))
        (IntOp.maxsi 0#32 (x (ix2 j r)))).toInt ≤ (![127, 511, 511] : Fin 3 → Int) r
  rw [litrow_apply]
  have hl : ∀ r : Fin 3, (lit0 r).toInt = (![127, 511, 511] : Fin 3 → Int) r := by decide
  have h0 : (0#32 : BitVec 32).toInt = 0 := by decide
  have hle : ∀ r : Fin 3, (0#32 : BitVec 32).toInt ≤ (lit0 r).toInt := by decide
  have hb := Cert.Index.clip_bounds (x (ix2 j r)) 0#32 (lit0 r) (hle r)
  rw [h0, hl r] at hb
  exact hb

end Clip

def fracK (V : Valuation τ sig (Elt Ideal)) : FVec Ideal S2000000x3 .f32 := v_wA V (Proc.devRef .tc main_v1)

def loK (V : Valuation τ sig (Elt Ideal)) (j : Fin 2000000) : Fin 3 → BitVec 32 :=
  fun r => v_wA V (Proc.devRef .tc main_v3) (ValueIdx.ix2 j r)

def hiK (V : Valuation τ sig (Elt Ideal)) (j : Fin 2000000) : Fin 3 → BitVec 32 :=
  fun r => v_wA V (Proc.devRef .tc main_v6) (ValueIdx.ix2 j r)

theorem lo_bounds (V : Valuation τ sig (Elt Ideal)) (j : Fin 2000000) (r : Fin 3) :
    0 ≤ (loK V j r).toInt ∧ (loK V j r).toInt ≤ (![127, 511, 511] : Fin 3 → Int) r := by
  unfold loK
  rw [v_wA_main_v3_eq]
  exact clip_row_bounds _ j r

theorem hi_bounds (V : Valuation τ sig (Elt Ideal)) (j : Fin 2000000) (r : Fin 3) :
    0 ≤ (hiK V j r).toInt ∧ (hiK V j r).toInt ≤ (![127, 511, 511] : Fin 3 → Int) r := by
  unfold hiK
  rw [v_wA_main_v6_eq]
  exact clip_row_bounds _ j r

theorem addi_apply {s : Shape} {w : Nat} (x y : IVec s w) (i : s.Idx) : addi x y i = IntOp.addi (x i) (y i) := rfl
theorem muli_apply {s : Shape} {w : Nat} (x y : IVec s w) (i : s.Idx) : muli x y i = IntOp.muli (x i) (y i) := rfl

open Cert.Spec in
theorem const_one_apply (i : S_.Idx) : (constant (F := Ideal) S_ .f32 0x3F800000#32) i = oneF := rfl
open Cert.Spec in
theorem const_zero_apply (i : S_.Idx) : (constant (F := Ideal) S_ .f32 0x00000000#32) i = zeroF := rfl

section WindowB
open Cert.Spec Cert.Rows
variable (V : Valuation τ sig (Elt Ideal)) (j : Fin 2000000)

theorem gridA_B : v_wB V (Proc.devRef .tc main_v109)
    = shapeCast S33554432 (V (Proc.devRef .tc main_arg1)) shapeCasts_S128x512x512_S33554432 := by
  rw [v_wB_main_v109_eq, (v_wA_keep main_arg1 (by decide) (by decide) (by decide) (by decide))]

theorem gridN_B : v_wB V (Proc.devRef .tc main_v110)
    = shapeCast S33554432x3 (V (Proc.devRef .tc main_arg2)) shapeCasts_S128x512x512x3_S33554432x3 := by
  rw [v_wB_main_v110_eq, (v_wA_keep main_arg2 (by decide) (by decide) (by decide) (by decide))]

theorem zero_133 : v_wB V (Proc.devRef .tc main_v133) (ix1 j) = zeroF := by
  rw [v_wB_main_v133_eq, bcast_scalar_apply]
  rfl

theorem zero_134 : v_wB V (Proc.devRef .tc main_v134) (ix1 j) = zeroF := by
  rw [v_wB_main_v134_eq, bcast_scalar_apply]
  rfl

theorem zero_135 : v_wB V (Proc.devRef .tc main_v135) (ix1 j) = zeroF := by
  rw [v_wB_main_v135_eq, bcast_scalar_apply]
  rfl

theorem zero_136 : v_wB V (Proc.devRef .tc main_v136) (ix1 j) = zeroF := by
  rw [v_wB_main_v136_eq, bcast_scalar_apply]
  rfl

theorem idxB_0 : v_wB V (Proc.devRef .tc main_v66) (ix1 j) = flatW (loK V j 0) (loK V j 1) (loK V j 2) := by
  rw [v_wB_main_v66_eq, addi_apply, muli_apply, addi_apply, muli_apply,
    col_apply _ ![0, 0] _ _ j 0 rfl rfl, col_apply _ ![0, 1] _ _ j 1 rfl rfl, col_apply _ ![0, 2] _ _ j 2 rfl rfl,
    bcast_scalar_apply]
  rfl

theorem wtB_0 : v_wB V (Proc.devRef .tc main_v118) (ix1 j) = (((oneF - fracK V (ix2 j 0)) * (oneF - fracK V (ix2 j 1))) * (oneF - fracK V (ix2 j 2))) := by
  rw [v_wB_main_v118_eq]
  simp only [mulf_apply, subf_apply, bcast_scalar_apply, const_one_apply]
  rw [col_apply _ ![0, 0] _ _ j 0 rfl rfl, col_apply _ ![0, 1] _ _ j 1 rfl rfl, col_apply _ ![0, 2] _ _ j 2 rfl rfl]
  rfl

theorem idxB_1 : v_wB V (Proc.devRef .tc main_v72) (ix1 j) = flatW (loK V j 0) (loK V j 1) (hiK V j 2) := by
  rw [v_wB_main_v72_eq, addi_apply, muli_apply, addi_apply, muli_apply,
    col_apply _ ![0, 0] _ _ j 0 rfl rfl, col_apply _ ![0, 1] _ _ j 1 rfl rfl, col_apply _ ![0, 2] _ _ j 2 rfl rfl,
    bcast_scalar_apply]
  rfl

theorem wtB_1 : v_wB V (Proc.devRef .tc main_v120) (ix1 j) = (((oneF - fracK V (ix2 j 0)) * (oneF - fracK V (ix2 j 1))) * fracK V (ix2 j 2)) := by
  rw [v_wB_main_v120_eq]
  simp only [mulf_apply, subf_apply, bcast_scalar_apply, const_one_apply]
  rw [col_apply _ ![0, 0] _ _ j 0 rfl rfl, col_apply _ ![0, 1] _ _ j 1 rfl rfl, col_apply _ ![0, 2] _ _ j 2 rfl rfl]
  rfl

theorem idxB_2 : v_wB V (Proc.devRef .tc main_v78) (ix1 j) = flatW (loK V j 0) (hiK V j 1) (loK V j 2) := by
  rw [v_wB_main_v78_eq, addi_apply, muli_apply, addi_apply, muli_apply,
    col_apply _ ![0, 0] _ _ j 0 rfl rfl, col_apply _ ![0, 1] _ _ j 1 rfl rfl, col_apply _ ![0, 2] _ _ j 2 rfl rfl,
    bcast_scalar_apply]
  rfl

theorem wtB_2 : v_wB V (Proc.devRef .tc main_v122) (ix1 j) = (((oneF - fracK V (ix2 j 0)) * fracK V (ix2 j 1)) * (oneF - fracK V (ix2 j 2))) := by
  rw [v_wB_main_v122_eq]
  simp only [mulf_apply, subf_apply, bcast_scalar_apply, const_one_apply]
  rw [col_apply _ ![0, 0] _ _ j 0 rfl rfl, col_apply _ ![0, 1] _ _ j 1 rfl rfl, col_apply _ ![0, 2] _ _ j 2 rfl rfl]
  rfl

theorem idxB_3 : v_wB V (Proc.devRef .tc main_v84) (ix1 j) = flatW (loK V j 0) (hiK V j 1) (hiK V j 2) := by
  rw [v_wB_main_v84_eq, addi_apply, muli_apply, addi_apply, muli_apply,
    col_apply _ ![0, 0] _ _ j 0 rfl rfl, col_apply _ ![0, 1] _ _ j 1 rfl rfl, col_apply _ ![0, 2] _ _ j 2 rfl rfl,
    bcast_scalar_apply]
  rfl

theorem wtB_3 : v_wB V (Proc.devRef .tc main_v124) (ix1 j) = (((oneF - fracK V (ix2 j 0)) * fracK V (ix2 j 1)) * fracK V (ix2 j 2)) := by
  rw [v_wB_main_v124_eq]
  simp only [mulf_apply, subf_apply, bcast_scalar_apply, const_one_apply]
  rw [col_apply _ ![0, 0] _ _ j 0 rfl rfl, col_apply _ ![0, 1] _ _ j 1 rfl rfl, col_apply _ ![0, 2] _ _ j 2 rfl rfl]
  rfl

theorem idxB_4 : v_wB V (Proc.devRef .tc main_v90) (ix1 j) = flatW (hiK V j 0) (loK V j 1) (loK V j 2) := by
  rw [v_wB_main_v90_eq, addi_apply, muli_apply, addi_apply, muli_apply,
    col_apply _ ![0, 0] _ _ j 0 rfl rfl, col_apply _ ![0, 1] _ _ j 1 rfl rfl, col_apply _ ![0, 2] _ _ j 2 rfl rfl,
    bcast_scalar_apply]
  rfl

theorem wtB_4 : v_wB V (Proc.devRef .tc main_v126) (ix1 j) = ((fracK V (ix2 j 0) * (oneF - fracK V (ix2 j 1))) * (oneF - fracK V (ix2 j 2))) := by
  rw [v_wB_main_v126_eq]
  simp only [mulf_apply, subf_apply, bcast_scalar_apply, const_one_apply]
  rw [col_apply _ ![0, 0] _ _ j 0 rfl rfl, col_apply _ ![0, 1] _ _ j 1 rfl rfl, col_apply _ ![0, 2] _ _ j 2 rfl rfl]
  rfl

theorem idxB_5 : v_wB V (Proc.devRef .tc main_v96) (ix1 j) = flatW (hiK V j 0) (loK V j 1) (hiK V j 2) := by
  rw [v_wB_main_v96_eq, addi_apply, muli_apply, addi_apply, muli_apply,
    col_apply _ ![0, 0] _ _ j 0 rfl rfl, col_apply _ ![0, 1] _ _ j 1 rfl rfl, col_apply _ ![0, 2] _ _ j 2 rfl rfl,
    bcast_scalar_apply]
  rfl

theorem wtB_5 : v_wB V (Proc.devRef .tc main_v128) (ix1 j) = ((fracK V (ix2 j 0) * (oneF - fracK V (ix2 j 1))) * fracK V (ix2 j 2)) := by
  rw [v_wB_main_v128_eq]
  simp only [mulf_apply, subf_apply, bcast_scalar_apply, const_one_apply]
  rw [col_apply _ ![0, 0] _ _ j 0 rfl rfl, col_apply _ ![0, 1] _ _ j 1 rfl rfl, col_apply _ ![0, 2] _ _ j 2 rfl rfl]
  rfl

theorem idxB_6 : v_wB V (Proc.devRef .tc main_v102) (ix1 j) = flatW (hiK V j 0) (hiK V j 1) (loK V j 2) := by
  rw [v_wB_main_v102_eq, addi_apply, muli_apply, addi_apply, muli_apply,
    col_apply _ ![0, 0] _ _ j 0 rfl rfl, col_apply _ ![0, 1] _ _ j 1 rfl rfl, col_apply _ ![0, 2] _ _ j 2 rfl rfl,
    bcast_scalar_apply]
  rfl

theorem wtB_6 : v_wB V (Proc.devRef .tc main_v130) (ix1 j) = ((fracK V (ix2 j 0) * fracK V (ix2 j 1)) * (oneF - fracK V (ix2 j 2))) := by
  rw [v_wB_main_v130_eq]
  simp only [mulf_apply, subf_apply, bcast_scalar_apply, const_one_apply]
  rw [col_apply _ ![0, 0] _ _ j 0 rfl rfl, col_apply _ ![0, 1] _ _ j 1 rfl rfl, col_apply _ ![0, 2] _ _ j 2 rfl rfl]
  rfl

theorem idxB_7 : v_wB V (Proc.devRef .tc main_v108) (ix1 j) = flatW (hiK V j 0) (hiK V j 1) (hiK V j 2) := by
  rw [v_wB_main_v108_eq, addi_apply, muli_apply, addi_apply, muli_apply,
    col_apply _ ![0, 0] _ _ j 0 rfl rfl, col_apply _ ![0, 1] _ _ j 1 rfl rfl, col_apply _ ![0, 2] _ _ j 2 rfl rfl,
    bcast_scalar_apply]
  rfl

theorem wtB_7 : v_wB V (Proc.devRef .tc main_v132) (ix1 j) = ((fracK V (ix2 j 0) * fracK V (ix2 j 1)) * fracK V (ix2 j 2)) := by
  rw [v_wB_main_v132_eq]
  simp only [mulf_apply, subf_apply, bcast_scalar_apply, const_one_apply]
  rw [col_apply _ ![0, 0] _ _ j 0 rfl rfl, col_apply _ ![0, 1] _ _ j 1 rfl rfl, col_apply _ ![0, 2] _ _ j 2 rfl rfl]
  rfl

end WindowB

section Corners
open Cert.Spec Cert.Rows
variable (V : Valuation τ sig (Elt Ideal)) (j : Fin 2000000)

abbrev albK (V : Valuation τ sig (Elt Ideal)) : FVec Ideal S128x512x512 .f32 := V (Proc.devRef .tc main_arg1)

abbrev nrmK (V : Valuation τ sig (Elt Ideal)) : FVec Ideal S128x512x512x3 .f32 := V (Proc.devRef .tc main_arg2)

theorem gridA_C0 : v_wC0 V (Proc.devRef .tc main_v109)
    = shapeCast S33554432 (albK V) shapeCasts_S128x512x512_S33554432 := by
  rw [(v_wC0_keep main_v109 (by decide) (by decide) (by decide)), gridA_B]
theorem gridN_C0 : v_wC0 V (Proc.devRef .tc main_v110)
    = shapeCast S33554432x3 (nrmK V) shapeCasts_S128x512x512x3_S33554432x3 := by
  rw [(v_wC0_keep main_v110 (by decide) (by decide) (by decide)), gridN_B]
theorem gridA_C1 : v_wC1 V (Proc.devRef .tc main_v109)
    = shapeCast S33554432 (albK V) shapeCasts_S128x512x512_S33554432 := by
  rw [(v_wC1_keep main_v109 (by decide) (by decide) (by decide)), gridA_C0]
theorem gridN_C1 : v_wC1 V (Proc.devRef .tc main_v110)
    = shapeCast S33554432x3 (nrmK V) shapeCasts_S128x512x512x3_S33554432x3 := by
  rw [(v_wC1_keep main_v110 (by decide) (by decide) (by decide)), gridN_C0]
theorem gridA_C2 : v_wC2 V (Proc.devRef .tc main_v109)
    = shapeCast S33554432 (albK V) shapeCasts_S128x512x512_S33554432 := by
  rw [(v_wC2_keep main_v109 (by decide) (by decide) (by decide)), gridA_C1]
theorem gridN_C2 : v_wC2 V (Proc.devRef .tc main_v110)
    = shapeCast S33554432x3 (nrmK V) shapeCasts_S128x512x512x3_S33554432x3 := by
  rw [(v_wC2_keep main_v110 (by decide) (by decide) (by decide)), gridN_C1]
theorem gridA_C3 : v_wC3 V (Proc.devRef .tc main_v109)
    = shapeCast S33554432 (albK V) shapeCasts_S128x512x512_S33554432 := by
  rw [(v_wC3_keep main_v109 (by decide) (by decide) (by decide)), gridA_C2]
theorem gridN_C3 : v_wC3 V (Proc.devRef .tc main_v110)
    = shapeCast S33554432x3 (nrmK V) shapeCasts_S128x512x512x3_S33554432x3 := by
  rw [(v_wC3_keep main_v110 (by decide) (by decide) (by decide)), gridN_C2]
theorem gridA_C4 : v_wC4 V (Proc.devRef .tc main_v109)
    = shapeCast S33554432 (albK V) shapeCasts_S128x512x512_S33554432 := by
  rw [(v_wC4_keep main_v109 (by decide) (by decide) (by decide)), gridA_C3]
theorem gridN_C4 : v_wC4 V (Proc.devRef .tc main_v110)
    = shapeCast S33554432x3 (nrmK V) shapeCasts_S128x512x512x3_S33554432x3 := by
  rw [(v_wC4_keep main_v110 (by decide) (by decide) (by decide)), gridN_C3]
theorem gridA_C5 : v_wC5 V (Proc.devRef .tc main_v109)
    = shapeCast S33554432 (albK V) shapeCasts_S128x512x512_S33554432 := by
  rw [(v_wC5_keep main_v109 (by decide) (by decide) (by decide)), gridA_C4]
theorem gridN_C5 : v_wC5 V (Proc.devRef .tc main_v110)
    = shapeCast S33554432x3 (nrmK V) shapeCasts_S128x512x512x3_S33554432x3 := by
  rw [(v_wC5_keep main_v110 (by decide) (by decide) (by decide)), gridN_C4]
theorem gridA_C6 : v_wC6 V (Proc.devRef .tc main_v109)
    = shapeCast S33554432 (albK V) shapeCasts_S128x512x512_S33554432 := by
  rw [(v_wC6_keep main_v109 (by decide) (by decide) (by decide)), gridA_C5]
theorem gridN_C6 : v_wC6 V (Proc.devRef .tc main_v110)
    = shapeCast S33554432x3 (nrmK V) shapeCasts_S128x512x512x3_S33554432x3 := by
  rw [(v_wC6_keep main_v110 (by decide) (by decide) (by decide)), gridN_C5]

theorem accA_0 : v_wC0 V (Proc.devRef .tc main_v140) (ix1 j) = (zeroF + cellA (albK V) (loK V j 0) (loK V j 1) (loK V j 2) * (((oneF - fracK V (ix2 j 0)) * (oneF - fracK V (ix2 j 1))) * (oneF - fracK V (ix2 j 2)))) := by
  rw [v_wC0_main_v140_eq, gridA_B]
  rw [stepA_cell _ _ (albK V) _ j _ _ _ (idxB_0 V j) (lo_bounds V j 0).1 (lo_bounds V j 0).2 (lo_bounds V j 1).1 (lo_bounds V j 1).2 (lo_bounds V j 2).1 (lo_bounds V j 2).2, zero_133, wtB_0]
theorem accN_0_0 : v_wC0 V (Proc.devRef .tc main_v144) (ix1 j) = (zeroF + cellN (nrmK V) (loK V j 0) (loK V j 1) (loK V j 2) 0 * (((oneF - fracK V (ix2 j 0)) * (oneF - fracK V (ix2 j 1))) * (oneF - fracK V (ix2 j 2)))) := by
  rw [v_wC0_main_v144_eq, gridN_B]
  rw [stepN_cell _ _ (nrmK V) _ ![0, 0] _ 0 rfl rfl j _ _ _ (idxB_0 V j) (lo_bounds V j 0).1 (lo_bounds V j 0).2 (lo_bounds V j 1).1 (lo_bounds V j 1).2 (lo_bounds V j 2).1 (lo_bounds V j 2).2, zero_134, wtB_0]
theorem accN_0_1 : v_wC0 V (Proc.devRef .tc main_v148) (ix1 j) = (zeroF + cellN (nrmK V) (loK V j 0) (loK V j 1) (loK V j 2) 1 * (((oneF - fracK V (ix2 j 0)) * (oneF - fracK V (ix2 j 1))) * (oneF - fracK V (ix2 j 2)))) := by
  rw [v_wC0_main_v148_eq, gridN_B]
  rw [stepN_cell _ _ (nrmK V) _ ![0, 1] _ 1 rfl rfl j _ _ _ (idxB_0 V j) (lo_bounds V j 0).1 (lo_bounds V j 0).2 (lo_bounds V j 1).1 (lo_bounds V j 1).2 (lo_bounds V j 2).1 (lo_bounds V j 2).2, zero_135, wtB_0]
theorem accN_0_2 : v_wC0 V (Proc.devRef .tc main_v152) (ix1 j) = (zeroF + cellN (nrmK V) (loK V j 0) (loK V j 1) (loK V j 2) 2 * (((oneF - fracK V (ix2 j 0)) * (oneF - fracK V (ix2 j 1))) * (oneF - fracK V (ix2 j 2)))) := by
  rw [v_wC0_main_v152_eq, gridN_B]
  rw [stepN_cell _ _ (nrmK V) _ ![0, 2] _ 2 rfl rfl j _ _ _ (idxB_0 V j) (lo_bounds V j 0).1 (lo_bounds V j 0).2 (lo_bounds V j 1).1 (lo_bounds V j 1).2 (lo_bounds V j 2).1 (lo_bounds V j 2).2, zero_136, wtB_0]

theorem idxC_1 : v_wC0 V (Proc.devRef .tc main_v72) (ix1 j) = flatW (loK V j 0) (loK V j 1) (hiK V j 2) := by
  rw [(v_wC0_keep main_v72 (by decide) (by decide) (by decide))]
  exact idxB_1 V j
theorem wtC_1 : v_wC0 V (Proc.devRef .tc main_v120) (ix1 j) = (((oneF - fracK V (ix2 j 0)) * (oneF - fracK V (ix2 j 1))) * fracK V (ix2 j 2)) := by
  rw [(v_wC0_keep main_v120 (by decide) (by decide) (by decide))]
  exact wtB_1 V j

theorem accA_1 : v_wC1 V (Proc.devRef .tc main_v156) (ix1 j) = ((zeroF + cellA (albK V) (loK V j 0) (loK V j 1) (loK V j 2) * (((oneF - fracK V (ix2 j 0)) * (oneF - fracK V (ix2 j 1))) * (oneF - fracK V (ix2 j 2)))) + cellA (albK V) (loK V j 0) (loK V j 1) (hiK V j 2) * (((oneF - fracK V (ix2 j 0)) * (oneF - fracK V (ix2 j 1))) * fracK V (ix2 j 2))) := by
  rw [v_wC1_main_v156_eq, gridA_C0]
  rw [stepA_cell _ _ (albK V) _ j _ _ _ (idxC_1 V j) (lo_bounds V j 0).1 (lo_bounds V j 0).2 (lo_bounds V j 1).1 (lo_bounds V j 1).2 (hi_bounds V j 2).1 (hi_bounds V j 2).2, wtC_1, accA_0]
theorem accN_1_0 : v_wC1 V (Proc.devRef .tc main_v160) (ix1 j) = ((zeroF + cellN (nrmK V) (loK V j 0) (loK V j 1) (loK V j 2) 0 * (((oneF - fracK V (ix2 j 0)) * (oneF - fracK V (ix2 j 1))) * (oneF - fracK V (ix2 j 2)))) + cellN (nrmK V) (loK V j 0) (loK V j 1) (hiK V j 2) 0 * (((oneF - fracK V (ix2 j 0)) * (oneF - fracK V (ix2 j 1))) * fracK V (ix2 j 2))) := by
  rw [v_wC1_main_v160_eq, gridN_C0]
  rw [stepN_cell _ _ (nrmK V) _ ![0, 0] _ 0 rfl rfl j _ _ _ (idxC_1 V j) (lo_bounds V j 0).1 (lo_bounds V j 0).2 (lo_bounds V j 1).1 (lo_bounds V j 1).2 (hi_bounds V j 2).1 (hi_bounds V j 2).2, wtC_1, accN_0_0]
theorem accN_1_1 : v_wC1 V (Proc.devRef .tc main_v164) (ix1 j) = ((zeroF + cellN (nrmK V) (loK V j 0) (loK V j 1) (loK V j 2) 1 * (((oneF - fracK V (ix2 j 0)) * (oneF - fracK V (ix2 j 1))) * (oneF - fracK V (ix2 j 2)))) + cellN (nrmK V) (loK V j 0) (loK V j 1) (hiK V j 2) 1 * (((oneF - fracK V (ix2 j 0)) * (oneF - fracK V (ix2 j 1))) * fracK V (ix2 j 2))) := by
  rw [v_wC1_main_v164_eq, gridN_C0]
  rw [stepN_cell _ _ (nrmK V) _ ![0, 1] _ 1 rfl rfl j _ _ _ (idxC_1 V j) (lo_bounds V j 0).1 (lo_bounds V j 0).2 (lo_bounds V j 1).1 (lo_bounds V j 1).2 (hi_bounds V j 2).1 (hi_bounds V j 2).2, wtC_1, accN_0_1]
theorem accN_1_2 : v_wC1 V (Proc.devRef .tc main_v168) (ix1 j) = ((zeroF + cellN (nrmK V) (loK V j 0) (loK V j 1) (loK V j 2) 2 * (((oneF - fracK V (ix2 j 0)) * (oneF - fracK V (ix2 j 1))) * (oneF - fracK V (ix2 j 2)))) + cellN (nrmK V) (loK V j 0) (loK V j 1) (hiK V j 2) 2 * (((oneF - fracK V (ix2 j 0)) * (oneF - fracK V (ix2 j 1))) * fracK V (ix2 j 2))) := by
  rw [v_wC1_main_v168_eq, gridN_C0]
  rw [stepN_cell _ _ (nrmK V) _ ![0, 2] _ 2 rfl rfl j _ _ _ (idxC_1 V j) (lo_bounds V j 0).1 (lo_bounds V j 0).2 (lo_bounds V j 1).1 (lo_bounds V j 1).2 (hi_bounds V j 2).1 (hi_bounds V j 2).2, wtC_1, accN_0_2]

theorem idxC_2 : v_wC1 V (Proc.devRef .tc main_v78) (ix1 j) = flatW (loK V j 0) (hiK V j 1) (loK V j 2) := by
  rw [(v_wC1_keep main_v78 (by decide) (by decide) (by decide)), (v_wC0_keep main_v78 (by decide) (by decide) (by decide))]
  exact idxB_2 V j
theorem wtC_2 : v_wC1 V (Proc.devRef .tc main_v122) (ix1 j) = (((oneF - fracK V (ix2 j 0)) * fracK V (ix2 j 1)) * (oneF - fracK V (ix2 j 2))) := by
  rw [(v_wC1_keep main_v122 (by decide) (by decide) (by decide)), (v_wC0_keep main_v122 (by decide) (by decide) (by decide))]
  exact wtB_2 V j

theorem accA_2 : v_wC2 V (Proc.devRef .tc main_v172) (ix1 j) = (((zeroF + cellA (albK V) (loK V j 0) (loK V j 1) (loK V j 2) * (((oneF - fracK V (ix2 j 0)) * (oneF - fracK V (ix2 j 1))) * (oneF - fracK V (ix2 j 2)))) + cellA (albK V) (loK V j 0) (loK V j 1) (hiK V j 2) * (((oneF - fracK V (ix2 j 0)) * (oneF - fracK V (ix2 j 1))) * fracK V (ix2 j 2))) + cellA (albK V) (loK V j 0) (hiK V j 1) (loK V j 2) * (((oneF - fracK V (ix2 j 0)) * fracK V (ix2 j 1)) * (oneF - fracK V (ix2 j 2)))) := by
  rw [v_wC2_main_v172_eq, gridA_C1]
  rw [stepA_cell _ _ (albK V) _ j _ _ _ (idxC_2 V j) (lo_bounds V j 0).1 (lo_bounds V j 0).2 (hi_bounds V j 1).1 (hi_bounds V j 1).2 (lo_bounds V j 2).1 (lo_bounds V j 2).2, wtC_2, accA_1]
theorem accN_2_0 : v_wC2 V (Proc.devRef .tc main_v176) (ix1 j) = (((zeroF + cellN (nrmK V) (loK V j 0) (loK V j 1) (loK V j 2) 0 * (((oneF - fracK V (ix2 j 0)) * (oneF - fracK V (ix2 j 1))) * (oneF - fracK V (ix2 j 2)))) + cellN (nrmK V) (loK V j 0) (loK V j 1) (hiK V j 2) 0 * (((oneF - fracK V (ix2 j 0)) * (oneF - fracK V (ix2 j 1))) * fracK V (ix2 j 2))) + cellN (nrmK V) (loK V j 0) (hiK V j 1) (loK V j 2) 0 * (((oneF - fracK V (ix2 j 0)) * fracK V (ix2 j 1)) * (oneF - fracK V (ix2 j 2)))) := by
  rw [v_wC2_main_v176_eq, gridN_C1]
  rw [stepN_cell _ _ (nrmK V) _ ![0, 0] _ 0 rfl rfl j _ _ _ (idxC_2 V j) (lo_bounds V j 0).1 (lo_bounds V j 0).2 (hi_bounds V j 1).1 (hi_bounds V j 1).2 (lo_bounds V j 2).1 (lo_bounds V j 2).2, wtC_2, accN_1_0]
theorem accN_2_1 : v_wC2 V (Proc.devRef .tc main_v180) (ix1 j) = (((zeroF + cellN (nrmK V) (loK V j 0) (loK V j 1) (loK V j 2) 1 * (((oneF - fracK V (ix2 j 0)) * (oneF - fracK V (ix2 j 1))) * (oneF - fracK V (ix2 j 2)))) + cellN (nrmK V) (loK V j 0) (loK V j 1) (hiK V j 2) 1 * (((oneF - fracK V (ix2 j 0)) * (oneF - fracK V (ix2 j 1))) * fracK V (ix2 j 2))) + cellN (nrmK V) (loK V j 0) (hiK V j 1) (loK V j 2) 1 * (((oneF - fracK V (ix2 j 0)) * fracK V (ix2 j 1)) * (oneF - fracK V (ix2 j 2)))) := by
  rw [v_wC2_main_v180_eq, gridN_C1]
  rw [stepN_cell _ _ (nrmK V) _ ![0, 1] _ 1 rfl rfl j _ _ _ (idxC_2 V j) (lo_bounds V j 0).1 (lo_bounds V j 0).2 (hi_bounds V j 1).1 (hi_bounds V j 1).2 (lo_bounds V j 2).1 (lo_bounds V j 2).2, wtC_2, accN_1_1]
theorem accN_2_2 : v_wC2 V (Proc.devRef .tc main_v184) (ix1 j) = (((zeroF + cellN (nrmK V) (loK V j 0) (loK V j 1) (loK V j 2) 2 * (((oneF - fracK V (ix2 j 0)) * (oneF - fracK V (ix2 j 1))) * (oneF - fracK V (ix2 j 2)))) + cellN (nrmK V) (loK V j 0) (loK V j 1) (hiK V j 2) 2 * (((oneF - fracK V (ix2 j 0)) * (oneF - fracK V (ix2 j 1))) * fracK V (ix2 j 2))) + cellN (nrmK V) (loK V j 0) (hiK V j 1) (loK V j 2) 2 * (((oneF - fracK V (ix2 j 0)) * fracK V (ix2 j 1)) * (oneF - fracK V (ix2 j 2)))) := by
  rw [v_wC2_main_v184_eq, gridN_C1]
  rw [stepN_cell _ _ (nrmK V) _ ![0, 2] _ 2 rfl rfl j _ _ _ (idxC_2 V j) (lo_bounds V j 0).1 (lo_bounds V j 0).2 (hi_bounds V j 1).1 (hi_bounds V j 1).2 (lo_bounds V j 2).1 (lo_bounds V j 2).2, wtC_2, accN_1_2]

theorem idxC_3 : v_wC2 V (Proc.devRef .tc main_v84) (ix1 j) = flatW (loK V j 0) (hiK V j 1) (hiK V j 2) := by
  rw [(v_wC2_keep main_v84 (by decide) (by decide) (by decide)), (v_wC1_keep main_v84 (by decide) (by decide) (by decide)), (v_wC0_keep main_v84 (by decide) (by decide) (by decide))]
  exact idxB_3 V j
theorem wtC_3 : v_wC2 V (Proc.devRef .tc main_v124) (ix1 j) = (((oneF - fracK V (ix2 j 0)) * fracK V (ix2 j 1)) * fracK V (ix2 j 2)) := by
  rw [(v_wC2_keep main_v124 (by decide) (by decide) (by decide)), (v_wC1_keep main_v124 (by decide) (by decide) (by decide)), (v_wC0_keep main_v124 (by decide) (by decide) (by decide))]
  exact wtB_3 V j

theorem accA_3 : v_wC3 V (Proc.devRef .tc main_v188) (ix1 j) = ((((zeroF + cellA (albK V) (loK V j 0) (loK V j 1) (loK V j 2) * (((oneF - fracK V (ix2 j 0)) * (oneF - fracK V (ix2 j 1))) * (oneF - fracK V (ix2 j 2)))) + cellA (albK V) (loK V j 0) (loK V j 1) (hiK V j 2) * (((oneF - fracK V (ix2 j 0)) * (oneF - fracK V (ix2 j 1))) * fracK V (ix2 j 2))) + cellA (albK V) (loK V j 0) (hiK V j 1) (loK V j 2) * (((oneF - fracK V (ix2 j 0)) * fracK V (ix2 j 1)) * (oneF - fracK V (ix2 j 2)))) + cellA (albK V) (loK V j 0) (hiK V j 1) (hiK V j 2) * (((oneF - fracK V (ix2 j 0)) * fracK V (ix2 j 1)) * fracK V (ix2 j 2))) := by
  rw [v_wC3_main_v188_eq, gridA_C2]
  rw [stepA_cell _ _ (albK V) _ j _ _ _ (idxC_3 V j) (lo_bounds V j 0).1 (lo_bounds V j 0).2 (hi_bounds V j 1).1 (hi_bounds V j 1).2 (hi_bounds V j 2).1 (hi_bounds V j 2).2, wtC_3, accA_2]
theorem accN_3_0 : v_wC3 V (Proc.devRef .tc main_v192) (ix1 j) = ((((zeroF + cellN (nrmK V) (loK V j 0) (loK V j 1) (loK V j 2) 0 * (((oneF - fracK V (ix2 j 0)) * (oneF - fracK V (ix2 j 1))) * (oneF - fracK V (ix2 j 2)))) + cellN (nrmK V) (loK V j 0) (loK V j 1) (hiK V j 2) 0 * (((oneF - fracK V (ix2 j 0)) * (oneF - fracK V (ix2 j 1))) * fracK V (ix2 j 2))) + cellN (nrmK V) (loK V j 0) (hiK V j 1) (loK V j 2) 0 * (((oneF - fracK V (ix2 j 0)) * fracK V (ix2 j 1)) * (oneF - fracK V (ix2 j 2)))) + cellN (nrmK V) (loK V j 0) (hiK V j 1) (hiK V j 2) 0 * (((oneF - fracK V (ix2 j 0)) * fracK V (ix2 j 1)) * fracK V (ix2 j 2))) := by
  rw [v_wC3_main_v192_eq, gridN_C2]
  rw [stepN_cell _ _ (nrmK V) _ ![0, 0] _ 0 rfl rfl j _ _ _ (idxC_3 V j) (lo_bounds V j 0).1 (lo_bounds V j 0).2 (hi_bounds V j 1).1 (hi_bounds V j 1).2 (hi_bounds V j 2).1 (hi_bounds V j 2).2, wtC_3, accN_2_0]
theorem accN_3_1 : v_wC3 V (Proc.devRef .tc main_v196) (ix1 j) = ((((zeroF + cellN (nrmK V) (loK V j 0) (loK V j 1) (loK V j 2) 1 * (((oneF - fracK V (ix2 j 0)) * (oneF - fracK V (ix2 j 1))) * (oneF - fracK V (ix2 j 2)))) + cellN (nrmK V) (loK V j 0) (loK V j 1) (hiK V j 2) 1 * (((oneF - fracK V (ix2 j 0)) * (oneF - fracK V (ix2 j 1))) * fracK V (ix2 j 2))) + cellN (nrmK V) (loK V j 0) (hiK V j 1) (loK V j 2) 1 * (((oneF - fracK V (ix2 j 0)) * fracK V (ix2 j 1)) * (oneF - fracK V (ix2 j 2)))) + cellN (nrmK V) (loK V j 0) (hiK V j 1) (hiK V j 2) 1 * (((oneF - fracK V (ix2 j 0)) * fracK V (ix2 j 1)) * fracK V (ix2 j 2))) := by
  rw [v_wC3_main_v196_eq, gridN_C2]
  rw [stepN_cell _ _ (nrmK V) _ ![0, 1] _ 1 rfl rfl j _ _ _ (idxC_3 V j) (lo_bounds V j 0).1 (lo_bounds V j 0).2 (hi_bounds V j 1).1 (hi_bounds V j 1).2 (hi_bounds V j 2).1 (hi_bounds V j 2).2, wtC_3, accN_2_1]
theorem accN_3_2 : v_wC3 V (Proc.devRef .tc main_v200) (ix1 j) = ((((zeroF + cellN (nrmK V) (loK V j 0) (loK V j 1) (loK V j 2) 2 * (((oneF - fracK V (ix2 j 0)) * (oneF - fracK V (ix2 j 1))) * (oneF - fracK V (ix2 j 2)))) + cellN (nrmK V) (loK V j 0) (loK V j 1) (hiK V j 2) 2 * (((oneF - fracK V (ix2 j 0)) * (oneF - fracK V (ix2 j 1))) * fracK V (ix2 j 2))) + cellN (nrmK V) (loK V j 0) (hiK V j 1) (loK V j 2) 2 * (((oneF - fracK V (ix2 j 0)) * fracK V (ix2 j 1)) * (oneF - fracK V (ix2 j 2)))) + cellN (nrmK V) (loK V j 0) (hiK V j 1) (hiK V j 2) 2 * (((oneF - fracK V (ix2 j 0)) * fracK V (ix2 j 1)) * fracK V (ix2 j 2))) := by
  rw [v_wC3_main_v200_eq, gridN_C2]
  rw [stepN_cell _ _ (nrmK V) _ ![0, 2] _ 2 rfl rfl j _ _ _ (idxC_3 V j) (lo_bounds V j 0).1 (lo_bounds V j 0).2 (hi_bounds V j 1).1 (hi_bounds V j 1).2 (hi_bounds V j 2).1 (hi_bounds V j 2).2, wtC_3, accN_2_2]

theorem idxC_4 : v_wC3 V (Proc.devRef .tc main_v90) (ix1 j) = flatW (hiK V j 0) (loK V j 1) (loK V j 2) := by
  rw [(v_wC3_keep main_v90 (by decide) (by decide) (by decide)), (v_wC2_keep main_v90 (by decide) (by decide) (by decide)), (v_wC1_keep main_v90 (by decide) (by decide) (by decide)), (v_wC0_keep main_v90 (by decide) (by decide) (by decide))]
  exact idxB_4 V j
theorem wtC_4 : v_wC3 V (Proc.devRef .tc main_v126) (ix1 j) = ((fracK V (ix2 j 0) * (oneF - fracK V (ix2 j 1))) * (oneF - fracK V (ix2 j 2))) := by
  rw [(v_wC3_keep main_v126 (by decide) (by decide) (by decide)), (v_wC2_keep main_v126 (by decide) (by decide) (by decide)), (v_wC1_keep main_v126 (by decide) (by decide) (by decide)), (v_wC0_keep main_v126 (by decide) (by decide) (by decide))]
  exact wtB_4 V j

theorem accA_4 : v_wC4 V (Proc.devRef .tc main_v204) (ix1 j) = (((((zeroF + cellA (albK V) (loK V j 0) (loK V j 1) (loK V j 2) * (((oneF - fracK V (ix2 j 0)) * (oneF - fracK V (ix2 j 1))) * (oneF - fracK V (ix2 j 2)))) + cellA (albK V) (loK V j 0) (loK V j 1) (hiK V j 2) * (((oneF - fracK V (ix2 j 0)) * (oneF - fracK V (ix2 j 1))) * fracK V (ix2 j 2))) + cellA (albK V) (loK V j 0) (hiK V j 1) (loK V j 2) * (((oneF - fracK V (ix2 j 0)) * fracK V (ix2 j 1)) * (oneF - fracK V (ix2 j 2)))) + cellA (albK V) (loK V j 0) (hiK V j 1) (hiK V j 2) * (((oneF - fracK V (ix2 j 0)) * fracK V (ix2 j 1)) * fracK V (ix2 j 2))) + cellA (albK V) (hiK V j 0) (loK V j 1) (loK V j 2) * ((fracK V (ix2 j 0) * (oneF - fracK V (ix2 j 1))) * (oneF - fracK V (ix2 j 2)))) := by
  rw [v_wC4_main_v204_eq, gridA_C3]
  rw [stepA_cell _ _ (albK V) _ j _ _ _ (idxC_4 V j) (hi_bounds V j 0).1 (hi_bounds V j 0).2 (lo_bounds V j 1).1 (lo_bounds V j 1).2 (lo_bounds V j 2).1 (lo_bounds V j 2).2, wtC_4, accA_3]
theorem accN_4_0 : v_wC4 V (Proc.devRef .tc main_v208) (ix1 j) = (((((zeroF + cellN (nrmK V) (loK V j 0) (loK V j 1) (loK V j 2) 0 * (((oneF - fracK V (ix2 j 0)) * (oneF - fracK V (ix2 j 1))) * (oneF - fracK V (ix2 j 2)))) + cellN (nrmK V) (loK V j 0) (loK V j 1) (hiK V j 2) 0 * (((oneF - fracK V (ix2 j 0)) * (oneF - fracK V (ix2 j 1))) * fracK V (ix2 j 2))) + cellN (nrmK V) (loK V j 0) (hiK V j 1) (loK V j 2) 0 * (((oneF - fracK V (ix2 j 0)) * fracK V (ix2 j 1)) * (oneF - fracK V (ix2 j 2)))) + cellN (nrmK V) (loK V j 0) (hiK V j 1) (hiK V j 2) 0 * (((oneF - fracK V (ix2 j 0)) * fracK V (ix2 j 1)) * fracK V (ix2 j 2))) + cellN (nrmK V) (hiK V j 0) (loK V j 1) (loK V j 2) 0 * ((fracK V (ix2 j 0) * (oneF - fracK V (ix2 j 1))) * (oneF - fracK V (ix2 j 2)))) := by
  rw [v_wC4_main_v208_eq, gridN_C3]
  rw [stepN_cell _ _ (nrmK V) _ ![0, 0] _ 0 rfl rfl j _ _ _ (idxC_4 V j) (hi_bounds V j 0).1 (hi_bounds V j 0).2 (lo_bounds V j 1).1 (lo_bounds V j 1).2 (lo_bounds V j 2).1 (lo_bounds V j 2).2, wtC_4, accN_3_0]
theorem accN_4_1 : v_wC4 V (Proc.devRef .tc main_v212) (ix1 j) = (((((zeroF + cellN (nrmK V) (loK V j 0) (loK V j 1) (loK V j 2) 1 * (((oneF - fracK V (ix2 j 0)) * (oneF - fracK V (ix2 j 1))) * (oneF - fracK V (ix2 j 2)))) + cellN (nrmK V) (loK V j 0) (loK V j 1) (hiK V j 2) 1 * (((oneF - fracK V (ix2 j 0)) * (oneF - fracK V (ix2 j 1))) * fracK V (ix2 j 2))) + cellN (nrmK V) (loK V j 0) (hiK V j 1) (loK V j 2) 1 * (((oneF - fracK V (ix2 j 0)) * fracK V (ix2 j 1)) * (oneF - fracK V (ix2 j 2)))) + cellN (nrmK V) (loK V j 0) (hiK V j 1) (hiK V j 2) 1 * (((oneF - fracK V (ix2 j 0)) * fracK V (ix2 j 1)) * fracK V (ix2 j 2))) + cellN (nrmK V) (hiK V j 0) (loK V j 1) (loK V j 2) 1 * ((fracK V (ix2 j 0) * (oneF - fracK V (ix2 j 1))) * (oneF - fracK V (ix2 j 2)))) := by
  rw [v_wC4_main_v212_eq, gridN_C3]
  rw [stepN_cell _ _ (nrmK V) _ ![0, 1] _ 1 rfl rfl j _ _ _ (idxC_4 V j) (hi_bounds V j 0).1 (hi_bounds V j 0).2 (lo_bounds V j 1).1 (lo_bounds V j 1).2 (lo_bounds V j 2).1 (lo_bounds V j 2).2, wtC_4, accN_3_1]
theorem accN_4_2 : v_wC4 V (Proc.devRef .tc main_v216) (ix1 j) = (((((zeroF + cellN (nrmK V) (loK V j 0) (loK V j 1) (loK V j 2) 2 * (((oneF - fracK V (ix2 j 0)) * (oneF - fracK V (ix2 j 1))) * (oneF - fracK V (ix2 j 2)))) + cellN (nrmK V) (loK V j 0) (loK V j 1) (hiK V j 2) 2 * (((oneF - fracK V (ix2 j 0)) * (oneF - fracK V (ix2 j 1))) * fracK V (ix2 j 2))) + cellN (nrmK V) (loK V j 0) (hiK V j 1) (loK V j 2) 2 * (((oneF - fracK V (ix2 j 0)) * fracK V (ix2 j 1)) * (oneF - fracK V (ix2 j 2)))) + cellN (nrmK V) (loK V j 0) (hiK V j 1) (hiK V j 2) 2 * (((oneF - fracK V (ix2 j 0)) * fracK V (ix2 j 1)) * fracK V (ix2 j 2))) + cellN (nrmK V) (hiK V j 0) (loK V j 1) (loK V j 2) 2 * ((fracK V (ix2 j 0) * (oneF - fracK V (ix2 j 1))) * (oneF - fracK V (ix2 j 2)))) := by
  rw [v_wC4_main_v216_eq, gridN_C3]
  rw [stepN_cell _ _ (nrmK V) _ ![0, 2] _ 2 rfl rfl j _ _ _ (idxC_4 V j) (hi_bounds V j 0).1 (hi_bounds V j 0).2 (lo_bounds V j 1).1 (lo_bounds V j 1).2 (lo_bounds V j 2).1 (lo_bounds V j 2).2, wtC_4, accN_3_2]

theorem idxC_5 : v_wC4 V (Proc.devRef .tc main_v96) (ix1 j) = flatW (hiK V j 0) (loK V j 1) (hiK V j 2) := by
  rw [(v_wC4_keep main_v96 (by decide) (by decide) (by decide)), (v_wC3_keep main_v96 (by decide) (by decide) (by decide)), (v_wC2_keep main_v96 (by decide) (by decide) (by decide)), (v_wC1_keep main_v96 (by decide) (by decide) (by decide)), (v_wC0_keep main_v96 (by decide) (by decide) (by decide))]
  exact idxB_5 V j
theorem wtC_5 : v_wC4 V (Proc.devRef .tc main_v128) (ix1 j) = ((fracK V (ix2 j 0) * (oneF - fracK V (ix2 j 1))) * fracK V (ix2 j 2)) := by
  rw [(v_wC4_keep main_v128 (by decide) (by decide) (by decide)), (v_wC3_keep main_v128 (by decide) (by decide) (by decide)), (v_wC2_keep main_v128 (by decide) (by decide) (by decide)), (v_wC1_keep main_v128 (by decide) (by decide) (by decide)), (v_wC0_keep main_v128 (by decide) (by decide) (by decide))]
  exact wtB_5 V j

theorem accA_5 : v_wC5 V (Proc.devRef .tc main_v220) (ix1 j) = ((((((zeroF + cellA (albK V) (loK V j 0) (loK V j 1) (loK V j 2) * (((oneF - fracK V (ix2 j 0)) * (oneF - fracK V (ix2 j 1))) * (oneF - fracK V (ix2 j 2)))) + cellA (albK V) (loK V j 0) (loK V j 1) (hiK V j 2) * (((oneF - fracK V (ix2 j 0)) * (oneF - fracK V (ix2 j 1))) * fracK V (ix2 j 2))) + cellA (albK V) (loK V j 0) (hiK V j 1) (loK V j 2) * (((oneF - fracK V (ix2 j 0)) * fracK V (ix2 j 1)) * (oneF - fracK V (ix2 j 2)))) + cellA (albK V) (loK V j 0) (hiK V j 1) (hiK V j 2) * (((oneF - fracK V (ix2 j 0)) * fracK V (ix2 j 1)) * fracK V (ix2 j 2))) + cellA (albK V) (hiK V j 0) (loK V j 1) (loK V j 2) * ((fracK V (ix2 j 0) * (oneF - fracK V (ix2 j 1))) * (oneF - fracK V (ix2 j 2)))) + cellA (albK V) (hiK V j 0) (loK V j 1) (hiK V j 2) * ((fracK V (ix2 j 0) * (oneF - fracK V (ix2 j 1))) * fracK V (ix2 j 2))) := by
  rw [v_wC5_main_v220_eq, gridA_C4]
  rw [stepA_cell _ _ (albK V) _ j _ _ _ (idxC_5 V j) (hi_bounds V j 0).1 (hi_bounds V j 0).2 (lo_bounds V j 1).1 (lo_bounds V j 1).2 (hi_bounds V j 2).1 (hi_bounds V j 2).2, wtC_5, accA_4]
theorem accN_5_0 : v_wC5 V (Proc.devRef .tc main_v224) (ix1 j) = ((((((zeroF + cellN (nrmK V) (loK V j 0) (loK V j 1) (loK V j 2) 0 * (((oneF - fracK V (ix2 j 0)) * (oneF - fracK V (ix2 j 1))) * (oneF - fracK V (ix2 j 2)))) + cellN (nrmK V) (loK V j 0) (loK V j 1) (hiK V j 2) 0 * (((oneF - fracK V (ix2 j 0)) * (oneF - fracK V (ix2 j 1))) * fracK V (ix2 j 2))) + cellN (nrmK V) (loK V j 0) (hiK V j 1) (loK V j 2) 0 * (((oneF - fracK V (ix2 j 0)) * fracK V (ix2 j 1)) * (oneF - fracK V (ix2 j 2)))) + cellN (nrmK V) (loK V j 0) (hiK V j 1) (hiK V j 2) 0 * (((oneF - fracK V (ix2 j 0)) * fracK V (ix2 j 1)) * fracK V (ix2 j 2))) + cellN (nrmK V) (hiK V j 0) (loK V j 1) (loK V j 2) 0 * ((fracK V (ix2 j 0) * (oneF - fracK V (ix2 j 1))) * (oneF - fracK V (ix2 j 2)))) + cellN (nrmK V) (hiK V j 0) (loK V j 1) (hiK V j 2) 0 * ((fracK V (ix2 j 0) * (oneF - fracK V (ix2 j 1))) * fracK V (ix2 j 2))) := by
  rw [v_wC5_main_v224_eq, gridN_C4]
  rw [stepN_cell _ _ (nrmK V) _ ![0, 0] _ 0 rfl rfl j _ _ _ (idxC_5 V j) (hi_bounds V j 0).1 (hi_bounds V j 0).2 (lo_bounds V j 1).1 (lo_bounds V j 1).2 (hi_bounds V j 2).1 (hi_bounds V j 2).2, wtC_5, accN_4_0]
theorem accN_5_1 : v_wC5 V (Proc.devRef .tc main_v228) (ix1 j) = ((((((zeroF + cellN (nrmK V) (loK V j 0) (loK V j 1) (loK V j 2) 1 * (((oneF - fracK V (ix2 j 0)) * (oneF - fracK V (ix2 j 1))) * (oneF - fracK V (ix2 j 2)))) + cellN (nrmK V) (loK V j 0) (loK V j 1) (hiK V j 2) 1 * (((oneF - fracK V (ix2 j 0)) * (oneF - fracK V (ix2 j 1))) * fracK V (ix2 j 2))) + cellN (nrmK V) (loK V j 0) (hiK V j 1) (loK V j 2) 1 * (((oneF - fracK V (ix2 j 0)) * fracK V (ix2 j 1)) * (oneF - fracK V (ix2 j 2)))) + cellN (nrmK V) (loK V j 0) (hiK V j 1) (hiK V j 2) 1 * (((oneF - fracK V (ix2 j 0)) * fracK V (ix2 j 1)) * fracK V (ix2 j 2))) + cellN (nrmK V) (hiK V j 0) (loK V j 1) (loK V j 2) 1 * ((fracK V (ix2 j 0) * (oneF - fracK V (ix2 j 1))) * (oneF - fracK V (ix2 j 2)))) + cellN (nrmK V) (hiK V j 0) (loK V j 1) (hiK V j 2) 1 * ((fracK V (ix2 j 0) * (oneF - fracK V (ix2 j 1))) * fracK V (ix2 j 2))) := by
  rw [v_wC5_main_v228_eq, gridN_C4]
  rw [stepN_cell _ _ (nrmK V) _ ![0, 1] _ 1 rfl rfl j _ _ _ (idxC_5 V j) (hi_bounds V j 0).1 (hi_bounds V j 0).2 (lo_bounds V j 1).1 (lo_bounds V j 1).2 (hi_bounds V j 2).1 (hi_bounds V j 2).2, wtC_5, accN_4_1]
theorem accN_5_2 : v_wC5 V (Proc.devRef .tc main_v232) (ix1 j) = ((((((zeroF + cellN (nrmK V) (loK V j 0) (loK V j 1) (loK V j 2) 2 * (((oneF - fracK V (ix2 j 0)) * (oneF - fracK V (ix2 j 1))) * (oneF - fracK V (ix2 j 2)))) + cellN (nrmK V) (loK V j 0) (loK V j 1) (hiK V j 2) 2 * (((oneF - fracK V (ix2 j 0)) * (oneF - fracK V (ix2 j 1))) * fracK V (ix2 j 2))) + cellN (nrmK V) (loK V j 0) (hiK V j 1) (loK V j 2) 2 * (((oneF - fracK V (ix2 j 0)) * fracK V (ix2 j 1)) * (oneF - fracK V (ix2 j 2)))) + cellN (nrmK V) (loK V j 0) (hiK V j 1) (hiK V j 2) 2 * (((oneF - fracK V (ix2 j 0)) * fracK V (ix2 j 1)) * fracK V (ix2 j 2))) + cellN (nrmK V) (hiK V j 0) (loK V j 1) (loK V j 2) 2 * ((fracK V (ix2 j 0) * (oneF - fracK V (ix2 j 1))) * (oneF - fracK V (ix2 j 2)))) + cellN (nrmK V) (hiK V j 0) (loK V j 1) (hiK V j 2) 2 * ((fracK V (ix2 j 0) * (oneF - fracK V (ix2 j 1))) * fracK V (ix2 j 2))) := by
  rw [v_wC5_main_v232_eq, gridN_C4]
  rw [stepN_cell _ _ (nrmK V) _ ![0, 2] _ 2 rfl rfl j _ _ _ (idxC_5 V j) (hi_bounds V j 0).1 (hi_bounds V j 0).2 (lo_bounds V j 1).1 (lo_bounds V j 1).2 (hi_bounds V j 2).1 (hi_bounds V j 2).2, wtC_5, accN_4_2]

theorem idxC_6 : v_wC5 V (Proc.devRef .tc main_v102) (ix1 j) = flatW (hiK V j 0) (hiK V j 1) (loK V j 2) := by
  rw [(v_wC5_keep main_v102 (by decide) (by decide) (by decide)), (v_wC4_keep main_v102 (by decide) (by decide) (by decide)), (v_wC3_keep main_v102 (by decide) (by decide) (by decide)), (v_wC2_keep main_v102 (by decide) (by decide) (by decide)), (v_wC1_keep main_v102 (by decide) (by decide) (by decide)), (v_wC0_keep main_v102 (by decide) (by decide) (by decide))]
  exact idxB_6 V j
theorem wtC_6 : v_wC5 V (Proc.devRef .tc main_v130) (ix1 j) = ((fracK V (ix2 j 0) * fracK V (ix2 j 1)) * (oneF - fracK V (ix2 j 2))) := by
  rw [(v_wC5_keep main_v130 (by decide) (by decide) (by decide)), (v_wC4_keep main_v130 (by decide) (by decide) (by decide)), (v_wC3_keep main_v130 (by decide) (by decide) (by decide)), (v_wC2_keep main_v130 (by decide) (by decide) (by decide)), (v_wC1_keep main_v130 (by decide) (by decide) (by decide)), (v_wC0_keep main_v130 (by decide) (by decide) (by decide))]
  exact wtB_6 V j

theorem accA_6 : v_wC6 V (Proc.devRef .tc main_v236) (ix1 j) = (((((((zeroF + cellA (albK V) (loK V j 0) (loK V j 1) (loK V j 2) * (((oneF - fracK V (ix2 j 0)) * (oneF - fracK V (ix2 j 1))) * (oneF - fracK V (ix2 j 2)))) + cellA (albK V) (loK V j 0) (loK V j 1) (hiK V j 2) * (((oneF - fracK V (ix2 j 0)) * (oneF - fracK V (ix2 j 1))) * fracK V (ix2 j 2))) + cellA (albK V) (loK V j 0) (hiK V j 1) (loK V j 2) * (((oneF - fracK V (ix2 j 0)) * fracK V (ix2 j 1)) * (oneF - fracK V (ix2 j 2)))) + cellA (albK V) (loK V j 0) (hiK V j 1) (hiK V j 2) * (((oneF - fracK V (ix2 j 0)) * fracK V (ix2 j 1)) * fracK V (ix2 j 2))) + cellA (albK V) (hiK V j 0) (loK V j 1) (loK V j 2) * ((fracK V (ix2 j 0) * (oneF - fracK V (ix2 j 1))) * (oneF - fracK V (ix2 j 2)))) + cellA (albK V) (hiK V j 0) (loK V j 1) (hiK V j 2) * ((fracK V (ix2 j 0) * (oneF - fracK V (ix2 j 1))) * fracK V (ix2 j 2))) + cellA (albK V) (hiK V j 0) (hiK V j 1) (loK V j 2) * ((fracK V (ix2 j 0) * fracK V (ix2 j 1)) * (oneF - fracK V (ix2 j 2)))) := by
  rw [v_wC6_main_v236_eq, gridA_C5]
  rw [stepA_cell _ _ (albK V) _ j _ _ _ (idxC_6 V j) (hi_bounds V j 0).1 (hi_bounds V j 0).2 (hi_bounds V j 1).1 (hi_bounds V j 1).2 (lo_bounds V j 2).1 (lo_bounds V j 2).2, wtC_6, accA_5]
theorem accN_6_0 : v_wC6 V (Proc.devRef .tc main_v240) (ix1 j) = (((((((zeroF + cellN (nrmK V) (loK V j 0) (loK V j 1) (loK V j 2) 0 * (((oneF - fracK V (ix2 j 0)) * (oneF - fracK V (ix2 j 1))) * (oneF - fracK V (ix2 j 2)))) + cellN (nrmK V) (loK V j 0) (loK V j 1) (hiK V j 2) 0 * (((oneF - fracK V (ix2 j 0)) * (oneF - fracK V (ix2 j 1))) * fracK V (ix2 j 2))) + cellN (nrmK V) (loK V j 0) (hiK V j 1) (loK V j 2) 0 * (((oneF - fracK V (ix2 j 0)) * fracK V (ix2 j 1)) * (oneF - fracK V (ix2 j 2)))) + cellN (nrmK V) (loK V j 0) (hiK V j 1) (hiK V j 2) 0 * (((oneF - fracK V (ix2 j 0)) * fracK V (ix2 j 1)) * fracK V (ix2 j 2))) + cellN (nrmK V) (hiK V j 0) (loK V j 1) (loK V j 2) 0 * ((fracK V (ix2 j 0) * (oneF - fracK V (ix2 j 1))) * (oneF - fracK V (ix2 j 2)))) + cellN (nrmK V) (hiK V j 0) (loK V j 1) (hiK V j 2) 0 * ((fracK V (ix2 j 0) * (oneF - fracK V (ix2 j 1))) * fracK V (ix2 j 2))) + cellN (nrmK V) (hiK V j 0) (hiK V j 1) (loK V j 2) 0 * ((fracK V (ix2 j 0) * fracK V (ix2 j 1)) * (oneF - fracK V (ix2 j 2)))) := by
  rw [v_wC6_main_v240_eq, gridN_C5]
  rw [stepN_cell _ _ (nrmK V) _ ![0, 0] _ 0 rfl rfl j _ _ _ (idxC_6 V j) (hi_bounds V j 0).1 (hi_bounds V j 0).2 (hi_bounds V j 1).1 (hi_bounds V j 1).2 (lo_bounds V j 2).1 (lo_bounds V j 2).2, wtC_6, accN_5_0]
theorem accN_6_1 : v_wC6 V (Proc.devRef .tc main_v244) (ix1 j) = (((((((zeroF + cellN (nrmK V) (loK V j 0) (loK V j 1) (loK V j 2) 1 * (((oneF - fracK V (ix2 j 0)) * (oneF - fracK V (ix2 j 1))) * (oneF - fracK V (ix2 j 2)))) + cellN (nrmK V) (loK V j 0) (loK V j 1) (hiK V j 2) 1 * (((oneF - fracK V (ix2 j 0)) * (oneF - fracK V (ix2 j 1))) * fracK V (ix2 j 2))) + cellN (nrmK V) (loK V j 0) (hiK V j 1) (loK V j 2) 1 * (((oneF - fracK V (ix2 j 0)) * fracK V (ix2 j 1)) * (oneF - fracK V (ix2 j 2)))) + cellN (nrmK V) (loK V j 0) (hiK V j 1) (hiK V j 2) 1 * (((oneF - fracK V (ix2 j 0)) * fracK V (ix2 j 1)) * fracK V (ix2 j 2))) + cellN (nrmK V) (hiK V j 0) (loK V j 1) (loK V j 2) 1 * ((fracK V (ix2 j 0) * (oneF - fracK V (ix2 j 1))) * (oneF - fracK V (ix2 j 2)))) + cellN (nrmK V) (hiK V j 0) (loK V j 1) (hiK V j 2) 1 * ((fracK V (ix2 j 0) * (oneF - fracK V (ix2 j 1))) * fracK V (ix2 j 2))) + cellN (nrmK V) (hiK V j 0) (hiK V j 1) (loK V j 2) 1 * ((fracK V (ix2 j 0) * fracK V (ix2 j 1)) * (oneF - fracK V (ix2 j 2)))) := by
  rw [v_wC6_main_v244_eq, gridN_C5]
  rw [stepN_cell _ _ (nrmK V) _ ![0, 1] _ 1 rfl rfl j _ _ _ (idxC_6 V j) (hi_bounds V j 0).1 (hi_bounds V j 0).2 (hi_bounds V j 1).1 (hi_bounds V j 1).2 (lo_bounds V j 2).1 (lo_bounds V j 2).2, wtC_6, accN_5_1]
theorem accN_6_2 : v_wC6 V (Proc.devRef .tc main_v248) (ix1 j) = (((((((zeroF + cellN (nrmK V) (loK V j 0) (loK V j 1) (loK V j 2) 2 * (((oneF - fracK V (ix2 j 0)) * (oneF - fracK V (ix2 j 1))) * (oneF - fracK V (ix2 j 2)))) + cellN (nrmK V) (loK V j 0) (loK V j 1) (hiK V j 2) 2 * (((oneF - fracK V (ix2 j 0)) * (oneF - fracK V (ix2 j 1))) * fracK V (ix2 j 2))) + cellN (nrmK V) (loK V j 0) (hiK V j 1) (loK V j 2) 2 * (((oneF - fracK V (ix2 j 0)) * fracK V (ix2 j 1)) * (oneF - fracK V (ix2 j 2)))) + cellN (nrmK V) (loK V j 0) (hiK V j 1) (hiK V j 2) 2 * (((oneF - fracK V (ix2 j 0)) * fracK V (ix2 j 1)) * fracK V (ix2 j 2))) + cellN (nrmK V) (hiK V j 0) (loK V j 1) (loK V j 2) 2 * ((fracK V (ix2 j 0) * (oneF - fracK V (ix2 j 1))) * (oneF - fracK V (ix2 j 2)))) + cellN (nrmK V) (hiK V j 0) (loK V j 1) (hiK V j 2) 2 * ((fracK V (ix2 j 0) * (oneF - fracK V (ix2 j 1))) * fracK V (ix2 j 2))) + cellN (nrmK V) (hiK V j 0) (hiK V j 1) (loK V j 2) 2 * ((fracK V (ix2 j 0) * fracK V (ix2 j 1)) * (oneF - fracK V (ix2 j 2)))) := by
  rw [v_wC6_main_v248_eq, gridN_C5]
  rw [stepN_cell _ _ (nrmK V) _ ![0, 2] _ 2 rfl rfl j _ _ _ (idxC_6 V j) (hi_bounds V j 0).1 (hi_bounds V j 0).2 (hi_bounds V j 1).1 (hi_bounds V j 1).2 (lo_bounds V j 2).1 (lo_bounds V j 2).2, wtC_6, accN_5_2]

theorem idxC_7 : v_wC6 V (Proc.devRef .tc main_v108) (ix1 j) = flatW (hiK V j 0) (hiK V j 1) (hiK V j 2) := by
  rw [(v_wC6_keep main_v108 (by decide) (by decide) (by decide)), (v_wC5_keep main_v108 (by decide) (by decide) (by decide)), (v_wC4_keep main_v108 (by decide) (by decide) (by decide)), (v_wC3_keep main_v108 (by decide) (by decide) (by decide)), (v_wC2_keep main_v108 (by decide) (by decide) (by decide)), (v_wC1_keep main_v108 (by decide) (by decide) (by decide)), (v_wC0_keep main_v108 (by decide) (by decide) (by decide))]
  exact idxB_7 V j
theorem wtC_7 : v_wC6 V (Proc.devRef .tc main_v132) (ix1 j) = ((fracK V (ix2 j 0) * fracK V (ix2 j 1)) * fracK V (ix2 j 2)) := by
  rw [(v_wC6_keep main_v132 (by decide) (by decide) (by decide)), (v_wC5_keep main_v132 (by decide) (by decide) (by decide)), (v_wC4_keep main_v132 (by decide) (by decide) (by decide)), (v_wC3_keep main_v132 (by decide) (by decide) (by decide)), (v_wC2_keep main_v132 (by decide) (by decide) (by decide)), (v_wC1_keep main_v132 (by decide) (by decide) (by decide)), (v_wC0_keep main_v132 (by decide) (by decide) (by decide))]
  exact wtB_7 V j

end Corners

section Rows
open Cert.Spec Cert.Rows

theorem pointA_eq (al : Cert.Index.SA.Idx → EReal) (lo hi : Fin 3 → BitVec 32) (f : Fin 3 → EReal) :
    pointA al lo hi f = ((((((((zeroF + cellA al (lo 0) (lo 1) (lo 2) * (((oneF - f 0) * (oneF - f 1)) * (oneF - f 2))) + cellA al (lo 0) (lo 1) (hi 2) * (((oneF - f 0) * (oneF - f 1)) * f 2)) + cellA al (lo 0) (hi 1) (lo 2) * (((oneF - f 0) * f 1) * (oneF - f 2))) + cellA al (lo 0) (hi 1) (hi 2) * (((oneF - f 0) * f 1) * f 2)) + cellA al (hi 0) (lo 1) (lo 2) * ((f 0 * (oneF - f 1)) * (oneF - f 2))) + cellA al (hi 0) (lo 1) (hi 2) * ((f 0 * (oneF - f 1)) * f 2)) + cellA al (hi 0) (hi 1) (lo 2) * ((f 0 * f 1) * (oneF - f 2))) + cellA al (hi 0) (hi 1) (hi 2) * ((f 0 * f 1) * f 2)) := rfl

theorem pointN_eq (nm : Cert.Index.SN.Idx → EReal) (lo hi : Fin 3 → BitVec 32) (f : Fin 3 → EReal) (ch : Fin 3) :
    pointN nm lo hi f ch = ((((((((zeroF + cellN nm (lo 0) (lo 1) (lo 2) ch * (((oneF - f 0) * (oneF - f 1)) * (oneF - f 2))) + cellN nm (lo 0) (lo 1) (hi 2) ch * (((oneF - f 0) * (oneF - f 1)) * f 2)) + cellN nm (lo 0) (hi 1) (lo 2) ch * (((oneF - f 0) * f 1) * (oneF - f 2))) + cellN nm (lo 0) (hi 1) (hi 2) ch * (((oneF - f 0) * f 1) * f 2)) + cellN nm (hi 0) (lo 1) (lo 2) ch * ((f 0 * (oneF - f 1)) * (oneF - f 2))) + cellN nm (hi 0) (lo 1) (hi 2) ch * ((f 0 * (oneF - f 1)) * f 2)) + cellN nm (hi 0) (hi 1) (lo 2) ch * ((f 0 * f 1) * (oneF - f 2))) + cellN nm (hi 0) (hi 1) (hi 2) ch * ((f 0 * f 1) * f 2)) := rfl

theorem row_a (V : Valuation τ sig (Elt Ideal)) (j : Fin 2000000) :
    v_wC7 V (Proc.devRef .tc main_v269) (ValueIdx.ix2 (0 : Fin 4) j)
      = Cert.Rows.pointA (V (Proc.devRef .tc main_arg1)) (loK V j) (hiK V j) (fun r => fracK V (ValueIdx.ix2 j r)) := by
  rw [v_wC7_main_v269_eq]
  refine Eq.trans (concatenate_apply_piece (t := S4x2000000) (0 : Fin 2) _ _ _ 0 ?_ S1x2000000 _ rfl rfl 0 ?_
    (ix2 (0 : Fin 1) j) ?_ ?_) ?_
  · exact (by decide : (0 : Nat) < 4)
  · rfl
  · intro b hb
    match b with
    | ⟨0, _⟩ => exact absurd rfl hb
    | ⟨1, _⟩ => rfl
  · rfl
  rw [bcast_row_apply, gridA_C6]
  rw [stepA_cell _ _ (albK V) _ j _ _ _ (idxC_7 V j) (hi_bounds V j 0).1 (hi_bounds V j 0).2 (hi_bounds V j 1).1 (hi_bounds V j 1).2 (hi_bounds V j 2).1 (hi_bounds V j 2).2, wtC_7]
  rw [accA_6, pointA_eq]

theorem row_n (V : Valuation τ sig (Elt Ideal)) (j : Fin 2000000) (ch : Fin 3) :
    v_wC7 V (Proc.devRef .tc main_v269) (ValueIdx.ix2 (ch.succ : Fin 4) j)
      = Cert.Rows.pointN (V (Proc.devRef .tc main_arg2)) (loK V j) (hiK V j) (fun r => fracK V (ValueIdx.ix2 j r)) ch := by
  rw [v_wC7_main_v269_eq]
  match ch with
  | ⟨0, _⟩ =>
    refine Eq.trans (concatenate_apply_piece (t := S4x2000000) (0 : Fin 2) _ _ _ 1 ?_ S1x2000000 _ rfl rfl 1 ?_
      (ix2 (0 : Fin 1) j) ?_ ?_) ?_
    · exact (by decide : (1 : Nat) < 4)
    · rfl
    · intro b hb
      match b with
      | ⟨0, _⟩ => exact absurd rfl hb
      | ⟨1, _⟩ => rfl
    · rfl
    rw [bcast_row_apply, gridN_C6]
    rw [stepN_cell _ _ (nrmK V) _ ![0, 0] _ 0 rfl rfl j _ _ _ (idxC_7 V j) (hi_bounds V j 0).1 (hi_bounds V j 0).2 (hi_bounds V j 1).1 (hi_bounds V j 1).2 (hi_bounds V j 2).1 (hi_bounds V j 2).2, wtC_7]
    rw [accN_6_0, pointN_eq]
    rfl
  | ⟨1, _⟩ =>
    refine Eq.trans (concatenate_apply_piece (t := S4x2000000) (0 : Fin 2) _ _ _ 2 ?_ S1x2000000 _ rfl rfl 2 ?_
      (ix2 (0 : Fin 1) j) ?_ ?_) ?_
    · exact (by decide : (2 : Nat) < 4)
    · rfl
    · intro b hb
      match b with
      | ⟨0, _⟩ => exact absurd rfl hb
      | ⟨1, _⟩ => rfl
    · rfl
    rw [bcast_row_apply, gridN_C6]
    rw [stepN_cell _ _ (nrmK V) _ ![0, 1] _ 1 rfl rfl j _ _ _ (idxC_7 V j) (hi_bounds V j 0).1 (hi_bounds V j 0).2 (hi_bounds V j 1).1 (hi_bounds V j 1).2 (hi_bounds V j 2).1 (hi_bounds V j 2).2, wtC_7]
    rw [accN_6_1, pointN_eq]
    rfl
  | ⟨2, _⟩ =>
    refine Eq.trans (concatenate_apply_piece (t := S4x2000000) (0 : Fin 2) _ _ _ 3 ?_ S1x2000000 _ rfl rfl 3 ?_
      (ix2 (0 : Fin 1) j) ?_ ?_) ?_
    · exact (by decide : (3 : Nat) < 4)
    · rfl
    · intro b hb
      match b with
      | ⟨0, _⟩ => exact absurd rfl hb
      | ⟨1, _⟩ => rfl
    · rfl
    rw [bcast_row_apply, gridN_C6]
    rw [stepN_cell _ _ (nrmK V) _ ![0, 2] _ 2 rfl rfl j _ _ _ (idxC_7 V j) (hi_bounds V j 0).1 (hi_bounds V j 0).2 (hi_bounds V j 1).1 (hi_bounds V j 1).2 (hi_bounds V j 2).1 (hi_bounds V j 2).2, wtC_7]
    rw [accN_6_2, pointN_eq]
    rfl

end Rows

end Cert.KernelIdeal.Hand

end
-- ==== Proof.KGlue.lean ====
import proofs.«415693_j15238543966484_3_alg».proof.Proof.KFrame
import proofs.«415693_j15238543966484_3_alg».proof.Proof.KVals

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F]

theorem after_flatten_cons (l : List (HloOp τ sig (Elt F))) (ls : List (List (HloOp τ sig (Elt F)))) (V : Valuation τ sig (Elt F)) :
    after (List.flatten (l :: ls)) V = after (List.flatten ls) (after l V) := by
  rw [List.flatten_cons, StableHlo.after_append]

/-- What the region finds in its arrays is what the host operations before it leave. -/
theorem V0_eq (m : (ℓ : Loc nD τ sig) → Buf (Elt F) ℓ) (c : Dev nD) : V0 m c = v_wC7 (fun b => m (c, b)) := by
  unfold V0
  simp only [after_flatten_cons, List.flatten_nil, after_nil]
  rfl

end Cert.KernelIdeal.Hand

end
-- ==== Proof.RVals.lean ====
import proofs.«415693_j15238543966484_3_alg».proof.Proof.Gen.ReferenceIdeal
import Idealize.ShloMosaic.Lib.StableHlo.Run
import proofs.«415693_j15238543966484_3_alg».proof.Proof.LibLine

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, calls inlined, cut into windows: the prefix, the weights and the eight corners of each interpolation, the two tails. -/
abbrev rv0 : List (HloOp τ sig (Elt F)) :=
  [ StableHlo.nullary main_cst (fun i => FloatOps.ofBits .f32 (lit0 (S3.rowMajor i))),
    StableHlo.nullary main_c (fun i => lit1 (S3.rowMajor i)),
    StableHlo.nullary main_c_0 (fun i => lit2 (S3.rowMajor i)),
    StableHlo.unary main_arg1 main_v0 (broadcastInDim S128x512x512x1 ![0, 1, 2] bcast_S128x512x512_S128x512x512x1_0_1_2 : (⟨S128x512x512, .f32⟩ : BufTy).Contents (Elt F) → (⟨S128x512x512x1, .f32⟩ : BufTy).Contents (Elt F)),
    StableHlo.unary main_arg0 main_v1 (Host.floor : (⟨S2000000x3, .f32⟩ : BufTy).Contents (Elt F) → (⟨S2000000x3, .f32⟩ : BufTy).Contents (Elt F)),
    StableHlo.binary main_arg0 main_v1 main_v2 (subf : (⟨S2000000x3, .f32⟩ : BufTy).Contents (Elt F) → (⟨S2000000x3, .f32⟩ : BufTy).Contents (Elt F) → (⟨S2000000x3, .f32⟩ : BufTy).Contents (Elt F)),
    StableHlo.unary main_v1 main_v3 (fptosi 32 : (⟨S2000000x3, .f32⟩ : BufTy).Contents (Elt F) → (⟨S2000000x3, .i32⟩ : BufTy).Contents (Elt F)),
    StableHlo.nullary main_c_1 (constantI S_ 32 0#32),
    StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2000000x3, .i32⟩) (broadcastInDim S2000000x3 ![] bcast_S_S2000000x3),
    StableHlo.TRef.binary (.of main_call0_v1 : StableHlo.TRef sig ⟨S2000000x3, .i32⟩) (.of main_v3 : StableHlo.TRef sig ⟨S2000000x3, .i32⟩) (.of main_call0_v2 : StableHlo.TRef sig ⟨S2000000x3, .i32⟩) maxsi,
    StableHlo.TRef.unary (.of main_c : StableHlo.TRef sig ⟨S3, .i32⟩) (.of main_call0_v3 : StableHlo.TRef sig ⟨S1x3, .i32⟩) (broadcastInDim S1x3 ![1] bcast_S3_S1x3_1),
    StableHlo.TRef.unary (.of main_call0_v3 : StableHlo.TRef sig ⟨S1x3, .i32⟩) (.of main_call0_v4 : StableHlo.TRef sig ⟨S2000000x3, .i32⟩) (broadcastInDim S2000000x3 ![0, 1] bcast_S1x3_S2000000x3_0_1),
    StableHlo.TRef.binary (.of main_call0_v4 : StableHlo.TRef sig ⟨S2000000x3, .i32⟩) (.of main_call0_v2 : StableHlo.TRef sig ⟨S2000000x3, .i32⟩) (.of main_v4 : StableHlo.TRef sig ⟨S2000000x3, .i32⟩) minsi,
    StableHlo.nullary main_c_2 (constantI S_ 32 1#32),
    StableHlo.unary main_c_2 main_v5 (broadcastInDim S2000000x3 ![] bcast_S_S2000000x3 : (⟨S_, .i32⟩ : BufTy).Contents (Elt F) → (⟨S2000000x3, .i32⟩ : BufTy).Contents (Elt F)),
    StableHlo.binary main_v4 main_v5 main_v6 (addi : (⟨S2000000x3, .i32⟩ : BufTy).Contents (Elt F) → (⟨S2000000x3, .i32⟩ : BufTy).Contents (Elt F) → (⟨S2000000x3, .i32⟩ : BufTy).Contents (Elt F)),
    StableHlo.nullary main_c_3 (constantI S_ 32 0#32),
    StableHlo.TRef.unary (.of main_c_3 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S2000000x3, .i32⟩) (broadcastInDim S2000000x3 ![] bcast_S_S2000000x3),
    StableHlo.TRef.binary (.of main_call1_v1 : StableHlo.TRef sig ⟨S2000000x3, .i32⟩) (.of main_v6 : StableHlo.TRef sig ⟨S2000000x3, .i32⟩) (.of main_call1_v2 : StableHlo.TRef sig ⟨S2000000x3, .i32⟩) maxsi,
    StableHlo.TRef.unary (.of main_c : StableHlo.TRef sig ⟨S3, .i32⟩) (.of main_call1_v3 : StableHlo.TRef sig ⟨S1x3, .i32⟩) (broadcastInDim S1x3 ![1] bcast_S3_S1x3_1),
    StableHlo.TRef.unary (.of main_call1_v3 : StableHlo.TRef sig ⟨S1x3, .i32⟩) (.of main_call1_v4 : StableHlo.TRef sig ⟨S2000000x3, .i32⟩) (broadcastInDim S2000000x3 ![0, 1] bcast_S1x3_S2000000x3_0_1),
    StableHlo.TRef.binary (.of main_call1_v4 : StableHlo.TRef sig ⟨S2000000x3, .i32⟩) (.of main_call1_v2 : StableHlo.TRef sig ⟨S2000000x3, .i32⟩) (.of main_v7 : StableHlo.TRef sig ⟨S2000000x3, .i32⟩) minsi ]

abbrev rv1 : List (HloOp τ sig (Elt F)) :=
  [ StableHlo.unary main_v2 main_v8 ((extractStridedSlice S2000000x1 ![0, 0] · slices_S2000000x3_S2000000x1_0_0) : (⟨S2000000x3, .f32⟩ : BufTy).Contents (Elt F) → (⟨S2000000x1, .f32⟩ : BufTy).Contents (Elt F)),
    StableHlo.unary main_v2 main_v9 ((extractStridedSlice S2000000x1 ![0, 1] · slices_S2000000x3_S2000000x1_0_1) : (⟨S2000000x3, .f32⟩ : BufTy).Contents (Elt F) → (⟨S2000000x1, .f32⟩ : BufTy).Contents (Elt F)),
    StableHlo.unary main_v2 main_v10 ((extractStridedSlice S2000000x1 ![0, 2] · slices_S2000000x3_S2000000x1_0_2) : (⟨S2000000x3, .f32⟩ : BufTy).Contents (Elt F) → (⟨S2000000x1, .f32⟩ : BufTy).Contents (Elt F)),
    StableHlo.nullary main_cst_4 (constant S_ .f32 0x3F800000#32),
    StableHlo.unary main_cst_4 main_v11 (broadcastInDim S2000000x1 ![] bcast_S_S2000000x1 : (⟨S_, .f32⟩ : BufTy).Contents (Elt F) → (⟨S2000000x1, .f32⟩ : BufTy).Contents (Elt F)),
    StableHlo.binary main_v11 main_v8 main_v12 (subf : (⟨S2000000x1, .f32⟩ : BufTy).Contents (Elt F) → (⟨S2000000x1, .f32⟩ : BufTy).Contents (Elt F) → (⟨S2000000x1, .f32⟩ : BufTy).Contents (Elt F)),
    StableHlo.nullary main_cst_5 (constant S_ .f32 0x3F800000#32),
    StableHlo.unary main_cst_5 main_v13 (broadcastInDim S2000000x1 ![] bcast_S_S2000000x1 : (⟨S_, .f32⟩ : BufTy).Contents (Elt F) → (⟨S2000000x1, .f32⟩ : BufTy).Contents (Elt F)),
    StableHlo.binary main_v13 main_v9 main_v14 (subf : (⟨S2000000x1, .f32⟩ : BufTy).Contents (Elt F) → (⟨S2000000x1, .f32⟩ : BufTy).Contents (Elt F) → (⟨S2000000x1, .f32⟩ : BufTy).Contents (Elt F)),
    StableHlo.nullary main_cst_6 (constant S_ .f32 0x3F800000#32),
    StableHlo.unary main_cst_6 main_v15 (broadcastInDim S2000000x1 ![] bcast_S_S2000000x1 : (⟨S_, .f32⟩ : BufTy).Contents (Elt F) → (⟨S2000000x1, .f32⟩ : BufTy).Contents (Elt F)),
    StableHlo.binary main_v15 main_v10 main_v16 (subf : (⟨S2000000x1, .f32⟩ : BufTy).Contents (Elt F) → (⟨S2000000x1, .f32⟩ : BufTy).Contents (Elt F) → (⟨S2000000x1, .f32⟩ : BufTy).Contents (Elt F)) ]

abbrev rv2 : List (HloOp τ sig (Elt F)) :=
  [ StableHlo.unary main_v4 main_v17 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v17 main_v18 rfl shapeCasts_S2000000x1_S2000000,
    StableHlo.unary main_v4 main_v19 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v19 main_v20 rfl shapeCasts_S2000000x1_S2000000,
    StableHlo.unary main_v4 main_v21 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v21 main_v22 rfl shapeCasts_S2000000x1_S2000000,
    StableHlo.nullary main_c_7 (constantI S_ 32 0#32),
    StableHlo.unary main_c_7 main_v23 (broadcastInDim S2000000 ![] bcast_S_S2000000 : (⟨S_, .i32⟩ : BufTy).Contents (Elt F) → (⟨S2000000, .i32⟩ : BufTy).Contents (Elt F)),
    StableHlo.binary main_v18 main_v23 main_v24 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 128#32),
    StableHlo.unary main_c_8 main_v25 (broadcastInDim S2000000 ![] bcast_S_S2000000 : (⟨S_, .i32⟩ : BufTy).Contents (Elt F) → (⟨S2000000, .i32⟩ : BufTy).Contents (Elt F)),
    StableHlo.binary main_v18 main_v25 main_v26 (addi : (⟨S2000000, .i32⟩ : BufTy).Contents (Elt F) → (⟨S2000000, .i32⟩ : BufTy).Contents (Elt F) → (⟨S2000000, .i32⟩ : BufTy).Contents (Elt F)),
    StableHlo.ternary main_v24 main_v26 main_v18 main_v27 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_9 (constantI S_ 32 0#32),
    StableHlo.unary main_c_9 main_v28 (broadcastInDim S2000000 ![] bcast_S_S2000000 : (⟨S_, .i32⟩ : BufTy).Contents (Elt F) → (⟨S2000000, .i32⟩ : BufTy).Contents (Elt F)),
    StableHlo.binary main_v20 main_v28 main_v29 (cmpi .slt : (⟨S2000000, .i32⟩ : BufTy).Contents (Elt F) → (⟨S2000000, .i32⟩ : BufTy).Contents (Elt F) → (⟨S2000000, .i1⟩ : BufTy).Contents (Elt F)),
    StableHlo.nullary main_c_10 (constantI S_ 32 512#32),
    StableHlo.unary main_c_10 main_v30 (broadcastInDim S2000000 ![] bcast_S_S2000000 : (⟨S_, .i32⟩ : BufTy).Contents (Elt F) → (⟨S2000000, .i32⟩ : BufTy).Contents (Elt F)),
    StableHlo.binary main_v20 main_v30 main_v31 (addi : (⟨S2000000, .i32⟩ : BufTy).Contents (Elt F) → (⟨S2000000, .i32⟩ : BufTy).Contents (Elt F) → (⟨S2000000, .i32⟩ : BufTy).Contents (Elt F)),
    StableHlo.ternary main_v29 main_v31 main_v20 main_v32 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_11 (constantI S_ 32 0#32),
    StableHlo.unary main_c_11 main_v33 (broadcastInDim S2000000 ![] bcast_S_S2000000 : (⟨S_, .i32⟩ : BufTy).Contents (Elt F) → (⟨S2000000, .i32⟩ : BufTy).Contents (Elt F)),
    StableHlo.binary main_v22 main_v33 main_v34 (cmpi .slt : (⟨S2000000, .i32⟩ : BufTy).Contents (Elt F) → (⟨S2000000, .i32⟩ : BufTy).Contents (Elt F) → (⟨S2000000, .i1⟩ : BufTy).Contents (Elt F)),
    StableHlo.nullary main_c_12 (constantI S_ 32 512#32),
    StableHlo.unary main_c_12 main_v35 (broadcastInDim S2000000 ![] bcast_S_S2000000 : (⟨S_, .i32⟩ : BufTy).Contents (Elt F) → (⟨S2000000, .i32⟩ : BufTy).Contents (Elt F)),
    StableHlo.binary main_v22 main_v35 main_v36 (addi : (⟨S2000000, .i32⟩ : BufTy).Contents (Elt F) → (⟨S2000000, .i32⟩ : BufTy).Contents (Elt F) → (⟨S2000000, .i32⟩ : BufTy).Contents (Elt F)),
    StableHlo.ternary main_v34 main_v36 main_v22 main_v37 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v27 main_v38 (broadcastInDim S2000000x1 ![0] bcast_S2000000_S2000000x1_0 : (⟨S2000000, .i32⟩ : BufTy).Contents (Elt F) → (⟨S2000000x1, .i32⟩ : BufTy).Contents (Elt F)),
    StableHlo.unary main_v32 main_v39 (broadcastInDim S2000000x1 ![0] bcast_S2000000_S2000000x1_0 : (⟨S2000000, .i32⟩ : BufTy).Contents (Elt F) → (⟨S2000000x1, .i32⟩ : BufTy).Contents (Elt F)),
    StableHlo.unary main_v37 main_v40 (broadcastInDim S2000000x1 ![0] bcast_S2000000_S2000000x1_0 : (⟨S2000000, .i32⟩ : BufTy).Contents (Elt F) → (⟨S2000000x1, .i32⟩ : BufTy).Contents (Elt F)),
    StableHlo.nary ![main_v38, main_v39, main_v40] main_v41 (fun u => concatenate S2000000x3 1 [⟨S2000000x1, u 0⟩, ⟨S2000000x1, u 1⟩, ⟨S2000000x1, u 2⟩] concatenates_S2000000x1_S2000000x1_S2000000x1_S2000000x3_d1),
    StableHlo.binary main_v0 main_v41 main_v42 ((fun x i => Host.gather gather_S128x512x512x1_S2000000x3_S2000000x1_1_012_n_n_012_1_1111 x i) : (⟨S128x512x512x1, .f32⟩ : BufTy).Contents (Elt F) → (⟨S2000000x3, .i32⟩ : BufTy).Contents (Elt F) → (⟨S2000000x1, .f32⟩ : BufTy).Contents (Elt F)),
    StableHlo.binary main_v42 main_v12 main_v43 (mulf : (⟨S2000000x1, .f32⟩ : BufTy).Contents (Elt F) → (⟨S2000000x1, .f32⟩ : BufTy).Contents (Elt F) → (⟨S2000000x1, .f32⟩ : BufTy).Contents (Elt F)),
    StableHlo.binary main_v43 main_v14 main_v44 (mulf : (⟨S2000000x1, .f32⟩ : BufTy).Contents (Elt F) → (⟨S2000000x1, .f32⟩ : BufTy).Contents (Elt F) → (⟨S2000000x1, .f32⟩ : BufTy).Contents (Elt F)),
    StableHlo.binary main_v44 main_v16 main_v45 (mulf : (⟨S2000000x1, .f32⟩ : BufTy).Contents (Elt F) → (⟨S2000000x1, .f32⟩ : BufTy).Contents (Elt F) → (⟨S2000000x1, .f32⟩ : BufTy).Contents (Elt F)) ]

abbrev rv3 : List (HloOp τ sig (Elt F)) :=
  [ StableHlo.unary main_v4 main_v46 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v46 main_v47 rfl shapeCasts_S2000000x1_S2000000,
    StableHlo.unary main_v4 main_v48 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v48 main_v49 rfl shapeCasts_S2000000x1_S2000000,
    StableHlo.unary main_v7 main_v50 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v50 main_v51 rfl shapeCasts_S2000000x1_S2000000,
    StableHlo.nullary main_c_13 (constantI S_ 32 0#32),
    StableHlo.unary main_c_13 main_v52 (broadcastInDim S2000000 ![] bcast_S_S2000000 : (⟨S_, .i32⟩ : BufTy).Contents (Elt F) → (⟨S2000000, .i32⟩ : BufTy).Contents (Elt F)),
    StableHlo.binary main_v47 main_v52 main_v53 (cmpi .slt : (⟨S2000000, .i32⟩ : BufTy).Contents (Elt F) → (⟨S2000000, .i32⟩ : BufTy).Contents (Elt F) → (⟨S2000000, .i1⟩ : BufTy).Contents (Elt F)),
    StableHlo.nullary main_c_14 (constantI S_ 32 128#32),
    StableHlo.unary main_c_14 main_v54 (broadcastInDim S2000000 ![] bcast_S_S2000000 : (⟨S_, .i32⟩ : BufTy).Contents (Elt F) → (⟨S2000000, .i32⟩ : BufTy).Contents (Elt F)),
    StableHlo.binary main_v47 main_v54 main_v55 (addi : (⟨S2000000, .i32⟩ : BufTy).Contents (Elt F) → (⟨S2000000, .i32⟩ : BufTy).Contents (Elt F) → (⟨S2000000, .i32⟩ : BufTy).Contents (Elt F)),
    StableHlo.ternary main_v53 main_v55 main_v47 main_v56 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_15 (constantI S_ 32 0#32),
    StableHlo.unary main_c_15 main_v57 (broadcastInDim S2000000 ![] bcast_S_S2000000 : (⟨S_, .i32⟩ : BufTy).Contents (Elt F) → (⟨S2000000, .i32⟩ : BufTy).Contents (Elt F)),
    StableHlo.binary main_v49 main_v57 main_v58 (cmpi .slt : (⟨S2000000, .i32⟩ : BufTy).Contents (Elt F) → (⟨S2000000, .i32⟩ : BufTy).Contents (Elt F) → (⟨S2000000, .i1⟩ : BufTy).Contents (Elt F)),
    StableHlo.nullary main_c_16 (constantI S_ 32 512#32),
    StableHlo.unary main_c_16 main_v59 (broadcastInDim S2000000 ![] bcast_S_S2000000 : (⟨S_, .i32⟩ : BufTy).Contents (Elt F) → (⟨S2000000, .i32⟩ : BufTy).Contents (Elt F)),
    StableHlo.binary main_v49 main_v59 main_v60 (addi : (⟨S2000000, .i32⟩ : BufTy).Contents (Elt F) → (⟨S2000000, .i32⟩ : BufTy).Contents (Elt F) → (⟨S2000000, .i32⟩ : BufTy).Contents (Elt F)),
    StableHlo.ternary main_v58 main_v60 main_v49 main_v61 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_17 (constantI S_ 32 0#32),
    StableHlo.unary main_c_17 main_v62 (broadcastInDim S2000000 ![] bcast_S_S2000000 : (⟨S_, .i32⟩ : BufTy).Contents (Elt F) → (⟨S2000000, .i32⟩ : BufTy).Contents (Elt F)),
    StableHlo.binary main_v51 main_v62 main_v63 (cmpi .slt : (⟨S2000000, .i32⟩ : BufTy).Contents (Elt F) → (⟨S2000000, .i32⟩ : BufTy).Contents (Elt F) → (⟨S2000000, .i1⟩ : BufTy).Contents (Elt F)),
    StableHlo.nullary main_c_18 (constantI S_ 32 512#32),
    StableHlo.unary main_c_18 main_v64 (broadcastInDim S2000000 ![] bcast_S_S2000000 : (⟨S_, .i32⟩ : BufTy).Contents (Elt F) → (⟨S2000000, .i32⟩ : BufTy).Contents (Elt F)),
    StableHlo.binary main_v51 main_v64 main_v65 (addi : (⟨S2000000, .i32⟩ : BufTy).Contents (Elt F) → (⟨S2000000, .i32⟩ : BufTy).Contents (Elt F) → (⟨S2000000, .i32⟩ : BufTy).Contents (Elt F)),
    StableHlo.ternary main_v63 main_v65 main_v51 main_v66 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v56 main_v67 (broadcastInDim S2000000x1 ![0] bcast_S2000000_S2000000x1_0 : (⟨S2000000, .i32⟩ : BufTy).Contents (Elt F) → (⟨S2000000x1, .i32⟩ : BufTy).Contents (Elt F)),
    StableHlo.unary main_v61 main_v68 (broadcastInDim S2000000x1 ![0] bcast_S2000000_S2000000x1_0 : (⟨S2000000, .i32⟩ : BufTy).Contents (Elt F) → (⟨S2000000x1, .i32⟩ : BufTy).Contents (Elt F)),
    StableHlo.unary main_v66 main_v69 (broadcastInDim S2000000x1 ![0] bcast_S2000000_S2000000x1_0 : (⟨S2000000, .i32⟩ : BufTy).Contents (Elt F) → (⟨S2000000x1, .i32⟩ : BufTy).Contents (Elt F)),
    StableHlo.nary ![main_v67, main_v68, main_v69] main_v70 (fun u => concatenate S2000000x3 1 [⟨S2000000x1, u 0⟩, ⟨S2000000x1, u 1⟩, ⟨S2000000x1, u 2⟩] concatenates_S2000000x1_S2000000x1_S2000000x1_S2000000x3_d1),
    StableHlo.binary main_v0 main_v70 main_v71 ((fun x i => Host.gather gather_S128x512x512x1_S2000000x3_S2000000x1_1_012_n_n_012_1_1111 x i) : (⟨S128x512x512x1, .f32⟩ : BufTy).Contents (Elt F) → (⟨S2000000x3, .i32⟩ : BufTy).Contents (Elt F) → (⟨S2000000x1, .f32⟩ : BufTy).Contents (Elt F)),
    StableHlo.binary main_v71 main_v12 main_v72 (mulf : (⟨S2000000x1, .f32⟩ : BufTy).Contents (Elt F) → (⟨S2000000x1, .f32⟩ : BufTy).Contents (Elt F) → (⟨S2000000x1, .f32⟩ : BufTy).Contents (Elt F)),
    StableHlo.binary main_v72 main_v14 main_v73 (mulf : (⟨S2000000x1, .f32⟩ : BufTy).Contents (Elt F) → (⟨S2000000x1, .f32⟩ : BufTy).Contents (Elt F) → (⟨S2000000x1, .f32⟩ : BufTy).Contents (Elt F)),
    StableHlo.binary main_v73 main_v10 main_v74 (mulf : (⟨S2000000x1, .f32⟩ : BufTy).Contents (Elt F) → (⟨S2000000x1, .f32⟩ : BufTy).Contents (Elt F) → (⟨S2000000x1, .f32⟩ : BufTy).Contents (Elt F)),
    StableHlo.binary main_v45 main_v74 main_v75 (addf : (⟨S2000000x1, .f32⟩ : BufTy).Contents (Elt F) → (⟨S2000000x1, .f32⟩ : BufTy).Contents (Elt F) → (⟨S2000000x1, .f32⟩ : BufTy).Contents (Elt F)) ]

abbrev rv4 : List (HloOp τ sig (Elt F)) :=
  [ StableHlo.unary main_v4 main_v76 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v76 main_v77 rfl shapeCasts_S2000000x1_S2000000,
    StableHlo.unary main_v7 main_v78 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v78 main_v79 rfl shapeCasts_S2000000x1_S2000000,
    StableHlo.unary main_v4 main_v80 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v80 main_v81 rfl shapeCasts_S2000000x1_S2000000,
    StableHlo.nullary main_c_19 (constantI S_ 32 0#32),
    StableHlo.unary main_c_19 main_v82 (broadcastInDim S2000000 ![] bcast_S_S2000000 : (⟨S_, .i32⟩ : BufTy).Contents (Elt F) → (⟨S2000000, .i32⟩ : BufTy).Contents (Elt F)),
    StableHlo.binary main_v77 main_v82 main_v83 (cmpi .slt : (⟨S2000000, .i32⟩ : BufTy).Contents (Elt F) → (⟨S2000000, .i32⟩ : BufTy).Contents (Elt F) → (⟨S2000000, .i1⟩ : BufTy).Contents (Elt F)),
    StableHlo.nullary main_c_20 (constantI S_ 32 128#32),
    StableHlo.unary main_c_20 main_v84 (broadcastInDim S2000000 ![] bcast_S_S2000000 : (⟨S_, .i32⟩ : BufTy).Contents (Elt F) → (⟨S2000000, .i32⟩ : BufTy).Contents (Elt F)),
    StableHlo.binary main_v77 main_v84 main_v85 (addi : (⟨S2000000, .i32⟩ : BufTy).Contents (Elt F) → (⟨S2000000, .i32⟩ : BufTy).Contents (Elt F) → (⟨S2000000, .i32⟩ : BufTy).Contents (Elt F)),
    StableHlo.ternary main_v83 main_v85 main_v77 main_v86 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_21 (constantI S_ 32 0#32),
    StableHlo.unary main_c_21 main_v87 (broadcastInDim S2000000 ![] bcast_S_S2000000 : (⟨S_, .i32⟩ : BufTy).Contents (Elt F) → (⟨S2000000, .i32⟩ : BufTy).Contents (Elt F)),
    StableHlo.binary main_v79 main_v87 main_v88 (cmpi .slt : (⟨S2000000, .i32⟩ : BufTy).Contents (Elt F) → (⟨S2000000, .i32⟩ : BufTy).Contents (Elt F) → (⟨S2000000, .i1⟩ : BufTy).Contents (Elt F)),
    StableHlo.nullary main_c_22 (constantI S_ 32 512#32),
    StableHlo.unary main_c_22 main_v89 (broadcastInDim S2000000 ![] bcast_S_S2000000 : (⟨S_, .i32⟩ : BufTy).Contents (Elt F) → (⟨S2000000, .i32⟩ : BufTy).Contents (Elt F)),
    StableHlo.binary main_v79 main_v89 main_v90 (addi : (⟨S2000000, .i32⟩ : BufTy).Contents (Elt F) → (⟨S2000000, .i32⟩ : BufTy).Contents (Elt F) → (⟨S2000000, .i32⟩ : BufTy).Contents (Elt F)),
    StableHlo.ternary main_v88 main_v90 main_v79 main_v91 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_23 (constantI S_ 32 0#32),
    StableHlo.unary main_c_23 main_v92 (broadcastInDim S2000000 ![] bcast_S_S2000000 : (⟨S_, .i32⟩ : BufTy).Contents (Elt F) → (⟨S2000000, .i32⟩ : BufTy).Contents (Elt F)),
    StableHlo.binary main_v81 main_v92 main_v93 (cmpi .slt : (⟨S2000000, .i32⟩ : BufTy).Contents (Elt F) → (⟨S2000000, .i32⟩ : BufTy).Contents (Elt F) → (⟨S2000000, .i1⟩ : BufTy).Contents (Elt F)),
    StableHlo.nullary main_c_24 (constantI S_ 32 512#32),
    StableHlo.unary main_c_24 main_v94 (broadcastInDim S2000000 ![] bcast_S_S2000000 : (⟨S_, .i32⟩ : BufTy).Contents (Elt F) → (⟨S2000000, .i32⟩ : BufTy).Contents (Elt F)),
    StableHlo.binary main_v81 main_v94 main_v95 (addi : (⟨S2000000, .i32⟩ : BufTy).Contents (Elt F) → (⟨S2000000, .i32⟩ : BufTy).Contents (Elt F) → (⟨S2000000, .i32⟩ : BufTy).Contents (Elt F)),
    StableHlo.ternary main_v93 main_v95 main_v81 main_v96 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v86 main_v97 (broadcastInDim S2000000x1 ![0] bcast_S2000000_S2000000x1_0 : (⟨S2000000, .i32⟩ : BufTy).Contents (Elt F) → (⟨S2000000x1, .i32⟩ : BufTy).Contents (Elt F)),
    StableHlo.unary main_v91 main_v98 (broadcastInDim S2000000x1 ![0] bcast_S2000000_S2000000x1_0 : (⟨S2000000, .i32⟩ : BufTy).Contents (Elt F) → (⟨S2000000x1, .i32⟩ : BufTy).Contents (Elt F)),
    StableHlo.unary main_v96 main_v99 (broadcastInDim S2000000x1 ![0] bcast_S2000000_S2000000x1_0 : (⟨S2000000, .i32⟩ : BufTy).Contents (Elt F) → (⟨S2000000x1, .i32⟩ : BufTy).Contents (Elt F)),
    StableHlo.nary ![main_v97, main_v98, main_v99] main_v100 (fun u => concatenate S2000000x3 1 [⟨S2000000x1, u 0⟩, ⟨S2000000x1, u 1⟩, ⟨S2000000x1, u 2⟩] concatenates_S2000000x1_S2000000x1_S2000000x1_S2000000x3_d1),
    StableHlo.binary main_v0 main_v100 main_v101 ((fun x i => Host.gather gather_S128x512x512x1_S2000000x3_S2000000x1_1_012_n_n_012_1_1111 x i) : (⟨S128x512x512x1, .f32⟩ : BufTy).Contents (Elt F) → (⟨S2000000x3, .i32⟩ : BufTy).Contents (Elt F) → (⟨S2000000x1, .f32⟩ : BufTy).Contents (Elt F)),
    StableHlo.binary main_v101 main_v12 main_v102 (mulf : (⟨S2000000x1, .f32⟩ : BufTy).Contents (Elt F) → (⟨S2000000x1, .f32⟩ : BufTy).Contents (Elt F) → (⟨S2000000x1, .f32⟩ : BufTy).Contents (Elt F)),
    StableHlo.binary main_v102 main_v9 main_v103 (mulf : (⟨S2000000x1, .f32⟩ : BufTy).Contents (Elt F) → (⟨S2000000x1, .f32⟩ : BufTy).Contents (Elt F) → (⟨S2000000x1, .f32⟩ : BufTy).Contents (Elt F)),
    StableHlo.binary main_v103 main_v16 main_v104 (mulf : (⟨S2000000x1, .f32⟩ : BufTy).Contents (Elt F) → (⟨S2000000x1, .f32⟩ : BufTy).Contents (Elt F) → (⟨S2000000x1, .f32⟩ : BufTy).Contents (Elt F)),
    StableHlo.binary main_v75 main_v104 main_v105 (addf : (⟨S2000000x1, .f32⟩ : BufTy).Contents (Elt F) → (⟨S2000000x1, .f32⟩ : BufTy).Contents (Elt F) → (⟨S2000000x1, .f32⟩ : BufTy).Contents (Elt F)) ]

abbrev rv5 : List (HloOp τ sig (Elt F)) :=
  [ StableHlo.unary main_v4 main_v106 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v106 main_v107 rfl shapeCasts_S2000000x1_S2000000,
    StableHlo.unary main_v7 main_v108 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v108 main_v109 rfl shapeCasts_S2000000x1_S2000000,
    StableHlo.unary main_v7 main_v110 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v110 main_v111 rfl shapeCasts_S2000000x1_S2000000,
    StableHlo.nullary main_c_25 (constantI S_ 32 0#32),
    StableHlo.unary main_c_25 main_v112 (broadcastInDim S2000000 ![] bcast_S_S2000000 : (⟨S_, .i32⟩ : BufTy).Contents (Elt F) → (⟨S2000000, .i32⟩ : BufTy).Contents (Elt F)),
    StableHlo.binary main_v107 main_v112 main_v113 (cmpi .slt : (⟨S2000000, .i32⟩ : BufTy).Contents (Elt F) → (⟨S2000000, .i32⟩ : BufTy).Contents (Elt F) → (⟨S2000000, .i1⟩ : BufTy).Contents (Elt F)),
    StableHlo.nullary main_c_26 (constantI S_ 32 128#32),
    StableHlo.unary main_c_26 main_v114 (broadcastInDim S2000000 ![] bcast_S_S2000000 : (⟨S_, .i32⟩ : BufTy).Contents (Elt F) → (⟨S2000000, .i32⟩ : BufTy).Contents (Elt F)),
    StableHlo.binary main_v107 main_v114 main_v115 (addi : (⟨S2000000, .i32⟩ : BufTy).Contents (Elt F) → (⟨S2000000, .i32⟩ : BufTy).Contents (Elt F) → (⟨S2000000, .i32⟩ : BufTy).Contents (Elt F)),
    StableHlo.ternary main_v113 main_v115 main_v107 main_v116 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_27 (constantI S_ 32 0#32),
    StableHlo.unary main_c_27 main_v117 (broadcastInDim S2000000 ![] bcast_S_S2000000 : (⟨S_, .i32⟩ : BufTy).Contents (Elt F) → (⟨S2000000, .i32⟩ : BufTy).Contents (Elt F)),
    StableHlo.binary main_v109 main_v117 main_v118 (cmpi .slt : (⟨S2000000, .i32⟩ : BufTy).Contents (Elt F) → (⟨S2000000, .i32⟩ : BufTy).Contents (Elt F) → (⟨S2000000, .i1⟩ : BufTy).Contents (Elt F)),
    StableHlo.nullary main_c_28 (constantI S_ 32 512#32),
    StableHlo.unary main_c_28 main_v119 (broadcastInDim S2000000 ![] bcast_S_S2000000 : (⟨S_, .i32⟩ : BufTy).Contents (Elt F) → (⟨S2000000, .i32⟩ : BufTy).Contents (Elt F)),
    StableHlo.binary main_v109 main_v119 main_v120 (addi : (⟨S2000000, .i32⟩ : BufTy).Contents (Elt F) → (⟨S2000000, .i32⟩ : BufTy).Contents (Elt F) → (⟨S2000000, .i32⟩ : BufTy).Contents (Elt F)),
    StableHlo.ternary main_v118 main_v120 main_v109 main_v121 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_29 (constantI S_ 32 0#32),
    StableHlo.unary main_c_29 main_v122 (broadcastInDim S2000000 ![] bcast_S_S2000000 : (⟨S_, .i32⟩ : BufTy).Contents (Elt F) → (⟨S2000000, .i32⟩ : BufTy).Contents (Elt F)),
    StableHlo.binary main_v111 main_v122 main_v123 (cmpi .slt : (⟨S2000000, .i32⟩ : BufTy).Contents (Elt F) → (⟨S2000000, .i32⟩ : BufTy).Contents (Elt F) → (⟨S2000000, .i1⟩ : BufTy).Contents (Elt F)),
    StableHlo.nullary main_c_30 (constantI S_ 32 512#32),
    StableHlo.unary main_c_30 main_v124 (broadcastInDim S2000000 ![] bcast_S_S2000000 : (⟨S_, .i32⟩ : BufTy).Contents (Elt F) → (⟨S2000000, .i32⟩ : BufTy).Contents (Elt F)),
    StableHlo.binary main_v111 main_v124 main_v125 (addi : (⟨S2000000, .i32⟩ : BufTy).Contents (Elt F) → (⟨S2000000, .i32⟩ : BufTy).Contents (Elt F) → (⟨S2000000, .i32⟩ : BufTy).Contents (Elt F)),
    StableHlo.ternary main_v123 main_v125 main_v111 main_v126 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v116 main_v127 (broadcastInDim S2000000x1 ![0] bcast_S2000000_S2000000x1_0 : (⟨S2000000, .i32⟩ : BufTy).Contents (Elt F) → (⟨S2000000x1, .i32⟩ : BufTy).Contents (Elt F)),
    StableHlo.unary main_v121 main_v128 (broadcastInDim S2000000x1 ![0] bcast_S2000000_S2000000x1_0 : (⟨S2000000, .i32⟩ : BufTy).Contents (Elt F) → (⟨S2000000x1, .i32⟩ : BufTy).Contents (Elt F)),
    StableHlo.unary main_v126 main_v129 (broadcastInDim S2000000x1 ![0] bcast_S2000000_S2000000x1_0 : (⟨S2000000, .i32⟩ : BufTy).Contents (Elt F) → (⟨S2000000x1, .i32⟩ : BufTy).Contents (Elt F)),
    StableHlo.nary ![main_v127, main_v128, main_v129] main_v130 (fun u => concatenate S2000000x3 1 [⟨S2000000x1, u 0⟩, ⟨S2000000x1, u 1⟩, ⟨S2000000x1, u 2⟩] concatenates_S2000000x1_S2000000x1_S2000000x1_S2000000x3_d1),
    StableHlo.binary main_v0 main_v130 main_v131 ((fun x i => Host.gather gather_S128x512x512x1_S2000000x3_S2000000x1_1_012_n_n_012_1_1111 x i) : (⟨S128x512x512x1, .f32⟩ : BufTy).Contents (Elt F) → (⟨S2000000x3, .i32⟩ : BufTy).Contents (Elt F) → (⟨S2000000x1, .f32⟩ : BufTy).Contents (Elt F)),
    StableHlo.binary main_v131 main_v12 main_v132 (mulf : (⟨S2000000x1, .f32⟩ : BufTy).Contents (Elt F) → (⟨S2000000x1, .f32⟩ : BufTy).Contents (Elt F) → (⟨S2000000x1, .f32⟩ : BufTy).Contents (Elt F)),
    StableHlo.binary main_v132 main_v9 main_v133 (mulf : (⟨S2000000x1, .f32⟩ : BufTy).Contents (Elt F) → (⟨S2000000x1, .f32⟩ : BufTy).Contents (Elt F) → (⟨S2000000x1, .f32⟩ : BufTy).Contents (Elt F)),
    StableHlo.binary main_v133 main_v10 main_v134 (mulf : (⟨S2000000x1, .f32⟩ : BufTy).Contents (Elt F) → (⟨S2000000x1, .f32⟩ : BufTy).Contents (Elt F) → (⟨S2000000x1, .f32⟩ : BufTy).Contents (Elt F)),
    StableHlo.binary main_v105 main_v134 main_v135 (addf : (⟨S2000000x1, .f32⟩ : BufTy).Contents (Elt F) → (⟨S2000000x1, .f32⟩ : BufTy).Contents (Elt F) → (⟨S2000000x1, .f32⟩ : BufTy).Contents (Elt F)) ]

abbrev rv6 : List (HloOp τ sig (Elt F)) :=
  [ StableHlo.unary main_v7 main_v136 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v136 main_v137 rfl shapeCasts_S2000000x1_S2000000,
    StableHlo.unary main_v4 main_v138 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v138 main_v139 rfl shapeCasts_S2000000x1_S2000000,
    StableHlo.unary main_v4 main_v140 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v140 main_v141 rfl shapeCasts_S2000000x1_S2000000,
    StableHlo.nullary main_c_31 (constantI S_ 32 0#32),
    StableHlo.unary main_c_31 main_v142 (broadcastInDim S2000000 ![] bcast_S_S2000000 : (⟨S_, .i32⟩ : BufTy).Contents (Elt F) → (⟨S2000000, .i32⟩ : BufTy).Contents (Elt F)),
    StableHlo.binary main_v137 main_v142 main_v143 (cmpi .slt : (⟨S2000000, .i32⟩ : BufTy).Contents (Elt F) → (⟨S2000000, .i32⟩ : BufTy).Contents (Elt F) → (⟨S2000000, .i1⟩ : BufTy).Contents (Elt F)),
    StableHlo.nullary main_c_32 (constantI S_ 32 128#32),
    StableHlo.unary main_c_32 main_v144 (broadcastInDim S2000000 ![] bcast_S_S2000000 : (⟨S_, .i32⟩ : BufTy).Contents (Elt F) → (⟨S2000000, .i32⟩ : BufTy).Contents (Elt F)),
    StableHlo.binary main_v137 main_v144 main_v145 (addi : (⟨S2000000, .i32⟩ : BufTy).Contents (Elt F) → (⟨S2000000, .i32⟩ : BufTy).Contents (Elt F) → (⟨S2000000, .i32⟩ : BufTy).Contents (Elt F)),
    StableHlo.ternary main_v143 main_v145 main_v137 main_v146 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_33 (constantI S_ 32 0#32),
    StableHlo.unary main_c_33 main_v147 (broadcastInDim S2000000 ![] bcast_S_S2000000 : (⟨S_, .i32⟩ : BufTy).Contents (Elt F) → (⟨S2000000, .i32⟩ : BufTy).Contents (Elt F)),
    StableHlo.binary main_v139 main_v147 main_v148 (cmpi .slt : (⟨S2000000, .i32⟩ : BufTy).Contents (Elt F) → (⟨S2000000, .i32⟩ : BufTy).Contents (Elt F) → (⟨S2000000, .i1⟩ : BufTy).Contents (Elt F)),
    StableHlo.nullary main_c_34 (constantI S_ 32 512#32),
    StableHlo.unary main_c_34 main_v149 (broadcastInDim S2000000 ![] bcast_S_S2000000 : (⟨S_, .i32⟩ : BufTy).Contents (Elt F) → (⟨S2000000, .i32⟩ : BufTy).Contents (Elt F)),
    StableHlo.binary main_v139 main_v149 main_v150 (addi : (⟨S2000000, .i32⟩ : BufTy).Contents (Elt F) → (⟨S2000000, .i32⟩ : BufTy).Contents (Elt F) → (⟨S2000000, .i32⟩ : BufTy).Contents (Elt F)),
    StableHlo.ternary main_v148 main_v150 main_v139 main_v151 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_35 (constantI S_ 32 0#32),
    StableHlo.unary main_c_35 main_v152 (broadcastInDim S2000000 ![] bcast_S_S2000000 : (⟨S_, .i32⟩ : BufTy).Contents (Elt F) → (⟨S2000000, .i32⟩ : BufTy).Contents (Elt F)),
    StableHlo.binary main_v141 main_v152 main_v153 (cmpi .slt : (⟨S2000000, .i32⟩ : BufTy).Contents (Elt F) → (⟨S2000000, .i32⟩ : BufTy).Contents (Elt F) → (⟨S2000000, .i1⟩ : BufTy).Contents (Elt F)),
    StableHlo.nullary main_c_36 (constantI S_ 32 512#32),
    StableHlo.unary main_c_36 main_v154 (broadcastInDim S2000000 ![] bcast_S_S2000000 : (⟨S_, .i32⟩ : BufTy).Contents (Elt F) → (⟨S2000000, .i32⟩ : BufTy).Contents (Elt F)),
    StableHlo.binary main_v141 main_v154 main_v155 (addi : (⟨S2000000, .i32⟩ : BufTy).Contents (Elt F) → (⟨S2000000, .i32⟩ : BufTy).Contents (Elt F) → (⟨S2000000, .i32⟩ : BufTy).Contents (Elt F)),
    StableHlo.ternary main_v153 main_v155 main_v141 main_v156 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v146 main_v157 (broadcastInDim S2000000x1 ![0] bcast_S2000000_S2000000x1_0 : (⟨S2000000, .i32⟩ : BufTy).Contents (Elt F) → (⟨S2000000x1, .i32⟩ : BufTy).Contents (Elt F)),
    StableHlo.unary main_v151 main_v158 (broadcastInDim S2000000x1 ![0] bcast_S2000000_S2000000x1_0 : (⟨S2000000, .i32⟩ : BufTy).Contents (Elt F) → (⟨S2000000x1, .i32⟩ : BufTy).Contents (Elt F)),
    StableHlo.unary main_v156 main_v159 (broadcastInDim S2000000x1 ![0] bcast_S2000000_S2000000x1_0 : (⟨S2000000, .i32⟩ : BufTy).Contents (Elt F) → (⟨S2000000x1, .i32⟩ : BufTy).Contents (Elt F)),
    StableHlo.nary ![main_v157, main_v158, main_v159] main_v160 (fun u => concatenate S2000000x3 1 [⟨S2000000x1, u 0⟩, ⟨S2000000x1, u 1⟩, ⟨S2000000x1, u 2⟩] concatenates_S2000000x1_S2000000x1_S2000000x1_S2000000x3_d1),
    StableHlo.binary main_v0 main_v160 main_v161 ((fun x i => Host.gather gather_S128x512x512x1_S2000000x3_S2000000x1_1_012_n_n_012_1_1111 x i) : (⟨S128x512x512x1, .f32⟩ : BufTy).Contents (Elt F) → (⟨S2000000x3, .i32⟩ : BufTy).Contents (Elt F) → (⟨S2000000x1, .f32⟩ : BufTy).Contents (Elt F)),
    StableHlo.binary main_v161 main_v8 main_v162 (mulf : (⟨S2000000x1, .f32⟩ : BufTy).Contents (Elt F) → (⟨S2000000x1, .f32⟩ : BufTy).Contents (Elt F) → (⟨S2000000x1, .f32⟩ : BufTy).Contents (Elt F)),
    StableHlo.binary main_v162 main_v14 main_v163 (mulf : (⟨S2000000x1, .f32⟩ : BufTy).Contents (Elt F) → (⟨S2000000x1, .f32⟩ : BufTy).Contents (Elt F) → (⟨S2000000x1, .f32⟩ : BufTy).Contents (Elt F)),
    StableHlo.binary main_v163 main_v16 main_v164 (mulf : (⟨S2000000x1, .f32⟩ : BufTy).Contents (Elt F) → (⟨S2000000x1, .f32⟩ : BufTy).Contents (Elt F) → (⟨S2000000x1, .f32⟩ : BufTy).Contents (Elt F)),
    StableHlo.binary main_v135 main_v164 main_v165 (addf : (⟨S2000000x1, .f32⟩ : BufTy).Contents (Elt F) → (⟨S2000000x1, .f32⟩ : BufTy).Contents (Elt F) → (⟨S2000000x1, .f32⟩ : BufTy).Contents (Elt F)) ]

abbrev rv7 : List (HloOp τ sig (Elt F)) :=
  [ StableHlo.unary main_v7 main_v166 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v166 main_v167 rfl shapeCasts_S2000000x1_S2000000,
    StableHlo.unary main_v4 main_v168 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v168 main_v169 rfl shapeCasts_S2000000x1_S2000000,
    StableHlo.unary main_v7 main_v170 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v170 main_v171 rfl shapeCasts_S2000000x1_S2000000,
    StableHlo.nullary main_c_37 (constantI S_ 32 0#32),
    StableHlo.unary main_c_37 main_v172 (broadcastInDim S2000000 ![] bcast_S_S2000000 : (⟨S_, .i32⟩ : BufTy).Contents (Elt F) → (⟨S2000000, .i32⟩ : BufTy).Contents (Elt F)),
    StableHlo.binary main_v167 main_v172 main_v173 (cmpi .slt : (⟨S2000000, .i32⟩ : BufTy).Contents (Elt F) → (⟨S2000000, .i32⟩ : BufTy).Contents (Elt F) → (⟨S2000000, .i1⟩ : BufTy).Contents (Elt F)),
    StableHlo.nullary main_c_38 (constantI S_ 32 128#32),
    StableHlo.unary main_c_38 main_v174 (broadcastInDim S2000000 ![] bcast_S_S2000000 : (⟨S_, .i32⟩ : BufTy).Contents (Elt F) → (⟨S2000000, .i32⟩ : BufTy).Contents (Elt F)),
    StableHlo.binary main_v167 main_v174 main_v175 (addi : (⟨S2000000, .i32⟩ : BufTy).Contents (Elt F) → (⟨S2000000, .i32⟩ : BufTy).Contents (Elt F) → (⟨S2000000, .i32⟩ : BufTy).Contents (Elt F)),
    StableHlo.ternary main_v173 main_v175 main_v167 main_v176 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_39 (constantI S_ 32 0#32),
    StableHlo.unary main_c_39 main_v177 (broadcastInDim S2000000 ![] bcast_S_S2000000 : (⟨S_, .i32⟩ : BufTy).Contents (Elt F) → (⟨S2000000, .i32⟩ : BufTy).Contents (Elt F)),
    StableHlo.binary main_v169 main_v177 main_v178 (cmpi .slt : (⟨S2000000, .i32⟩ : BufTy).Contents (Elt F) → (⟨S2000000, .i32⟩ : BufTy).Contents (Elt F) → (⟨S2000000, .i1⟩ : BufTy).Contents (Elt F)),
    StableHlo.nullary main_c_40 (constantI S_ 32 512#32),
    StableHlo.unary main_c_40 main_v179 (broadcastInDim S2000000 ![] bcast_S_S2000000 : (⟨S_, .i32⟩ : BufTy).Contents (Elt F) → (⟨S2000000, .i32⟩ : BufTy).Contents (Elt F)),
    StableHlo.binary main_v169 main_v179 main_v180 (addi : (⟨S2000000, .i32⟩ : BufTy).Contents (Elt F) → (⟨S2000000, .i32⟩ : BufTy).Contents (Elt F) → (⟨S2000000, .i32⟩ : BufTy).Contents (Elt F)),
    StableHlo.ternary main_v178 main_v180 main_v169 main_v181 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_41 (constantI S_ 32 0#32),
    StableHlo.unary main_c_41 main_v182 (broadcastInDim S2000000 ![] bcast_S_S2000000 : (⟨S_, .i32⟩ : BufTy).Contents (Elt F) → (⟨S2000000, .i32⟩ : BufTy).Contents (Elt F)),
    StableHlo.binary main_v171 main_v182 main_v183 (cmpi .slt : (⟨S2000000, .i32⟩ : BufTy).Contents (Elt F) → (⟨S2000000, .i32⟩ : BufTy).Contents (Elt F) → (⟨S2000000, .i1⟩ : BufTy).Contents (Elt F)),
    StableHlo.nullary main_c_42 (constantI S_ 32 512#32),
    StableHlo.unary main_c_42 main_v184 (broadcastInDim S2000000 ![] bcast_S_S2000000 : (⟨S_, .i32⟩ : BufTy).Contents (Elt F) → (⟨S2000000, .i32⟩ : BufTy).Contents (Elt F)),
    StableHlo.binary main_v171 main_v184 main_v185 (addi : (⟨S2000000, .i32⟩ : BufTy).Contents (Elt F) → (⟨S2000000, .i32⟩ : BufTy).Contents (Elt F) → (⟨S2000000, .i32⟩ : BufTy).Contents (Elt F)),
    StableHlo.ternary main_v183 main_v185 main_v171 main_v186 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v176 main_v187 (broadcastInDim S2000000x1 ![0] bcast_S2000000_S2000000x1_0 : (⟨S2000000, .i32⟩ : BufTy).Contents (Elt F) → (⟨S2000000x1, .i32⟩ : BufTy).Contents (Elt F)),
    StableHlo.unary main_v181 main_v188 (broadcastInDim S2000000x1 ![0] bcast_S2000000_S2000000x1_0 : (⟨S2000000, .i32⟩ : BufTy).Contents (Elt F) → (⟨S2000000x1, .i32⟩ : BufTy).Contents (Elt F)),
    StableHlo.unary main_v186 main_v189 (broadcastInDim S2000000x1 ![0] bcast_S2000000_S2000000x1_0 : (⟨S2000000, .i32⟩ : BufTy).Contents (Elt F) → (⟨S2000000x1, .i32⟩ : BufTy).Contents (Elt F)),
    StableHlo.nary ![main_v187, main_v188, main_v189] main_v190 (fun u => concatenate S2000000x3 1 [⟨S2000000x1, u 0⟩, ⟨S2000000x1, u 1⟩, ⟨S2000000x1, u 2⟩] concatenates_S2000000x1_S2000000x1_S2000000x1_S2000000x3_d1),
    StableHlo.binary main_v0 main_v190 main_v191 ((fun x i => Host.gather gather_S128x512x512x1_S2000000x3_S2000000x1_1_012_n_n_012_1_1111 x i) : (⟨S128x512x512x1, .f32⟩ : BufTy).Contents (Elt F) → (⟨S2000000x3, .i32⟩ : BufTy).Contents (Elt F) → (⟨S2000000x1, .f32⟩ : BufTy).Contents (Elt F)),
    StableHlo.binary main_v191 main_v8 main_v192 (mulf : (⟨S2000000x1, .f32⟩ : BufTy).Contents (Elt F) → (⟨S2000000x1, .f32⟩ : BufTy).Contents (Elt F) → (⟨S2000000x1, .f32⟩ : BufTy).Contents (Elt F)),
    StableHlo.binary main_v192 main_v14 main_v193 (mulf : (⟨S2000000x1, .f32⟩ : BufTy).Contents (Elt F) → (⟨S2000000x1, .f32⟩ : BufTy).Contents (Elt F) → (⟨S2000000x1, .f32⟩ : BufTy).Contents (Elt F)),
    StableHlo.binary main_v193 main_v10 main_v194 (mulf : (⟨S2000000x1, .f32⟩ : BufTy).Contents (Elt F) → (⟨S2000000x1, .f32⟩ : BufTy).Contents (Elt F) → (⟨S2000000x1, .f32⟩ : BufTy).Contents (Elt F)),
    StableHlo.binary main_v165 main_v194 main_v195 (addf : (⟨S2000000x1, .f32⟩ : BufTy).Contents (Elt F) → (⟨S2000000x1, .f32⟩ : BufTy).Contents (Elt F) → (⟨S2000000x1, .f32⟩ : BufTy).Contents (Elt F)) ]

abbrev rv8 : List (HloOp τ sig (Elt F)) :=
  [ StableHlo.unary main_v7 main_v196 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v196 main_v197 rfl shapeCasts_S2000000x1_S2000000,
    StableHlo.unary main_v7 main_v198 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v198 main_v199 rfl shapeCasts_S2000000x1_S2000000,
    StableHlo.unary main_v4 main_v200 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v200 main_v201 rfl shapeCasts_S2000000x1_S2000000,
    StableHlo.nullary main_c_43 (constantI S_ 32 0#32),
    StableHlo.unary main_c_43 main_v202 (broadcastInDim S2000000 ![] bcast_S_S2000000 : (⟨S_, .i32⟩ : BufTy).Contents (Elt F) → (⟨S2000000, .i32⟩ : BufTy).Contents (Elt F)),
    StableHlo.binary main_v197 main_v202 main_v203 (cmpi .slt : (⟨S2000000, .i32⟩ : BufTy).Contents (Elt F) → (⟨S2000000, .i32⟩ : BufTy).Contents (Elt F) → (⟨S2000000, .i1⟩ : BufTy).Contents (Elt F)),
    StableHlo.nullary main_c_44 (constantI S_ 32 128#32),
    StableHlo.unary main_c_44 main_v204 (broadcastInDim S2000000 ![] bcast_S_S2000000 : (⟨S_, .i32⟩ : BufTy).Contents (Elt F) → (⟨S2000000, .i32⟩ : BufTy).Contents (Elt F)),
    StableHlo.binary main_v197 main_v204 main_v205 (addi : (⟨S2000000, .i32⟩ : BufTy).Contents (Elt F) → (⟨S2000000, .i32⟩ : BufTy).Contents (Elt F) → (⟨S2000000, .i32⟩ : BufTy).Contents (Elt F)),
    StableHlo.ternary main_v203 main_v205 main_v197 main_v206 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_45 (constantI S_ 32 0#32),
    StableHlo.unary main_c_45 main_v207 (broadcastInDim S2000000 ![] bcast_S_S2000000 : (⟨S_, .i32⟩ : BufTy).Contents (Elt F) → (⟨S2000000, .i32⟩ : BufTy).Contents (Elt F)),
    StableHlo.binary main_v199 main_v207 main_v208 (cmpi .slt : (⟨S2000000, .i32⟩ : BufTy).Contents (Elt F) → (⟨S2000000, .i32⟩ : BufTy).Contents (Elt F) → (⟨S2000000, .i1⟩ : BufTy).Contents (Elt F)),
    StableHlo.nullary main_c_46 (constantI S_ 32 512#32),
    StableHlo.unary main_c_46 main_v209 (broadcastInDim S2000000 ![] bcast_S_S2000000 : (⟨S_, .i32⟩ : BufTy).Contents (Elt F) → (⟨S2000000, .i32⟩ : BufTy).Contents (Elt F)),
    StableHlo.binary main_v199 main_v209 main_v210 (addi : (⟨S2000000, .i32⟩ : BufTy).Contents (Elt F) → (⟨S2000000, .i32⟩ : BufTy).Contents (Elt F) → (⟨S2000000, .i32⟩ : BufTy).Contents (Elt F)),
    StableHlo.ternary main_v208 main_v210 main_v199 main_v211 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_47 (constantI S_ 32 0#32),
    StableHlo.unary main_c_47 main_v212 (broadcastInDim S2000000 ![] bcast_S_S2000000 : (⟨S_, .i32⟩ : BufTy).Contents (Elt F) → (⟨S2000000, .i32⟩ : BufTy).Contents (Elt F)),
    StableHlo.binary main_v201 main_v212 main_v213 (cmpi .slt : (⟨S2000000, .i32⟩ : BufTy).Contents (Elt F) → (⟨S2000000, .i32⟩ : BufTy).Contents (Elt F) → (⟨S2000000, .i1⟩ : BufTy).Contents (Elt F)),
    StableHlo.nullary main_c_48 (constantI S_ 32 512#32),
    StableHlo.unary main_c_48 main_v214 (broadcastInDim S2000000 ![] bcast_S_S2000000 : (⟨S_, .i32⟩ : BufTy).Contents (Elt F) → (⟨S2000000, .i32⟩ : BufTy).Contents (Elt F)),
    StableHlo.binary main_v201 main_v214 main_v215 (addi : (⟨S2000000, .i32⟩ : BufTy).Contents (Elt F) → (⟨S2000000, .i32⟩ : BufTy).Contents (Elt F) → (⟨S2000000, .i32⟩ : BufTy).Contents (Elt F)),
    StableHlo.ternary main_v213 main_v215 main_v201 main_v216 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v206 main_v217 (broadcastInDim S2000000x1 ![0] bcast_S2000000_S2000000x1_0 : (⟨S2000000, .i32⟩ : BufTy).Contents (Elt F) → (⟨S2000000x1, .i32⟩ : BufTy).Contents (Elt F)),
    StableHlo.unary main_v211 main_v218 (broadcastInDim S2000000x1 ![0] bcast_S2000000_S2000000x1_0 : (⟨S2000000, .i32⟩ : BufTy).Contents (Elt F) → (⟨S2000000x1, .i32⟩ : BufTy).Contents (Elt F)),
    StableHlo.unary main_v216 main_v219 (broadcastInDim S2000000x1 ![0] bcast_S2000000_S2000000x1_0 : (⟨S2000000, .i32⟩ : BufTy).Contents (Elt F) → (⟨S2000000x1, .i32⟩ : BufTy).Contents (Elt F)),
    StableHlo.nary ![main_v217, main_v218, main_v219] main_v220 (fun u => concatenate S2000000x3 1 [⟨S2000000x1, u 0⟩, ⟨S2000000x1, u 1⟩, ⟨S2000000x1, u 2⟩] concatenates_S2000000x1_S2000000x1_S2000000x1_S2000000x3_d1),
    StableHlo.binary main_v0 main_v220 main_v221 ((fun x i => Host.gather gather_S128x512x512x1_S2000000x3_S2000000x1_1_012_n_n_012_1_1111 x i) : (⟨S128x512x512x1, .f32⟩ : BufTy).Contents (Elt F) → (⟨S2000000x3, .i32⟩ : BufTy).Contents (Elt F) → (⟨S2000000x1, .f32⟩ : BufTy).Contents (Elt F)),
    StableHlo.binary main_v221 main_v8 main_v222 (mulf : (⟨S2000000x1, .f32⟩ : BufTy).Contents (Elt F) → (⟨S2000000x1, .f32⟩ : BufTy).Contents (Elt F) → (⟨S2000000x1, .f32⟩ : BufTy).Contents (Elt F)),
    StableHlo.binary main_v222 main_v9 main_v223 (mulf : (⟨S2000000x1, .f32⟩ : BufTy).Contents (Elt F) → (⟨S2000000x1, .f32⟩ : BufTy).Contents (Elt F) → (⟨S2000000x1, .f32⟩ : BufTy).Contents (Elt F)),
    StableHlo.binary main_v223 main_v16 main_v224 (mulf : (⟨S2000000x1, .f32⟩ : BufTy).Contents (Elt F) → (⟨S2000000x1, .f32⟩ : BufTy).Contents (Elt F) → (⟨S2000000x1, .f32⟩ : BufTy).Contents (Elt F)),
    StableHlo.binary main_v195 main_v224 main_v225 (addf : (⟨S2000000x1, .f32⟩ : BufTy).Contents (Elt F) → (⟨S2000000x1, .f32⟩ : BufTy).Contents (Elt F) → (⟨S2000000x1, .f32⟩ : BufTy).Contents (Elt F)) ]

abbrev rv9 : List (HloOp τ sig (Elt F)) :=
  [ StableHlo.unary main_v7 main_v226 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v226 main_v227 rfl shapeCasts_S2000000x1_S2000000,
    StableHlo.unary main_v7 main_v228 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v228 main_v229 rfl shapeCasts_S2000000x1_S2000000,
    StableHlo.unary main_v7 main_v230 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v230 main_v231 rfl shapeCasts_S2000000x1_S2000000,
    StableHlo.nullary main_c_49 (constantI S_ 32 0#32),
    StableHlo.unary main_c_49 main_v232 (broadcastInDim S2000000 ![] bcast_S_S2000000 : (⟨S_, .i32⟩ : BufTy).Contents (Elt F) → (⟨S2000000, .i32⟩ : BufTy).Contents (Elt F)),
    StableHlo.binary main_v227 main_v232 main_v233 (cmpi .slt : (⟨S2000000, .i32⟩ : BufTy).Contents (Elt F) → (⟨S2000000, .i32⟩ : BufTy).Contents (Elt F) → (⟨S2000000, .i1⟩ : BufTy).Contents (Elt F)),
    StableHlo.nullary main_c_50 (constantI S_ 32 128#32),
    StableHlo.unary main_c_50 main_v234 (broadcastInDim S2000000 ![] bcast_S_S2000000 : (⟨S_, .i32⟩ : BufTy).Contents (Elt F) → (⟨S2000000, .i32⟩ : BufTy).Contents (Elt F)),
    StableHlo.binary main_v227 main_v234 main_v235 (addi : (⟨S2000000, .i32⟩ : BufTy).Contents (Elt F) → (⟨S2000000, .i32⟩ : BufTy).Contents (Elt F) → (⟨S2000000, .i32⟩ : BufTy).Contents (Elt F)),
    StableHlo.ternary main_v233 main_v235 main_v227 main_v236 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_51 (constantI S_ 32 0#32),
    StableHlo.unary main_c_51 main_v237 (broadcastInDim S2000000 ![] bcast_S_S2000000 : (⟨S_, .i32⟩ : BufTy).Contents (Elt F) → (⟨S2000000, .i32⟩ : BufTy).Contents (Elt F)),
    StableHlo.binary main_v229 main_v237 main_v238 (cmpi .slt : (⟨S2000000, .i32⟩ : BufTy).Contents (Elt F) → (⟨S2000000, .i32⟩ : BufTy).Contents (Elt F) → (⟨S2000000, .i1⟩ : BufTy).Contents (Elt F)),
    StableHlo.nullary main_c_52 (constantI S_ 32 512#32),
    StableHlo.unary main_c_52 main_v239 (broadcastInDim S2000000 ![] bcast_S_S2000000 : (⟨S_, .i32⟩ : BufTy).Contents (Elt F) → (⟨S2000000, .i32⟩ : BufTy).Contents (Elt F)),
    StableHlo.binary main_v229 main_v239 main_v240 (addi : (⟨S2000000, .i32⟩ : BufTy).Contents (Elt F) → (⟨S2000000, .i32⟩ : BufTy).Contents (Elt F) → (⟨S2000000, .i32⟩ : BufTy).Contents (Elt F)),
    StableHlo.ternary main_v238 main_v240 main_v229 main_v241 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_53 (constantI S_ 32 0#32),
    StableHlo.unary main_c_53 main_v242 (broadcastInDim S2000000 ![] bcast_S_S2000000 : (⟨S_, .i32⟩ : BufTy).Contents (Elt F) → (⟨S2000000, .i32⟩ : BufTy).Contents (Elt F)),
    StableHlo.binary main_v231 main_v242 main_v243 (cmpi .slt : (⟨S2000000, .i32⟩ : BufTy).Contents (Elt F) → (⟨S2000000, .i32⟩ : BufTy).Contents (Elt F) → (⟨S2000000, .i1⟩ : BufTy).Contents (Elt F)),
    StableHlo.nullary main_c_54 (constantI S_ 32 512#32),
    StableHlo.unary main_c_54 main_v244 (broadcastInDim S2000000 ![] bcast_S_S2000000 : (⟨S_, .i32⟩ : BufTy).Contents (Elt F) → (⟨S2000000, .i32⟩ : BufTy).Contents (Elt F)),
    StableHlo.binary main_v231 main_v244 main_v245 (addi : (⟨S2000000, .i32⟩ : BufTy).Contents (Elt F) → (⟨S2000000, .i32⟩ : BufTy).Contents (Elt F) → (⟨S2000000, .i32⟩ : BufTy).Contents (Elt F)),
    StableHlo.ternary main_v243 main_v245 main_v231 main_v246 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v236 main_v247 (broadcastInDim S2000000x1 ![0] bcast_S2000000_S2000000x1_0 : (⟨S2000000, .i32⟩ : BufTy).Contents (Elt F) → (⟨S2000000x1, .i32⟩ : BufTy).Contents (Elt F)),
    StableHlo.unary main_v241 main_v248 (broadcastInDim S2000000x1 ![0] bcast_S2000000_S2000000x1_0 : (⟨S2000000, .i32⟩ : BufTy).Contents (Elt F) → (⟨S2000000x1, .i32⟩ : BufTy).Contents (Elt F)),
    StableHlo.unary main_v246 main_v249 (broadcastInDim S2000000x1 ![0] bcast_S2000000_S2000000x1_0 : (⟨S2000000, .i32⟩ : BufTy).Contents (Elt F) → (⟨S2000000x1, .i32⟩ : BufTy).Contents (Elt F)),
    StableHlo.nary ![main_v247, main_v248, main_v249] main_v250 (fun u => concatenate S2000000x3 1 [⟨S2000000x1, u 0⟩, ⟨S2000000x1, u 1⟩, ⟨S2000000x1, u 2⟩] concatenates_S2000000x1_S2000000x1_S2000000x1_S2000000x3_d1),
    StableHlo.binary main_v0 main_v250 main_v251 ((fun x i => Host.gather gather_S128x512x512x1_S2000000x3_S2000000x1_1_012_n_n_012_1_1111 x i) : (⟨S128x512x512x1, .f32⟩ : BufTy).Contents (Elt F) → (⟨S2000000x3, .i32⟩ : BufTy).Contents (Elt F) → (⟨S2000000x1, .f32⟩ : BufTy).Contents (Elt F)),
    StableHlo.binary main_v251 main_v8 main_v252 (mulf : (⟨S2000000x1, .f32⟩ : BufTy).Contents (Elt F) → (⟨S2000000x1, .f32⟩ : BufTy).Contents (Elt F) → (⟨S2000000x1, .f32⟩ : BufTy).Contents (Elt F)),
    StableHlo.binary main_v252 main_v9 main_v253 (mulf : (⟨S2000000x1, .f32⟩ : BufTy).Contents (Elt F) → (⟨S2000000x1, .f32⟩ : BufTy).Contents (Elt F) → (⟨S2000000x1, .f32⟩ : BufTy).Contents (Elt F)),
    StableHlo.binary main_v253 main_v10 main_v254 (mulf : (⟨S2000000x1, .f32⟩ : BufTy).Contents (Elt F) → (⟨S2000000x1, .f32⟩ : BufTy).Contents (Elt F) → (⟨S2000000x1, .f32⟩ : BufTy).Contents (Elt F)),
    StableHlo.binary main_v225 main_v254 main_v255 (addf : (⟨S2000000x1, .f32⟩ : BufTy).Contents (Elt F) → (⟨S2000000x1, .f32⟩ : BufTy).Contents (Elt F) → (⟨S2000000x1, .f32⟩ : BufTy).Contents (Elt F)) ]

abbrev rv10 : List (HloOp τ sig (Elt F)) :=
  [ StableHlo.reshape main_v255 main_v256 rfl shapeCasts_S2000000x1_S2000000,
    StableHlo.unary main_arg0 main_v257 (Host.floor : (⟨S2000000x3, .f32⟩ : BufTy).Contents (Elt F) → (⟨S2000000x3, .f32⟩ : BufTy).Contents (Elt F)),
    StableHlo.binary main_arg0 main_v257 main_v258 (subf : (⟨S2000000x3, .f32⟩ : BufTy).Contents (Elt F) → (⟨S2000000x3, .f32⟩ : BufTy).Contents (Elt F) → (⟨S2000000x3, .f32⟩ : BufTy).Contents (Elt F)),
    StableHlo.unary main_v257 main_v259 (fptosi 32 : (⟨S2000000x3, .f32⟩ : BufTy).Contents (Elt F) → (⟨S2000000x3, .i32⟩ : BufTy).Contents (Elt F)),
    StableHlo.nullary main_c_55 (constantI S_ 32 0#32),
    StableHlo.TRef.unary (.of main_c_55 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2000000x3, .i32⟩) (broadcastInDim S2000000x3 ![] bcast_S_S2000000x3),
    StableHlo.TRef.binary (.of main_call2_v1 : StableHlo.TRef sig ⟨S2000000x3, .i32⟩) (.of main_v259 : StableHlo.TRef sig ⟨S2000000x3, .i32⟩) (.of main_call2_v2 : StableHlo.TRef sig ⟨S2000000x3, .i32⟩) maxsi,
    StableHlo.TRef.unary (.of main_c_0 : StableHlo.TRef sig ⟨S3, .i32⟩) (.of main_call2_v3 : StableHlo.TRef sig ⟨S1x3, .i32⟩) (broadcastInDim S1x3 ![1] bcast_S3_S1x3_1),
    StableHlo.TRef.unary (.of main_call2_v3 : StableHlo.TRef sig ⟨S1x3, .i32⟩) (.of main_call2_v4 : StableHlo.TRef sig ⟨S2000000x3, .i32⟩) (broadcastInDim S2000000x3 ![0, 1] bcast_S1x3_S2000000x3_0_1),
    StableHlo.TRef.binary (.of main_call2_v4 : StableHlo.TRef sig ⟨S2000000x3, .i32⟩) (.of main_call2_v2 : StableHlo.TRef sig ⟨S2000000x3, .i32⟩) (.of main_v260 : StableHlo.TRef sig ⟨S2000000x3, .i32⟩) minsi,
    StableHlo.nullary main_c_56 (constantI S_ 32 1#32),
    StableHlo.unary main_c_56 main_v261 (broadcastInDim S2000000x3 ![] bcast_S_S2000000x3 : (⟨S_, .i32⟩ : BufTy).Contents (Elt F) → (⟨S2000000x3, .i32⟩ : BufTy).Contents (Elt F)),
    StableHlo.binary main_v260 main_v261 main_v262 (addi : (⟨S2000000x3, .i32⟩ : BufTy).Contents (Elt F) → (⟨S2000000x3, .i32⟩ : BufTy).Contents (Elt F) → (⟨S2000000x3, .i32⟩ : BufTy).Contents (Elt F)),
    StableHlo.nullary main_c_57 (constantI S_ 32 0#32),
    StableHlo.TRef.unary (.of main_c_57 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S2000000x3, .i32⟩) (broadcastInDim S2000000x3 ![] bcast_S_S2000000x3),
    StableHlo.TRef.binary (.of main_call3_v1 : StableHlo.TRef sig ⟨S2000000x3, .i32⟩) (.of main_v262 : StableHlo.TRef sig ⟨S2000000x3, .i32⟩) (.of main_call3_v2 : StableHlo.TRef sig ⟨S2000000x3, .i32⟩) maxsi,
    StableHlo.TRef.unary (.of main_c_0 : StableHlo.TRef sig ⟨S3, .i32⟩) (.of main_call3_v3 : StableHlo.TRef sig ⟨S1x3, .i32⟩) (broadcastInDim S1x3 ![1] bcast_S3_S1x3_1),
    StableHlo.TRef.unary (.of main_call3_v3 : StableHlo.TRef sig ⟨S1x3, .i32⟩) (.of main_call3_v4 : StableHlo.TRef sig ⟨S2000000x3, .i32⟩) (broadcastInDim S2000000x3 ![0, 1] bcast_S1x3_S2000000x3_0_1),
    StableHlo.TRef.binary (.of main_call3_v4 : StableHlo.TRef sig ⟨S2000000x3, .i32⟩) (.of main_call3_v2 : StableHlo.TRef sig ⟨S2000000x3, .i32⟩) (.of main_v263 : StableHlo.TRef sig ⟨S2000000x3, .i32⟩) minsi ]

abbrev rv11 : List (HloOp τ sig (Elt F)) :=
  [ StableHlo.unary main_v258 main_v264 ((extractStridedSlice S2000000x1 ![0, 0] · slices_S2000000x3_S2000000x1_0_0) : (⟨S2000000x3, .f32⟩ : BufTy).Contents (Elt F) → (⟨S2000000x1, .f32⟩ : BufTy).Contents (Elt F)),
    StableHlo.unary main_v258 main_v265 ((extractStridedSlice S2000000x1 ![0, 1] · slices_S2000000x3_S2000000x1_0_1) : (⟨S2000000x3, .f32⟩ : BufTy).Contents (Elt F) → (⟨S2000000x1, .f32⟩ : BufTy).Contents (Elt F)),
    StableHlo.unary main_v258 main_v266 ((extractStridedSlice S2000000x1 ![0, 2] · slices_S2000000x3_S2000000x1_0_2) : (⟨S2000000x3, .f32⟩ : BufTy).Contents (Elt F) → (⟨S2000000x1, .f32⟩ : BufTy).Contents (Elt F)),
    StableHlo.nullary main_cst_58 (constant S_ .f32 0x3F800000#32),
    StableHlo.unary main_cst_58 main_v267 (broadcastInDim S2000000x1 ![] bcast_S_S2000000x1 : (⟨S_, .f32⟩ : BufTy).Contents (Elt F) → (⟨S2000000x1, .f32⟩ : BufTy).Contents (Elt F)),
    StableHlo.binary main_v267 main_v264 main_v268 (subf : (⟨S2000000x1, .f32⟩ : BufTy).Contents (Elt F) → (⟨S2000000x1, .f32⟩ : BufTy).Contents (Elt F) → (⟨S2000000x1, .f32⟩ : BufTy).Contents (Elt F)),
    StableHlo.nullary main_cst_59 (constant S_ .f32 0x3F800000#32),
    StableHlo.unary main_cst_59 main_v269 (broadcastInDim S2000000x1 ![] bcast_S_S2000000x1 : (⟨S_, .f32⟩ : BufTy).Contents (Elt F) → (⟨S2000000x1, .f32⟩ : BufTy).Contents (Elt F)),
    StableHlo.binary main_v269 main_v265 main_v270 (subf : (⟨S2000000x1, .f32⟩ : BufTy).Contents (Elt F) → (⟨S2000000x1, .f32⟩ : BufTy).Contents (Elt F) → (⟨S2000000x1, .f32⟩ : BufTy).Contents (Elt F)),
    StableHlo.nullary main_cst_60 (constant S_ .f32 0x3F800000#32),
    StableHlo.unary main_cst_60 main_v271 (broadcastInDim S2000000x1 ![] bcast_S_S2000000x1 : (⟨S_, .f32⟩ : BufTy).Contents (Elt F) → (⟨S2000000x1, .f32⟩ : BufTy).Contents (Elt F)),
    StableHlo.binary main_v271 main_v266 main_v272 (subf : (⟨S2000000x1, .f32⟩ : BufTy).Contents (Elt F) → (⟨S2000000x1, .f32⟩ : BufTy).Contents (Elt F) → (⟨S2000000x1, .f32⟩ : BufTy).Contents (Elt F)) ]

abbrev rv12 : List (HloOp τ sig (Elt F)) :=
  [ StableHlo.unary main_v260 main_v273 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v273 main_v274 rfl shapeCasts_S2000000x1_S2000000,
    StableHlo.unary main_v260 main_v275 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v275 main_v276 rfl shapeCasts_S2000000x1_S2000000,
    StableHlo.unary main_v260 main_v277 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v277 main_v278 rfl shapeCasts_S2000000x1_S2000000,
    StableHlo.nullary main_c_61 (constantI S_ 32 0#32),
    StableHlo.unary main_c_61 main_v279 (broadcastInDim S2000000 ![] bcast_S_S2000000 : (⟨S_, .i32⟩ : BufTy).Contents (Elt F) → (⟨S2000000, .i32⟩ : BufTy).Contents (Elt F)),
    StableHlo.binary main_v274 main_v279 main_v280 (cmpi .slt : (⟨S2000000, .i32⟩ : BufTy).Contents (Elt F) → (⟨S2000000, .i32⟩ : BufTy).Contents (Elt F) → (⟨S2000000, .i1⟩ : BufTy).Contents (Elt F)),
    StableHlo.nullary main_c_62 (constantI S_ 32 128#32),
    StableHlo.unary main_c_62 main_v281 (broadcastInDim S2000000 ![] bcast_S_S2000000 : (⟨S_, .i32⟩ : BufTy).Contents (Elt F) → (⟨S2000000, .i32⟩ : BufTy).Contents (Elt F)),
    StableHlo.binary main_v274 main_v281 main_v282 (addi : (⟨S2000000, .i32⟩ : BufTy).Contents (Elt F) → (⟨S2000000, .i32⟩ : BufTy).Contents (Elt F) → (⟨S2000000, .i32⟩ : BufTy).Contents (Elt F)),
    StableHlo.ternary main_v280 main_v282 main_v274 main_v283 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_63 (constantI S_ 32 0#32),
    StableHlo.unary main_c_63 main_v284 (broadcastInDim S2000000 ![] bcast_S_S2000000 : (⟨S_, .i32⟩ : BufTy).Contents (Elt F) → (⟨S2000000, .i32⟩ : BufTy).Contents (Elt F)),
    StableHlo.binary main_v276 main_v284 main_v285 (cmpi .slt : (⟨S2000000, .i32⟩ : BufTy).Contents (Elt F) → (⟨S2000000, .i32⟩ : BufTy).Contents (Elt F) → (⟨S2000000, .i1⟩ : BufTy).Contents (Elt F)),
    StableHlo.nullary main_c_64 (constantI S_ 32 512#32),
    StableHlo.unary main_c_64 main_v286 (broadcastInDim S2000000 ![] bcast_S_S2000000 : (⟨S_, .i32⟩ : BufTy).Contents (Elt F) → (⟨S2000000, .i32⟩ : BufTy).Contents (Elt F)),
    StableHlo.binary main_v276 main_v286 main_v287 (addi : (⟨S2000000, .i32⟩ : BufTy).Contents (Elt F) → (⟨S2000000, .i32⟩ : BufTy).Contents (Elt F) → (⟨S2000000, .i32⟩ : BufTy).Contents (Elt F)),
    StableHlo.ternary main_v285 main_v287 main_v276 main_v288 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_65 (constantI S_ 32 0#32),
    StableHlo.unary main_c_65 main_v289 (broadcastInDim S2000000 ![] bcast_S_S2000000 : (⟨S_, .i32⟩ : BufTy).Contents (Elt F) → (⟨S2000000, .i32⟩ : BufTy).Contents (Elt F)),
    StableHlo.binary main_v278 main_v289 main_v290 (cmpi .slt : (⟨S2000000, .i32⟩ : BufTy).Contents (Elt F) → (⟨S2000000, .i32⟩ : BufTy).Contents (Elt F) → (⟨S2000000, .i1⟩ : BufTy).Contents (Elt F)),
    StableHlo.nullary main_c_66 (constantI S_ 32 512#32),
    StableHlo.unary main_c_66 main_v291 (broadcastInDim S2000000 ![] bcast_S_S2000000 : (⟨S_, .i32⟩ : BufTy).Contents (Elt F) → (⟨S2000000, .i32⟩ : BufTy).Contents (Elt F)),
    StableHlo.binary main_v278 main_v291 main_v292 (addi : (⟨S2000000, .i32⟩ : BufTy).Contents (Elt F) → (⟨S2000000, .i32⟩ : BufTy).Contents (Elt F) → (⟨S2000000, .i32⟩ : BufTy).Contents (Elt F)),
    StableHlo.ternary main_v290 main_v292 main_v278 main_v293 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v283 main_v294 (broadcastInDim S2000000x1 ![0] bcast_S2000000_S2000000x1_0 : (⟨S2000000, .i32⟩ : BufTy).Contents (Elt F) → (⟨S2000000x1, .i32⟩ : BufTy).Contents (Elt F)),
    StableHlo.unary main_v288 main_v295 (broadcastInDim S2000000x1 ![0] bcast_S2000000_S2000000x1_0 : (⟨S2000000, .i32⟩ : BufTy).Contents (Elt F) → (⟨S2000000x1, .i32⟩ : BufTy).Contents (Elt F)),
    StableHlo.unary main_v293 main_v296 (broadcastInDim S2000000x1 ![0] bcast_S2000000_S2000000x1_0 : (⟨S2000000, .i32⟩ : BufTy).Contents (Elt F) → (⟨S2000000x1, .i32⟩ : BufTy).Contents (Elt F)),
    StableHlo.nary ![main_v294, main_v295, main_v296] main_v297 (fun u => concatenate S2000000x3 1 [⟨S2000000x1, u 0⟩, ⟨S2000000x1, u 1⟩, ⟨S2000000x1, u 2⟩] concatenates_S2000000x1_S2000000x1_S2000000x1_S2000000x3_d1),
    StableHlo.binary main_arg2 main_v297 main_v298 ((fun x i => Host.gather gather_S128x512x512x3_S2000000x3_S2000000x3_1_012_n_n_012_1_1113 x i) : (⟨S128x512x512x3, .f32⟩ : BufTy).Contents (Elt F) → (⟨S2000000x3, .i32⟩ : BufTy).Contents (Elt F) → (⟨S2000000x3, .f32⟩ : BufTy).Contents (Elt F)),
    StableHlo.unary main_v268 main_v299 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v298 main_v299 main_v300 (mulf : (⟨S2000000x3, .f32⟩ : BufTy).Contents (Elt F) → (⟨S2000000x3, .f32⟩ : BufTy).Contents (Elt F) → (⟨S2000000x3, .f32⟩ : BufTy).Contents (Elt F)),
    StableHlo.unary main_v270 main_v301 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v300 main_v301 main_v302 (mulf : (⟨S2000000x3, .f32⟩ : BufTy).Contents (Elt F) → (⟨S2000000x3, .f32⟩ : BufTy).Contents (Elt F) → (⟨S2000000x3, .f32⟩ : BufTy).Contents (Elt F)),
    StableHlo.unary main_v272 main_v303 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v302 main_v303 main_v304 (mulf : (⟨S2000000x3, .f32⟩ : BufTy).Contents (Elt F) → (⟨S2000000x3, .f32⟩ : BufTy).Contents (Elt F) → (⟨S2000000x3, .f32⟩ : BufTy).Contents (Elt F)) ]

abbrev rv13 : List (HloOp τ sig (Elt F)) :=
  [ StableHlo.unary main_v260 main_v305 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v305 main_v306 rfl shapeCasts_S2000000x1_S2000000,
    StableHlo.unary main_v260 main_v307 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v307 main_v308 rfl shapeCasts_S2000000x1_S2000000,
    StableHlo.unary main_v263 main_v309 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v309 main_v310 rfl shapeCasts_S2000000x1_S2000000,
    StableHlo.nullary main_c_67 (constantI S_ 32 0#32),
    StableHlo.unary main_c_67 main_v311 (broadcastInDim S2000000 ![] bcast_S_S2000000 : (⟨S_, .i32⟩ : BufTy).Contents (Elt F) → (⟨S2000000, .i32⟩ : BufTy).Contents (Elt F)),
    StableHlo.binary main_v306 main_v311 main_v312 (cmpi .slt : (⟨S2000000, .i32⟩ : BufTy).Contents (Elt F) → (⟨S2000000, .i32⟩ : BufTy).Contents (Elt F) → (⟨S2000000, .i1⟩ : BufTy).Contents (Elt F)),
    StableHlo.nullary main_c_68 (constantI S_ 32 128#32),
    StableHlo.unary main_c_68 main_v313 (broadcastInDim S2000000 ![] bcast_S_S2000000 : (⟨S_, .i32⟩ : BufTy).Contents (Elt F) → (⟨S2000000, .i32⟩ : BufTy).Contents (Elt F)),
    StableHlo.binary main_v306 main_v313 main_v314 (addi : (⟨S2000000, .i32⟩ : BufTy).Contents (Elt F) → (⟨S2000000, .i32⟩ : BufTy).Contents (Elt F) → (⟨S2000000, .i32⟩ : BufTy).Contents (Elt F)),
    StableHlo.ternary main_v312 main_v314 main_v306 main_v315 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_69 (constantI S_ 32 0#32),
    StableHlo.unary main_c_69 main_v316 (broadcastInDim S2000000 ![] bcast_S_S2000000 : (⟨S_, .i32⟩ : BufTy).Contents (Elt F) → (⟨S2000000, .i32⟩ : BufTy).Contents (Elt F)),
    StableHlo.binary main_v308 main_v316 main_v317 (cmpi .slt : (⟨S2000000, .i32⟩ : BufTy).Contents (Elt F) → (⟨S2000000, .i32⟩ : BufTy).Contents (Elt F) → (⟨S2000000, .i1⟩ : BufTy).Contents (Elt F)),
    StableHlo.nullary main_c_70 (constantI S_ 32 512#32),
    StableHlo.unary main_c_70 main_v318 (broadcastInDim S2000000 ![] bcast_S_S2000000 : (⟨S_, .i32⟩ : BufTy).Contents (Elt F) → (⟨S2000000, .i32⟩ : BufTy).Contents (Elt F)),
    StableHlo.binary main_v308 main_v318 main_v319 (addi : (⟨S2000000, .i32⟩ : BufTy).Contents (Elt F) → (⟨S2000000, .i32⟩ : BufTy).Contents (Elt F) → (⟨S2000000, .i32⟩ : BufTy).Contents (Elt F)),
    StableHlo.ternary main_v317 main_v319 main_v308 main_v320 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_71 (constantI S_ 32 0#32),
    StableHlo.unary main_c_71 main_v321 (broadcastInDim S2000000 ![] bcast_S_S2000000 : (⟨S_, .i32⟩ : BufTy).Contents (Elt F) → (⟨S2000000, .i32⟩ : BufTy).Contents (Elt F)),
    StableHlo.binary main_v310 main_v321 main_v322 (cmpi .slt : (⟨S2000000, .i32⟩ : BufTy).Contents (Elt F) → (⟨S2000000, .i32⟩ : BufTy).Contents (Elt F) → (⟨S2000000, .i1⟩ : BufTy).Contents (Elt F)),
    StableHlo.nullary main_c_72 (constantI S_ 32 512#32),
    StableHlo.unary main_c_72 main_v323 (broadcastInDim S2000000 ![] bcast_S_S2000000 : (⟨S_, .i32⟩ : BufTy).Contents (Elt F) → (⟨S2000000, .i32⟩ : BufTy).Contents (Elt F)),
    StableHlo.binary main_v310 main_v323 main_v324 (addi : (⟨S2000000, .i32⟩ : BufTy).Contents (Elt F) → (⟨S2000000, .i32⟩ : BufTy).Contents (Elt F) → (⟨S2000000, .i32⟩ : BufTy).Contents (Elt F)),
    StableHlo.ternary main_v322 main_v324 main_v310 main_v325 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v315 main_v326 (broadcastInDim S2000000x1 ![0] bcast_S2000000_S2000000x1_0 : (⟨S2000000, .i32⟩ : BufTy).Contents (Elt F) → (⟨S2000000x1, .i32⟩ : BufTy).Contents (Elt F)),
    StableHlo.unary main_v320 main_v327 (broadcastInDim S2000000x1 ![0] bcast_S2000000_S2000000x1_0 : (⟨S2000000, .i32⟩ : BufTy).Contents (Elt F) → (⟨S2000000x1, .i32⟩ : BufTy).Contents (Elt F)),
    StableHlo.unary main_v325 main_v328 (broadcastInDim S2000000x1 ![0] bcast_S2000000_S2000000x1_0 : (⟨S2000000, .i32⟩ : BufTy).Contents (Elt F) → (⟨S2000000x1, .i32⟩ : BufTy).Contents (Elt F)),
    StableHlo.nary ![main_v326, main_v327, main_v328] main_v329 (fun u => concatenate S2000000x3 1 [⟨S2000000x1, u 0⟩, ⟨S2000000x1, u 1⟩, ⟨S2000000x1, u 2⟩] concatenates_S2000000x1_S2000000x1_S2000000x1_S2000000x3_d1),
    StableHlo.binary main_arg2 main_v329 main_v330 ((fun x i => Host.gather gather_S128x512x512x3_S2000000x3_S2000000x3_1_012_n_n_012_1_1113 x i) : (⟨S128x512x512x3, .f32⟩ : BufTy).Contents (Elt F) → (⟨S2000000x3, .i32⟩ : BufTy).Contents (Elt F) → (⟨S2000000x3, .f32⟩ : BufTy).Contents (Elt F)),
    StableHlo.unary main_v268 main_v331 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v330 main_v331 main_v332 (mulf : (⟨S2000000x3, .f32⟩ : BufTy).Contents (Elt F) → (⟨S2000000x3, .f32⟩ : BufTy).Contents (Elt F) → (⟨S2000000x3, .f32⟩ : BufTy).Contents (Elt F)),
    StableHlo.unary main_v270 main_v333 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v332 main_v333 main_v334 (mulf : (⟨S2000000x3, .f32⟩ : BufTy).Contents (Elt F) → (⟨S2000000x3, .f32⟩ : BufTy).Contents (Elt F) → (⟨S2000000x3, .f32⟩ : BufTy).Contents (Elt F)),
    StableHlo.unary main_v266 main_v335 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v334 main_v335 main_v336 (mulf : (⟨S2000000x3, .f32⟩ : BufTy).Contents (Elt F) → (⟨S2000000x3, .f32⟩ : BufTy).Contents (Elt F) → (⟨S2000000x3, .f32⟩ : BufTy).Contents (Elt F)),
    StableHlo.binary main_v304 main_v336 main_v337 (addf : (⟨S2000000x3, .f32⟩ : BufTy).Contents (Elt F) → (⟨S2000000x3, .f32⟩ : BufTy).Contents (Elt F) → (⟨S2000000x3, .f32⟩ : BufTy).Contents (Elt F)) ]

abbrev rv14 : List (HloOp τ sig (Elt F)) :=
  [ StableHlo.unary main_v260 main_v338 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v338 main_v339 rfl shapeCasts_S2000000x1_S2000000,
    StableHlo.unary main_v263 main_v340 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v340 main_v341 rfl shapeCasts_S2000000x1_S2000000,
    StableHlo.unary main_v260 main_v342 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v342 main_v343 rfl shapeCasts_S2000000x1_S2000000,
    StableHlo.nullary main_c_73 (constantI S_ 32 0#32),
    StableHlo.unary main_c_73 main_v344 (broadcastInDim S2000000 ![] bcast_S_S2000000 : (⟨S_, .i32⟩ : BufTy).Contents (Elt F) → (⟨S2000000, .i32⟩ : BufTy).Contents (Elt F)),
    StableHlo.binary main_v339 main_v344 main_v345 (cmpi .slt : (⟨S2000000, .i32⟩ : BufTy).Contents (Elt F) → (⟨S2000000, .i32⟩ : BufTy).Contents (Elt F) → (⟨S2000000, .i1⟩ : BufTy).Contents (Elt F)),
    StableHlo.nullary main_c_74 (constantI S_ 32 128#32),
    StableHlo.unary main_c_74 main_v346 (broadcastInDim S2000000 ![] bcast_S_S2000000 : (⟨S_, .i32⟩ : BufTy).Contents (Elt F) → (⟨S2000000, .i32⟩ : BufTy).Contents (Elt F)),
    StableHlo.binary main_v339 main_v346 main_v347 (addi : (⟨S2000000, .i32⟩ : BufTy).Contents (Elt F) → (⟨S2000000, .i32⟩ : BufTy).Contents (Elt F) → (⟨S2000000, .i32⟩ : BufTy).Contents (Elt F)),
    StableHlo.ternary main_v345 main_v347 main_v339 main_v348 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_75 (constantI S_ 32 0#32),
    StableHlo.unary main_c_75 main_v349 (broadcastInDim S2000000 ![] bcast_S_S2000000 : (⟨S_, .i32⟩ : BufTy).Contents (Elt F) → (⟨S2000000, .i32⟩ : BufTy).Contents (Elt F)),
    StableHlo.binary main_v341 main_v349 main_v350 (cmpi .slt : (⟨S2000000, .i32⟩ : BufTy).Contents (Elt F) → (⟨S2000000, .i32⟩ : BufTy).Contents (Elt F) → (⟨S2000000, .i1⟩ : BufTy).Contents (Elt F)),
    StableHlo.nullary main_c_76 (constantI S_ 32 512#32),
    StableHlo.unary main_c_76 main_v351 (broadcastInDim S2000000 ![] bcast_S_S2000000 : (⟨S_, .i32⟩ : BufTy).Contents (Elt F) → (⟨S2000000, .i32⟩ : BufTy).Contents (Elt F)),
    StableHlo.binary main_v341 main_v351 main_v352 (addi : (⟨S2000000, .i32⟩ : BufTy).Contents (Elt F) → (⟨S2000000, .i32⟩ : BufTy).Contents (Elt F) → (⟨S2000000, .i32⟩ : BufTy).Contents (Elt F)),
    StableHlo.ternary main_v350 main_v352 main_v341 main_v353 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_77 (constantI S_ 32 0#32),
    StableHlo.unary main_c_77 main_v354 (broadcastInDim S2000000 ![] bcast_S_S2000000 : (⟨S_, .i32⟩ : BufTy).Contents (Elt F) → (⟨S2000000, .i32⟩ : BufTy).Contents (Elt F)),
    StableHlo.binary main_v343 main_v354 main_v355 (cmpi .slt : (⟨S2000000, .i32⟩ : BufTy).Contents (Elt F) → (⟨S2000000, .i32⟩ : BufTy).Contents (Elt F) → (⟨S2000000, .i1⟩ : BufTy).Contents (Elt F)),
    StableHlo.nullary main_c_78 (constantI S_ 32 512#32),
    StableHlo.unary main_c_78 main_v356 (broadcastInDim S2000000 ![] bcast_S_S2000000 : (⟨S_, .i32⟩ : BufTy).Contents (Elt F) → (⟨S2000000, .i32⟩ : BufTy).Contents (Elt F)),
    StableHlo.binary main_v343 main_v356 main_v357 (addi : (⟨S2000000, .i32⟩ : BufTy).Contents (Elt F) → (⟨S2000000, .i32⟩ : BufTy).Contents (Elt F) → (⟨S2000000, .i32⟩ : BufTy).Contents (Elt F)),
    StableHlo.ternary main_v355 main_v357 main_v343 main_v358 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v348 main_v359 (broadcastInDim S2000000x1 ![0] bcast_S2000000_S2000000x1_0 : (⟨S2000000, .i32⟩ : BufTy).Contents (Elt F) → (⟨S2000000x1, .i32⟩ : BufTy).Contents (Elt F)),
    StableHlo.unary main_v353 main_v360 (broadcastInDim S2000000x1 ![0] bcast_S2000000_S2000000x1_0 : (⟨S2000000, .i32⟩ : BufTy).Contents (Elt F) → (⟨S2000000x1, .i32⟩ : BufTy).Contents (Elt F)),
    StableHlo.unary main_v358 main_v361 (broadcastInDim S2000000x1 ![0] bcast_S2000000_S2000000x1_0 : (⟨S2000000, .i32⟩ : BufTy).Contents (Elt F) → (⟨S2000000x1, .i32⟩ : BufTy).Contents (Elt F)),
    StableHlo.nary ![main_v359, main_v360, main_v361] main_v362 (fun u => concatenate S2000000x3 1 [⟨S2000000x1, u 0⟩, ⟨S2000000x1, u 1⟩, ⟨S2000000x1, u 2⟩] concatenates_S2000000x1_S2000000x1_S2000000x1_S2000000x3_d1),
    StableHlo.binary main_arg2 main_v362 main_v363 ((fun x i => Host.gather gather_S128x512x512x3_S2000000x3_S2000000x3_1_012_n_n_012_1_1113 x i) : (⟨S128x512x512x3, .f32⟩ : BufTy).Contents (Elt F) → (⟨S2000000x3, .i32⟩ : BufTy).Contents (Elt F) → (⟨S2000000x3, .f32⟩ : BufTy).Contents (Elt F)),
    StableHlo.unary main_v268 main_v364 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v363 main_v364 main_v365 (mulf : (⟨S2000000x3, .f32⟩ : BufTy).Contents (Elt F) → (⟨S2000000x3, .f32⟩ : BufTy).Contents (Elt F) → (⟨S2000000x3, .f32⟩ : BufTy).Contents (Elt F)),
    StableHlo.unary main_v265 main_v366 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v365 main_v366 main_v367 (mulf : (⟨S2000000x3, .f32⟩ : BufTy).Contents (Elt F) → (⟨S2000000x3, .f32⟩ : BufTy).Contents (Elt F) → (⟨S2000000x3, .f32⟩ : BufTy).Contents (Elt F)),
    StableHlo.unary main_v272 main_v368 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v367 main_v368 main_v369 (mulf : (⟨S2000000x3, .f32⟩ : BufTy).Contents (Elt F) → (⟨S2000000x3, .f32⟩ : BufTy).Contents (Elt F) → (⟨S2000000x3, .f32⟩ : BufTy).Contents (Elt F)),
    StableHlo.binary main_v337 main_v369 main_v370 (addf : (⟨S2000000x3, .f32⟩ : BufTy).Contents (Elt F) → (⟨S2000000x3, .f32⟩ : BufTy).Contents (Elt F) → (⟨S2000000x3, .f32⟩ : BufTy).Contents (Elt F)) ]

abbrev rv15 : List (HloOp τ sig (Elt F)) :=
  [ StableHlo.unary main_v260 main_v371 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v371 main_v372 rfl shapeCasts_S2000000x1_S2000000,
    StableHlo.unary main_v263 main_v373 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v373 main_v374 rfl shapeCasts_S2000000x1_S2000000,
    StableHlo.unary main_v263 main_v375 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v375 main_v376 rfl shapeCasts_S2000000x1_S2000000,
    StableHlo.nullary main_c_79 (constantI S_ 32 0#32),
    StableHlo.unary main_c_79 main_v377 (broadcastInDim S2000000 ![] bcast_S_S2000000 : (⟨S_, .i32⟩ : BufTy).Contents (Elt F) → (⟨S2000000, .i32⟩ : BufTy).Contents (Elt F)),
    StableHlo.binary main_v372 main_v377 main_v378 (cmpi .slt : (⟨S2000000, .i32⟩ : BufTy).Contents (Elt F) → (⟨S2000000, .i32⟩ : BufTy).Contents (Elt F) → (⟨S2000000, .i1⟩ : BufTy).Contents (Elt F)),
    StableHlo.nullary main_c_80 (constantI S_ 32 128#32),
    StableHlo.unary main_c_80 main_v379 (broadcastInDim S2000000 ![] bcast_S_S2000000 : (⟨S_, .i32⟩ : BufTy).Contents (Elt F) → (⟨S2000000, .i32⟩ : BufTy).Contents (Elt F)),
    StableHlo.binary main_v372 main_v379 main_v380 (addi : (⟨S2000000, .i32⟩ : BufTy).Contents (Elt F) → (⟨S2000000, .i32⟩ : BufTy).Contents (Elt F) → (⟨S2000000, .i32⟩ : BufTy).Contents (Elt F)),
    StableHlo.ternary main_v378 main_v380 main_v372 main_v381 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_81 (constantI S_ 32 0#32),
    StableHlo.unary main_c_81 main_v382 (broadcastInDim S2000000 ![] bcast_S_S2000000 : (⟨S_, .i32⟩ : BufTy).Contents (Elt F) → (⟨S2000000, .i32⟩ : BufTy).Contents (Elt F)),
    StableHlo.binary main_v374 main_v382 main_v383 (cmpi .slt : (⟨S2000000, .i32⟩ : BufTy).Contents (Elt F) → (⟨S2000000, .i32⟩ : BufTy).Contents (Elt F) → (⟨S2000000, .i1⟩ : BufTy).Contents (Elt F)),
    StableHlo.nullary main_c_82 (constantI S_ 32 512#32),
    StableHlo.unary main_c_82 main_v384 (broadcastInDim S2000000 ![] bcast_S_S2000000 : (⟨S_, .i32⟩ : BufTy).Contents (Elt F) → (⟨S2000000, .i32⟩ : BufTy).Contents (Elt F)),
    StableHlo.binary main_v374 main_v384 main_v385 (addi : (⟨S2000000, .i32⟩ : BufTy).Contents (Elt F) → (⟨S2000000, .i32⟩ : BufTy).Contents (Elt F) → (⟨S2000000, .i32⟩ : BufTy).Contents (Elt F)),
    StableHlo.ternary main_v383 main_v385 main_v374 main_v386 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_83 (constantI S_ 32 0#32),
    StableHlo.unary main_c_83 main_v387 (broadcastInDim S2000000 ![] bcast_S_S2000000 : (⟨S_, .i32⟩ : BufTy).Contents (Elt F) → (⟨S2000000, .i32⟩ : BufTy).Contents (Elt F)),
    StableHlo.binary main_v376 main_v387 main_v388 (cmpi .slt : (⟨S2000000, .i32⟩ : BufTy).Contents (Elt F) → (⟨S2000000, .i32⟩ : BufTy).Contents (Elt F) → (⟨S2000000, .i1⟩ : BufTy).Contents (Elt F)),
    StableHlo.nullary main_c_84 (constantI S_ 32 512#32),
    StableHlo.unary main_c_84 main_v389 (broadcastInDim S2000000 ![] bcast_S_S2000000 : (⟨S_, .i32⟩ : BufTy).Contents (Elt F) → (⟨S2000000, .i32⟩ : BufTy).Contents (Elt F)),
    StableHlo.binary main_v376 main_v389 main_v390 (addi : (⟨S2000000, .i32⟩ : BufTy).Contents (Elt F) → (⟨S2000000, .i32⟩ : BufTy).Contents (Elt F) → (⟨S2000000, .i32⟩ : BufTy).Contents (Elt F)),
    StableHlo.ternary main_v388 main_v390 main_v376 main_v391 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v381 main_v392 (broadcastInDim S2000000x1 ![0] bcast_S2000000_S2000000x1_0 : (⟨S2000000, .i32⟩ : BufTy).Contents (Elt F) → (⟨S2000000x1, .i32⟩ : BufTy).Contents (Elt F)),
    StableHlo.unary main_v386 main_v393 (broadcastInDim S2000000x1 ![0] bcast_S2000000_S2000000x1_0 : (⟨S2000000, .i32⟩ : BufTy).Contents (Elt F) → (⟨S2000000x1, .i32⟩ : BufTy).Contents (Elt F)),
    StableHlo.unary main_v391 main_v394 (broadcastInDim S2000000x1 ![0] bcast_S2000000_S2000000x1_0 : (⟨S2000000, .i32⟩ : BufTy).Contents (Elt F) → (⟨S2000000x1, .i32⟩ : BufTy).Contents (Elt F)),
    StableHlo.nary ![main_v392, main_v393, main_v394] main_v395 (fun u => concatenate S2000000x3 1 [⟨S2000000x1, u 0⟩, ⟨S2000000x1, u 1⟩, ⟨S2000000x1, u 2⟩] concatenates_S2000000x1_S2000000x1_S2000000x1_S2000000x3_d1),
    StableHlo.binary main_arg2 main_v395 main_v396 ((fun x i => Host.gather gather_S128x512x512x3_S2000000x3_S2000000x3_1_012_n_n_012_1_1113 x i) : (⟨S128x512x512x3, .f32⟩ : BufTy).Contents (Elt F) → (⟨S2000000x3, .i32⟩ : BufTy).Contents (Elt F) → (⟨S2000000x3, .f32⟩ : BufTy).Contents (Elt F)),
    StableHlo.unary main_v268 main_v397 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v396 main_v397 main_v398 (mulf : (⟨S2000000x3, .f32⟩ : BufTy).Contents (Elt F) → (⟨S2000000x3, .f32⟩ : BufTy).Contents (Elt F) → (⟨S2000000x3, .f32⟩ : BufTy).Contents (Elt F)),
    StableHlo.unary main_v265 main_v399 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v398 main_v399 main_v400 (mulf : (⟨S2000000x3, .f32⟩ : BufTy).Contents (Elt F) → (⟨S2000000x3, .f32⟩ : BufTy).Contents (Elt F) → (⟨S2000000x3, .f32⟩ : BufTy).Contents (Elt F)),
    StableHlo.unary main_v266 main_v401 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v400 main_v401 main_v402 (mulf : (⟨S2000000x3, .f32⟩ : BufTy).Contents (Elt F) → (⟨S2000000x3, .f32⟩ : BufTy).Contents (Elt F) → (⟨S2000000x3, .f32⟩ : BufTy).Contents (Elt F)),
    StableHlo.binary main_v370 main_v402 main_v403 (addf : (⟨S2000000x3, .f32⟩ : BufTy).Contents (Elt F) → (⟨S2000000x3, .f32⟩ : BufTy).Contents (Elt F) → (⟨S2000000x3, .f32⟩ : BufTy).Contents (Elt F)) ]

abbrev rv16 : List (HloOp τ sig (Elt F)) :=
  [ StableHlo.unary main_v263 main_v404 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v404 main_v405 rfl shapeCasts_S2000000x1_S2000000,
    StableHlo.unary main_v260 main_v406 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v406 main_v407 rfl shapeCasts_S2000000x1_S2000000,
    StableHlo.unary main_v260 main_v408 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v408 main_v409 rfl shapeCasts_S2000000x1_S2000000,
    StableHlo.nullary main_c_85 (constantI S_ 32 0#32),
    StableHlo.unary main_c_85 main_v410 (broadcastInDim S2000000 ![] bcast_S_S2000000 : (⟨S_, .i32⟩ : BufTy).Contents (Elt F) → (⟨S2000000, .i32⟩ : BufTy).Contents (Elt F)),
    StableHlo.binary main_v405 main_v410 main_v411 (cmpi .slt : (⟨S2000000, .i32⟩ : BufTy).Contents (Elt F) → (⟨S2000000, .i32⟩ : BufTy).Contents (Elt F) → (⟨S2000000, .i1⟩ : BufTy).Contents (Elt F)),
    StableHlo.nullary main_c_86 (constantI S_ 32 128#32),
    StableHlo.unary main_c_86 main_v412 (broadcastInDim S2000000 ![] bcast_S_S2000000 : (⟨S_, .i32⟩ : BufTy).Contents (Elt F) → (⟨S2000000, .i32⟩ : BufTy).Contents (Elt F)),
    StableHlo.binary main_v405 main_v412 main_v413 (addi : (⟨S2000000, .i32⟩ : BufTy).Contents (Elt F) → (⟨S2000000, .i32⟩ : BufTy).Contents (Elt F) → (⟨S2000000, .i32⟩ : BufTy).Contents (Elt F)),
    StableHlo.ternary main_v411 main_v413 main_v405 main_v414 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_87 (constantI S_ 32 0#32),
    StableHlo.unary main_c_87 main_v415 (broadcastInDim S2000000 ![] bcast_S_S2000000 : (⟨S_, .i32⟩ : BufTy).Contents (Elt F) → (⟨S2000000, .i32⟩ : BufTy).Contents (Elt F)),
    StableHlo.binary main_v407 main_v415 main_v416 (cmpi .slt : (⟨S2000000, .i32⟩ : BufTy).Contents (Elt F) → (⟨S2000000, .i32⟩ : BufTy).Contents (Elt F) → (⟨S2000000, .i1⟩ : BufTy).Contents (Elt F)),
    StableHlo.nullary main_c_88 (constantI S_ 32 512#32),
    StableHlo.unary main_c_88 main_v417 (broadcastInDim S2000000 ![] bcast_S_S2000000 : (⟨S_, .i32⟩ : BufTy).Contents (Elt F) → (⟨S2000000, .i32⟩ : BufTy).Contents (Elt F)),
    StableHlo.binary main_v407 main_v417 main_v418 (addi : (⟨S2000000, .i32⟩ : BufTy).Contents (Elt F) → (⟨S2000000, .i32⟩ : BufTy).Contents (Elt F) → (⟨S2000000, .i32⟩ : BufTy).Contents (Elt F)),
    StableHlo.ternary main_v416 main_v418 main_v407 main_v419 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_89 (constantI S_ 32 0#32),
    StableHlo.unary main_c_89 main_v420 (broadcastInDim S2000000 ![] bcast_S_S2000000 : (⟨S_, .i32⟩ : BufTy).Contents (Elt F) → (⟨S2000000, .i32⟩ : BufTy).Contents (Elt F)),
    StableHlo.binary main_v409 main_v420 main_v421 (cmpi .slt : (⟨S2000000, .i32⟩ : BufTy).Contents (Elt F) → (⟨S2000000, .i32⟩ : BufTy).Contents (Elt F) → (⟨S2000000, .i1⟩ : BufTy).Contents (Elt F)),
    StableHlo.nullary main_c_90 (constantI S_ 32 512#32),
    StableHlo.unary main_c_90 main_v422 (broadcastInDim S2000000 ![] bcast_S_S2000000 : (⟨S_, .i32⟩ : BufTy).Contents (Elt F) → (⟨S2000000, .i32⟩ : BufTy).Contents (Elt F)),
    StableHlo.binary main_v409 main_v422 main_v423 (addi : (⟨S2000000, .i32⟩ : BufTy).Contents (Elt F) → (⟨S2000000, .i32⟩ : BufTy).Contents (Elt F) → (⟨S2000000, .i32⟩ : BufTy).Contents (Elt F)),
    StableHlo.ternary main_v421 main_v423 main_v409 main_v424 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v414 main_v425 (broadcastInDim S2000000x1 ![0] bcast_S2000000_S2000000x1_0 : (⟨S2000000, .i32⟩ : BufTy).Contents (Elt F) → (⟨S2000000x1, .i32⟩ : BufTy).Contents (Elt F)),
    StableHlo.unary main_v419 main_v426 (broadcastInDim S2000000x1 ![0] bcast_S2000000_S2000000x1_0 : (⟨S2000000, .i32⟩ : BufTy).Contents (Elt F) → (⟨S2000000x1, .i32⟩ : BufTy).Contents (Elt F)),
    StableHlo.unary main_v424 main_v427 (broadcastInDim S2000000x1 ![0] bcast_S2000000_S2000000x1_0 : (⟨S2000000, .i32⟩ : BufTy).Contents (Elt F) → (⟨S2000000x1, .i32⟩ : BufTy).Contents (Elt F)),
    StableHlo.nary ![main_v425, main_v426, main_v427] main_v428 (fun u => concatenate S2000000x3 1 [⟨S2000000x1, u 0⟩, ⟨S2000000x1, u 1⟩, ⟨S2000000x1, u 2⟩] concatenates_S2000000x1_S2000000x1_S2000000x1_S2000000x3_d1),
    StableHlo.binary main_arg2 main_v428 main_v429 ((fun x i => Host.gather gather_S128x512x512x3_S2000000x3_S2000000x3_1_012_n_n_012_1_1113 x i) : (⟨S128x512x512x3, .f32⟩ : BufTy).Contents (Elt F) → (⟨S2000000x3, .i32⟩ : BufTy).Contents (Elt F) → (⟨S2000000x3, .f32⟩ : BufTy).Contents (Elt F)),
    StableHlo.unary main_v264 main_v430 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v429 main_v430 main_v431 (mulf : (⟨S2000000x3, .f32⟩ : BufTy).Contents (Elt F) → (⟨S2000000x3, .f32⟩ : BufTy).Contents (Elt F) → (⟨S2000000x3, .f32⟩ : BufTy).Contents (Elt F)),
    StableHlo.unary main_v270 main_v432 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v431 main_v432 main_v433 (mulf : (⟨S2000000x3, .f32⟩ : BufTy).Contents (Elt F) → (⟨S2000000x3, .f32⟩ : BufTy).Contents (Elt F) → (⟨S2000000x3, .f32⟩ : BufTy).Contents (Elt F)),
    StableHlo.unary main_v272 main_v434 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v433 main_v434 main_v435 (mulf : (⟨S2000000x3, .f32⟩ : BufTy).Contents (Elt F) → (⟨S2000000x3, .f32⟩ : BufTy).Contents (Elt F) → (⟨S2000000x3, .f32⟩ : BufTy).Contents (Elt F)),
    StableHlo.binary main_v403 main_v435 main_v436 (addf : (⟨S2000000x3, .f32⟩ : BufTy).Contents (Elt F) → (⟨S2000000x3, .f32⟩ : BufTy).Contents (Elt F) → (⟨S2000000x3, .f32⟩ : BufTy).Contents (Elt F)) ]

abbrev rv17 : List (HloOp τ sig (Elt F)) :=
  [ StableHlo.unary main_v263 main_v437 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v437 main_v438 rfl shapeCasts_S2000000x1_S2000000,
    StableHlo.unary main_v260 main_v439 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v439 main_v440 rfl shapeCasts_S2000000x1_S2000000,
    StableHlo.unary main_v263 main_v441 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v441 main_v442 rfl shapeCasts_S2000000x1_S2000000,
    StableHlo.nullary main_c_91 (constantI S_ 32 0#32),
    StableHlo.unary main_c_91 main_v443 (broadcastInDim S2000000 ![] bcast_S_S2000000 : (⟨S_, .i32⟩ : BufTy).Contents (Elt F) → (⟨S2000000, .i32⟩ : BufTy).Contents (Elt F)),
    StableHlo.binary main_v438 main_v443 main_v444 (cmpi .slt : (⟨S2000000, .i32⟩ : BufTy).Contents (Elt F) → (⟨S2000000, .i32⟩ : BufTy).Contents (Elt F) → (⟨S2000000, .i1⟩ : BufTy).Contents (Elt F)),
    StableHlo.nullary main_c_92 (constantI S_ 32 128#32),
    StableHlo.unary main_c_92 main_v445 (broadcastInDim S2000000 ![] bcast_S_S2000000 : (⟨S_, .i32⟩ : BufTy).Contents (Elt F) → (⟨S2000000, .i32⟩ : BufTy).Contents (Elt F)),
    StableHlo.binary main_v438 main_v445 main_v446 (addi : (⟨S2000000, .i32⟩ : BufTy).Contents (Elt F) → (⟨S2000000, .i32⟩ : BufTy).Contents (Elt F) → (⟨S2000000, .i32⟩ : BufTy).Contents (Elt F)),
    StableHlo.ternary main_v444 main_v446 main_v438 main_v447 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_93 (constantI S_ 32 0#32),
    StableHlo.unary main_c_93 main_v448 (broadcastInDim S2000000 ![] bcast_S_S2000000 : (⟨S_, .i32⟩ : BufTy).Contents (Elt F) → (⟨S2000000, .i32⟩ : BufTy).Contents (Elt F)),
    StableHlo.binary main_v440 main_v448 main_v449 (cmpi .slt : (⟨S2000000, .i32⟩ : BufTy).Contents (Elt F) → (⟨S2000000, .i32⟩ : BufTy).Contents (Elt F) → (⟨S2000000, .i1⟩ : BufTy).Contents (Elt F)),
    StableHlo.nullary main_c_94 (constantI S_ 32 512#32),
    StableHlo.unary main_c_94 main_v450 (broadcastInDim S2000000 ![] bcast_S_S2000000 : (⟨S_, .i32⟩ : BufTy).Contents (Elt F) → (⟨S2000000, .i32⟩ : BufTy).Contents (Elt F)),
    StableHlo.binary main_v440 main_v450 main_v451 (addi : (⟨S2000000, .i32⟩ : BufTy).Contents (Elt F) → (⟨S2000000, .i32⟩ : BufTy).Contents (Elt F) → (⟨S2000000, .i32⟩ : BufTy).Contents (Elt F)),
    StableHlo.ternary main_v449 main_v451 main_v440 main_v452 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_95 (constantI S_ 32 0#32),
    StableHlo.unary main_c_95 main_v453 (broadcastInDim S2000000 ![] bcast_S_S2000000 : (⟨S_, .i32⟩ : BufTy).Contents (Elt F) → (⟨S2000000, .i32⟩ : BufTy).Contents (Elt F)),
    StableHlo.binary main_v442 main_v453 main_v454 (cmpi .slt : (⟨S2000000, .i32⟩ : BufTy).Contents (Elt F) → (⟨S2000000, .i32⟩ : BufTy).Contents (Elt F) → (⟨S2000000, .i1⟩ : BufTy).Contents (Elt F)),
    StableHlo.nullary main_c_96 (constantI S_ 32 512#32),
    StableHlo.unary main_c_96 main_v455 (broadcastInDim S2000000 ![] bcast_S_S2000000 : (⟨S_, .i32⟩ : BufTy).Contents (Elt F) → (⟨S2000000, .i32⟩ : BufTy).Contents (Elt F)),
    StableHlo.binary main_v442 main_v455 main_v456 (addi : (⟨S2000000, .i32⟩ : BufTy).Contents (Elt F) → (⟨S2000000, .i32⟩ : BufTy).Contents (Elt F) → (⟨S2000000, .i32⟩ : BufTy).Contents (Elt F)),
    StableHlo.ternary main_v454 main_v456 main_v442 main_v457 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v447 main_v458 (broadcastInDim S2000000x1 ![0] bcast_S2000000_S2000000x1_0 : (⟨S2000000, .i32⟩ : BufTy).Contents (Elt F) → (⟨S2000000x1, .i32⟩ : BufTy).Contents (Elt F)),
    StableHlo.unary main_v452 main_v459 (broadcastInDim S2000000x1 ![0] bcast_S2000000_S2000000x1_0 : (⟨S2000000, .i32⟩ : BufTy).Contents (Elt F) → (⟨S2000000x1, .i32⟩ : BufTy).Contents (Elt F)),
    StableHlo.unary main_v457 main_v460 (broadcastInDim S2000000x1 ![0] bcast_S2000000_S2000000x1_0 : (⟨S2000000, .i32⟩ : BufTy).Contents (Elt F) → (⟨S2000000x1, .i32⟩ : BufTy).Contents (Elt F)),
    StableHlo.nary ![main_v458, main_v459, main_v460] main_v461 (fun u => concatenate S2000000x3 1 [⟨S2000000x1, u 0⟩, ⟨S2000000x1, u 1⟩, ⟨S2000000x1, u 2⟩] concatenates_S2000000x1_S2000000x1_S2000000x1_S2000000x3_d1),
    StableHlo.binary main_arg2 main_v461 main_v462 ((fun x i => Host.gather gather_S128x512x512x3_S2000000x3_S2000000x3_1_012_n_n_012_1_1113 x i) : (⟨S128x512x512x3, .f32⟩ : BufTy).Contents (Elt F) → (⟨S2000000x3, .i32⟩ : BufTy).Contents (Elt F) → (⟨S2000000x3, .f32⟩ : BufTy).Contents (Elt F)),
    StableHlo.unary main_v264 main_v463 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v462 main_v463 main_v464 (mulf : (⟨S2000000x3, .f32⟩ : BufTy).Contents (Elt F) → (⟨S2000000x3, .f32⟩ : BufTy).Contents (Elt F) → (⟨S2000000x3, .f32⟩ : BufTy).Contents (Elt F)),
    StableHlo.unary main_v270 main_v465 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v464 main_v465 main_v466 (mulf : (⟨S2000000x3, .f32⟩ : BufTy).Contents (Elt F) → (⟨S2000000x3, .f32⟩ : BufTy).Contents (Elt F) → (⟨S2000000x3, .f32⟩ : BufTy).Contents (Elt F)),
    StableHlo.unary main_v266 main_v467 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v466 main_v467 main_v468 (mulf : (⟨S2000000x3, .f32⟩ : BufTy).Contents (Elt F) → (⟨S2000000x3, .f32⟩ : BufTy).Contents (Elt F) → (⟨S2000000x3, .f32⟩ : BufTy).Contents (Elt F)),
    StableHlo.binary main_v436 main_v468 main_v469 (addf : (⟨S2000000x3, .f32⟩ : BufTy).Contents (Elt F) → (⟨S2000000x3, .f32⟩ : BufTy).Contents (Elt F) → (⟨S2000000x3, .f32⟩ : BufTy).Contents (Elt F)) ]

abbrev rv18 : List (HloOp τ sig (Elt F)) :=
  [ StableHlo.unary main_v263 main_v470 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v470 main_v471 rfl shapeCasts_S2000000x1_S2000000,
    StableHlo.unary main_v263 main_v472 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v472 main_v473 rfl shapeCasts_S2000000x1_S2000000,
    StableHlo.unary main_v260 main_v474 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v474 main_v475 rfl shapeCasts_S2000000x1_S2000000,
    StableHlo.nullary main_c_97 (constantI S_ 32 0#32),
    StableHlo.unary main_c_97 main_v476 (broadcastInDim S2000000 ![] bcast_S_S2000000 : (⟨S_, .i32⟩ : BufTy).Contents (Elt F) → (⟨S2000000, .i32⟩ : BufTy).Contents (Elt F)),
    StableHlo.binary main_v471 main_v476 main_v477 (cmpi .slt : (⟨S2000000, .i32⟩ : BufTy).Contents (Elt F) → (⟨S2000000, .i32⟩ : BufTy).Contents (Elt F) → (⟨S2000000, .i1⟩ : BufTy).Contents (Elt F)),
    StableHlo.nullary main_c_98 (constantI S_ 32 128#32),
    StableHlo.unary main_c_98 main_v478 (broadcastInDim S2000000 ![] bcast_S_S2000000 : (⟨S_, .i32⟩ : BufTy).Contents (Elt F) → (⟨S2000000, .i32⟩ : BufTy).Contents (Elt F)),
    StableHlo.binary main_v471 main_v478 main_v479 (addi : (⟨S2000000, .i32⟩ : BufTy).Contents (Elt F) → (⟨S2000000, .i32⟩ : BufTy).Contents (Elt F) → (⟨S2000000, .i32⟩ : BufTy).Contents (Elt F)),
    StableHlo.ternary main_v477 main_v479 main_v471 main_v480 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_99 (constantI S_ 32 0#32),
    StableHlo.unary main_c_99 main_v481 (broadcastInDim S2000000 ![] bcast_S_S2000000 : (⟨S_, .i32⟩ : BufTy).Contents (Elt F) → (⟨S2000000, .i32⟩ : BufTy).Contents (Elt F)),
    StableHlo.binary main_v473 main_v481 main_v482 (cmpi .slt : (⟨S2000000, .i32⟩ : BufTy).Contents (Elt F) → (⟨S2000000, .i32⟩ : BufTy).Contents (Elt F) → (⟨S2000000, .i1⟩ : BufTy).Contents (Elt F)),
    StableHlo.nullary main_c_100 (constantI S_ 32 512#32),
    StableHlo.unary main_c_100 main_v483 (broadcastInDim S2000000 ![] bcast_S_S2000000 : (⟨S_, .i32⟩ : BufTy).Contents (Elt F) → (⟨S2000000, .i32⟩ : BufTy).Contents (Elt F)),
    StableHlo.binary main_v473 main_v483 main_v484 (addi : (⟨S2000000, .i32⟩ : BufTy).Contents (Elt F) → (⟨S2000000, .i32⟩ : BufTy).Contents (Elt F) → (⟨S2000000, .i32⟩ : BufTy).Contents (Elt F)),
    StableHlo.ternary main_v482 main_v484 main_v473 main_v485 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_101 (constantI S_ 32 0#32),
    StableHlo.unary main_c_101 main_v486 (broadcastInDim S2000000 ![] bcast_S_S2000000 : (⟨S_, .i32⟩ : BufTy).Contents (Elt F) → (⟨S2000000, .i32⟩ : BufTy).Contents (Elt F)),
    StableHlo.binary main_v475 main_v486 main_v487 (cmpi .slt : (⟨S2000000, .i32⟩ : BufTy).Contents (Elt F) → (⟨S2000000, .i32⟩ : BufTy).Contents (Elt F) → (⟨S2000000, .i1⟩ : BufTy).Contents (Elt F)),
    StableHlo.nullary main_c_102 (constantI S_ 32 512#32),
    StableHlo.unary main_c_102 main_v488 (broadcastInDim S2000000 ![] bcast_S_S2000000 : (⟨S_, .i32⟩ : BufTy).Contents (Elt F) → (⟨S2000000, .i32⟩ : BufTy).Contents (Elt F)),
    StableHlo.binary main_v475 main_v488 main_v489 (addi : (⟨S2000000, .i32⟩ : BufTy).Contents (Elt F) → (⟨S2000000, .i32⟩ : BufTy).Contents (Elt F) → (⟨S2000000, .i32⟩ : BufTy).Contents (Elt F)),
    StableHlo.ternary main_v487 main_v489 main_v475 main_v490 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v480 main_v491 (broadcastInDim S2000000x1 ![0] bcast_S2000000_S2000000x1_0 : (⟨S2000000, .i32⟩ : BufTy).Contents (Elt F) → (⟨S2000000x1, .i32⟩ : BufTy).Contents (Elt F)),
    StableHlo.unary main_v485 main_v492 (broadcastInDim S2000000x1 ![0] bcast_S2000000_S2000000x1_0 : (⟨S2000000, .i32⟩ : BufTy).Contents (Elt F) → (⟨S2000000x1, .i32⟩ : BufTy).Contents (Elt F)),
    StableHlo.unary main_v490 main_v493 (broadcastInDim S2000000x1 ![0] bcast_S2000000_S2000000x1_0 : (⟨S2000000, .i32⟩ : BufTy).Contents (Elt F) → (⟨S2000000x1, .i32⟩ : BufTy).Contents (Elt F)),
    StableHlo.nary ![main_v491, main_v492, main_v493] main_v494 (fun u => concatenate S2000000x3 1 [⟨S2000000x1, u 0⟩, ⟨S2000000x1, u 1⟩, ⟨S2000000x1, u 2⟩] concatenates_S2000000x1_S2000000x1_S2000000x1_S2000000x3_d1),
    StableHlo.binary main_arg2 main_v494 main_v495 ((fun x i => Host.gather gather_S128x512x512x3_S2000000x3_S2000000x3_1_012_n_n_012_1_1113 x i) : (⟨S128x512x512x3, .f32⟩ : BufTy).Contents (Elt F) → (⟨S2000000x3, .i32⟩ : BufTy).Contents (Elt F) → (⟨S2000000x3, .f32⟩ : BufTy).Contents (Elt F)),
    StableHlo.unary main_v264 main_v496 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v495 main_v496 main_v497 (mulf : (⟨S2000000x3, .f32⟩ : BufTy).Contents (Elt F) → (⟨S2000000x3, .f32⟩ : BufTy).Contents (Elt F) → (⟨S2000000x3, .f32⟩ : BufTy).Contents (Elt F)),
    StableHlo.unary main_v265 main_v498 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v497 main_v498 main_v499 (mulf : (⟨S2000000x3, .f32⟩ : BufTy).Contents (Elt F) → (⟨S2000000x3, .f32⟩ : BufTy).Contents (Elt F) → (⟨S2000000x3, .f32⟩ : BufTy).Contents (Elt F)),
    StableHlo.unary main_v272 main_v500 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v499 main_v500 main_v501 (mulf : (⟨S2000000x3, .f32⟩ : BufTy).Contents (Elt F) → (⟨S2000000x3, .f32⟩ : BufTy).Contents (Elt F) → (⟨S2000000x3, .f32⟩ : BufTy).Contents (Elt F)),
    StableHlo.binary main_v469 main_v501 main_v502 (addf : (⟨S2000000x3, .f32⟩ : BufTy).Contents (Elt F) → (⟨S2000000x3, .f32⟩ : BufTy).Contents (Elt F) → (⟨S2000000x3, .f32⟩ : BufTy).Contents (Elt F)) ]

abbrev rv19 : List (HloOp τ sig (Elt F)) :=
  [ StableHlo.unary main_v263 main_v503 ((extractStridedSlice S2000000x1 ![0, 0] · slices_S2000000x3_S2000000x1_0_0) : (⟨S2000000x3, .i32⟩ : BufTy).Contents (Elt F) → (⟨S2000000x1, .i32⟩ : BufTy).Contents (Elt F)),
    StableHlo.reshape main_v503 main_v504 rfl shapeCasts_S2000000x1_S2000000,
    StableHlo.unary main_v263 main_v505 ((extractStridedSlice S2000000x1 ![0, 1] · slices_S2000000x3_S2000000x1_0_1) : (⟨S2000000x3, .i32⟩ : BufTy).Contents (Elt F) → (⟨S2000000x1, .i32⟩ : BufTy).Contents (Elt F)),
    StableHlo.reshape main_v505 main_v506 rfl shapeCasts_S2000000x1_S2000000,
    StableHlo.unary main_v263 main_v507 ((extractStridedSlice S2000000x1 ![0, 2] · slices_S2000000x3_S2000000x1_0_2) : (⟨S2000000x3, .i32⟩ : BufTy).Contents (Elt F) → (⟨S2000000x1, .i32⟩ : BufTy).Contents (Elt F)),
    StableHlo.reshape main_v507 main_v508 rfl shapeCasts_S2000000x1_S2000000,
    StableHlo.nullary main_c_103 (constantI S_ 32 0#32),
    StableHlo.unary main_c_103 main_v509 (broadcastInDim S2000000 ![] bcast_S_S2000000 : (⟨S_, .i32⟩ : BufTy).Contents (Elt F) → (⟨S2000000, .i32⟩ : BufTy).Contents (Elt F)),
    StableHlo.binary main_v504 main_v509 main_v510 (cmpi .slt : (⟨S2000000, .i32⟩ : BufTy).Contents (Elt F) → (⟨S2000000, .i32⟩ : BufTy).Contents (Elt F) → (⟨S2000000, .i1⟩ : BufTy).Contents (Elt F)),
    StableHlo.nullary main_c_104 (constantI S_ 32 128#32),
    StableHlo.unary main_c_104 main_v511 (broadcastInDim S2000000 ![] bcast_S_S2000000 : (⟨S_, .i32⟩ : BufTy).Contents (Elt F) → (⟨S2000000, .i32⟩ : BufTy).Contents (Elt F)),
    StableHlo.binary main_v504 main_v511 main_v512 (addi : (⟨S2000000, .i32⟩ : BufTy).Contents (Elt F) → (⟨S2000000, .i32⟩ : BufTy).Contents (Elt F) → (⟨S2000000, .i32⟩ : BufTy).Contents (Elt F)),
    StableHlo.ternary main_v510 main_v512 main_v504 main_v513 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_105 (constantI S_ 32 0#32),
    StableHlo.unary main_c_105 main_v514 (broadcastInDim S2000000 ![] bcast_S_S2000000 : (⟨S_, .i32⟩ : BufTy).Contents (Elt F) → (⟨S2000000, .i32⟩ : BufTy).Contents (Elt F)),
    StableHlo.binary main_v506 main_v514 main_v515 (cmpi .slt : (⟨S2000000, .i32⟩ : BufTy).Contents (Elt F) → (⟨S2000000, .i32⟩ : BufTy).Contents (Elt F) → (⟨S2000000, .i1⟩ : BufTy).Contents (Elt F)),
    StableHlo.nullary main_c_106 (constantI S_ 32 512#32),
    StableHlo.unary main_c_106 main_v516 (broadcastInDim S2000000 ![] bcast_S_S2000000 : (⟨S_, .i32⟩ : BufTy).Contents (Elt F) → (⟨S2000000, .i32⟩ : BufTy).Contents (Elt F)),
    StableHlo.binary main_v506 main_v516 main_v517 (addi : (⟨S2000000, .i32⟩ : BufTy).Contents (Elt F) → (⟨S2000000, .i32⟩ : BufTy).Contents (Elt F) → (⟨S2000000, .i32⟩ : BufTy).Contents (Elt F)),
    StableHlo.ternary main_v515 main_v517 main_v506 main_v518 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.nullary main_c_107 (constantI S_ 32 0#32),
    StableHlo.unary main_c_107 main_v519 (broadcastInDim S2000000 ![] bcast_S_S2000000 : (⟨S_, .i32⟩ : BufTy).Contents (Elt F) → (⟨S2000000, .i32⟩ : BufTy).Contents (Elt F)),
    StableHlo.binary main_v508 main_v519 main_v520 (cmpi .slt : (⟨S2000000, .i32⟩ : BufTy).Contents (Elt F) → (⟨S2000000, .i32⟩ : BufTy).Contents (Elt F) → (⟨S2000000, .i1⟩ : BufTy).Contents (Elt F)),
    StableHlo.nullary main_c_108 (constantI S_ 32 512#32),
    StableHlo.unary main_c_108 main_v521 (broadcastInDim S2000000 ![] bcast_S_S2000000 : (⟨S_, .i32⟩ : BufTy).Contents (Elt F) → (⟨S2000000, .i32⟩ : BufTy).Contents (Elt F)),
    StableHlo.binary main_v508 main_v521 main_v522 (addi : (⟨S2000000, .i32⟩ : BufTy).Contents (Elt F) → (⟨S2000000, .i32⟩ : BufTy).Contents (Elt F) → (⟨S2000000, .i32⟩ : BufTy).Contents (Elt F)),
    StableHlo.ternary main_v520 main_v522 main_v508 main_v523 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v513 main_v524 (broadcastInDim S2000000x1 ![0] bcast_S2000000_S2000000x1_0 : (⟨S2000000, .i32⟩ : BufTy).Contents (Elt F) → (⟨S2000000x1, .i32⟩ : BufTy).Contents (Elt F)),
    StableHlo.unary main_v518 main_v525 (broadcastInDim S2000000x1 ![0] bcast_S2000000_S2000000x1_0 : (⟨S2000000, .i32⟩ : BufTy).Contents (Elt F) → (⟨S2000000x1, .i32⟩ : BufTy).Contents (Elt F)),
    StableHlo.unary main_v523 main_v526 (broadcastInDim S2000000x1 ![0] bcast_S2000000_S2000000x1_0 : (⟨S2000000, .i32⟩ : BufTy).Contents (Elt F) → (⟨S2000000x1, .i32⟩ : BufTy).Contents (Elt F)),
    StableHlo.nary ![main_v524, main_v525, main_v526] main_v527 (fun u => concatenate S2000000x3 1 [⟨S2000000x1, u 0⟩, ⟨S2000000x1, u 1⟩, ⟨S2000000x1, u 2⟩] concatenates_S2000000x1_S2000000x1_S2000000x1_S2000000x3_d1),
    StableHlo.binary main_arg2 main_v527 main_v528 ((fun x i => Host.gather gather_S128x512x512x3_S2000000x3_S2000000x3_1_012_n_n_012_1_1113 x i) : (⟨S128x512x512x3, .f32⟩ : BufTy).Contents (Elt F) → (⟨S2000000x3, .i32⟩ : BufTy).Contents (Elt F) → (⟨S2000000x3, .f32⟩ : BufTy).Contents (Elt F)),
    StableHlo.unary main_v264 main_v529 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v528 main_v529 main_v530 (mulf : (⟨S2000000x3, .f32⟩ : BufTy).Contents (Elt F) → (⟨S2000000x3, .f32⟩ : BufTy).Contents (Elt F) → (⟨S2000000x3, .f32⟩ : BufTy).Contents (Elt F)),
    StableHlo.unary main_v265 main_v531 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v530 main_v531 main_v532 (mulf : (⟨S2000000x3, .f32⟩ : BufTy).Contents (Elt F) → (⟨S2000000x3, .f32⟩ : BufTy).Contents (Elt F) → (⟨S2000000x3, .f32⟩ : BufTy).Contents (Elt F)),
    StableHlo.unary main_v266 main_v533 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v532 main_v533 main_v534 (mulf : (⟨S2000000x3, .f32⟩ : BufTy).Contents (Elt F) → (⟨S2000000x3, .f32⟩ : BufTy).Contents (Elt F) → (⟨S2000000x3, .f32⟩ : BufTy).Contents (Elt F)),
    StableHlo.binary main_v502 main_v534 main_v535 (addf : (⟨S2000000x3, .f32⟩ : BufTy).Contents (Elt F) → (⟨S2000000x3, .f32⟩ : BufTy).Contents (Elt F) → (⟨S2000000x3, .f32⟩ : BufTy).Contents (Elt F)) ]

abbrev rv20 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S2000000, .f32⟩) (broadcastInDim S2000000 ![] bcast_S_S2000000),
    StableHlo.TRef.binary (.of main_v256 : StableHlo.TRef sig ⟨S2000000, .f32⟩) (.of main_call4_v0 : StableHlo.TRef sig ⟨S2000000, .f32⟩) (.of main_call4_v1 : StableHlo.TRef sig ⟨S2000000, .i1⟩) (cmpf .ogt),
    StableHlo.TRef.nullary (.of main_call4_cst_0 : StableHlo.TRef sig ⟨S_, .f32⟩) (constant S_ .f32 0x00000000#32),
    StableHlo.TRef.unary (.of main_call4_cst_0 : StableHlo.TRef sig ⟨S_, .f32⟩) (.of main_call4_v2 : StableHlo.TRef sig ⟨S2000000, .f32⟩) (broadcastInDim S2000000 ![] bcast_S_S2000000),
    StableHlo.TRef.binary (.of main_v256 : StableHlo.TRef sig ⟨S2000000, .f32⟩) (.of main_call4_v2 : StableHlo.TRef sig ⟨S2000000, .f32⟩) (.of main_call4_v3 : StableHlo.TRef sig ⟨S2000000, .i1⟩) (cmpf .ogt),
    StableHlo.TRef.nullary (.of main_call4_cst_1 : StableHlo.TRef sig ⟨S_, .f32⟩) (constant S_ .f32 0x00000000#32),
    StableHlo.TRef.unary (.of main_call4_cst_1 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S2000000, .f32⟩) (broadcastInDim S2000000 ![] bcast_S_S2000000),
    StableHlo.TRef.ternary (.of main_call4_v3 : StableHlo.TRef sig ⟨S2000000, .i1⟩) (.of main_call4_call0_v1 : StableHlo.TRef sig ⟨S2000000, .f32⟩) (.of main_v256 : StableHlo.TRef sig ⟨S2000000, .f32⟩) (.of main_call4_v4 : StableHlo.TRef sig ⟨S2000000, .f32⟩) select,
    StableHlo.TRef.unary (.of main_call4_v4 : StableHlo.TRef sig ⟨S2000000, .f32⟩) (.of main_call4_v5 : StableHlo.TRef sig ⟨S2000000, .f32⟩) Host.expm1,
    StableHlo.TRef.nullary (.of main_call4_cst_2 : StableHlo.TRef sig ⟨S_, .f32⟩) (constant S_ .f32 0x3F800000#32),
    StableHlo.TRef.unary (.of main_call4_cst_2 : StableHlo.TRef sig ⟨S_, .f32⟩) (.of main_call4_v6 : StableHlo.TRef sig ⟨S2000000, .f32⟩) (broadcastInDim S2000000 ![] bcast_S_S2000000),
    StableHlo.TRef.binary (.of main_call4_v6 : StableHlo.TRef sig ⟨S2000000, .f32⟩) (.of main_call4_v5 : StableHlo.TRef sig ⟨S2000000, .f32⟩) (.of main_call4_v7 : StableHlo.TRef sig ⟨S2000000, .f32⟩) mulf,
    StableHlo.TRef.ternary (.of main_call4_v1 : StableHlo.TRef sig ⟨S2000000, .i1⟩) (.of main_v256 : StableHlo.TRef sig ⟨S2000000, .f32⟩) (.of main_call4_v7 : StableHlo.TRef sig ⟨S2000000, .f32⟩) (.of main_v536 : StableHlo.TRef sig ⟨S2000000, .f32⟩) select ]

abbrev rv21 : List (HloOp τ sig (Elt F)) :=
  [ StableHlo.unary main_v535 main_v537 (Host.tanh : (⟨S2000000x3, .f32⟩ : BufTy).Contents (Elt F) → (⟨S2000000x3, .f32⟩ : BufTy).Contents (Elt F)),
    StableHlo.unary main_cst main_v538 (broadcastInDim S1x3 ![1] bcast_S3_S1x3_1 : (⟨S3, .f32⟩ : BufTy).Contents (Elt F) → (⟨S1x3, .f32⟩ : BufTy).Contents (Elt F)),
    StableHlo.unary main_v538 main_v539 (broadcastInDim S2000000x3 ![0, 1] bcast_S1x3_S2000000x3_0_1 : (⟨S1x3, .f32⟩ : BufTy).Contents (Elt F) → (⟨S2000000x3, .f32⟩ : BufTy).Contents (Elt F)),
    StableHlo.binary main_v537 main_v539 main_v540 (addf : (⟨S2000000x3, .f32⟩ : BufTy).Contents (Elt F) → (⟨S2000000x3, .f32⟩ : BufTy).Contents (Elt F) → (⟨S2000000x3, .f32⟩ : BufTy).Contents (Elt F)),
    StableHlo.TRef.binary (.of main_v540 : StableHlo.TRef sig ⟨S2000000x3, .f32⟩) (.of main_v540 : StableHlo.TRef sig ⟨S2000000x3, .f32⟩) (.of main_call5_v0 : StableHlo.TRef sig ⟨S2000000x3, .f32⟩) mulf,
    StableHlo.TRef.nullary (.of main_call5_cst : StableHlo.TRef sig ⟨S_, .f32⟩) (constant S_ .f32 0x00000000#32),
    StableHlo.TRef.binary (.of main_call5_v0 : StableHlo.TRef sig ⟨S2000000x3, .f32⟩) (.of main_call5_cst : StableHlo.TRef sig ⟨S_, .f32⟩) (.of main_call5_v1 : StableHlo.TRef sig ⟨S2000000, .f32⟩) (fun x v => Host.reduceAdd x v reducesTo_S2000000x3_S2000000_d1 h_S_),
    StableHlo.TRef.unary (.of main_call5_v1 : StableHlo.TRef sig ⟨S2000000, .f32⟩) (.of main_call5_v2 : StableHlo.TRef sig ⟨S2000000x1, .f32⟩) (broadcastInDim S2000000x1 ![0] bcast_S2000000_S2000000x1_0),
    StableHlo.TRef.unary (.of main_call5_v2 : StableHlo.TRef sig ⟨S2000000x1, .f32⟩) (.of main_v541 : StableHlo.TRef sig ⟨S2000000x1, .f32⟩) Host.sqrt,
    StableHlo.nullary main_cst_109 (constant S_ .f32 0x2B8CBCCC#32),
    StableHlo.unary main_cst_109 main_v542 (broadcastInDim S2000000x1 ![] bcast_S_S2000000x1 : (⟨S_, .f32⟩ : BufTy).Contents (Elt F) → (⟨S2000000x1, .f32⟩ : BufTy).Contents (Elt F)),
    StableHlo.binary main_v541 main_v542 main_v543 (maximumf : (⟨S2000000x1, .f32⟩ : BufTy).Contents (Elt F) → (⟨S2000000x1, .f32⟩ : BufTy).Contents (Elt F) → (⟨S2000000x1, .f32⟩ : BufTy).Contents (Elt F)),
    StableHlo.unary main_v543 main_v544 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v540 main_v544 main_v545 (Host.divf : (⟨S2000000x3, .f32⟩ : BufTy).Contents (Elt F) → (⟨S2000000x3, .f32⟩ : BufTy).Contents (Elt F) → (⟨S2000000x3, .f32⟩ : BufTy).Contents (Elt F)) ]

abbrev opsV : List (HloOp τ sig (Elt F)) := rv0 ++ (rv1 ++ (rv2 ++ (rv3 ++ (rv4 ++ (rv5 ++ (rv6 ++ (rv7 ++ (rv8 ++ (rv9 ++ (rv10 ++ (rv11 ++ (rv12 ++ (rv13 ++ (rv14 ++ (rv15 ++ (rv16 ++ (rv17 ++ (rv18 ++ (rv19 ++ (rv20 ++ (rv21)))))))))))))))))))))

/-- The references a window writes; any other reference keeps its contents through the window. -/
abbrev rv0_W : List (Ref sig .tc) := [main_cst, main_c, main_c_0, main_v0, main_v1, main_v2, main_v3, main_c_1, main_call0_v0, main_call0_v1, main_call0_v2, main_call0_v3, main_call0_v4, main_v4, main_c_2, main_v5, main_v6, main_c_3, main_call1_v0, main_call1_v1, main_call1_v2, main_call1_v3, main_call1_v4, main_v7]
theorem rv0_writes : (rv0 : List (HloOp τ sig (Elt F))).Forall fun op => op.writes ⊆ (rv0_W.map (Proc.devRef (τ := τ) .tc)).toFinset := by
  simp only [List.Forall]
  repeat' apply And.intro
  all_goals exact Cert.Line.writes_sub_of_mem rfl (by decide)

abbrev rv1_W : List (Ref sig .tc) := [main_v8, main_v9, main_v10, main_cst_4, main_v11, main_v12, main_cst_5, main_v13, main_v14, main_cst_6, main_v15, main_v16]
theorem rv1_writes : (rv1 : List (HloOp τ sig (Elt F))).Forall fun op => op.writes ⊆ (rv1_W.map (Proc.devRef (τ := τ) .tc)).toFinset := by
  simp only [List.Forall]
  repeat' apply And.intro
  all_goals exact Cert.Line.writes_sub_of_mem rfl (by decide)

abbrev rv2_W : List (Ref sig .tc) := [main_v17, main_v18, main_v19, main_v20, main_v21, main_v22, main_c_7, main_v23, main_v24, main_c_8, main_v25, main_v26, main_v27, main_c_9, main_v28, main_v29, main_c_10, main_v30, main_v31, main_v32, main_c_11, main_v33, main_v34, main_c_12, main_v35, main_v36, main_v37, main_v38, main_v39, main_v40, main_v41, main_v42, main_v43, main_v44, main_v45]
theorem rv2_writes : (rv2 : List (HloOp τ sig (Elt F))).Forall fun op => op.writes ⊆ (rv2_W.map (Proc.devRef (τ := τ) .tc)).toFinset := by
  simp only [List.Forall]
  repeat' apply And.intro
  all_goals exact Cert.Line.writes_sub_of_mem rfl (by decide)

abbrev rv3_W : List (Ref sig .tc) := [main_v46, main_v47, main_v48, main_v49, main_v50, main_v51, main_c_13, main_v52, main_v53, main_c_14, main_v54, main_v55, main_v56, main_c_15, main_v57, main_v58, main_c_16, main_v59, main_v60, main_v61, main_c_17, main_v62, main_v63, main_c_18, main_v64, main_v65, main_v66, main_v67, main_v68, main_v69, main_v70, main_v71, main_v72, main_v73, main_v74, main_v75]
theorem rv3_writes : (rv3 : List (HloOp τ sig (Elt F))).Forall fun op => op.writes ⊆ (rv3_W.map (Proc.devRef (τ := τ) .tc)).toFinset := by
  simp only [List.Forall]
  repeat' apply And.intro
  all_goals exact Cert.Line.writes_sub_of_mem rfl (by decide)

abbrev rv4_W : List (Ref sig .tc) := [main_v76, main_v77, main_v78, main_v79, main_v80, main_v81, main_c_19, main_v82, main_v83, main_c_20, main_v84, main_v85, main_v86, main_c_21, main_v87, main_v88, main_c_22, main_v89, main_v90, main_v91, main_c_23, main_v92, main_v93, main_c_24, main_v94, main_v95, main_v96, main_v97, main_v98, main_v99, main_v100, main_v101, main_v102, main_v103, main_v104, main_v105]
theorem rv4_writes : (rv4 : List (HloOp τ sig (Elt F))).Forall fun op => op.writes ⊆ (rv4_W.map (Proc.devRef (τ := τ) .tc)).toFinset := by
  simp only [List.Forall]
  repeat' apply And.intro
  all_goals exact Cert.Line.writes_sub_of_mem rfl (by decide)

abbrev rv5_W : List (Ref sig .tc) := [main_v106, main_v107, main_v108, main_v109, main_v110, main_v111, main_c_25, main_v112, main_v113, main_c_26, main_v114, main_v115, main_v116, main_c_27, main_v117, main_v118, main_c_28, main_v119, main_v120, main_v121, main_c_29, main_v122, main_v123, main_c_30, main_v124, main_v125, main_v126, main_v127, main_v128, main_v129, main_v130, main_v131, main_v132, main_v133, main_v134, main_v135]
theorem rv5_writes : (rv5 : List (HloOp τ sig (Elt F))).Forall fun op => op.writes ⊆ (rv5_W.map (Proc.devRef (τ := τ) .tc)).toFinset := by
  simp only [List.Forall]
  repeat' apply And.intro
  all_goals exact Cert.Line.writes_sub_of_mem rfl (by decide)

abbrev rv6_W : List (Ref sig .tc) := [main_v136, main_v137, main_v138, main_v139, main_v140, main_v141, main_c_31, main_v142, main_v143, main_c_32, main_v144, main_v145, main_v146, main_c_33, main_v147, main_v148, main_c_34, main_v149, main_v150, main_v151, main_c_35, main_v152, main_v153, main_c_36, main_v154, main_v155, main_v156, main_v157, main_v158, main_v159, main_v160, main_v161, main_v162, main_v163, main_v164, main_v165]
theorem rv6_writes : (rv6 : List (HloOp τ sig (Elt F))).Forall fun op => op.writes ⊆ (rv6_W.map (Proc.devRef (τ := τ) .tc)).toFinset := by
  simp only [List.Forall]
  repeat' apply And.intro
  all_goals exact Cert.Line.writes_sub_of_mem rfl (by decide)

abbrev rv7_W : List (Ref sig .tc) := [main_v166, main_v167, main_v168, main_v169, main_v170, main_v171, main_c_37, main_v172, main_v173, main_c_38, main_v174, main_v175, main_v176, main_c_39, main_v177, main_v178, main_c_40, main_v179, main_v180, main_v181, main_c_41, main_v182, main_v183, main_c_42, main_v184, main_v185, main_v186, main_v187, main_v188, main_v189, main_v190, main_v191, main_v192, main_v193, main_v194, main_v195]
theorem rv7_writes : (rv7 : List (HloOp τ sig (Elt F))).Forall fun op => op.writes ⊆ (rv7_W.map (Proc.devRef (τ := τ) .tc)).toFinset := by
  simp only [List.Forall]
  repeat' apply And.intro
  all_goals exact Cert.Line.writes_sub_of_mem rfl (by decide)

abbrev rv8_W : List (Ref sig .tc) := [main_v196, main_v197, main_v198, main_v199, main_v200, main_v201, main_c_43, main_v202, main_v203, main_c_44, main_v204, main_v205, main_v206, main_c_45, main_v207, main_v208, main_c_46, main_v209, main_v210, main_v211, main_c_47, main_v212, main_v213, main_c_48, main_v214, main_v215, main_v216, main_v217, main_v218, main_v219, main_v220, main_v221, main_v222, main_v223, main_v224, main_v225]
theorem rv8_writes : (rv8 : List (HloOp τ sig (Elt F))).Forall fun op => op.writes ⊆ (rv8_W.map (Proc.devRef (τ := τ) .tc)).toFinset := by
  simp only [List.Forall]
  repeat' apply And.intro
  all_goals exact Cert.Line.writes_sub_of_mem rfl (by decide)

abbrev rv9_W : List (Ref sig .tc) := [main_v226, main_v227, main_v228, main_v229, main_v230, main_v231, main_c_49, main_v232, main_v233, main_c_50, main_v234, main_v235, main_v236, main_c_51, main_v237, main_v238, main_c_52, main_v239, main_v240, main_v241, main_c_53, main_v242, main_v243, main_c_54, main_v244, main_v245, main_v246, main_v247, main_v248, main_v249, main_v250, main_v251, main_v252, main_v253, main_v254, main_v255]
theorem rv9_writes : (rv9 : List (HloOp τ sig (Elt F))).Forall fun op => op.writes ⊆ (rv9_W.map (Proc.devRef (τ := τ) .tc)).toFinset := by
  simp only [List.Forall]
  repeat' apply And.intro
  all_goals exact Cert.Line.writes_sub_of_mem rfl (by decide)

abbrev rv10_W : List (Ref sig .tc) := [main_v256, main_v257, main_v258, main_v259, main_c_55, main_call2_v0, main_call2_v1, main_call2_v2, main_call2_v3, main_call2_v4, main_v260, main_c_56, main_v261, main_v262, main_c_57, main_call3_v0, main_call3_v1, main_call3_v2, main_call3_v3, main_call3_v4, main_v263]
theorem rv10_writes : (rv10 : List (HloOp τ sig (Elt F))).Forall fun op => op.writes ⊆ (rv10_W.map (Proc.devRef (τ := τ) .tc)).toFinset := by
  simp only [List.Forall]
  repeat' apply And.intro
  all_goals exact Cert.Line.writes_sub_of_mem rfl (by decide)

abbrev rv11_W : List (Ref sig .tc) := [main_v264, main_v265, main_v266, main_cst_58, main_v267, main_v268, main_cst_59, main_v269, main_v270, main_cst_60, main_v271, main_v272]
theorem rv11_writes : (rv11 : List (HloOp τ sig (Elt F))).Forall fun op => op.writes ⊆ (rv11_W.map (Proc.devRef (τ := τ) .tc)).toFinset := by
  simp only [List.Forall]
  repeat' apply And.intro
  all_goals exact Cert.Line.writes_sub_of_mem rfl (by decide)

abbrev rv12_W : List (Ref sig .tc) := [main_v273, main_v274, main_v275, main_v276, main_v277, main_v278, main_c_61, main_v279, main_v280, main_c_62, main_v281, main_v282, main_v283, main_c_63, main_v284, main_v285, main_c_64, main_v286, main_v287, main_v288, main_c_65, main_v289, main_v290, main_c_66, main_v291, main_v292, main_v293, main_v294, main_v295, main_v296, main_v297, main_v298, main_v299, main_v300, main_v301, main_v302, main_v303, main_v304]
theorem rv12_writes : (rv12 : List (HloOp τ sig (Elt F))).Forall fun op => op.writes ⊆ (rv12_W.map (Proc.devRef (τ := τ) .tc)).toFinset := by
  simp only [List.Forall]
  repeat' apply And.intro
  all_goals exact Cert.Line.writes_sub_of_mem rfl (by decide)

abbrev rv13_W : List (Ref sig .tc) := [main_v305, main_v306, main_v307, main_v308, main_v309, main_v310, main_c_67, main_v311, main_v312, main_c_68, main_v313, main_v314, main_v315, main_c_69, main_v316, main_v317, main_c_70, main_v318, main_v319, main_v320, main_c_71, main_v321, main_v322, main_c_72, main_v323, main_v324, main_v325, main_v326, main_v327, main_v328, main_v329, main_v330, main_v331, main_v332, main_v333, main_v334, main_v335, main_v336, main_v337]
theorem rv13_writes : (rv13 : List (HloOp τ sig (Elt F))).Forall fun op => op.writes ⊆ (rv13_W.map (Proc.devRef (τ := τ) .tc)).toFinset := by
  simp only [List.Forall]
  repeat' apply And.intro
  all_goals exact Cert.Line.writes_sub_of_mem rfl (by decide)

abbrev rv14_W : List (Ref sig .tc) := [main_v338, main_v339, main_v340, main_v341, main_v342, main_v343, main_c_73, main_v344, main_v345, main_c_74, main_v346, main_v347, main_v348, main_c_75, main_v349, main_v350, main_c_76, main_v351, main_v352, main_v353, main_c_77, main_v354, main_v355, main_c_78, main_v356, main_v357, main_v358, main_v359, main_v360, main_v361, main_v362, main_v363, main_v364, main_v365, main_v366, main_v367, main_v368, main_v369, main_v370]
theorem rv14_writes : (rv14 : List (HloOp τ sig (Elt F))).Forall fun op => op.writes ⊆ (rv14_W.map (Proc.devRef (τ := τ) .tc)).toFinset := by
  simp only [List.Forall]
  repeat' apply And.intro
  all_goals exact Cert.Line.writes_sub_of_mem rfl (by decide)

abbrev rv15_W : List (Ref sig .tc) := [main_v371, main_v372, main_v373, main_v374, main_v375, main_v376, main_c_79, main_v377, main_v378, main_c_80, main_v379, main_v380, main_v381, main_c_81, main_v382, main_v383, main_c_82, main_v384, main_v385, main_v386, main_c_83, main_v387, main_v388, main_c_84, main_v389, main_v390, main_v391, main_v392, main_v393, main_v394, main_v395, main_v396, main_v397, main_v398, main_v399, main_v400, main_v401, main_v402, main_v403]
theorem rv15_writes : (rv15 : List (HloOp τ sig (Elt F))).Forall fun op => op.writes ⊆ (rv15_W.map (Proc.devRef (τ := τ) .tc)).toFinset := by
  simp only [List.Forall]
  repeat' apply And.intro
  all_goals exact Cert.Line.writes_sub_of_mem rfl (by decide)

abbrev rv16_W : List (Ref sig .tc) := [main_v404, main_v405, main_v406, main_v407, main_v408, main_v409, main_c_85, main_v410, main_v411, main_c_86, main_v412, main_v413, main_v414, main_c_87, main_v415, main_v416, main_c_88, main_v417, main_v418, main_v419, main_c_89, main_v420, main_v421, main_c_90, main_v422, main_v423, main_v424, main_v425, main_v426, main_v427, main_v428, main_v429, main_v430, main_v431, main_v432, main_v433, main_v434, main_v435, main_v436]
theorem rv16_writes : (rv16 : List (HloOp τ sig (Elt F))).Forall fun op => op.writes ⊆ (rv16_W.map (Proc.devRef (τ := τ) .tc)).toFinset := by
  simp only [List.Forall]
  repeat' apply And.intro
  all_goals exact Cert.Line.writes_sub_of_mem rfl (by decide)

abbrev rv17_W : List (Ref sig .tc) := [main_v437, main_v438, main_v439, main_v440, main_v441, main_v442, main_c_91, main_v443, main_v444, main_c_92, main_v445, main_v446, main_v447, main_c_93, main_v448, main_v449, main_c_94, main_v450, main_v451, main_v452, main_c_95, main_v453, main_v454, main_c_96, main_v455, main_v456, main_v457, main_v458, main_v459, main_v460, main_v461, main_v462, main_v463, main_v464, main_v465, main_v466, main_v467, main_v468, main_v469]
theorem rv17_writes : (rv17 : List (HloOp τ sig (Elt F))).Forall fun op => op.writes ⊆ (rv17_W.map (Proc.devRef (τ := τ) .tc)).toFinset := by
  simp only [List.Forall]
  repeat' apply And.intro
  all_goals exact Cert.Line.writes_sub_of_mem rfl (by decide)

abbrev rv18_W : List (Ref sig .tc) := [main_v470, main_v471, main_v472, main_v473, main_v474, main_v475, main_c_97, main_v476, main_v477, main_c_98, main_v478, main_v479, main_v480, main_c_99, main_v481, main_v482, main_c_100, main_v483, main_v484, main_v485, main_c_101, main_v486, main_v487, main_c_102, main_v488, main_v489, main_v490, main_v491, main_v492, main_v493, main_v494, main_v495, main_v496, main_v497, main_v498, main_v499, main_v500, main_v501, main_v502]
theorem rv18_writes : (rv18 : List (HloOp τ sig (Elt F))).Forall fun op => op.writes ⊆ (rv18_W.map (Proc.devRef (τ := τ) .tc)).toFinset := by
  simp only [List.Forall]
  repeat' apply And.intro
  all_goals exact Cert.Line.writes_sub_of_mem rfl (by decide)

abbrev rv19_W : List (Ref sig .tc) := [main_v503, main_v504, main_v505, main_v506, main_v507, main_v508, main_c_103, main_v509, main_v510, main_c_104, main_v511, main_v512, main_v513, main_c_105, main_v514, main_v515, main_c_106, main_v516, main_v517, main_v518, main_c_107, main_v519, main_v520, main_c_108, main_v521, main_v522, main_v523, main_v524, main_v525, main_v526, main_v527, main_v528, main_v529, main_v530, main_v531, main_v532, main_v533, main_v534, main_v535]
theorem rv19_writes : (rv19 : List (HloOp τ sig (Elt F))).Forall fun op => op.writes ⊆ (rv19_W.map (Proc.devRef (τ := τ) .tc)).toFinset := by
  simp only [List.Forall]
  repeat' apply And.intro
  all_goals exact Cert.Line.writes_sub_of_mem rfl (by decide)

abbrev rv20_W : List (Ref sig .tc) := [main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v536]
theorem rv20_writes : (rv20 : List (HloOp τ sig (Elt F))).Forall fun op => op.writes ⊆ (rv20_W.map (Proc.devRef (τ := τ) .tc)).toFinset := by
  simp only [List.Forall]
  repeat' apply And.intro
  all_goals exact Cert.Line.writes_sub_of_mem rfl (by decide)

abbrev rv21_W : List (Ref sig .tc) := [main_v537, main_v538, main_v539, main_v540, main_call5_v0, main_call5_cst, main_call5_v1, main_call5_v2, main_v541, main_cst_109, main_v542, main_v543, main_v544, main_v545]
theorem rv21_writes : (rv21 : List (HloOp τ sig (Elt F))).Forall fun op => op.writes ⊆ (rv21_W.map (Proc.devRef (τ := τ) .tc)).toFinset := by
  simp only [List.Forall]
  repeat' apply And.intro
  all_goals exact Cert.Line.writes_sub_of_mem rfl (by decide)

/-- Column `off` of an index table as a start-index column: a negative word is wrapped by the axis length `n`. -/
def startCol (src : IVec S2000000x3 32) (off : Fin 2 → Nat) (hs : S2000000x3.Slices off S2000000x1) (n : BitVec 32) :
    IVec S2000000x1 32 :=
  broadcastInDim S2000000x1 ![0] bcast_S2000000_S2000000x1_0
    (select (cmpi .slt (shapeCast S2000000 (extractStridedSlice S2000000x1 off src hs) shapeCasts_S2000000x1_S2000000)
        (broadcastInDim S2000000 ![] bcast_S_S2000000 (constantI S_ 32 0#32)))
      (addi (shapeCast S2000000 (extractStridedSlice S2000000x1 off src hs) shapeCasts_S2000000x1_S2000000)
        (broadcastInDim S2000000 ![] bcast_S_S2000000 (constantI S_ 32 n)))
      (shapeCast S2000000 (extractStridedSlice S2000000x1 off src hs) shapeCasts_S2000000x1_S2000000))

/-- The start indices of a gather: the three wrapped columns side by side. -/
def startIdx (sz sx sy : IVec S2000000x3 32) : IVec S2000000x3 32 :=
  concatenate S2000000x3 1 [⟨S2000000x1, startCol sz ![0, 0] slices_S2000000x3_S2000000x1_0_0 128#32⟩,
    ⟨S2000000x1, startCol sx ![0, 1] slices_S2000000x3_S2000000x1_0_1 512#32⟩,
    ⟨S2000000x1, startCol sy ![0, 2] slices_S2000000x3_S2000000x1_0_2 512#32⟩]
    concatenates_S2000000x1_S2000000x1_S2000000x1_S2000000x3_d1

/-- One corner of the first interpolation: the voxel gathered at three index columns, times three weights. -/
def cornerA (G : FVec F S128x512x512x1 .f32) (sz sx sy : IVec S2000000x3 32) (wz wx wy : FVec F S2000000x1 .f32) :
    FVec F S2000000x1 .f32 :=
  mulf (mulf (mulf
    (Host.gather gather_S128x512x512x1_S2000000x3_S2000000x1_1_012_n_n_012_1_1111 G
      (startIdx sz sx sy)) wz) wx) wy

/-- One corner of the second interpolation: the same over three channels, the weights spread over the channel axis. -/
def cornerN (nm : FVec F S128x512x512x3 .f32) (sz sx sy : IVec S2000000x3 32) (wz wx wy : FVec F S2000000x1 .f32) :
    FVec F S2000000x3 .f32 :=
  mulf (mulf (mulf
    (Host.gather gather_S128x512x512x3_S2000000x3_S2000000x3_1_012_n_n_012_1_1113 nm
      (startIdx sz sx sy))
    (broadcastInDim S2000000x3 ![0, 1] bcast_S2000000x1_S2000000x3_0_1 wz))
    (broadcastInDim S2000000x3 ![0, 1] bcast_S2000000x1_S2000000x3_0_1 wx))
    (broadcastInDim S2000000x3 ![0, 1] bcast_S2000000x1_S2000000x3_0_1 wy)

/-- The contents after each window in turn, and each live buffer there as the window's operations composed over the contents before it. -/
def v_wrA (V : Valuation τ sig (Elt F)) : Valuation τ sig (Elt F) := (after rv0 V)
theorem v_wrA_keep {V : Valuation τ sig (Elt F)} (r : Ref sig .tc) (h0 : r ∉ rv0_W) :
    v_wrA V (Proc.devRef .tc r) = V (Proc.devRef .tc r) :=
  after_of_writes_sub rv0 _ rv0_writes h0

set_option maxHeartbeats 4000000 in
theorem v_wrA_main_cst_eq (V : Valuation τ sig (Elt F)) : v_wrA V (Proc.devRef .tc main_cst) =
      (fun i => FloatOps.ofBits .f32 (lit0 (S3.rowMajor i))) := by
  unfold v_wrA
  simp only [rv0]
  after_results_simp
  all_goals rfl

set_option maxHeartbeats 4000000 in
theorem v_wrA_main_c_0_eq (V : Valuation τ sig (Elt F)) : v_wrA V (Proc.devRef .tc main_c_0) =
      (fun i => lit2 (S3.rowMajor i)) := by
  unfold v_wrA
  simp only [rv0]
  after_results_simp
  all_goals rfl

set_option maxHeartbeats 4000000 in
theorem v_wrA_main_v7_eq (V : Valuation τ sig (Elt F)) : v_wrA V (Proc.devRef .tc main_v7) =
      (minsi ((broadcastInDim S2000000x3 ![0, 1] bcast_S1x3_S2000000x3_0_1) ((broadcastInDim S1x3 ![1] bcast_S3_S1x3_1) (fun i => lit1 (S3.rowMajor i)))) (maxsi ((broadcastInDim S2000000x3 ![] bcast_S_S2000000x3) (id (constantI S_ 32 0#32))) ((addi : (⟨S2000000x3, .i32⟩ : BufTy).Contents (Elt F) → (⟨S2000000x3, .i32⟩ : BufTy).Contents (Elt F) → (⟨S2000000x3, .i32⟩ : BufTy).Contents (Elt F)) (minsi ((broadcastInDim S2000000x3 ![0, 1] bcast_S1x3_S2000000x3_0_1) ((broadcastInDim S1x3 ![1] bcast_S3_S1x3_1) (fun i => lit1 (S3.rowMajor i)))) (maxsi ((broadcastInDim S2000000x3 ![] bcast_S_S2000000x3) (id (constantI S_ 32 0#32))) ((fptosi 32 : (⟨S2000000x3, .f32⟩ : BufTy).Contents (Elt F) → (⟨S2000000x3, .i32⟩ : BufTy).Contents (Elt F)) ((Host.floor : (⟨S2000000x3, .f32⟩ : BufTy).Contents (Elt F) → (⟨S2000000x3, .f32⟩ : BufTy).Contents (Elt F)) (V (Proc.devRef .tc main_arg0)))))) ((broadcastInDim S2000000x3 ![] bcast_S_S2000000x3 : (⟨S_, .i32⟩ : BufTy).Contents (Elt F) → (⟨S2000000x3, .i32⟩ : BufTy).Contents (Elt F)) (constantI S_ 32 1#32))))) := by
  unfold v_wrA
  simp only [rv0]
  after_results_simp
  all_goals rfl

set_option maxHeartbeats 4000000 in
theorem v_wrA_main_v0_eq (V : Valuation τ sig (Elt F)) : v_wrA V (Proc.devRef .tc main_v0) =
      ((broadcastInDim S128x512x512x1 ![0, 1, 2] bcast_S128x512x512_S128x512x512x1_0_1_2 : (⟨S128x512x512, .f32⟩ : BufTy).Contents (Elt F) → (⟨S128x512x512x1, .f32⟩ : BufTy).Contents (Elt F)) (V (Proc.devRef .tc main_arg1))) := by
  unfold v_wrA
  simp only [rv0]
  after_results_simp
  all_goals rfl

set_option maxHeartbeats 4000000 in
theorem v_wrA_main_v4_eq (V : Valuation τ sig (Elt F)) : v_wrA V (Proc.devRef .tc main_v4) =
      (minsi ((broadcastInDim S2000000x3 ![0, 1] bcast_S1x3_S2000000x3_0_1) ((broadcastInDim S1x3 ![1] bcast_S3_S1x3_1) (fun i => lit1 (S3.rowMajor i)))) (maxsi ((broadcastInDim S2000000x3 ![] bcast_S_S2000000x3) (id (constantI S_ 32 0#32))) ((fptosi 32 : (⟨S2000000x3, .f32⟩ : BufTy).Contents (Elt F) → (⟨S2000000x3, .i32⟩ : BufTy).Contents (Elt F)) ((Host.floor : (⟨S2000000x3, .f32⟩ : BufTy).Contents (Elt F) → (⟨S2000000x3, .f32⟩ : BufTy).Contents (Elt F)) (V (Proc.devRef .tc main_arg0)))))) := by
  unfold v_wrA
  simp only [rv0]
  after_results_simp
  all_goals rfl

set_option maxHeartbeats 4000000 in
theorem v_wrA_main_v2_eq (V : Valuation τ sig (Elt F)) : v_wrA V (Proc.devRef .tc main_v2) =
      ((subf : (⟨S2000000x3, .f32⟩ : BufTy).Contents (Elt F) → (⟨S2000000x3, .f32⟩ : BufTy).Contents (Elt F) → (⟨S2000000x3, .f32⟩ : BufTy).Contents (Elt F)) (V (Proc.devRef .tc main_arg0)) ((Host.floor : (⟨S2000000x3, .f32⟩ : BufTy).Contents (Elt F) → (⟨S2000000x3, .f32⟩ : BufTy).Contents (Elt F)) (V (Proc.devRef .tc main_arg0)))) := by
  unfold v_wrA
  simp only [rv0]
  after_results_simp
  all_goals rfl

def v_wrB (V : Valuation τ sig (Elt F)) : Valuation τ sig (Elt F) := (after rv1 (v_wrA V))
theorem v_wrB_keep {V : Valuation τ sig (Elt F)} (r : Ref sig .tc) (h0 : r ∉ rv1_W) :
    v_wrB V (Proc.devRef .tc r) = (v_wrA V) (Proc.devRef .tc r) :=
  after_of_writes_sub rv1 _ rv1_writes h0

set_option maxHeartbeats 2400000 in
theorem v_wrB_main_v10_eq (V : Valuation τ sig (Elt F)) : v_wrB V (Proc.devRef .tc main_v10) =
      (((extractStridedSlice S2000000x1 ![0, 2] · slices_S2000000x3_S2000000x1_0_2) : (⟨S2000000x3, .f32⟩ : BufTy).Contents (Elt F) → (⟨S2000000x1, .f32⟩ : BufTy).Contents (Elt F)) ((v_wrA V) (Proc.devRef .tc main_v2))) := by
  unfold v_wrB
  generalize v_wrA V = V
  simp only [rv1]
  after_results_simp
  all_goals rfl

set_option maxHeartbeats 2400000 in
theorem v_wrB_main_v9_eq (V : Valuation τ sig (Elt F)) : v_wrB V (Proc.devRef .tc main_v9) =
      (((extractStridedSlice S2000000x1 ![0, 1] · slices_S2000000x3_S2000000x1_0_1) : (⟨S2000000x3, .f32⟩ : BufTy).Contents (Elt F) → (⟨S2000000x1, .f32⟩ : BufTy).Contents (Elt F)) ((v_wrA V) (Proc.devRef .tc main_v2))) := by
  unfold v_wrB
  generalize v_wrA V = V
  simp only [rv1]
  after_results_simp
  all_goals rfl

set_option maxHeartbeats 2400000 in
theorem v_wrB_main_v8_eq (V : Valuation τ sig (Elt F)) : v_wrB V (Proc.devRef .tc main_v8) =
      (((extractStridedSlice S2000000x1 ![0, 0] · slices_S2000000x3_S2000000x1_0_0) : (⟨S2000000x3, .f32⟩ : BufTy).Contents (Elt F) → (⟨S2000000x1, .f32⟩ : BufTy).Contents (Elt F)) ((v_wrA V) (Proc.devRef .tc main_v2))) := by
  unfold v_wrB
  generalize v_wrA V = V
  simp only [rv1]
  after_results_simp
  all_goals rfl

set_option maxHeartbeats 2400000 in
theorem v_wrB_main_v16_eq (V : Valuation τ sig (Elt F)) : v_wrB V (Proc.devRef .tc main_v16) =
      ((subf : (⟨S2000000x1, .f32⟩ : BufTy).Contents (Elt F) → (⟨S2000000x1, .f32⟩ : BufTy).Contents (Elt F) → (⟨S2000000x1, .f32⟩ : BufTy).Contents (Elt F)) ((broadcastInDim S2000000x1 ![] bcast_S_S2000000x1 : (⟨S_, .f32⟩ : BufTy).Contents (Elt F) → (⟨S2000000x1, .f32⟩ : BufTy).Contents (Elt F)) (constant S_ .f32 0x3F800000#32)) (((extractStridedSlice S2000000x1 ![0, 2] · slices_S2000000x3_S2000000x1_0_2) : (⟨S2000000x3, .f32⟩ : BufTy).Contents (Elt F) → (⟨S2000000x1, .f32⟩ : BufTy).Contents (Elt F)) ((v_wrA V) (Proc.devRef .tc main_v2)))) := by
  unfold v_wrB
  generalize v_wrA V = V
  simp only [rv1]
  after_results_simp
  all_goals rfl

set_option maxHeartbeats 2400000 in
theorem v_wrB_main_v14_eq (V : Valuation τ sig (Elt F)) : v_wrB V (Proc.devRef .tc main_v14) =
      ((subf : (⟨S2000000x1, .f32⟩ : BufTy).Contents (Elt F) → (⟨S2000000x1, .f32⟩ : BufTy).Contents (Elt F) → (⟨S2000000x1, .f32⟩ : BufTy).Contents (Elt F)) ((broadcastInDim S2000000x1 ![] bcast_S_S2000000x1 : (⟨S_, .f32⟩ : BufTy).Contents (Elt F) → (⟨S2000000x1, .f32⟩ : BufTy).Contents (Elt F)) (constant S_ .f32 0x3F800000#32)) (((extractStridedSlice S2000000x1 ![0, 1] · slices_S2000000x3_S2000000x1_0_1) : (⟨S2000000x3, .f32⟩ : BufTy).Contents (Elt F) → (⟨S2000000x1, .f32⟩ : BufTy).Contents (Elt F)) ((v_wrA V) (Proc.devRef .tc main_v2)))) := by
  unfold v_wrB
  generalize v_wrA V = V
  simp only [rv1]
  after_results_simp
  all_goals rfl

set_option maxHeartbeats 2400000 in
theorem v_wrB_main_v12_eq (V : Valuation τ sig (Elt F)) : v_wrB V (Proc.devRef .tc main_v12) =
      ((subf : (⟨S2000000x1, .f32⟩ : BufTy).Contents (Elt F) → (⟨S2000000x1, .f32⟩ : BufTy).Contents (Elt F) → (⟨S2000000x1, .f32⟩ : BufTy).Contents (Elt F)) ((broadcastInDim S2000000x1 ![] bcast_S_S2000000x1 : (⟨S_, .f32⟩ : BufTy).Contents (Elt F) → (⟨S2000000x1, .f32⟩ : BufTy).Contents (Elt F)) (constant S_ .f32 0x3F800000#32)) (((extractStridedSlice S2000000x1 ![0, 0] · slices_S2000000x3_S2000000x1_0_0) : (⟨S2000000x3, .f32⟩ : BufTy).Contents (Elt F) → (⟨S2000000x1, .f32⟩ : BufTy).Contents (Elt F)) ((v_wrA V) (Proc.devRef .tc main_v2)))) := by
  unfold v_wrB
  generalize v_wrA V = V
  simp only [rv1]
  after_results_simp
  all_goals rfl

def v_wrC0 (V : Valuation τ sig (Elt F)) : Valuation τ sig (Elt F) := (after rv2 (v_wrB V))
theorem v_wrC0_keep {V : Valuation τ sig (Elt F)} (r : Ref sig .tc) (h0 : r ∉ rv2_W) :
    v_wrC0 V (Proc.devRef .tc r) = (v_wrB V) (Proc.devRef .tc r) :=
  after_of_writes_sub rv2 _ rv2_writes h0

set_option maxHeartbeats 4000000 in
theorem v_wrC0_main_v45_eq (V : Valuation τ sig (Elt F)) : v_wrC0 V (Proc.devRef .tc main_v45) =
      (cornerA (F := F) ((v_wrB V) (Proc.devRef .tc main_v0)) ((v_wrB V) (Proc.devRef .tc main_v4)) ((v_wrB V) (Proc.devRef .tc main_v4)) ((v_wrB V) (Proc.devRef .tc main_v4)) ((v_wrB V) (Proc.devRef .tc main_v12)) ((v_wrB V) (Proc.devRef .tc main_v14)) ((v_wrB V) (Proc.devRef .tc main_v16))) := by
  unfold v_wrC0
  generalize v_wrB V = V
  simp only [rv2]
  after_results_simp
  try dsimp only [Matrix.cons_val]
  try after_results_simp
  all_goals rfl

def v_wrC1 (V : Valuation τ sig (Elt F)) : Valuation τ sig (Elt F) := (after rv3 (v_wrC0 V))
theorem v_wrC1_keep {V : Valuation τ sig (Elt F)} (r : Ref sig .tc) (h0 : r ∉ rv3_W) :
    v_wrC1 V (Proc.devRef .tc r) = (v_wrC0 V) (Proc.devRef .tc r) :=
  after_of_writes_sub rv3 _ rv3_writes h0

set_option maxHeartbeats 4000000 in
theorem v_wrC1_main_v75_eq (V : Valuation τ sig (Elt F)) : v_wrC1 V (Proc.devRef .tc main_v75) =
      ((addf : (⟨S2000000x1, .f32⟩ : BufTy).Contents (Elt F) → (⟨S2000000x1, .f32⟩ : BufTy).Contents (Elt F) → (⟨S2000000x1, .f32⟩ : BufTy).Contents (Elt F)) ((v_wrC0 V) (Proc.devRef .tc main_v45)) (cornerA (F := F) ((v_wrC0 V) (Proc.devRef .tc main_v0)) ((v_wrC0 V) (Proc.devRef .tc main_v4)) ((v_wrC0 V) (Proc.devRef .tc main_v4)) ((v_wrC0 V) (Proc.devRef .tc main_v7)) ((v_wrC0 V) (Proc.devRef .tc main_v12)) ((v_wrC0 V) (Proc.devRef .tc main_v14)) ((v_wrC0 V) (Proc.devRef .tc main_v10)))) := by
  unfold v_wrC1
  generalize v_wrC0 V = V
  simp only [rv3]
  after_results_simp
  try dsimp only [Matrix.cons_val]
  try after_results_simp
  all_goals rfl

def v_wrC2 (V : Valuation τ sig (Elt F)) : Valuation τ sig (Elt F) := (after rv4 (v_wrC1 V))
theorem v_wrC2_keep {V : Valuation τ sig (Elt F)} (r : Ref sig .tc) (h0 : r ∉ rv4_W) :
    v_wrC2 V (Proc.devRef .tc r) = (v_wrC1 V) (Proc.devRef .tc r) :=
  after_of_writes_sub rv4 _ rv4_writes h0

set_option maxHeartbeats 4000000 in
theorem v_wrC2_main_v105_eq (V : Valuation τ sig (Elt F)) : v_wrC2 V (Proc.devRef .tc main_v105) =
      ((addf : (⟨S2000000x1, .f32⟩ : BufTy).Contents (Elt F) → (⟨S2000000x1, .f32⟩ : BufTy).Contents (Elt F) → (⟨S2000000x1, .f32⟩ : BufTy).Contents (Elt F)) ((v_wrC1 V) (Proc.devRef .tc main_v75)) (cornerA (F := F) ((v_wrC1 V) (Proc.devRef .tc main_v0)) ((v_wrC1 V) (Proc.devRef .tc main_v4)) ((v_wrC1 V) (Proc.devRef .tc main_v7)) ((v_wrC1 V) (Proc.devRef .tc main_v4)) ((v_wrC1 V) (Proc.devRef .tc main_v12)) ((v_wrC1 V) (Proc.devRef .tc main_v9)) ((v_wrC1 V) (Proc.devRef .tc main_v16)))) := by
  unfold v_wrC2
  generalize v_wrC1 V = V
  simp only [rv4]
  after_results_simp
  try dsimp only [Matrix.cons_val]
  try after_results_simp
  all_goals rfl

def v_wrC3 (V : Valuation τ sig (Elt F)) : Valuation τ sig (Elt F) := (after rv5 (v_wrC2 V))
theorem v_wrC3_keep {V : Valuation τ sig (Elt F)} (r : Ref sig .tc) (h0 : r ∉ rv5_W) :
    v_wrC3 V (Proc.devRef .tc r) = (v_wrC2 V) (Proc.devRef .tc r) :=
  after_of_writes_sub rv5 _ rv5_writes h0

set_option maxHeartbeats 4000000 in
theorem v_wrC3_main_v135_eq (V : Valuation τ sig (Elt F)) : v_wrC3 V (Proc.devRef .tc main_v135) =
      ((addf : (⟨S2000000x1, .f32⟩ : BufTy).Contents (Elt F) → (⟨S2000000x1, .f32⟩ : BufTy).Contents (Elt F) → (⟨S2000000x1, .f32⟩ : BufTy).Contents (Elt F)) ((v_wrC2 V) (Proc.devRef .tc main_v105)) (cornerA (F := F) ((v_wrC2 V) (Proc.devRef .tc main_v0)) ((v_wrC2 V) (Proc.devRef .tc main_v4)) ((v_wrC2 V) (Proc.devRef .tc main_v7)) ((v_wrC2 V) (Proc.devRef .tc main_v7)) ((v_wrC2 V) (Proc.devRef .tc main_v12)) ((v_wrC2 V) (Proc.devRef .tc main_v9)) ((v_wrC2 V) (Proc.devRef .tc main_v10)))) := by
  unfold v_wrC3
  generalize v_wrC2 V = V
  simp only [rv5]
  after_results_simp
  try dsimp only [Matrix.cons_val]
  try after_results_simp
  all_goals rfl

def v_wrC4 (V : Valuation τ sig (Elt F)) : Valuation τ sig (Elt F) := (after rv6 (v_wrC3 V))
theorem v_wrC4_keep {V : Valuation τ sig (Elt F)} (r : Ref sig .tc) (h0 : r ∉ rv6_W) :
    v_wrC4 V (Proc.devRef .tc r) = (v_wrC3 V) (Proc.devRef .tc r) :=
  after_of_writes_sub rv6 _ rv6_writes h0

set_option maxHeartbeats 4000000 in
theorem v_wrC4_main_v165_eq (V : Valuation τ sig (Elt F)) : v_wrC4 V (Proc.devRef .tc main_v165) =
      ((addf : (⟨S2000000x1, .f32⟩ : BufTy).Contents (Elt F) → (⟨S2000000x1, .f32⟩ : BufTy).Contents (Elt F) → (⟨S2000000x1, .f32⟩ : BufTy).Contents (Elt F)) ((v_wrC3 V) (Proc.devRef .tc main_v135)) (cornerA (F := F) ((v_wrC3 V) (Proc.devRef .tc main_v0)) ((v_wrC3 V) (Proc.devRef .tc main_v7)) ((v_wrC3 V) (Proc.devRef .tc main_v4)) ((v_wrC3 V) (Proc.devRef .tc main_v4)) ((v_wrC3 V) (Proc.devRef .tc main_v8)) ((v_wrC3 V) (Proc.devRef .tc main_v14)) ((v_wrC3 V) (Proc.devRef .tc main_v16)))) := by
  unfold v_wrC4
  generalize v_wrC3 V = V
  simp only [rv6]
  after_results_simp
  try dsimp only [Matrix.cons_val]
  try after_results_simp
  all_goals rfl

def v_wrC5 (V : Valuation τ sig (Elt F)) : Valuation τ sig (Elt F) := (after rv7 (v_wrC4 V))
theorem v_wrC5_keep {V : Valuation τ sig (Elt F)} (r : Ref sig .tc) (h0 : r ∉ rv7_W) :
    v_wrC5 V (Proc.devRef .tc r) = (v_wrC4 V) (Proc.devRef .tc r) :=
  after_of_writes_sub rv7 _ rv7_writes h0

set_option maxHeartbeats 4000000 in
theorem v_wrC5_main_v195_eq (V : Valuation τ sig (Elt F)) : v_wrC5 V (Proc.devRef .tc main_v195) =
      ((addf : (⟨S2000000x1, .f32⟩ : BufTy).Contents (Elt F) → (⟨S2000000x1, .f32⟩ : BufTy).Contents (Elt F) → (⟨S2000000x1, .f32⟩ : BufTy).Contents (Elt F)) ((v_wrC4 V) (Proc.devRef .tc main_v165)) (cornerA (F := F) ((v_wrC4 V) (Proc.devRef .tc main_v0)) ((v_wrC4 V) (Proc.devRef .tc main_v7)) ((v_wrC4 V) (Proc.devRef .tc main_v4)) ((v_wrC4 V) (Proc.devRef .tc main_v7)) ((v_wrC4 V) (Proc.devRef .tc main_v8)) ((v_wrC4 V) (Proc.devRef .tc main_v14)) ((v_wrC4 V) (Proc.devRef .tc main_v10)))) := by
  unfold v_wrC5
  generalize v_wrC4 V = V
  simp only [rv7]
  after_results_simp
  try dsimp only [Matrix.cons_val]
  try after_results_simp
  all_goals rfl

def v_wrC6 (V : Valuation τ sig (Elt F)) : Valuation τ sig (Elt F) := (after rv8 (v_wrC5 V))
theorem v_wrC6_keep {V : Valuation τ sig (Elt F)} (r : Ref sig .tc) (h0 : r ∉ rv8_W) :
    v_wrC6 V (Proc.devRef .tc r) = (v_wrC5 V) (Proc.devRef .tc r) :=
  after_of_writes_sub rv8 _ rv8_writes h0

set_option maxHeartbeats 4000000 in
theorem v_wrC6_main_v225_eq (V : Valuation τ sig (Elt F)) : v_wrC6 V (Proc.devRef .tc main_v225) =
      ((addf : (⟨S2000000x1, .f32⟩ : BufTy).Contents (Elt F) → (⟨S2000000x1, .f32⟩ : BufTy).Contents (Elt F) → (⟨S2000000x1, .f32⟩ : BufTy).Contents (Elt F)) ((v_wrC5 V) (Proc.devRef .tc main_v195)) (cornerA (F := F) ((v_wrC5 V) (Proc.devRef .tc main_v0)) ((v_wrC5 V) (Proc.devRef .tc main_v7)) ((v_wrC5 V) (Proc.devRef .tc main_v7)) ((v_wrC5 V) (Proc.devRef .tc main_v4)) ((v_wrC5 V) (Proc.devRef .tc main_v8)) ((v_wrC5 V) (Proc.devRef .tc main_v9)) ((v_wrC5 V) (Proc.devRef .tc main_v16)))) := by
  unfold v_wrC6
  generalize v_wrC5 V = V
  simp only [rv8]
  after_results_simp
  try dsimp only [Matrix.cons_val]
  try after_results_simp
  all_goals rfl

def v_wrC7 (V : Valuation τ sig (Elt F)) : Valuation τ sig (Elt F) := (after rv9 (v_wrC6 V))
theorem v_wrC7_keep {V : Valuation τ sig (Elt F)} (r : Ref sig .tc) (h0 : r ∉ rv9_W) :
    v_wrC7 V (Proc.devRef .tc r) = (v_wrC6 V) (Proc.devRef .tc r) :=
  after_of_writes_sub rv9 _ rv9_writes h0

set_option maxHeartbeats 4000000 in
theorem v_wrC7_main_v255_eq (V : Valuation τ sig (Elt F)) : v_wrC7 V (Proc.devRef .tc main_v255) =
      ((addf : (⟨S2000000x1, .f32⟩ : BufTy).Contents (Elt F) → (⟨S2000000x1, .f32⟩ : BufTy).Contents (Elt F) → (⟨S2000000x1, .f32⟩ : BufTy).Contents (Elt F)) ((v_wrC6 V) (Proc.devRef .tc main_v225)) (cornerA (F := F) ((v_wrC6 V) (Proc.devRef .tc main_v0)) ((v_wrC6 V) (Proc.devRef .tc main_v7)) ((v_wrC6 V) (Proc.devRef .tc main_v7)) ((v_wrC6 V) (Proc.devRef .tc main_v7)) ((v_wrC6 V) (Proc.devRef .tc main_v8)) ((v_wrC6 V) (Proc.devRef .tc main_v9)) ((v_wrC6 V) (Proc.devRef .tc main_v10)))) := by
  unfold v_wrC7
  generalize v_wrC6 V = V
  simp only [rv9]
  after_results_simp
  try dsimp only [Matrix.cons_val]
  try after_results_simp
  all_goals rfl

def v_wrD (V : Valuation τ sig (Elt F)) : Valuation τ sig (Elt F) := (after rv10 (v_wrC7 V))
theorem v_wrD_keep {V : Valuation τ sig (Elt F)} (r : Ref sig .tc) (h0 : r ∉ rv10_W) :
    v_wrD V (Proc.devRef .tc r) = (v_wrC7 V) (Proc.devRef .tc r) :=
  after_of_writes_sub rv10 _ rv10_writes h0

set_option maxHeartbeats 4000000 in
theorem v_wrD_main_v256_eq (V : Valuation τ sig (Elt F)) : v_wrD V (Proc.devRef .tc main_v256) =
      (shapeCast _ ((v_wrC7 V) (Proc.devRef .tc main_v255)) shapeCasts_S2000000x1_S2000000) := by
  unfold v_wrD
  generalize v_wrC7 V = V
  simp only [rv10]
  after_results_simp
  all_goals rfl

set_option maxHeartbeats 4000000 in
theorem v_wrD_main_v263_eq (V : Valuation τ sig (Elt F)) : v_wrD V (Proc.devRef .tc main_v263) =
      (minsi ((broadcastInDim S2000000x3 ![0, 1] bcast_S1x3_S2000000x3_0_1) ((broadcastInDim S1x3 ![1] bcast_S3_S1x3_1) ((v_wrC7 V) (Proc.devRef .tc main_c_0)))) (maxsi ((broadcastInDim S2000000x3 ![] bcast_S_S2000000x3) (id (constantI S_ 32 0#32))) ((addi : (⟨S2000000x3, .i32⟩ : BufTy).Contents (Elt F) → (⟨S2000000x3, .i32⟩ : BufTy).Contents (Elt F) → (⟨S2000000x3, .i32⟩ : BufTy).Contents (Elt F)) (minsi ((broadcastInDim S2000000x3 ![0, 1] bcast_S1x3_S2000000x3_0_1) ((broadcastInDim S1x3 ![1] bcast_S3_S1x3_1) ((v_wrC7 V) (Proc.devRef .tc main_c_0)))) (maxsi ((broadcastInDim S2000000x3 ![] bcast_S_S2000000x3) (id (constantI S_ 32 0#32))) ((fptosi 32 : (⟨S2000000x3, .f32⟩ : BufTy).Contents (Elt F) → (⟨S2000000x3, .i32⟩ : BufTy).Contents (Elt F)) ((Host.floor : (⟨S2000000x3, .f32⟩ : BufTy).Contents (Elt F) → (⟨S2000000x3, .f32⟩ : BufTy).Contents (Elt F)) ((v_wrC7 V) (Proc.devRef .tc main_arg0)))))) ((broadcastInDim S2000000x3 ![] bcast_S_S2000000x3 : (⟨S_, .i32⟩ : BufTy).Contents (Elt F) → (⟨S2000000x3, .i32⟩ : BufTy).Contents (Elt F)) (constantI S_ 32 1#32))))) := by
  unfold v_wrD
  generalize v_wrC7 V = V
  simp only [rv10]
  after_results_simp
  all_goals rfl

set_option maxHeartbeats 4000000 in
theorem v_wrD_main_v260_eq (V : Valuation τ sig (Elt F)) : v_wrD V (Proc.devRef .tc main_v260) =
      (minsi ((broadcastInDim S2000000x3 ![0, 1] bcast_S1x3_S2000000x3_0_1) ((broadcastInDim S1x3 ![1] bcast_S3_S1x3_1) ((v_wrC7 V) (Proc.devRef .tc main_c_0)))) (maxsi ((broadcastInDim S2000000x3 ![] bcast_S_S2000000x3) (id (constantI S_ 32 0#32))) ((fptosi 32 : (⟨S2000000x3, .f32⟩ : BufTy).Contents (Elt F) → (⟨S2000000x3, .i32⟩ : BufTy).Contents (Elt F)) ((Host.floor : (⟨S2000000x3, .f32⟩ : BufTy).Contents (Elt F) → (⟨S2000000x3, .f32⟩ : BufTy).Contents (Elt F)) ((v_wrC7 V) (Proc.devRef .tc main_arg0)))))) := by
  unfold v_wrD
  generalize v_wrC7 V = V
  simp only [rv10]
  after_results_simp
  all_goals rfl

set_option maxHeartbeats 4000000 in
theorem v_wrD_main_v258_eq (V : Valuation τ sig (Elt F)) : v_wrD V (Proc.devRef .tc main_v258) =
      ((subf : (⟨S2000000x3, .f32⟩ : BufTy).Contents (Elt F) → (⟨S2000000x3, .f32⟩ : BufTy).Contents (Elt F) → (⟨S2000000x3, .f32⟩ : BufTy).Contents (Elt F)) ((v_wrC7 V) (Proc.devRef .tc main_arg0)) ((Host.floor : (⟨S2000000x3, .f32⟩ : BufTy).Contents (Elt F) → (⟨S2000000x3, .f32⟩ : BufTy).Contents (Elt F)) ((v_wrC7 V) (Proc.devRef .tc main_arg0)))) := by
  unfold v_wrD
  generalize v_wrC7 V = V
  simp only [rv10]
  after_results_simp
  all_goals rfl

def v_wrE (V : Valuation τ sig (Elt F)) : Valuation τ sig (Elt F) := (after rv11 (v_wrD V))
theorem v_wrE_keep {V : Valuation τ sig (Elt F)} (r : Ref sig .tc) (h0 : r ∉ rv11_W) :
    v_wrE V (Proc.devRef .tc r) = (v_wrD V) (Proc.devRef .tc r) :=
  after_of_writes_sub rv11 _ rv11_writes h0

set_option maxHeartbeats 2400000 in
theorem v_wrE_main_v266_eq (V : Valuation τ sig (Elt F)) : v_wrE V (Proc.devRef .tc main_v266) =
      (((extractStridedSlice S2000000x1 ![0, 2] · slices_S2000000x3_S2000000x1_0_2) : (⟨S2000000x3, .f32⟩ : BufTy).Contents (Elt F) → (⟨S2000000x1, .f32⟩ : BufTy).Contents (Elt F)) ((v_wrD V) (Proc.devRef .tc main_v258))) := by
  unfold v_wrE
  generalize v_wrD V = V
  simp only [rv11]
  after_results_simp
  all_goals rfl

set_option maxHeartbeats 2400000 in
theorem v_wrE_main_v265_eq (V : Valuation τ sig (Elt F)) : v_wrE V (Proc.devRef .tc main_v265) =
      (((extractStridedSlice S2000000x1 ![0, 1] · slices_S2000000x3_S2000000x1_0_1) : (⟨S2000000x3, .f32⟩ : BufTy).Contents (Elt F) → (⟨S2000000x1, .f32⟩ : BufTy).Contents (Elt F)) ((v_wrD V) (Proc.devRef .tc main_v258))) := by
  unfold v_wrE
  generalize v_wrD V = V
  simp only [rv11]
  after_results_simp
  all_goals rfl

set_option maxHeartbeats 2400000 in
theorem v_wrE_main_v264_eq (V : Valuation τ sig (Elt F)) : v_wrE V (Proc.devRef .tc main_v264) =
      (((extractStridedSlice S2000000x1 ![0, 0] · slices_S2000000x3_S2000000x1_0_0) : (⟨S2000000x3, .f32⟩ : BufTy).Contents (Elt F) → (⟨S2000000x1, .f32⟩ : BufTy).Contents (Elt F)) ((v_wrD V) (Proc.devRef .tc main_v258))) := by
  unfold v_wrE
  generalize v_wrD V = V
  simp only [rv11]
  after_results_simp
  all_goals rfl

set_option maxHeartbeats 2400000 in
theorem v_wrE_main_v272_eq (V : Valuation τ sig (Elt F)) : v_wrE V (Proc.devRef .tc main_v272) =
      ((subf : (⟨S2000000x1, .f32⟩ : BufTy).Contents (Elt F) → (⟨S2000000x1, .f32⟩ : BufTy).Contents (Elt F) → (⟨S2000000x1, .f32⟩ : BufTy).Contents (Elt F)) ((broadcastInDim S2000000x1 ![] bcast_S_S2000000x1 : (⟨S_, .f32⟩ : BufTy).Contents (Elt F) → (⟨S2000000x1, .f32⟩ : BufTy).Contents (Elt F)) (constant S_ .f32 0x3F800000#32)) (((extractStridedSlice S2000000x1 ![0, 2] · slices_S2000000x3_S2000000x1_0_2) : (⟨S2000000x3, .f32⟩ : BufTy).Contents (Elt F) → (⟨S2000000x1, .f32⟩ : BufTy).Contents (Elt F)) ((v_wrD V) (Proc.devRef .tc main_v258)))) := by
  unfold v_wrE
  generalize v_wrD V = V
  simp only [rv11]
  after_results_simp
  all_goals rfl

set_option maxHeartbeats 2400000 in
theorem v_wrE_main_v270_eq (V : Valuation τ sig (Elt F)) : v_wrE V (Proc.devRef .tc main_v270) =
      ((subf : (⟨S2000000x1, .f32⟩ : BufTy).Contents (Elt F) → (⟨S2000000x1, .f32⟩ : BufTy).Contents (Elt F) → (⟨S2000000x1, .f32⟩ : BufTy).Contents (Elt F)) ((broadcastInDim S2000000x1 ![] bcast_S_S2000000x1 : (⟨S_, .f32⟩ : BufTy).Contents (Elt F) → (⟨S2000000x1, .f32⟩ : BufTy).Contents (Elt F)) (constant S_ .f32 0x3F800000#32)) (((extractStridedSlice S2000000x1 ![0, 1] · slices_S2000000x3_S2000000x1_0_1) : (⟨S2000000x3, .f32⟩ : BufTy).Contents (Elt F) → (⟨S2000000x1, .f32⟩ : BufTy).Contents (Elt F)) ((v_wrD V) (Proc.devRef .tc main_v258)))) := by
  unfold v_wrE
  generalize v_wrD V = V
  simp only [rv11]
  after_results_simp
  all_goals rfl

set_option maxHeartbeats 2400000 in
theorem v_wrE_main_v268_eq (V : Valuation τ sig (Elt F)) : v_wrE V (Proc.devRef .tc main_v268) =
      ((subf : (⟨S2000000x1, .f32⟩ : BufTy).Contents (Elt F) → (⟨S2000000x1, .f32⟩ : BufTy).Contents (Elt F) → (⟨S2000000x1, .f32⟩ : BufTy).Contents (Elt F)) ((broadcastInDim S2000000x1 ![] bcast_S_S2000000x1 : (⟨S_, .f32⟩ : BufTy).Contents (Elt F) → (⟨S2000000x1, .f32⟩ : BufTy).Contents (Elt F)) (constant S_ .f32 0x3F800000#32)) (((extractStridedSlice S2000000x1 ![0, 0] · slices_S2000000x3_S2000000x1_0_0) : (⟨S2000000x3, .f32⟩ : BufTy).Contents (Elt F) → (⟨S2000000x1, .f32⟩ : BufTy).Contents (Elt F)) ((v_wrD V) (Proc.devRef .tc main_v258)))) := by
  unfold v_wrE
  generalize v_wrD V = V
  simp only [rv11]
  after_results_simp
  all_goals rfl

def v_wrF0 (V : Valuation τ sig (Elt F)) : Valuation τ sig (Elt F) := (after rv12 (v_wrE V))
theorem v_wrF0_keep {V : Valuation τ sig (Elt F)} (r : Ref sig .tc) (h0 : r ∉ rv12_W) :
    v_wrF0 V (Proc.devRef .tc r) = (v_wrE V) (Proc.devRef .tc r) :=
  after_of_writes_sub rv12 _ rv12_writes h0

set_option maxHeartbeats 4000000 in
theorem v_wrF0_main_v304_eq (V : Valuation τ sig (Elt F)) : v_wrF0 V (Proc.devRef .tc main_v304) =
      (cornerN (F := F) ((v_wrE V) (Proc.devRef .tc main_arg2)) ((v_wrE V) (Proc.devRef .tc main_v260)) ((v_wrE V) (Proc.devRef .tc main_v260)) ((v_wrE V) (Proc.devRef .tc main_v260)) ((v_wrE V) (Proc.devRef .tc main_v268)) ((v_wrE V) (Proc.devRef .tc main_v270)) ((v_wrE V) (Proc.devRef .tc main_v272))) := by
  unfold v_wrF0
  generalize v_wrE V = V
  simp only [rv12]
  after_results_simp
  try dsimp only [Matrix.cons_val]
  try after_results_simp
  all_goals rfl

def v_wrF1 (V : Valuation τ sig (Elt F)) : Valuation τ sig (Elt F) := (after rv13 (v_wrF0 V))
theorem v_wrF1_keep {V : Valuation τ sig (Elt F)} (r : Ref sig .tc) (h0 : r ∉ rv13_W) :
    v_wrF1 V (Proc.devRef .tc r) = (v_wrF0 V) (Proc.devRef .tc r) :=
  after_of_writes_sub rv13 _ rv13_writes h0

set_option maxHeartbeats 4000000 in
theorem v_wrF1_main_v337_eq (V : Valuation τ sig (Elt F)) : v_wrF1 V (Proc.devRef .tc main_v337) =
      ((addf : (⟨S2000000x3, .f32⟩ : BufTy).Contents (Elt F) → (⟨S2000000x3, .f32⟩ : BufTy).Contents (Elt F) → (⟨S2000000x3, .f32⟩ : BufTy).Contents (Elt F)) ((v_wrF0 V) (Proc.devRef .tc main_v304)) (cornerN (F := F) ((v_wrF0 V) (Proc.devRef .tc main_arg2)) ((v_wrF0 V) (Proc.devRef .tc main_v260)) ((v_wrF0 V) (Proc.devRef .tc main_v260)) ((v_wrF0 V) (Proc.devRef .tc main_v263)) ((v_wrF0 V) (Proc.devRef .tc main_v268)) ((v_wrF0 V) (Proc.devRef .tc main_v270)) ((v_wrF0 V) (Proc.devRef .tc main_v266)))) := by
  unfold v_wrF1
  generalize v_wrF0 V = V
  simp only [rv13]
  after_results_simp
  try dsimp only [Matrix.cons_val]
  try after_results_simp
  all_goals rfl

def v_wrF2 (V : Valuation τ sig (Elt F)) : Valuation τ sig (Elt F) := (after rv14 (v_wrF1 V))
theorem v_wrF2_keep {V : Valuation τ sig (Elt F)} (r : Ref sig .tc) (h0 : r ∉ rv14_W) :
    v_wrF2 V (Proc.devRef .tc r) = (v_wrF1 V) (Proc.devRef .tc r) :=
  after_of_writes_sub rv14 _ rv14_writes h0

set_option maxHeartbeats 4000000 in
theorem v_wrF2_main_v370_eq (V : Valuation τ sig (Elt F)) : v_wrF2 V (Proc.devRef .tc main_v370) =
      ((addf : (⟨S2000000x3, .f32⟩ : BufTy).Contents (Elt F) → (⟨S2000000x3, .f32⟩ : BufTy).Contents (Elt F) → (⟨S2000000x3, .f32⟩ : BufTy).Contents (Elt F)) ((v_wrF1 V) (Proc.devRef .tc main_v337)) (cornerN (F := F) ((v_wrF1 V) (Proc.devRef .tc main_arg2)) ((v_wrF1 V) (Proc.devRef .tc main_v260)) ((v_wrF1 V) (Proc.devRef .tc main_v263)) ((v_wrF1 V) (Proc.devRef .tc main_v260)) ((v_wrF1 V) (Proc.devRef .tc main_v268)) ((v_wrF1 V) (Proc.devRef .tc main_v265)) ((v_wrF1 V) (Proc.devRef .tc main_v272)))) := by
  unfold v_wrF2
  generalize v_wrF1 V = V
  simp only [rv14]
  after_results_simp
  try dsimp only [Matrix.cons_val]
  try after_results_simp
  all_goals rfl

def v_wrF3 (V : Valuation τ sig (Elt F)) : Valuation τ sig (Elt F) := (after rv15 (v_wrF2 V))
theorem v_wrF3_keep {V : Valuation τ sig (Elt F)} (r : Ref sig .tc) (h0 : r ∉ rv15_W) :
    v_wrF3 V (Proc.devRef .tc r) = (v_wrF2 V) (Proc.devRef .tc r) :=
  after_of_writes_sub rv15 _ rv15_writes h0

set_option maxHeartbeats 4000000 in
theorem v_wrF3_main_v403_eq (V : Valuation τ sig (Elt F)) : v_wrF3 V (Proc.devRef .tc main_v403) =
      ((addf : (⟨S2000000x3, .f32⟩ : BufTy).Contents (Elt F) → (⟨S2000000x3, .f32⟩ : BufTy).Contents (Elt F) → (⟨S2000000x3, .f32⟩ : BufTy).Contents (Elt F)) ((v_wrF2 V) (Proc.devRef .tc main_v370)) (cornerN (F := F) ((v_wrF2 V) (Proc.devRef .tc main_arg2)) ((v_wrF2 V) (Proc.devRef .tc main_v260)) ((v_wrF2 V) (Proc.devRef .tc main_v263)) ((v_wrF2 V) (Proc.devRef .tc main_v263)) ((v_wrF2 V) (Proc.devRef .tc main_v268)) ((v_wrF2 V) (Proc.devRef .tc main_v265)) ((v_wrF2 V) (Proc.devRef .tc main_v266)))) := by
  unfold v_wrF3
  generalize v_wrF2 V = V
  simp only [rv15]
  after_results_simp
  try dsimp only [Matrix.cons_val]
  try after_results_simp
  all_goals rfl

def v_wrF4 (V : Valuation τ sig (Elt F)) : Valuation τ sig (Elt F) := (after rv16 (v_wrF3 V))
theorem v_wrF4_keep {V : Valuation τ sig (Elt F)} (r : Ref sig .tc) (h0 : r ∉ rv16_W) :
    v_wrF4 V (Proc.devRef .tc r) = (v_wrF3 V) (Proc.devRef .tc r) :=
  after_of_writes_sub rv16 _ rv16_writes h0

set_option maxHeartbeats 4000000 in
theorem v_wrF4_main_v436_eq (V : Valuation τ sig (Elt F)) : v_wrF4 V (Proc.devRef .tc main_v436) =
      ((addf : (⟨S2000000x3, .f32⟩ : BufTy).Contents (Elt F) → (⟨S2000000x3, .f32⟩ : BufTy).Contents (Elt F) → (⟨S2000000x3, .f32⟩ : BufTy).Contents (Elt F)) ((v_wrF3 V) (Proc.devRef .tc main_v403)) (cornerN (F := F) ((v_wrF3 V) (Proc.devRef .tc main_arg2)) ((v_wrF3 V) (Proc.devRef .tc main_v263)) ((v_wrF3 V) (Proc.devRef .tc main_v260)) ((v_wrF3 V) (Proc.devRef .tc main_v260)) ((v_wrF3 V) (Proc.devRef .tc main_v264)) ((v_wrF3 V) (Proc.devRef .tc main_v270)) ((v_wrF3 V) (Proc.devRef .tc main_v272)))) := by
  unfold v_wrF4
  generalize v_wrF3 V = V
  simp only [rv16]
  after_results_simp
  try dsimp only [Matrix.cons_val]
  try after_results_simp
  all_goals rfl

def v_wrF5 (V : Valuation τ sig (Elt F)) : Valuation τ sig (Elt F) := (after rv17 (v_wrF4 V))
theorem v_wrF5_keep {V : Valuation τ sig (Elt F)} (r : Ref sig .tc) (h0 : r ∉ rv17_W) :
    v_wrF5 V (Proc.devRef .tc r) = (v_wrF4 V) (Proc.devRef .tc r) :=
  after_of_writes_sub rv17 _ rv17_writes h0

set_option maxHeartbeats 4000000 in
theorem v_wrF5_main_v469_eq (V : Valuation τ sig (Elt F)) : v_wrF5 V (Proc.devRef .tc main_v469) =
      ((addf : (⟨S2000000x3, .f32⟩ : BufTy).Contents (Elt F) → (⟨S2000000x3, .f32⟩ : BufTy).Contents (Elt F) → (⟨S2000000x3, .f32⟩ : BufTy).Contents (Elt F)) ((v_wrF4 V) (Proc.devRef .tc main_v436)) (cornerN (F := F) ((v_wrF4 V) (Proc.devRef .tc main_arg2)) ((v_wrF4 V) (Proc.devRef .tc main_v263)) ((v_wrF4 V) (Proc.devRef .tc main_v260)) ((v_wrF4 V) (Proc.devRef .tc main_v263)) ((v_wrF4 V) (Proc.devRef .tc main_v264)) ((v_wrF4 V) (Proc.devRef .tc main_v270)) ((v_wrF4 V) (Proc.devRef .tc main_v266)))) := by
  unfold v_wrF5
  generalize v_wrF4 V = V
  simp only [rv17]
  after_results_simp
  try dsimp only [Matrix.cons_val]
  try after_results_simp
  all_goals rfl

def v_wrF6 (V : Valuation τ sig (Elt F)) : Valuation τ sig (Elt F) := (after rv18 (v_wrF5 V))
theorem v_wrF6_keep {V : Valuation τ sig (Elt F)} (r : Ref sig .tc) (h0 : r ∉ rv18_W) :
    v_wrF6 V (Proc.devRef .tc r) = (v_wrF5 V) (Proc.devRef .tc r) :=
  after_of_writes_sub rv18 _ rv18_writes h0

set_option maxHeartbeats 4000000 in
theorem v_wrF6_main_v502_eq (V : Valuation τ sig (Elt F)) : v_wrF6 V (Proc.devRef .tc main_v502) =
      ((addf : (⟨S2000000x3, .f32⟩ : BufTy).Contents (Elt F) → (⟨S2000000x3, .f32⟩ : BufTy).Contents (Elt F) → (⟨S2000000x3, .f32⟩ : BufTy).Contents (Elt F)) ((v_wrF5 V) (Proc.devRef .tc main_v469)) (cornerN (F := F) ((v_wrF5 V) (Proc.devRef .tc main_arg2)) ((v_wrF5 V) (Proc.devRef .tc main_v263)) ((v_wrF5 V) (Proc.devRef .tc main_v263)) ((v_wrF5 V) (Proc.devRef .tc main_v260)) ((v_wrF5 V) (Proc.devRef .tc main_v264)) ((v_wrF5 V) (Proc.devRef .tc main_v265)) ((v_wrF5 V) (Proc.devRef .tc main_v272)))) := by
  unfold v_wrF6
  generalize v_wrF5 V = V
  simp only [rv18]
  after_results_simp
  try dsimp only [Matrix.cons_val]
  try after_results_simp
  all_goals rfl

def v_wrF7 (V : Valuation τ sig (Elt F)) : Valuation τ sig (Elt F) := (after rv19 (v_wrF6 V))
theorem v_wrF7_keep {V : Valuation τ sig (Elt F)} (r : Ref sig .tc) (h0 : r ∉ rv19_W) :
    v_wrF7 V (Proc.devRef .tc r) = (v_wrF6 V) (Proc.devRef .tc r) :=
  after_of_writes_sub rv19 _ rv19_writes h0

set_option maxHeartbeats 4000000 in
theorem v_wrF7_main_v535_eq (V : Valuation τ sig (Elt F)) : v_wrF7 V (Proc.devRef .tc main_v535) =
      ((addf : (⟨S2000000x3, .f32⟩ : BufTy).Contents (Elt F) → (⟨S2000000x3, .f32⟩ : BufTy).Contents (Elt F) → (⟨S2000000x3, .f32⟩ : BufTy).Contents (Elt F)) ((v_wrF6 V) (Proc.devRef .tc main_v502)) (cornerN (F := F) ((v_wrF6 V) (Proc.devRef .tc main_arg2)) ((v_wrF6 V) (Proc.devRef .tc main_v263)) ((v_wrF6 V) (Proc.devRef .tc main_v263)) ((v_wrF6 V) (Proc.devRef .tc main_v263)) ((v_wrF6 V) (Proc.devRef .tc main_v264)) ((v_wrF6 V) (Proc.devRef .tc main_v265)) ((v_wrF6 V) (Proc.devRef .tc main_v266)))) := by
  unfold v_wrF7
  generalize v_wrF6 V = V
  simp only [rv19]
  after_results_simp
  try dsimp only [Matrix.cons_val]
  try after_results_simp
  all_goals rfl

def v_wrG (V : Valuation τ sig (Elt F)) : Valuation τ sig (Elt F) := (after rv20 (v_wrF7 V))
theorem v_wrG_keep {V : Valuation τ sig (Elt F)} (r : Ref sig .tc) (h0 : r ∉ rv20_W) :
    v_wrG V (Proc.devRef .tc r) = (v_wrF7 V) (Proc.devRef .tc r) :=
  after_of_writes_sub rv20 _ rv20_writes h0

set_option maxHeartbeats 3000000 in
theorem v_wrG_main_v536_eq (V : Valuation τ sig (Elt F)) : v_wrG V (Proc.devRef .tc main_v536) =
      (select ((cmpf .ogt) ((v_wrF7 V) (Proc.devRef .tc main_v256)) ((broadcastInDim S2000000 ![] bcast_S_S2000000) (constant S_ .f32 0x00000000#32))) ((v_wrF7 V) (Proc.devRef .tc main_v256)) (mulf ((broadcastInDim S2000000 ![] bcast_S_S2000000) (constant S_ .f32 0x3F800000#32)) (Host.expm1 (select ((cmpf .ogt) ((v_wrF7 V) (Proc.devRef .tc main_v256)) ((broadcastInDim S2000000 ![] bcast_S_S2000000) (constant S_ .f32 0x00000000#32))) ((broadcastInDim S2000000 ![] bcast_S_S2000000) (id (constant S_ .f32 0x00000000#32))) ((v_wrF7 V) (Proc.devRef .tc main_v256)))))) := by
  unfold v_wrG
  generalize v_wrF7 V = V
  simp only [rv20]
  after_results_simp
  all_goals rfl

def v_wrH (V : Valuation τ sig (Elt F)) : Valuation τ sig (Elt F) := (after rv21 (v_wrG V))
theorem v_wrH_keep {V : Valuation τ sig (Elt F)} (r : Ref sig .tc) (h0 : r ∉ rv21_W) :
    v_wrH V (Proc.devRef .tc r) = (v_wrG V) (Proc.devRef .tc r) :=
  after_of_writes_sub rv21 _ rv21_writes h0

set_option maxHeartbeats 2800000 in
theorem v_wrH_main_v545_eq (V : Valuation τ sig (Elt F)) : v_wrH V (Proc.devRef .tc main_v545) =
      ((Host.divf : (⟨S2000000x3, .f32⟩ : BufTy).Contents (Elt F) → (⟨S2000000x3, .f32⟩ : BufTy).Contents (Elt F) → (⟨S2000000x3, .f32⟩ : BufTy).Contents (Elt F)) ((addf : (⟨S2000000x3, .f32⟩ : BufTy).Contents (Elt F) → (⟨S2000000x3, .f32⟩ : BufTy).Contents (Elt F) → (⟨S2000000x3, .f32⟩ : BufTy).Contents (Elt F)) ((Host.tanh : (⟨S2000000x3, .f32⟩ : BufTy).Contents (Elt F) → (⟨S2000000x3, .f32⟩ : BufTy).Contents (Elt F)) ((v_wrG V) (Proc.devRef .tc main_v535))) ((broadcastInDim S2000000x3 ![0, 1] bcast_S1x3_S2000000x3_0_1 : (⟨S1x3, .f32⟩ : BufTy).Contents (Elt F) → (⟨S2000000x3, .f32⟩ : BufTy).Contents (Elt F)) ((broadcastInDim S1x3 ![1] bcast_S3_S1x3_1 : (⟨S3, .f32⟩ : BufTy).Contents (Elt F) → (⟨S1x3, .f32⟩ : BufTy).Contents (Elt F)) ((v_wrG V) (Proc.devRef .tc main_cst))))) ((broadcastInDim S2000000x3 ![0, 1] bcast_S2000000x1_S2000000x3_0_1 : (⟨S2000000x1, .f32⟩ : BufTy).Contents (Elt F) → (⟨S2000000x3, .f32⟩ : BufTy).Contents (Elt F)) ((maximumf : (⟨S2000000x1, .f32⟩ : BufTy).Contents (Elt F) → (⟨S2000000x1, .f32⟩ : BufTy).Contents (Elt F) → (⟨S2000000x1, .f32⟩ : BufTy).Contents (Elt F)) (Host.sqrt ((broadcastInDim S2000000x1 ![0] bcast_S2000000_S2000000x1_0) ((fun x v => Host.reduceAdd x v reducesTo_S2000000x3_S2000000_d1 h_S_) (mulf ((addf : (⟨S2000000x3, .f32⟩ : BufTy).Contents (Elt F) → (⟨S2000000x3, .f32⟩ : BufTy).Contents (Elt F) → (⟨S2000000x3, .f32⟩ : BufTy).Contents (Elt F)) ((Host.tanh : (⟨S2000000x3, .f32⟩ : BufTy).Contents (Elt F) → (⟨S2000000x3, .f32⟩ : BufTy).Contents (Elt F)) ((v_wrG V) (Proc.devRef .tc main_v535))) ((broadcastInDim S2000000x3 ![0, 1] bcast_S1x3_S2000000x3_0_1 : (⟨S1x3, .f32⟩ : BufTy).Contents (Elt F) → (⟨S2000000x3, .f32⟩ : BufTy).Contents (Elt F)) ((broadcastInDim S1x3 ![1] bcast_S3_S1x3_1 : (⟨S3, .f32⟩ : BufTy).Contents (Elt F) → (⟨S1x3, .f32⟩ : BufTy).Contents (Elt F)) ((v_wrG V) (Proc.devRef .tc main_cst))))) ((addf : (⟨S2000000x3, .f32⟩ : BufTy).Contents (Elt F) → (⟨S2000000x3, .f32⟩ : BufTy).Contents (Elt F) → (⟨S2000000x3, .f32⟩ : BufTy).Contents (Elt F)) ((Host.tanh : (⟨S2000000x3, .f32⟩ : BufTy).Contents (Elt F) → (⟨S2000000x3, .f32⟩ : BufTy).Contents (Elt F)) ((v_wrG V) (Proc.devRef .tc main_v535))) ((broadcastInDim S2000000x3 ![0, 1] bcast_S1x3_S2000000x3_0_1 : (⟨S1x3, .f32⟩ : BufTy).Contents (Elt F) → (⟨S2000000x3, .f32⟩ : BufTy).Contents (Elt F)) ((broadcastInDim S1x3 ![1] bcast_S3_S1x3_1 : (⟨S3, .f32⟩ : BufTy).Contents (Elt F) → (⟨S1x3, .f32⟩ : BufTy).Contents (Elt F)) ((v_wrG V) (Proc.devRef .tc main_cst)))))) (constant S_ .f32 0x00000000#32)))) ((broadcastInDim S2000000x1 ![] bcast_S_S2000000x1 : (⟨S_, .f32⟩ : BufTy).Contents (Elt F) → (⟨S2000000x1, .f32⟩ : BufTy).Contents (Elt F)) (constant S_ .f32 0x2B8CBCCC#32))))) := by
  unfold v_wrH
  generalize v_wrG V = V
  simp only [rv21]
  after_results_simp
  all_goals rfl

end Cert.ReferenceIdeal.Hand

end
-- ==== Proof.RRun.lean ====
import proofs.«415693_j15238543966484_3_alg».proof.Proof.RVals
import proofs.«415693_j15238543966484_3_alg».proof.Proof.LibLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main is its 696 operations in order: its eleven printed pieces are consecutive stretches of the one list. -/
theorem main_eq (c : Dev nD) : main (F := F) c = seq opsV := by
  rw [← Cert.Line.seqCut_eq [70, 60, 60, 60, 60, 70, 60, 60, 60, 60] opsV]
  rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
theorem ops_sub : (opsV : List (HloOp τ sig (Elt F))).Forall fun op => op.bufs ⊆ tcRefs τ sig := by
  simp only [opsV, List.forall_append, List.Forall, nullary_bufs_sub, unary_bufs_sub, binary_bufs_sub, ternary_bufs_sub,
    quaternary_bufs_sub, reshape_bufs_sub, binaryIndexed_bufs_sub, nary_bufs_sub, unaryIndexed_bufs_sub, and_self]

set_option maxHeartbeats 4000000 in
theorem ops_fresh : ∀ op ∈ (opsV : List (HloOp τ sig (Elt F))), op.fresh = ∅ :=
  List.forall_iff_forall_mem.mp (by
    simp only [opsV, List.forall_append, List.Forall]
    repeat' apply And.intro
    all_goals rfl)

/-- Every weakly fair execution of @main ends with each buffer at the operations' fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsV (launchContents m c) (Proc.devRef .tc b) :=
  run_seq scopedRefs_eq scopedSems_eq defs main (fun _ => opsV) main_eq (fun _ => ops_sub) m ρ (fun _ => ops_fresh)

end Cert.ReferenceIdeal.Hand

end
-- ==== Proof.RGlue.lean ====
import proofs.«415693_j15238543966484_3_alg».proof.Proof.RRun
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the folds in turn, which is how the cumulative contents are defined. -/
theorem after_ops (V : Valuation τ sig (Elt F)) : after opsV V = v_wrH V := by
  simp only [opsV, StableHlo.after_append]
  rfl

theorem after_ops_arg0 (V : Valuation τ sig (Elt F)) : after opsV V (Proc.devRef .tc main_arg0) = V (Proc.devRef .tc main_arg0) := by
  rw [after_ops, (v_wrH_keep main_arg0 (by decide)), (v_wrG_keep main_arg0 (by decide)), (v_wrF7_keep main_arg0 (by decide)), (v_wrF6_keep main_arg0 (by decide)), (v_wrF5_keep main_arg0 (by decide)), (v_wrF4_keep main_arg0 (by decide)), (v_wrF3_keep main_arg0 (by decide)), (v_wrF2_keep main_arg0 (by decide)), (v_wrF1_keep main_arg0 (by decide)), (v_wrF0_keep main_arg0 (by decide)), (v_wrE_keep main_arg0 (by decide)), (v_wrD_keep main_arg0 (by decide)), (v_wrC7_keep main_arg0 (by decide)), (v_wrC6_keep main_arg0 (by decide)), (v_wrC5_keep main_arg0 (by decide)), (v_wrC4_keep main_arg0 (by decide)), (v_wrC3_keep main_arg0 (by decide)), (v_wrC2_keep main_arg0 (by decide)), (v_wrC1_keep main_arg0 (by decide)), (v_wrC0_keep main_arg0 (by decide)), (v_wrB_keep main_arg0 (by decide)), (v_wrA_keep main_arg0 (by decide))]
theorem after_ops_arg1 (V : Valuation τ sig (Elt F)) : after opsV V (Proc.devRef .tc main_arg1) = V (Proc.devRef .tc main_arg1) := by
  rw [after_ops, (v_wrH_keep main_arg1 (by decide)), (v_wrG_keep main_arg1 (by decide)), (v_wrF7_keep main_arg1 (by decide)), (v_wrF6_keep main_arg1 (by decide)), (v_wrF5_keep main_arg1 (by decide)), (v_wrF4_keep main_arg1 (by decide)), (v_wrF3_keep main_arg1 (by decide)), (v_wrF2_keep main_arg1 (by decide)), (v_wrF1_keep main_arg1 (by decide)), (v_wrF0_keep main_arg1 (by decide)), (v_wrE_keep main_arg1 (by decide)), (v_wrD_keep main_arg1 (by decide)), (v_wrC7_keep main_arg1 (by decide)), (v_wrC6_keep main_arg1 (by decide)), (v_wrC5_keep main_arg1 (by decide)), (v_wrC4_keep main_arg1 (by decide)), (v_wrC3_keep main_arg1 (by decide)), (v_wrC2_keep main_arg1 (by decide)), (v_wrC1_keep main_arg1 (by decide)), (v_wrC0_keep main_arg1 (by decide)), (v_wrB_keep main_arg1 (by decide)), (v_wrA_keep main_arg1 (by decide))]
theorem after_ops_arg2 (V : Valuation τ sig (Elt F)) : after opsV V (Proc.devRef .tc main_arg2) = V (Proc.devRef .tc main_arg2) := by
  rw [after_ops, (v_wrH_keep main_arg2 (by decide)), (v_wrG_keep main_arg2 (by decide)), (v_wrF7_keep main_arg2 (by decide)), (v_wrF6_keep main_arg2 (by decide)), (v_wrF5_keep main_arg2 (by decide)), (v_wrF4_keep main_arg2 (by decide)), (v_wrF3_keep main_arg2 (by decide)), (v_wrF2_keep main_arg2 (by decide)), (v_wrF1_keep main_arg2 (by decide)), (v_wrF0_keep main_arg2 (by decide)), (v_wrE_keep main_arg2 (by decide)), (v_wrD_keep main_arg2 (by decide)), (v_wrC7_keep main_arg2 (by decide)), (v_wrC6_keep main_arg2 (by decide)), (v_wrC5_keep main_arg2 (by decide)), (v_wrC4_keep main_arg2 (by decide)), (v_wrC3_keep main_arg2 (by decide)), (v_wrC2_keep main_arg2 (by decide)), (v_wrC1_keep main_arg2 (by decide)), (v_wrC0_keep main_arg2 (by decide)), (v_wrB_keep main_arg2 (by decide)), (v_wrA_keep main_arg2 (by decide))]

/-- @main ends with its two results at the last cumulative contents and its three arguments as launched: no window writes an argument. -/
theorem run_vals (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v536) = v_wrH (launchContents m c) (Proc.devRef .tc main_v536)
      ∧ r.2.mem ((c.tc : Thread nD τ).loc main_v545) = v_wrH (launchContents m c) (Proc.devRef .tc main_v545)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v536).trans (congrFun (after_ops (launchContents m c)) _),
     (h c main_v545).trans (congrFun (after_ops (launchContents m c)) _),
     (h c main_arg0).trans (after_ops_arg0 (launchContents m c)),
     (h c main_arg1).trans (after_ops_arg1 (launchContents m c)),
     (h c main_arg2).trans (after_ops_arg2 (launchContents m c))⟩)
    (run m ρ)

/-- The frame is the value run with the results dropped. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2.2) (run_vals m ρ)

end Cert.ReferenceIdeal.Hand

end
-- ==== Proof.RRows.lean ====
import proofs.«415693_j15238543966484_3_alg».proof.Proof.RVals
import proofs.«415693_j15238543966484_3_alg».proof.Proof.Spec
import proofs.«415693_j15238543966484_3_alg».proof.Proof.Index
import proofs.«415693_j15238543966484_3_alg».proof.Proof.Rows
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

theorem elu_term (a : FVec Ideal S2000000 .f32) (j : Fin 2000000) :
    (select ((cmpf .ogt) a ((broadcastInDim S2000000 ![] bcast_S_S2000000) (constant S_ .f32 0x00000000#32))) a (mulf ((broadcastInDim S2000000 ![] bcast_S_S2000000) (constant S_ .f32 0x3F800000#32)) (Host.expm1 (select ((cmpf .ogt) a ((broadcastInDim S2000000 ![] bcast_S_S2000000) (constant S_ .f32 0x00000000#32))) ((broadcastInDim S2000000 ![] bcast_S_S2000000) (id (constant S_ .f32 0x00000000#32))) a)))) (ix1 j)
      = Cert.Spec.eluR (a (ix1 j)) := rfl

theorem row_a (V : Valuation τ sig (Elt Ideal)) (j : Fin 2000000) :
    v_wrH V (Proc.devRef .tc main_v536) (ix1 j) = Cert.Spec.eluR (v_wrD V (Proc.devRef .tc main_v256) (ix1 j)) := by
  rw [(v_wrH_keep main_v536 (by decide)), v_wrG_main_v536_eq, (v_wrF7_keep main_v256 (by decide)), (v_wrF6_keep main_v256 (by decide)), (v_wrF5_keep main_v256 (by decide)), (v_wrF4_keep main_v256 (by decide)), (v_wrF3_keep main_v256 (by decide)), (v_wrF2_keep main_v256 (by decide)), (v_wrF1_keep main_v256 (by decide)), (v_wrF0_keep main_v256 (by decide)), (v_wrE_keep main_v256 (by decide))]
  exact elu_term _ j

theorem crow_apply (j : Fin 2000000) (ch : Fin 3) :
    (broadcastInDim S2000000x3 ![0, 1] bcast_S1x3_S2000000x3_0_1 (broadcastInDim S1x3 ![1] bcast_S3_S1x3_1 (fun i => FloatOps.ofBits (F := Ideal) .f32 (lit0 (S3.rowMajor i))))) (ix2 j ch)
      = (![Cert.Spec.negOneF, Cert.Spec.zeroF, Cert.Spec.zeroF] : Fin 3 → EReal) ch := by
  fin_cases ch <;> rfl

abbrev crow : FVec Ideal S2000000x3 .f32 :=
  broadcastInDim S2000000x3 ![0, 1] bcast_S1x3_S2000000x3_0_1 (broadcastInDim S1x3 ![1] bcast_S3_S1x3_1 (fun i => FloatOps.ofBits (F := Ideal) .f32 (lit0 (S3.rowMajor i))))

theorem shifted_apply (n : FVec Ideal S2000000x3 .f32) (j : Fin 2000000) (ch : Fin 3) :
    (addf (Host.tanh n) crow) (ix2 j ch) = Cert.Spec.tR (n (ix2 j 0)) (n (ix2 j 1)) (n (ix2 j 2)) ch := by
  show Ideal.tanh (n (ix2 j ch)) + crow (ix2 j ch) = _
  rw [show crow (ix2 j ch) = _ from crow_apply j ch]
  fin_cases ch
  · rfl
  · rfl
  · rfl

theorem bcast_col_apply {α : Type} (m : S2000000x1.Idx → α) (j : Fin 2000000) (ch : Fin 3) :
    broadcastInDim S2000000x3 ![0, 1] bcast_S2000000x1_S2000000x3_0_1 m (ix2 j ch) = m (ix2 j 0) := by
  refine broadcastInDim_apply ![0, 1] bcast_S2000000x1_S2000000x3_0_1 m _ (ix2 j 0) fun a => ?_
  match a with
  | ⟨0, _⟩ => rfl
  | ⟨1, _⟩ => rfl

theorem bcast_row_apply {α : Type} (m : S2000000.Idx → α) (j : Fin 2000000) :
    broadcastInDim S2000000x1 ![0] bcast_S2000000_S2000000x1_0 m (ix2 j 0) = m (ix1 j) := by
  refine broadcastInDim_apply ![0] bcast_S2000000_S2000000x1_0 m _ (ix1 j) fun a => ?_
  match a with
  | ⟨0, _⟩ => rfl

theorem reduces_d1 : S2000000x3.Reduces [1] S2000000 := by decide

theorem lift_d1 (j : Fin 2000000) (k : Fin 3) : reduces_d1.lift (ix1 j) k = ix2 j k := by
  funext a
  match a with
  | ⟨0, _⟩ => exact Fin.ext rfl
  | ⟨1, _⟩ => exact Fin.ext rfl

theorem sumsq_apply (t : FVec Ideal S2000000x3 .f32) (j : Fin 2000000) :
    ((fun x v => Host.reduceAdd x v reducesTo_S2000000x3_S2000000_d1 h_S_) (mulf t t) (constant S_ .f32 0x00000000#32)) (ix1 j)
      = Cert.Spec.zeroF + ∑ k : Fin 3, t (ix2 j k) * t (ix2 j k) := by
  show Ideal.hostReduceAdd reducesTo_S2000000x3_S2000000_d1 (mulf t t) Cert.Spec.zeroF (ix1 j) = _
  rw [Ideal.hostReduceAdd_single reducesTo_S2000000x3_S2000000_d1 reduces_d1]
  show Cert.Spec.zeroF + ∑ k : Fin 3, (mulf t t) (reduces_d1.lift (ix1 j) k) = _
  simp only [lift_d1]
  rfl

theorem hdivf_apply {s : Shape} (a b : FVec Ideal s .f32) (i : s.Idx) : Host.divf a b i = Ideal.div (a i) (b i) := rfl
theorem hsqrt_apply {s : Shape} (a : FVec Ideal s .f32) (i : s.Idx) : Host.sqrt a i = Ideal.sqrt (a i) := rfl

theorem norm_term (n : FVec Ideal S2000000x3 .f32) (j : Fin 2000000) (ch : Fin 3) :
    (Host.divf (addf (Host.tanh n) crow) (broadcastInDim S2000000x3 ![0, 1] bcast_S2000000x1_S2000000x3_0_1 (maximumf (Host.sqrt (broadcastInDim S2000000x1 ![0] bcast_S2000000_S2000000x1_0 ((fun x v => Host.reduceAdd x v reducesTo_S2000000x3_S2000000_d1 h_S_) (mulf (addf (Host.tanh n) crow) (addf (Host.tanh n) crow)) (constant S_ .f32 0x00000000#32)))) (broadcastInDim S2000000x1 ![] bcast_S_S2000000x1 (constant S_ .f32 0x2B8CBCCC#32))))) (ix2 j ch)
      = Cert.Spec.normR (n (ix2 j 0)) (n (ix2 j 1)) (n (ix2 j 2)) ch := by
  rw [hdivf_apply, shifted_apply, bcast_col_apply, maximumf_apply, hsqrt_apply, bcast_row_apply, sumsq_apply]
  simp only [shifted_apply]
  rfl

theorem row_n (V : Valuation τ sig (Elt Ideal)) (j : Fin 2000000) (ch : Fin 3) :
    v_wrH V (Proc.devRef .tc main_v545) (ix2 j ch)
      = Cert.Spec.normR (v_wrF7 V (Proc.devRef .tc main_v535) (ix2 j 0)) (v_wrF7 V (Proc.devRef .tc main_v535) (ix2 j 1))
          (v_wrF7 V (Proc.devRef .tc main_v535) (ix2 j 2)) ch := by
  rw [v_wrH_main_v545_eq, (v_wrG_keep main_v535 (by decide)), (v_wrG_keep main_cst (by decide)), (v_wrF7_keep main_cst (by decide)), (v_wrF6_keep main_cst (by decide)), (v_wrF5_keep main_cst (by decide)), (v_wrF4_keep main_cst (by decide)), (v_wrF3_keep main_cst (by decide)), (v_wrF2_keep main_cst (by decide)), (v_wrF1_keep main_cst (by decide)), (v_wrF0_keep main_cst (by decide)), (v_wrE_keep main_cst (by decide)), (v_wrD_keep main_cst (by decide)), (v_wrC7_keep main_cst (by decide)), (v_wrC6_keep main_cst (by decide)), (v_wrC5_keep main_cst (by decide)), (v_wrC4_keep main_cst (by decide)), (v_wrC3_keep main_cst (by decide)), (v_wrC2_keep main_cst (by decide)), (v_wrC1_keep main_cst (by decide)), (v_wrC0_keep main_cst (by decide)), (v_wrB_keep main_cst (by decide)), v_wrA_main_cst_eq]
  exact norm_term _ j ch

theorem clip_row (x : IVec S2000000x3 32) (j : Fin 2000000) (r : Fin 3) :
    0 ≤ ((minsi ((broadcastInDim S2000000x3 ![0, 1] bcast_S1x3_S2000000x3_0_1) ((broadcastInDim S1x3 ![1] bcast_S3_S1x3_1) (fun i => lit1 (S3.rowMajor i)))) (maxsi ((broadcastInDim S2000000x3 ![] bcast_S_S2000000x3) (id (constantI S_ 32 0#32))) x)) (ix2 j r)).toInt
      ∧ ((minsi ((broadcastInDim S2000000x3 ![0, 1] bcast_S1x3_S2000000x3_0_1) ((broadcastInDim S1x3 ![1] bcast_S3_S1x3_1) (fun i => lit1 (S3.rowMajor i)))) (maxsi ((broadcastInDim S2000000x3 ![] bcast_S_S2000000x3) (id (constantI S_ 32 0#32))) x)) (ix2 j r)).toInt
          ≤ (![127, 511, 511] : Fin 3 → Int) r := by
  fin_cases r
  · exact Cert.Index.clip_bounds (x (ix2 j 0)) 0#32 127#32 (by decide)
  · exact Cert.Index.clip_bounds (x (ix2 j 1)) 0#32 511#32 (by decide)
  · exact Cert.Index.clip_bounds (x (ix2 j 2)) 0#32 511#32 (by decide)

def frac1 (V : Valuation τ sig (Elt Ideal)) : FVec Ideal S2000000x3 .f32 := v_wrA V (Proc.devRef .tc main_v2)

def lo1 (V : Valuation τ sig (Elt Ideal)) (j : Fin 2000000) : Fin 3 → BitVec 32 :=
  fun r => v_wrA V (Proc.devRef .tc main_v4) (ix2 j r)

def hi1 (V : Valuation τ sig (Elt Ideal)) (j : Fin 2000000) : Fin 3 → BitVec 32 :=
  fun r => v_wrA V (Proc.devRef .tc main_v7) (ix2 j r)

theorem lo1_bounds (V : Valuation τ sig (Elt Ideal)) (j : Fin 2000000) (r : Fin 3) :
    0 ≤ (lo1 V j r).toInt ∧ (lo1 V j r).toInt ≤ (![127, 511, 511] : Fin 3 → Int) r := by
  unfold lo1
  rw [v_wrA_main_v4_eq]
  exact clip_row _ j r

theorem hi1_bounds (V : Valuation τ sig (Elt Ideal)) (j : Fin 2000000) (r : Fin 3) :
    0 ≤ (hi1 V j r).toInt ∧ (hi1 V j r).toInt ≤ (![127, 511, 511] : Fin 3 → Int) r := by
  unfold hi1
  rw [v_wrA_main_v7_eq]
  exact clip_row _ j r

theorem col_apply {α : Type} (I : S2000000x3.Idx → α) (o : Nat) (ho : o < 3) (sl : S2000000x3.Slices ![0, o] S2000000x1)
    (j : Fin 2000000) :
    shapeCast S2000000 (extractStridedSlice S2000000x1 ![0, o] I sl) shapeCasts_S2000000x1_S2000000 (ix1 j)
      = I (ix2 j ⟨o, ho⟩) := by
  refine (shapeCast_apply _ shapeCasts_S2000000x1_S2000000 (ix1 j) (ix2 j 0) ?_).trans ?_
  · rw [Shape.rowMajor_val_two, Shape.rowMajor_val_one]
    show j.val * 1 + 0 = j.val
    omega
  · refine extractStridedSlice_apply ![0, o] I sl (ix2 j 0) (ix2 j ⟨o, ho⟩) fun a => ?_
    match a with
    | ⟨0, _⟩ => show j.val = 0 + j.val; omega
    | ⟨1, _⟩ => show o = o + 0; omega

theorem wrapCol_apply (I : IVec S2000000x3 32) (o : Nat) (ho : o < 3) (sl : S2000000x3.Slices ![0, o] S2000000x1)
    (n : BitVec 32) (j : Fin 2000000) (h0 : 0 ≤ (I (ix2 j ⟨o, ho⟩)).toInt) :
    (broadcastInDim S2000000x1 ![0] bcast_S2000000_S2000000x1_0
      (select (cmpi .slt (shapeCast S2000000 (extractStridedSlice S2000000x1 ![0, o] I sl) shapeCasts_S2000000x1_S2000000)
          (broadcastInDim S2000000 ![] bcast_S_S2000000 (constantI S_ 32 0#32)))
        (addi (shapeCast S2000000 (extractStridedSlice S2000000x1 ![0, o] I sl) shapeCasts_S2000000x1_S2000000)
          (broadcastInDim S2000000 ![] bcast_S_S2000000 (constantI S_ 32 n)))
        (shapeCast S2000000 (extractStridedSlice S2000000x1 ![0, o] I sl) shapeCasts_S2000000x1_S2000000))) (ix2 j 0)
      = I (ix2 j ⟨o, ho⟩) := by
  rw [bcast_row_apply]
  show Scalar.select (IntOp.cmpi .slt (shapeCast S2000000 (extractStridedSlice S2000000x1 ![0, o] I sl) shapeCasts_S2000000x1_S2000000 (ix1 j)) 0#32)
      (IntOp.addi (shapeCast S2000000 (extractStridedSlice S2000000x1 ![0, o] I sl) shapeCasts_S2000000x1_S2000000 (ix1 j)) n)
      (shapeCast S2000000 (extractStridedSlice S2000000x1 ![0, o] I sl) shapeCasts_S2000000x1_S2000000 (ix1 j)) = _
  rw [col_apply I o ho sl j]
  exact Cert.Index.wrap_neg n _ h0

theorem concat3_off (j : Fin 2000000) (r : Fin 3) :
    ∀ b : Fin S2000000x1.rank, b.cast (rfl : S2000000x1.rank = S2000000x3.rank) ≠ (1 : Fin S2000000x3.rank) →
      ((ix2 j (0 : Fin 1) : S2000000x1.Idx) b).val = ((ix2 j r : S2000000x3.Idx) (b.cast rfl)).val := fun b =>
  match b with
  | ⟨0, _⟩ => fun _ => rfl
  | ⟨1, _⟩ => fun h => absurd rfl h

theorem concat3_apply0 {α : Type} (c0 c1 c2 : S2000000x1.Idx → α) (j : Fin 2000000) :
    concatenate S2000000x3 1 [⟨S2000000x1, c0⟩, ⟨S2000000x1, c1⟩, ⟨S2000000x1, c2⟩]
        concatenates_S2000000x1_S2000000x1_S2000000x1_S2000000x3_d1 (ix2 j 0) = c0 (ix2 j 0) :=
  concatenate_apply_piece (t := S2000000x3) 1 [⟨S2000000x1, c0⟩, ⟨S2000000x1, c1⟩, ⟨S2000000x1, c2⟩]
    concatenates_S2000000x1_S2000000x1_S2000000x1_S2000000x3_d1 (ix2 j (0 : Fin 3) : S2000000x3.Idx) 0
    (by show 0 < 3; omega) S2000000x1 c0 rfl rfl 0 rfl (ix2 j (0 : Fin 1) : S2000000x1.Idx) (concat3_off j 0) rfl
theorem concat3_apply1 {α : Type} (c0 c1 c2 : S2000000x1.Idx → α) (j : Fin 2000000) :
    concatenate S2000000x3 1 [⟨S2000000x1, c0⟩, ⟨S2000000x1, c1⟩, ⟨S2000000x1, c2⟩]
        concatenates_S2000000x1_S2000000x1_S2000000x1_S2000000x3_d1 (ix2 j 1) = c1 (ix2 j 0) :=
  concatenate_apply_piece (t := S2000000x3) 1 [⟨S2000000x1, c0⟩, ⟨S2000000x1, c1⟩, ⟨S2000000x1, c2⟩]
    concatenates_S2000000x1_S2000000x1_S2000000x1_S2000000x3_d1 (ix2 j (1 : Fin 3) : S2000000x3.Idx) 1
    (by show 1 < 3; omega) S2000000x1 c1 rfl rfl 1 rfl (ix2 j (0 : Fin 1) : S2000000x1.Idx) (concat3_off j 1) rfl
theorem concat3_apply2 {α : Type} (c0 c1 c2 : S2000000x1.Idx → α) (j : Fin 2000000) :
    concatenate S2000000x3 1 [⟨S2000000x1, c0⟩, ⟨S2000000x1, c1⟩, ⟨S2000000x1, c2⟩]
        concatenates_S2000000x1_S2000000x1_S2000000x1_S2000000x3_d1 (ix2 j 2) = c2 (ix2 j 0) :=
  concatenate_apply_piece (t := S2000000x3) 1 [⟨S2000000x1, c0⟩, ⟨S2000000x1, c1⟩, ⟨S2000000x1, c2⟩]
    concatenates_S2000000x1_S2000000x1_S2000000x1_S2000000x3_d1 (ix2 j (2 : Fin 3) : S2000000x3.Idx) 2
    (by show 2 < 3; omega) S2000000x1 c2 rfl rfl 2 rfl (ix2 j (0 : Fin 1) : S2000000x1.Idx) (concat3_off j 2) rfl

theorem startIdx_apply (Iz Ix Iy : IVec S2000000x3 32) (j : Fin 2000000)
    (hz : 0 ≤ (Iz (ix2 j 0)).toInt) (hx : 0 ≤ (Ix (ix2 j 1)).toInt) (hy : 0 ≤ (Iy (ix2 j 2)).toInt) :
    startIdx Iz Ix Iy (ix2 j 0) = Iz (ix2 j 0)
    ∧ startIdx Iz Ix Iy (ix2 j 1) = Ix (ix2 j 1)
    ∧ startIdx Iz Ix Iy (ix2 j 2) = Iy (ix2 j 2) := by
  unfold startIdx startCol
  refine ⟨?_, ?_, ?_⟩
  · rw [concat3_apply0]; exact wrapCol_apply Iz 0 (by decide) _ _ j hz
  · rw [concat3_apply1]; exact wrapCol_apply Ix 1 (by decide) _ _ j hx
  · rw [concat3_apply2]; exact wrapCol_apply Iy 2 (by decide) _ _ j hy

theorem gatherA_apply (A : FVec Ideal S128x512x512 .f32) (idx : IVec S2000000x3 32) (j : Fin 2000000) (z x y : BitVec 32)
    (h0 : idx (ix2 j 0) = z) (h1 : idx (ix2 j 1) = x) (h2 : idx (ix2 j 2) = y) :
    Host.gather gather_S128x512x512x1_S2000000x3_S2000000x1_1_012_n_n_012_1_1111
        (broadcastInDim S128x512x512x1 ![0, 1, 2] bcast_S128x512x512_S128x512x512x1_0_1_2 A) idx (ix2 j 0)
      = Cert.Rows.cellA A z x y := by
  subst h0 h1 h2
  refine (Cert.Index.gR1_apply gather_S128x512x512x1_S2000000x3_S2000000x1_1_012_n_n_012_1_1111_wf _ idx j).trans ?_
  exact Cert.Index.bcastA_apply A _ _ _ _

/-- A corner at row `j`: the voxel its three words name (non-negative, so the wrap leaves them alone), times its three weights. -/
theorem cornerA_apply (G : FVec Ideal S128x512x512x1 .f32) (A : FVec Ideal S128x512x512 .f32)
    (hG : G = broadcastInDim S128x512x512x1 ![0, 1, 2] bcast_S128x512x512_S128x512x512x1_0_1_2 A)
    (Iz Ix Iy : IVec S2000000x3 32) (w1 w2 w3 : FVec Ideal S2000000x1 .f32) (j : Fin 2000000)
    (hz : 0 ≤ (Iz (ix2 j 0)).toInt) (hx : 0 ≤ (Ix (ix2 j 1)).toInt) (hy : 0 ≤ (Iy (ix2 j 2)).toInt) :
    cornerA G Iz Ix Iy w1 w2 w3 (ix2 j 0)
      = ((Cert.Rows.cellA A (Iz (ix2 j 0)) (Ix (ix2 j 1)) (Iy (ix2 j 2)) * w1 (ix2 j 0)) * w2 (ix2 j 0)) * w3 (ix2 j 0) := by
  subst hG
  unfold cornerA
  obtain ⟨e0, e1, e2⟩ := startIdx_apply Iz Ix Iy j hz hx hy
  rw [mulf_apply, mulf_apply, mulf_apply]
  congr 3
  exact gatherA_apply A _ j _ _ _ e0 e1 e2

theorem fcol_apply (f : FVec Ideal S2000000x3 .f32) (o : Nat) (ho : o < 3) (sl : S2000000x3.Slices ![0, o] S2000000x1)
    (j : Fin 2000000) : ((extractStridedSlice S2000000x1 ![0, o] · sl) f) (ix2 j 0) = f (ix2 j ⟨o, ho⟩) := by
  refine extractStridedSlice_apply ![0, o] f sl (ix2 j 0) (ix2 j ⟨o, ho⟩) fun a => ?_
  match a with
  | ⟨0, _⟩ => show j.val = 0 + j.val; omega
  | ⟨1, _⟩ => show o = o + 0; omega

theorem omfcol_apply (f : FVec Ideal S2000000x3 .f32) (o : Nat) (ho : o < 3) (sl : S2000000x3.Slices ![0, o] S2000000x1)
    (j : Fin 2000000) :
    (subf ((broadcastInDim S2000000x1 ![] bcast_S_S2000000x1) (constant S_ .f32 0x3F800000#32))
        ((extractStridedSlice S2000000x1 ![0, o] · sl) f)) (ix2 j 0) = Cert.Spec.oneF - f (ix2 j ⟨o, ho⟩) := by
  rw [subf_apply, fcol_apply f o ho sl j]
  rfl

def rd1 (x : FVec Ideal S2000000x1 .f32) (j : Fin 2000000) : EReal := x (ix2 j 0)

theorem rowA_step0 (V : Valuation τ sig (Elt Ideal)) (j : Fin 2000000) :
    rd1 (v_wrC0 V (Proc.devRef .tc main_v45)) j
      = ((Cert.Rows.cellA (α := EReal) (V (Proc.devRef .tc main_arg1)) (lo1 V j 0) (lo1 V j 1) (lo1 V j 2) * (Cert.Spec.oneF - frac1 V (ix2 j 0))) * (Cert.Spec.oneF - frac1 V (ix2 j 1))) * (Cert.Spec.oneF - frac1 V (ix2 j 2)) := by
  have k0 : v_wrB V (Proc.devRef .tc main_v0) = broadcastInDim S128x512x512x1 ![0, 1, 2] bcast_S128x512x512_S128x512x512x1_0_1_2 (V (Proc.devRef .tc main_arg1)) := by
    rw [(v_wrB_keep main_v0 (by decide)), v_wrA_main_v0_eq]
  have k_main_v4 : v_wrB V (Proc.devRef .tc main_v4) = v_wrA V (Proc.devRef .tc main_v4) := by
    rw [(v_wrB_keep main_v4 (by decide))]
  have kw1 : v_wrB V (Proc.devRef .tc main_v12) (ix2 j 0) = (Cert.Spec.oneF - frac1 V (ix2 j 0)) := by
    rw [v_wrB_main_v12_eq]
    exact omfcol_apply _ 0 (by decide) _ j
  have kw2 : v_wrB V (Proc.devRef .tc main_v14) (ix2 j 0) = (Cert.Spec.oneF - frac1 V (ix2 j 1)) := by
    rw [v_wrB_main_v14_eq]
    exact omfcol_apply _ 1 (by decide) _ j
  have kw3 : v_wrB V (Proc.devRef .tc main_v16) (ix2 j 0) = (Cert.Spec.oneF - frac1 V (ix2 j 2)) := by
    rw [v_wrB_main_v16_eq]
    exact omfcol_apply _ 2 (by decide) _ j
  unfold rd1
  rw [v_wrC0_main_v45_eq,
    cornerA_apply (v_wrB V (Proc.devRef .tc main_v0)) (V (Proc.devRef .tc main_arg1)) k0 (v_wrB V (Proc.devRef .tc main_v4)) (v_wrB V (Proc.devRef .tc main_v4)) (v_wrB V (Proc.devRef .tc main_v4))
      (v_wrB V (Proc.devRef .tc main_v12)) (v_wrB V (Proc.devRef .tc main_v14)) (v_wrB V (Proc.devRef .tc main_v16)) j (by rw [k_main_v4]; exact (lo1_bounds V j 0).1) (by rw [k_main_v4]; exact (lo1_bounds V j 1).1) (by rw [k_main_v4]; exact (lo1_bounds V j 2).1),
    kw1, kw2, kw3, k_main_v4]
  rfl

theorem rowA_step1 (V : Valuation τ sig (Elt Ideal)) (j : Fin 2000000) :
    rd1 (v_wrC1 V (Proc.devRef .tc main_v75)) j
      = rd1 (v_wrC0 V (Proc.devRef .tc main_v45)) j + ((Cert.Rows.cellA (α := EReal) (V (Proc.devRef .tc main_arg1)) (lo1 V j 0) (lo1 V j 1) (hi1 V j 2) * (Cert.Spec.oneF - frac1 V (ix2 j 0))) * (Cert.Spec.oneF - frac1 V (ix2 j 1))) * frac1 V (ix2 j 2) := by
  have k0 : v_wrC0 V (Proc.devRef .tc main_v0) = broadcastInDim S128x512x512x1 ![0, 1, 2] bcast_S128x512x512_S128x512x512x1_0_1_2 (V (Proc.devRef .tc main_arg1)) := by
    rw [(v_wrC0_keep main_v0 (by decide)), (v_wrB_keep main_v0 (by decide)), v_wrA_main_v0_eq]
  have k_main_v4 : v_wrC0 V (Proc.devRef .tc main_v4) = v_wrA V (Proc.devRef .tc main_v4) := by
    rw [(v_wrC0_keep main_v4 (by decide)), (v_wrB_keep main_v4 (by decide))]
  have k_main_v7 : v_wrC0 V (Proc.devRef .tc main_v7) = v_wrA V (Proc.devRef .tc main_v7) := by
    rw [(v_wrC0_keep main_v7 (by decide)), (v_wrB_keep main_v7 (by decide))]
  have kw1 : v_wrC0 V (Proc.devRef .tc main_v12) (ix2 j 0) = (Cert.Spec.oneF - frac1 V (ix2 j 0)) := by
    rw [(v_wrC0_keep main_v12 (by decide)), v_wrB_main_v12_eq]
    exact omfcol_apply _ 0 (by decide) _ j
  have kw2 : v_wrC0 V (Proc.devRef .tc main_v14) (ix2 j 0) = (Cert.Spec.oneF - frac1 V (ix2 j 1)) := by
    rw [(v_wrC0_keep main_v14 (by decide)), v_wrB_main_v14_eq]
    exact omfcol_apply _ 1 (by decide) _ j
  have kw3 : v_wrC0 V (Proc.devRef .tc main_v10) (ix2 j 0) = frac1 V (ix2 j 2) := by
    rw [(v_wrC0_keep main_v10 (by decide)), v_wrB_main_v10_eq]
    exact fcol_apply _ 2 (by decide) _ j
  unfold rd1
  rw [v_wrC1_main_v75_eq, addf_apply,
    cornerA_apply (v_wrC0 V (Proc.devRef .tc main_v0)) (V (Proc.devRef .tc main_arg1)) k0 (v_wrC0 V (Proc.devRef .tc main_v4)) (v_wrC0 V (Proc.devRef .tc main_v4)) (v_wrC0 V (Proc.devRef .tc main_v7))
      (v_wrC0 V (Proc.devRef .tc main_v12)) (v_wrC0 V (Proc.devRef .tc main_v14)) (v_wrC0 V (Proc.devRef .tc main_v10)) j (by rw [k_main_v4]; exact (lo1_bounds V j 0).1) (by rw [k_main_v4]; exact (lo1_bounds V j 1).1) (by rw [k_main_v7]; exact (hi1_bounds V j 2).1),
    kw1, kw2, kw3, k_main_v4, k_main_v7]
  rfl

theorem rowA_step2 (V : Valuation τ sig (Elt Ideal)) (j : Fin 2000000) :
    rd1 (v_wrC2 V (Proc.devRef .tc main_v105)) j
      = rd1 (v_wrC1 V (Proc.devRef .tc main_v75)) j + ((Cert.Rows.cellA (α := EReal) (V (Proc.devRef .tc main_arg1)) (lo1 V j 0) (hi1 V j 1) (lo1 V j 2) * (Cert.Spec.oneF - frac1 V (ix2 j 0))) * frac1 V (ix2 j 1)) * (Cert.Spec.oneF - frac1 V (ix2 j 2)) := by
  have k0 : v_wrC1 V (Proc.devRef .tc main_v0) = broadcastInDim S128x512x512x1 ![0, 1, 2] bcast_S128x512x512_S128x512x512x1_0_1_2 (V (Proc.devRef .tc main_arg1)) := by
    rw [(v_wrC1_keep main_v0 (by decide)), (v_wrC0_keep main_v0 (by decide)), (v_wrB_keep main_v0 (by decide)), v_wrA_main_v0_eq]
  have k_main_v4 : v_wrC1 V (Proc.devRef .tc main_v4) = v_wrA V (Proc.devRef .tc main_v4) := by
    rw [(v_wrC1_keep main_v4 (by decide)), (v_wrC0_keep main_v4 (by decide)), (v_wrB_keep main_v4 (by decide))]
  have k_main_v7 : v_wrC1 V (Proc.devRef .tc main_v7) = v_wrA V (Proc.devRef .tc main_v7) := by
    rw [(v_wrC1_keep main_v7 (by decide)), (v_wrC0_keep main_v7 (by decide)), (v_wrB_keep main_v7 (by decide))]
  have kw1 : v_wrC1 V (Proc.devRef .tc main_v12) (ix2 j 0) = (Cert.Spec.oneF - frac1 V (ix2 j 0)) := by
    rw [(v_wrC1_keep main_v12 (by decide)), (v_wrC0_keep main_v12 (by decide)), v_wrB_main_v12_eq]
    exact omfcol_apply _ 0 (by decide) _ j
  have kw2 : v_wrC1 V (Proc.devRef .tc main_v9) (ix2 j 0) = frac1 V (ix2 j 1) := by
    rw [(v_wrC1_keep main_v9 (by decide)), (v_wrC0_keep main_v9 (by decide)), v_wrB_main_v9_eq]
    exact fcol_apply _ 1 (by decide) _ j
  have kw3 : v_wrC1 V (Proc.devRef .tc main_v16) (ix2 j 0) = (Cert.Spec.oneF - frac1 V (ix2 j 2)) := by
    rw [(v_wrC1_keep main_v16 (by decide)), (v_wrC0_keep main_v16 (by decide)), v_wrB_main_v16_eq]
    exact omfcol_apply _ 2 (by decide) _ j
  unfold rd1
  rw [v_wrC2_main_v105_eq, addf_apply,
    cornerA_apply (v_wrC1 V (Proc.devRef .tc main_v0)) (V (Proc.devRef .tc main_arg1)) k0 (v_wrC1 V (Proc.devRef .tc main_v4)) (v_wrC1 V (Proc.devRef .tc main_v7)) (v_wrC1 V (Proc.devRef .tc main_v4))
      (v_wrC1 V (Proc.devRef .tc main_v12)) (v_wrC1 V (Proc.devRef .tc main_v9)) (v_wrC1 V (Proc.devRef .tc main_v16)) j (by rw [k_main_v4]; exact (lo1_bounds V j 0).1) (by rw [k_main_v7]; exact (hi1_bounds V j 1).1) (by rw [k_main_v4]; exact (lo1_bounds V j 2).1),
    kw1, kw2, kw3, k_main_v4, k_main_v7]
  rfl

theorem rowA_step3 (V : Valuation τ sig (Elt Ideal)) (j : Fin 2000000) :
    rd1 (v_wrC3 V (Proc.devRef .tc main_v135)) j
      = rd1 (v_wrC2 V (Proc.devRef .tc main_v105)) j + ((Cert.Rows.cellA (α := EReal) (V (Proc.devRef .tc main_arg1)) (lo1 V j 0) (hi1 V j 1) (hi1 V j 2) * (Cert.Spec.oneF - frac1 V (ix2 j 0))) * frac1 V (ix2 j 1)) * frac1 V (ix2 j 2) := by
  have k0 : v_wrC2 V (Proc.devRef .tc main_v0) = broadcastInDim S128x512x512x1 ![0, 1, 2] bcast_S128x512x512_S128x512x512x1_0_1_2 (V (Proc.devRef .tc main_arg1)) := by
    rw [(v_wrC2_keep main_v0 (by decide)), (v_wrC1_keep main_v0 (by decide)), (v_wrC0_keep main_v0 (by decide)), (v_wrB_keep main_v0 (by decide)), v_wrA_main_v0_eq]
  have k_main_v4 : v_wrC2 V (Proc.devRef .tc main_v4) = v_wrA V (Proc.devRef .tc main_v4) := by
    rw [(v_wrC2_keep main_v4 (by decide)), (v_wrC1_keep main_v4 (by decide)), (v_wrC0_keep main_v4 (by decide)), (v_wrB_keep main_v4 (by decide))]
  have k_main_v7 : v_wrC2 V (Proc.devRef .tc main_v7) = v_wrA V (Proc.devRef .tc main_v7) := by
    rw [(v_wrC2_keep main_v7 (by decide)), (v_wrC1_keep main_v7 (by decide)), (v_wrC0_keep main_v7 (by decide)), (v_wrB_keep main_v7 (by decide))]
  have kw1 : v_wrC2 V (Proc.devRef .tc main_v12) (ix2 j 0) = (Cert.Spec.oneF - frac1 V (ix2 j 0)) := by
    rw [(v_wrC2_keep main_v12 (by decide)), (v_wrC1_keep main_v12 (by decide)), (v_wrC0_keep main_v12 (by decide)), v_wrB_main_v12_eq]
    exact omfcol_apply _ 0 (by decide) _ j
  have kw2 : v_wrC2 V (Proc.devRef .tc main_v9) (ix2 j 0) = frac1 V (ix2 j 1) := by
    rw [(v_wrC2_keep main_v9 (by decide)), (v_wrC1_keep main_v9 (by decide)), (v_wrC0_keep main_v9 (by decide)), v_wrB_main_v9_eq]
    exact fcol_apply _ 1 (by decide) _ j
  have kw3 : v_wrC2 V (Proc.devRef .tc main_v10) (ix2 j 0) = frac1 V (ix2 j 2) := by
    rw [(v_wrC2_keep main_v10 (by decide)), (v_wrC1_keep main_v10 (by decide)), (v_wrC0_keep main_v10 (by decide)), v_wrB_main_v10_eq]
    exact fcol_apply _ 2 (by decide) _ j
  unfold rd1
  rw [v_wrC3_main_v135_eq, addf_apply,
    cornerA_apply (v_wrC2 V (Proc.devRef .tc main_v0)) (V (Proc.devRef .tc main_arg1)) k0 (v_wrC2 V (Proc.devRef .tc main_v4)) (v_wrC2 V (Proc.devRef .tc main_v7)) (v_wrC2 V (Proc.devRef .tc main_v7))
      (v_wrC2 V (Proc.devRef .tc main_v12)) (v_wrC2 V (Proc.devRef .tc main_v9)) (v_wrC2 V (Proc.devRef .tc main_v10)) j (by rw [k_main_v4]; exact (lo1_bounds V j 0).1) (by rw [k_main_v7]; exact (hi1_bounds V j 1).1) (by rw [k_main_v7]; exact (hi1_bounds V j 2).1),
    kw1, kw2, kw3, k_main_v4, k_main_v7]
  rfl

theorem rowA_step4 (V : Valuation τ sig (Elt Ideal)) (j : Fin 2000000) :
    rd1 (v_wrC4 V (Proc.devRef .tc main_v165)) j
      = rd1 (v_wrC3 V (Proc.devRef .tc main_v135)) j + ((Cert.Rows.cellA (α := EReal) (V (Proc.devRef .tc main_arg1)) (hi1 V j 0) (lo1 V j 1) (lo1 V j 2) * frac1 V (ix2 j 0)) * (Cert.Spec.oneF - frac1 V (ix2 j 1))) * (Cert.Spec.oneF - frac1 V (ix2 j 2)) := by
  have k0 : v_wrC3 V (Proc.devRef .tc main_v0) = broadcastInDim S128x512x512x1 ![0, 1, 2] bcast_S128x512x512_S128x512x512x1_0_1_2 (V (Proc.devRef .tc main_arg1)) := by
    rw [(v_wrC3_keep main_v0 (by decide)), (v_wrC2_keep main_v0 (by decide)), (v_wrC1_keep main_v0 (by decide)), (v_wrC0_keep main_v0 (by decide)), (v_wrB_keep main_v0 (by decide)), v_wrA_main_v0_eq]
  have k_main_v7 : v_wrC3 V (Proc.devRef .tc main_v7) = v_wrA V (Proc.devRef .tc main_v7) := by
    rw [(v_wrC3_keep main_v7 (by decide)), (v_wrC2_keep main_v7 (by decide)), (v_wrC1_keep main_v7 (by decide)), (v_wrC0_keep main_v7 (by decide)), (v_wrB_keep main_v7 (by decide))]
  have k_main_v4 : v_wrC3 V (Proc.devRef .tc main_v4) = v_wrA V (Proc.devRef .tc main_v4) := by
    rw [(v_wrC3_keep main_v4 (by decide)), (v_wrC2_keep main_v4 (by decide)), (v_wrC1_keep main_v4 (by decide)), (v_wrC0_keep main_v4 (by decide)), (v_wrB_keep main_v4 (by decide))]
  have kw1 : v_wrC3 V (Proc.devRef .tc main_v8) (ix2 j 0) = frac1 V (ix2 j 0) := by
    rw [(v_wrC3_keep main_v8 (by decide)), (v_wrC2_keep main_v8 (by decide)), (v_wrC1_keep main_v8 (by decide)), (v_wrC0_keep main_v8 (by decide)), v_wrB_main_v8_eq]
    exact fcol_apply _ 0 (by decide) _ j
  have kw2 : v_wrC3 V (Proc.devRef .tc main_v14) (ix2 j 0) = (Cert.Spec.oneF - frac1 V (ix2 j 1)) := by
    rw [(v_wrC3_keep main_v14 (by decide)), (v_wrC2_keep main_v14 (by decide)), (v_wrC1_keep main_v14 (by decide)), (v_wrC0_keep main_v14 (by decide)), v_wrB_main_v14_eq]
    exact omfcol_apply _ 1 (by decide) _ j
  have kw3 : v_wrC3 V (Proc.devRef .tc main_v16) (ix2 j 0) = (Cert.Spec.oneF - frac1 V (ix2 j 2)) := by
    rw [(v_wrC3_keep main_v16 (by decide)), (v_wrC2_keep main_v16 (by decide)), (v_wrC1_keep main_v16 (by decide)), (v_wrC0_keep main_v16 (by decide)), v_wrB_main_v16_eq]
    exact omfcol_apply _ 2 (by decide) _ j
  unfold rd1
  rw [v_wrC4_main_v165_eq, addf_apply,
    cornerA_apply (v_wrC3 V (Proc.devRef .tc main_v0)) (V (Proc.devRef .tc main_arg1)) k0 (v_wrC3 V (Proc.devRef .tc main_v7)) (v_wrC3 V (Proc.devRef .tc main_v4)) (v_wrC3 V (Proc.devRef .tc main_v4))
      (v_wrC3 V (Proc.devRef .tc main_v8)) (v_wrC3 V (Proc.devRef .tc main_v14)) (v_wrC3 V (Proc.devRef .tc main_v16)) j (by rw [k_main_v7]; exact (hi1_bounds V j 0).1) (by rw [k_main_v4]; exact (lo1_bounds V j 1).1) (by rw [k_main_v4]; exact (lo1_bounds V j 2).1),
    kw1, kw2, kw3, k_main_v7, k_main_v4]
  rfl

theorem rowA_step5 (V : Valuation τ sig (Elt Ideal)) (j : Fin 2000000) :
    rd1 (v_wrC5 V (Proc.devRef .tc main_v195)) j
      = rd1 (v_wrC4 V (Proc.devRef .tc main_v165)) j + ((Cert.Rows.cellA (α := EReal) (V (Proc.devRef .tc main_arg1)) (hi1 V j 0) (lo1 V j 1) (hi1 V j 2) * frac1 V (ix2 j 0)) * (Cert.Spec.oneF - frac1 V (ix2 j 1))) * frac1 V (ix2 j 2) := by
  have k0 : v_wrC4 V (Proc.devRef .tc main_v0) = broadcastInDim S128x512x512x1 ![0, 1, 2] bcast_S128x512x512_S128x512x512x1_0_1_2 (V (Proc.devRef .tc main_arg1)) := by
    rw [(v_wrC4_keep main_v0 (by decide)), (v_wrC3_keep main_v0 (by decide)), (v_wrC2_keep main_v0 (by decide)), (v_wrC1_keep main_v0 (by decide)), (v_wrC0_keep main_v0 (by decide)), (v_wrB_keep main_v0 (by decide)), v_wrA_main_v0_eq]
  have k_main_v7 : v_wrC4 V (Proc.devRef .tc main_v7) = v_wrA V (Proc.devRef .tc main_v7) := by
    rw [(v_wrC4_keep main_v7 (by decide)), (v_wrC3_keep main_v7 (by decide)), (v_wrC2_keep main_v7 (by decide)), (v_wrC1_keep main_v7 (by decide)), (v_wrC0_keep main_v7 (by decide)), (v_wrB_keep main_v7 (by decide))]
  have k_main_v4 : v_wrC4 V (Proc.devRef .tc main_v4) = v_wrA V (Proc.devRef .tc main_v4) := by
    rw [(v_wrC4_keep main_v4 (by decide)), (v_wrC3_keep main_v4 (by decide)), (v_wrC2_keep main_v4 (by decide)), (v_wrC1_keep main_v4 (by decide)), (v_wrC0_keep main_v4 (by decide)), (v_wrB_keep main_v4 (by decide))]
  have kw1 : v_wrC4 V (Proc.devRef .tc main_v8) (ix2 j 0) = frac1 V (ix2 j 0) := by
    rw [(v_wrC4_keep main_v8 (by decide)), (v_wrC3_keep main_v8 (by decide)), (v_wrC2_keep main_v8 (by decide)), (v_wrC1_keep main_v8 (by decide)), (v_wrC0_keep main_v8 (by decide)), v_wrB_main_v8_eq]
    exact fcol_apply _ 0 (by decide) _ j
  have kw2 : v_wrC4 V (Proc.devRef .tc main_v14) (ix2 j 0) = (Cert.Spec.oneF - frac1 V (ix2 j 1)) := by
    rw [(v_wrC4_keep main_v14 (by decide)), (v_wrC3_keep main_v14 (by decide)), (v_wrC2_keep main_v14 (by decide)), (v_wrC1_keep main_v14 (by decide)), (v_wrC0_keep main_v14 (by decide)), v_wrB_main_v14_eq]
    exact omfcol_apply _ 1 (by decide) _ j
  have kw3 : v_wrC4 V (Proc.devRef .tc main_v10) (ix2 j 0) = frac1 V (ix2 j 2) := by
    rw [(v_wrC4_keep main_v10 (by decide)), (v_wrC3_keep main_v10 (by decide)), (v_wrC2_keep main_v10 (by decide)), (v_wrC1_keep main_v10 (by decide)), (v_wrC0_keep main_v10 (by decide)), v_wrB_main_v10_eq]
    exact fcol_apply _ 2 (by decide) _ j
  unfold rd1
  rw [v_wrC5_main_v195_eq, addf_apply,
    cornerA_apply (v_wrC4 V (Proc.devRef .tc main_v0)) (V (Proc.devRef .tc main_arg1)) k0 (v_wrC4 V (Proc.devRef .tc main_v7)) (v_wrC4 V (Proc.devRef .tc main_v4)) (v_wrC4 V (Proc.devRef .tc main_v7))
      (v_wrC4 V (Proc.devRef .tc main_v8)) (v_wrC4 V (Proc.devRef .tc main_v14)) (v_wrC4 V (Proc.devRef .tc main_v10)) j (by rw [k_main_v7]; exact (hi1_bounds V j 0).1) (by rw [k_main_v4]; exact (lo1_bounds V j 1).1) (by rw [k_main_v7]; exact (hi1_bounds V j 2).1),
    kw1, kw2, kw3, k_main_v7, k_main_v4]
  rfl

theorem rowA_step6 (V : Valuation τ sig (Elt Ideal)) (j : Fin 2000000) :
    rd1 (v_wrC6 V (Proc.devRef .tc main_v225)) j
      = rd1 (v_wrC5 V (Proc.devRef .tc main_v195)) j + ((Cert.Rows.cellA (α := EReal) (V (Proc.devRef .tc main_arg1)) (hi1 V j 0) (hi1 V j 1) (lo1 V j 2) * frac1 V (ix2 j 0)) * frac1 V (ix2 j 1)) * (Cert.Spec.oneF - frac1 V (ix2 j 2)) := by
  have k0 : v_wrC5 V (Proc.devRef .tc main_v0) = broadcastInDim S128x512x512x1 ![0, 1, 2] bcast_S128x512x512_S128x512x512x1_0_1_2 (V (Proc.devRef .tc main_arg1)) := by
    rw [(v_wrC5_keep main_v0 (by decide)), (v_wrC4_keep main_v0 (by decide)), (v_wrC3_keep main_v0 (by decide)), (v_wrC2_keep main_v0 (by decide)), (v_wrC1_keep main_v0 (by decide)), (v_wrC0_keep main_v0 (by decide)), (v_wrB_keep main_v0 (by decide)), v_wrA_main_v0_eq]
  have k_main_v7 : v_wrC5 V (Proc.devRef .tc main_v7) = v_wrA V (Proc.devRef .tc main_v7) := by
    rw [(v_wrC5_keep main_v7 (by decide)), (v_wrC4_keep main_v7 (by decide)), (v_wrC3_keep main_v7 (by decide)), (v_wrC2_keep main_v7 (by decide)), (v_wrC1_keep main_v7 (by decide)), (v_wrC0_keep main_v7 (by decide)), (v_wrB_keep main_v7 (by decide))]
  have k_main_v4 : v_wrC5 V (Proc.devRef .tc main_v4) = v_wrA V (Proc.devRef .tc main_v4) := by
    rw [(v_wrC5_keep main_v4 (by decide)), (v_wrC4_keep main_v4 (by decide)), (v_wrC3_keep main_v4 (by decide)), (v_wrC2_keep main_v4 (by decide)), (v_wrC1_keep main_v4 (by decide)), (v_wrC0_keep main_v4 (by decide)), (v_wrB_keep main_v4 (by decide))]
  have kw1 : v_wrC5 V (Proc.devRef .tc main_v8) (ix2 j 0) = frac1 V (ix2 j 0) := by
    rw [(v_wrC5_keep main_v8 (by decide)), (v_wrC4_keep main_v8 (by decide)), (v_wrC3_keep main_v8 (by decide)), (v_wrC2_keep main_v8 (by decide)), (v_wrC1_keep main_v8 (by decide)), (v_wrC0_keep main_v8 (by decide)), v_wrB_main_v8_eq]
    exact fcol_apply _ 0 (by decide) _ j
  have kw2 : v_wrC5 V (Proc.devRef .tc main_v9) (ix2 j 0) = frac1 V (ix2 j 1) := by
    rw [(v_wrC5_keep main_v9 (by decide)), (v_wrC4_keep main_v9 (by decide)), (v_wrC3_keep main_v9 (by decide)), (v_wrC2_keep main_v9 (by decide)), (v_wrC1_keep main_v9 (by decide)), (v_wrC0_keep main_v9 (by decide)), v_wrB_main_v9_eq]
    exact fcol_apply _ 1 (by decide) _ j
  have kw3 : v_wrC5 V (Proc.devRef .tc main_v16) (ix2 j 0) = (Cert.Spec.oneF - frac1 V (ix2 j 2)) := by
    rw [(v_wrC5_keep main_v16 (by decide)), (v_wrC4_keep main_v16 (by decide)), (v_wrC3_keep main_v16 (by decide)), (v_wrC2_keep main_v16 (by decide)), (v_wrC1_keep main_v16 (by decide)), (v_wrC0_keep main_v16 (by decide)), v_wrB_main_v16_eq]
    exact omfcol_apply _ 2 (by decide) _ j
  unfold rd1
  rw [v_wrC6_main_v225_eq, addf_apply,
    cornerA_apply (v_wrC5 V (Proc.devRef .tc main_v0)) (V (Proc.devRef .tc main_arg1)) k0 (v_wrC5 V (Proc.devRef .tc main_v7)) (v_wrC5 V (Proc.devRef .tc main_v7)) (v_wrC5 V (Proc.devRef .tc main_v4))
      (v_wrC5 V (Proc.devRef .tc main_v8)) (v_wrC5 V (Proc.devRef .tc main_v9)) (v_wrC5 V (Proc.devRef .tc main_v16)) j (by rw [k_main_v7]; exact (hi1_bounds V j 0).1) (by rw [k_main_v7]; exact (hi1_bounds V j 1).1) (by rw [k_main_v4]; exact (lo1_bounds V j 2).1),
    kw1, kw2, kw3, k_main_v7, k_main_v4]
  rfl

theorem rowA_step7 (V : Valuation τ sig (Elt Ideal)) (j : Fin 2000000) :
    rd1 (v_wrC7 V (Proc.devRef .tc main_v255)) j
      = rd1 (v_wrC6 V (Proc.devRef .tc main_v225)) j + ((Cert.Rows.cellA (α := EReal) (V (Proc.devRef .tc main_arg1)) (hi1 V j 0) (hi1 V j 1) (hi1 V j 2) * frac1 V (ix2 j 0)) * frac1 V (ix2 j 1)) * frac1 V (ix2 j 2) := by
  have k0 : v_wrC6 V (Proc.devRef .tc main_v0) = broadcastInDim S128x512x512x1 ![0, 1, 2] bcast_S128x512x512_S128x512x512x1_0_1_2 (V (Proc.devRef .tc main_arg1)) := by
    rw [(v_wrC6_keep main_v0 (by decide)), (v_wrC5_keep main_v0 (by decide)), (v_wrC4_keep main_v0 (by decide)), (v_wrC3_keep main_v0 (by decide)), (v_wrC2_keep main_v0 (by decide)), (v_wrC1_keep main_v0 (by decide)), (v_wrC0_keep main_v0 (by decide)), (v_wrB_keep main_v0 (by decide)), v_wrA_main_v0_eq]
  have k_main_v7 : v_wrC6 V (Proc.devRef .tc main_v7) = v_wrA V (Proc.devRef .tc main_v7) := by
    rw [(v_wrC6_keep main_v7 (by decide)), (v_wrC5_keep main_v7 (by decide)), (v_wrC4_keep main_v7 (by decide)), (v_wrC3_keep main_v7 (by decide)), (v_wrC2_keep main_v7 (by decide)), (v_wrC1_keep main_v7 (by decide)), (v_wrC0_keep main_v7 (by decide)), (v_wrB_keep main_v7 (by decide))]
  have kw1 : v_wrC6 V (Proc.devRef .tc main_v8) (ix2 j 0) = frac1 V (ix2 j 0) := by
    rw [(v_wrC6_keep main_v8 (by decide)), (v_wrC5_keep main_v8 (by decide)), (v_wrC4_keep main_v8 (by decide)), (v_wrC3_keep main_v8 (by decide)), (v_wrC2_keep main_v8 (by decide)), (v_wrC1_keep main_v8 (by decide)), (v_wrC0_keep main_v8 (by decide)), v_wrB_main_v8_eq]
    exact fcol_apply _ 0 (by decide) _ j
  have kw2 : v_wrC6 V (Proc.devRef .tc main_v9) (ix2 j 0) = frac1 V (ix2 j 1) := by
    rw [(v_wrC6_keep main_v9 (by decide)), (v_wrC5_keep main_v9 (by decide)), (v_wrC4_keep main_v9 (by decide)), (v_wrC3_keep main_v9 (by decide)), (v_wrC2_keep main_v9 (by decide)), (v_wrC1_keep main_v9 (by decide)), (v_wrC0_keep main_v9 (by decide)), v_wrB_main_v9_eq]
    exact fcol_apply _ 1 (by decide) _ j
  have kw3 : v_wrC6 V (Proc.devRef .tc main_v10) (ix2 j 0) = frac1 V (ix2 j 2) := by
    rw [(v_wrC6_keep main_v10 (by decide)), (v_wrC5_keep main_v10 (by decide)), (v_wrC4_keep main_v10 (by decide)), (v_wrC3_keep main_v10 (by decide)), (v_wrC2_keep main_v10 (by decide)), (v_wrC1_keep main_v10 (by decide)), (v_wrC0_keep main_v10 (by decide)), v_wrB_main_v10_eq]
    exact fcol_apply _ 2 (by decide) _ j
  unfold rd1
  rw [v_wrC7_main_v255_eq, addf_apply,
    cornerA_apply (v_wrC6 V (Proc.devRef .tc main_v0)) (V (Proc.devRef .tc main_arg1)) k0 (v_wrC6 V (Proc.devRef .tc main_v7)) (v_wrC6 V (Proc.devRef .tc main_v7)) (v_wrC6 V (Proc.devRef .tc main_v7))
      (v_wrC6 V (Proc.devRef .tc main_v8)) (v_wrC6 V (Proc.devRef .tc main_v9)) (v_wrC6 V (Proc.devRef .tc main_v10)) j (by rw [k_main_v7]; exact (hi1_bounds V j 0).1) (by rw [k_main_v7]; exact (hi1_bounds V j 1).1) (by rw [k_main_v7]; exact (hi1_bounds V j 2).1),
    kw1, kw2, kw3, k_main_v7]
  rfl

/-- Row `j` of the first interpolation is the reference's blend of the eight corner voxels. -/
theorem row_blendA (V : Valuation τ sig (Elt Ideal)) (j : Fin 2000000) :
    v_wrD V (Proc.devRef .tc main_v256) (ix1 j)
      = Cert.Rows.blendR (fun k => Cert.Rows.cellA (V (Proc.devRef .tc main_arg1)) (Cert.Rows.cornerZ (lo1 V j) (hi1 V j) k)
            (Cert.Rows.cornerX (lo1 V j) (hi1 V j) k) (Cert.Rows.cornerY (lo1 V j) (hi1 V j) k))
          (frac1 V (ix2 j 0)) (frac1 V (ix2 j 1)) (frac1 V (ix2 j 2)) := by
  rw [v_wrD_main_v256_eq]
  refine (shapeCast_apply _ shapeCasts_S2000000x1_S2000000 (ix1 j) (ix2 j 0) ?_).trans ?_
  · rw [Shape.rowMajor_val_two, Shape.rowMajor_val_one]
    show j.val * 1 + 0 = j.val
    omega
  · show rd1 (v_wrC7 V (Proc.devRef .tc main_v255)) j = _
    rw [rowA_step7, rowA_step6, rowA_step5, rowA_step4, rowA_step3, rowA_step2, rowA_step1, rowA_step0]
    rfl

end Cert.ReferenceIdeal.Hand

end
-- ==== Proof.RRowsN.lean ====
import proofs.«415693_j15238543966484_3_alg».proof.Proof.RVals
import proofs.«415693_j15238543966484_3_alg».proof.Proof.Rows
import proofs.«415693_j15238543966484_3_alg».proof.Proof.Index
import proofs.«415693_j15238543966484_3_alg».proof.Proof.Spec
import Idealize.ShloMosaic.Lib.ValueIdx
import Idealize.ShloMosaic.Lib.Pipeline.Value
import Idealize.ShloMosaic.Lib.ValueLayout

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

section Generic
variable {α : Type}

theorem colN_apply (x : S2000000x3.Idx → α) (off : Fin 2 → Nat) (hs : S2000000x3.Slices off S2000000x1)
    (hc : S2000000x1.ShapeCasts S2000000) (j : Fin 2000000) (r : Fin 3) (h0 : off 0 = 0) (h1 : off 1 = r.val) :
    shapeCast S2000000 (extractStridedSlice S2000000x1 off x hs) hc (ix1 j) = x (ix2 j r) := by
  refine (shapeCast_apply _ hc (ix1 j) (ix2 j (0 : Fin 1)) ?_).trans ?_
  · rw [Shape.rowMajor_val_two, Shape.rowMajor_val_one]
    show j.val * 1 + 0 = j.val
    omega
  · refine extractStridedSlice_apply off x hs (ix2 j (0 : Fin 1)) (ix2 j r) fun a => ?_
    match a with
    | ⟨0, _⟩ => show j.val = off 0 + j.val; omega
    | ⟨1, _⟩ => show r.val = off 1 + 0; omega

theorem sliceN_apply (x : S2000000x3.Idx → α) (off : Fin 2 → Nat) (hs : S2000000x3.Slices off S2000000x1)
    (j : Fin 2000000) (r : Fin 3) (h0 : off 0 = 0) (h1 : off 1 = r.val) :
    extractStridedSlice S2000000x1 off x hs (ix2 j (0 : Fin 1)) = x (ix2 j r) := by
  refine extractStridedSlice_apply off x hs (ix2 j (0 : Fin 1)) (ix2 j r) fun a => ?_
  match a with
  | ⟨0, _⟩ => show j.val = off 0 + j.val; omega
  | ⟨1, _⟩ => show r.val = off 1 + 0; omega

theorem unitColN_apply (w : S2000000.Idx → α) (hb : S2000000.BroadcastsInDim S2000000x1 ![0]) (j : Fin 2000000) :
    broadcastInDim S2000000x1 ![0] hb w (ix2 j (0 : Fin 1)) = w (ix1 j) := by
  refine broadcastInDim_apply ![0] hb w _ (ix1 j) fun a => ?_
  match a with
  | ⟨0, _⟩ => rfl

theorem scalarN_apply (c : S_.Idx → α) (hb : S_.BroadcastsInDim S2000000 ![]) (j : Fin 2000000) :
    broadcastInDim S2000000 ![] hb c (ix1 j) = c ix0 := by
  refine broadcastInDim_apply ![] hb c _ ix0 fun a => a.elim0

theorem scalarColN_apply (c : S_.Idx → α) (hb : S_.BroadcastsInDim S2000000x1 ![]) (j : Fin 2000000) :
    broadcastInDim S2000000x1 ![] hb c (ix2 j (0 : Fin 1)) = c ix0 := by
  refine broadcastInDim_apply ![] hb c _ ix0 fun a => a.elim0

theorem wideN_apply (w : S2000000x1.Idx → α) (hb : S2000000x1.BroadcastsInDim S2000000x3 ![0, 1]) (j : Fin 2000000) (ch : Fin 3) :
    broadcastInDim S2000000x3 ![0, 1] hb w (ix2 j ch) = w (ix2 j (0 : Fin 1)) := by
  refine broadcastInDim_apply ![0, 1] hb w _ (ix2 j (0 : Fin 1)) fun a => ?_
  match a with
  | ⟨0, _⟩ => rfl
  | ⟨1, _⟩ => rfl

theorem concat3N_apply (c0 c1 c2 : S2000000x1.Idx → α)
    (h : Shape.Concatenates ([(⟨S2000000x1, c0⟩ : (s : Shape) × (s.Idx → α)), ⟨S2000000x1, c1⟩, ⟨S2000000x1, c2⟩].map (·.1)) S2000000x3 1)
    (j : Fin 2000000) :
    concatenate S2000000x3 1 [⟨S2000000x1, c0⟩, ⟨S2000000x1, c1⟩, ⟨S2000000x1, c2⟩] h (ix2 j (0 : Fin 3)) = c0 (ix2 j (0 : Fin 1))
    ∧ concatenate S2000000x3 1 [⟨S2000000x1, c0⟩, ⟨S2000000x1, c1⟩, ⟨S2000000x1, c2⟩] h (ix2 j (1 : Fin 3)) = c1 (ix2 j (0 : Fin 1))
    ∧ concatenate S2000000x3 1 [⟨S2000000x1, c0⟩, ⟨S2000000x1, c1⟩, ⟨S2000000x1, c2⟩] h (ix2 j (2 : Fin 3)) = c2 (ix2 j (0 : Fin 1)) := by
  refine ⟨?_, ?_, ?_⟩
  · refine concatenate_apply_piece 1 _ h (ix2 j (0 : Fin 3)) 0 (show (0 : ℕ) < 3 by omega) S2000000x1 c0 rfl rfl 0 rfl (ix2 j (0 : Fin 1)) (fun b hb => ?_) rfl
    match b with
    | ⟨0, _⟩ => rfl
    | ⟨1, _⟩ => exact absurd rfl hb
  · refine concatenate_apply_piece 1 _ h (ix2 j (1 : Fin 3)) 1 (show (1 : ℕ) < 3 by omega) S2000000x1 c1 rfl rfl 1 rfl (ix2 j (0 : Fin 1)) (fun b hb => ?_) rfl
    match b with
    | ⟨0, _⟩ => rfl
    | ⟨1, _⟩ => exact absurd rfl hb
  · refine concatenate_apply_piece 1 _ h (ix2 j (2 : Fin 3)) 2 (show (2 : ℕ) < 3 by omega) S2000000x1 c2 rfl rfl 2 rfl (ix2 j (0 : Fin 1)) (fun b hb => ?_) rfl
    match b with
    | ⟨0, _⟩ => rfl
    | ⟨1, _⟩ => exact absurd rfl hb

end Generic

theorem startCol_apply (src : IVec S2000000x3 32) (off : Fin 2 → Nat) (hs : S2000000x3.Slices off S2000000x1) (n : BitVec 32)
    (j : Fin 2000000) (r : Fin 3) (h0 : off 0 = 0) (h1 : off 1 = r.val) (hnn : 0 ≤ (src (ix2 j r)).toInt) :
    startCol src off hs n (ix2 j (0 : Fin 1)) = src (ix2 j r) := by
  unfold startCol
  rw [unitColN_apply]
  show Scalar.select (IntOp.cmpi .slt
        (shapeCast S2000000 (extractStridedSlice S2000000x1 off src hs) shapeCasts_S2000000x1_S2000000 (ix1 j))
        (broadcastInDim S2000000 ![] bcast_S_S2000000 (constantI S_ 32 0#32) (ix1 j)))
      (IntOp.addi (shapeCast S2000000 (extractStridedSlice S2000000x1 off src hs) shapeCasts_S2000000x1_S2000000 (ix1 j))
        (broadcastInDim S2000000 ![] bcast_S_S2000000 (constantI S_ 32 n) (ix1 j)))
      (shapeCast S2000000 (extractStridedSlice S2000000x1 off src hs) shapeCasts_S2000000x1_S2000000 (ix1 j)) = _
  rw [colN_apply src off hs _ j r h0 h1, scalarN_apply, scalarN_apply]
  exact Cert.Index.wrap_neg n _ hnn

/-- A corner of the three-channel grid at row `j` and channel `ch`: the voxel its three words name, times its three weights. -/
theorem cornerTerm_apply (nm : FVec Ideal S128x512x512x3 .f32) (sz sx sy : IVec S2000000x3 32)
    (wz wx wy : FVec Ideal S2000000x1 .f32) (j : Fin 2000000) (ch : Fin 3)
    (hz : 0 ≤ (sz (ix2 j (0 : Fin 3))).toInt) (hx : 0 ≤ (sx (ix2 j (1 : Fin 3))).toInt) (hy : 0 ≤ (sy (ix2 j (2 : Fin 3))).toInt) :
    cornerN nm sz sx sy wz wx wy (ix2 j ch)
      = ((Cert.Rows.cellN nm (sz (ix2 j (0 : Fin 3))) (sx (ix2 j (1 : Fin 3))) (sy (ix2 j (2 : Fin 3))) ch
          * wz (ix2 j (0 : Fin 1))) * wx (ix2 j (0 : Fin 1))) * wy (ix2 j (0 : Fin 1)) := by
  unfold cornerN startIdx
  rw [mulf_apply, mulf_apply, mulf_apply, wideN_apply, wideN_apply, wideN_apply]
  refine congrArg (fun g => ((g * wz (ix2 j (0 : Fin 1))) * wx (ix2 j (0 : Fin 1))) * wy (ix2 j (0 : Fin 1))) ?_
  refine (Cert.Index.gR3_apply gather_S128x512x512x3_S2000000x3_S2000000x3_1_012_n_n_012_1_1113_wf nm _ j ch).trans ?_
  obtain ⟨e0, e1, e2⟩ := concat3N_apply (startCol sz ![0, 0] slices_S2000000x3_S2000000x1_0_0 128#32)
    (startCol sx ![0, 1] slices_S2000000x3_S2000000x1_0_1 512#32) (startCol sy ![0, 2] slices_S2000000x3_S2000000x1_0_2 512#32)
    concatenates_S2000000x1_S2000000x1_S2000000x1_S2000000x3_d1 j
  show Cert.Rows.cellN nm _ _ _ ch = _
  rw [e0, e1, e2, startCol_apply sz _ _ _ j 0 rfl rfl hz, startCol_apply sx _ _ _ j 1 rfl rfl hx,
    startCol_apply sy _ _ _ j 2 rfl rfl hy]

variable (V : Valuation τ sig (Elt Ideal))

def frac2 : FVec Ideal S2000000x3 .f32 := v_wrD V (Proc.devRef .tc main_v258)

def lo2 (j : Fin 2000000) : Fin 3 → BitVec 32 := fun r => v_wrD V (Proc.devRef .tc main_v260) (ix2 j r)

def hi2 (j : Fin 2000000) : Fin 3 → BitVec 32 := fun r => v_wrD V (Proc.devRef .tc main_v263) (ix2 j r)

theorem capN_apply (T : IVec S3 32) (j : Fin 2000000) (r : Fin 3) :
    broadcastInDim S2000000x3 ![0, 1] bcast_S1x3_S2000000x3_0_1 (broadcastInDim S1x3 ![1] bcast_S3_S1x3_1 T) (ix2 j r) = T (ix1 r) := by
  refine (broadcastInDim_apply ![0, 1] bcast_S1x3_S2000000x3_0_1 _ (ix2 j r) (ix2 (0 : Fin 1) r) fun a => ?_).trans ?_
  · match a with
    | ⟨0, _⟩ => rfl
    | ⟨1, _⟩ => rfl
  · refine broadcastInDim_apply ![1] bcast_S3_S1x3_1 T (ix2 (0 : Fin 1) r) (ix1 r) fun a => ?_
    match a with
    | ⟨0, _⟩ => rfl

theorem scalarWideN_apply {α : Type} (c : S_.Idx → α) (hb : S_.BroadcastsInDim S2000000x3 ![]) (j : Fin 2000000) (r : Fin 3) :
    broadcastInDim S2000000x3 ![] hb c (ix2 j r) = c ix0 := by
  refine broadcastInDim_apply ![] hb c _ ix0 fun a => a.elim0

theorem cap_eq (r : Fin 3) : (v_wrC7 V (Proc.devRef .tc main_c_0) : IVec S3 32) (ix1 r) = lit2 r := by
  rw [(v_wrC7_keep main_c_0 (by decide)), (v_wrC6_keep main_c_0 (by decide)), (v_wrC5_keep main_c_0 (by decide)), (v_wrC4_keep main_c_0 (by decide)), (v_wrC3_keep main_c_0 (by decide)), (v_wrC2_keep main_c_0 (by decide)), (v_wrC1_keep main_c_0 (by decide)), (v_wrC0_keep main_c_0 (by decide)), (v_wrB_keep main_c_0 (by decide)), v_wrA_main_c_0_eq]
  show lit2 (S3.rowMajor (ix1 r)) = lit2 r
  refine congrArg lit2 (Fin.ext ?_)
  exact Shape.rowMajor_val_one (ix1 r)

theorem lit2_toInt (r : Fin 3) : (lit2 r).toInt = (![127, 511, 511] : Fin 3 → Int) r := by
  match r with
  | ⟨0, _⟩ => rfl
  | ⟨1, _⟩ => rfl
  | ⟨2, _⟩ => rfl

theorem lit2_nonneg : ∀ r : Fin 3, (0#32 : BitVec 32).toInt ≤ (lit2 r).toInt := by decide

theorem clipN_apply (T : IVec S3 32) (x : IVec S2000000x3 32) (j : Fin 2000000) (r : Fin 3) :
    minsi (broadcastInDim S2000000x3 ![0, 1] bcast_S1x3_S2000000x3_0_1 (broadcastInDim S1x3 ![1] bcast_S3_S1x3_1 T))
        (maxsi (broadcastInDim S2000000x3 ![] bcast_S_S2000000x3 (id (constantI S_ 32 0#32))) x) (ix2 j r)
      = IntOp.minsi (T (ix1 r)) (IntOp.maxsi 0#32 (x (ix2 j r))) := by
  show IntOp.minsi (broadcastInDim S2000000x3 ![0, 1] bcast_S1x3_S2000000x3_0_1 (broadcastInDim S1x3 ![1] bcast_S3_S1x3_1 T) (ix2 j r))
      (IntOp.maxsi (broadcastInDim S2000000x3 ![] bcast_S_S2000000x3 (id (constantI S_ 32 0#32)) (ix2 j r)) (x (ix2 j r))) = _
  rw [capN_apply, scalarWideN_apply]
  rfl

theorem lo2_bounds (j : Fin 2000000) (r : Fin 3) :
    0 ≤ (lo2 V j r).toInt ∧ (lo2 V j r).toInt ≤ (![127, 511, 511] : Fin 3 → Int) r := by
  unfold lo2
  rw [v_wrD_main_v260_eq, clipN_apply, cap_eq, ← lit2_toInt]
  exact Cert.Index.clip_bounds _ 0#32 (lit2 r) (lit2_nonneg r)

theorem hi2_bounds (j : Fin 2000000) (r : Fin 3) :
    0 ≤ (hi2 V j r).toInt ∧ (hi2 V j r).toInt ≤ (![127, 511, 511] : Fin 3 → Int) r := by
  unfold hi2
  rw [v_wrD_main_v263_eq, clipN_apply, cap_eq, ← lit2_toInt]
  exact Cert.Index.clip_bounds _ 0#32 (lit2 r) (lit2_nonneg r)

theorem arg2_E : v_wrE V (Proc.devRef .tc main_arg2) = V (Proc.devRef .tc main_arg2) := by
  rw [(v_wrE_keep main_arg2 (by decide)), (v_wrD_keep main_arg2 (by decide)), (v_wrC7_keep main_arg2 (by decide)), (v_wrC6_keep main_arg2 (by decide)), (v_wrC5_keep main_arg2 (by decide)), (v_wrC4_keep main_arg2 (by decide)), (v_wrC3_keep main_arg2 (by decide)), (v_wrC2_keep main_arg2 (by decide)), (v_wrC1_keep main_arg2 (by decide)), (v_wrC0_keep main_arg2 (by decide)), (v_wrB_keep main_arg2 (by decide)), (v_wrA_keep main_arg2 (by decide))]
theorem arg2_F0 : v_wrF0 V (Proc.devRef .tc main_arg2) = V (Proc.devRef .tc main_arg2) := by
  rw [(v_wrF0_keep main_arg2 (by decide)), arg2_E]
theorem arg2_F1 : v_wrF1 V (Proc.devRef .tc main_arg2) = V (Proc.devRef .tc main_arg2) := by
  rw [(v_wrF1_keep main_arg2 (by decide)), arg2_F0]
theorem arg2_F2 : v_wrF2 V (Proc.devRef .tc main_arg2) = V (Proc.devRef .tc main_arg2) := by
  rw [(v_wrF2_keep main_arg2 (by decide)), arg2_F1]
theorem arg2_F3 : v_wrF3 V (Proc.devRef .tc main_arg2) = V (Proc.devRef .tc main_arg2) := by
  rw [(v_wrF3_keep main_arg2 (by decide)), arg2_F2]
theorem arg2_F4 : v_wrF4 V (Proc.devRef .tc main_arg2) = V (Proc.devRef .tc main_arg2) := by
  rw [(v_wrF4_keep main_arg2 (by decide)), arg2_F3]
theorem arg2_F5 : v_wrF5 V (Proc.devRef .tc main_arg2) = V (Proc.devRef .tc main_arg2) := by
  rw [(v_wrF5_keep main_arg2 (by decide)), arg2_F4]
theorem arg2_F6 : v_wrF6 V (Proc.devRef .tc main_arg2) = V (Proc.devRef .tc main_arg2) := by
  rw [(v_wrF6_keep main_arg2 (by decide)), arg2_F5]

theorem lo_E : v_wrE V (Proc.devRef .tc main_v260) = v_wrD V (Proc.devRef .tc main_v260) := (v_wrE_keep main_v260 (by decide))
theorem lo_F0 : v_wrF0 V (Proc.devRef .tc main_v260) = v_wrD V (Proc.devRef .tc main_v260) := by
  rw [(v_wrF0_keep main_v260 (by decide)), lo_E]
theorem lo_F1 : v_wrF1 V (Proc.devRef .tc main_v260) = v_wrD V (Proc.devRef .tc main_v260) := by
  rw [(v_wrF1_keep main_v260 (by decide)), lo_F0]
theorem lo_F2 : v_wrF2 V (Proc.devRef .tc main_v260) = v_wrD V (Proc.devRef .tc main_v260) := by
  rw [(v_wrF2_keep main_v260 (by decide)), lo_F1]
theorem lo_F3 : v_wrF3 V (Proc.devRef .tc main_v260) = v_wrD V (Proc.devRef .tc main_v260) := by
  rw [(v_wrF3_keep main_v260 (by decide)), lo_F2]
theorem lo_F4 : v_wrF4 V (Proc.devRef .tc main_v260) = v_wrD V (Proc.devRef .tc main_v260) := by
  rw [(v_wrF4_keep main_v260 (by decide)), lo_F3]
theorem lo_F5 : v_wrF5 V (Proc.devRef .tc main_v260) = v_wrD V (Proc.devRef .tc main_v260) := by
  rw [(v_wrF5_keep main_v260 (by decide)), lo_F4]

theorem hi_E : v_wrE V (Proc.devRef .tc main_v263) = v_wrD V (Proc.devRef .tc main_v263) := (v_wrE_keep main_v263 (by decide))
theorem hi_F0 : v_wrF0 V (Proc.devRef .tc main_v263) = v_wrD V (Proc.devRef .tc main_v263) := by
  rw [(v_wrF0_keep main_v263 (by decide)), hi_E]
theorem hi_F1 : v_wrF1 V (Proc.devRef .tc main_v263) = v_wrD V (Proc.devRef .tc main_v263) := by
  rw [(v_wrF1_keep main_v263 (by decide)), hi_F0]
theorem hi_F2 : v_wrF2 V (Proc.devRef .tc main_v263) = v_wrD V (Proc.devRef .tc main_v263) := by
  rw [(v_wrF2_keep main_v263 (by decide)), hi_F1]
theorem hi_F3 : v_wrF3 V (Proc.devRef .tc main_v263) = v_wrD V (Proc.devRef .tc main_v263) := by
  rw [(v_wrF3_keep main_v263 (by decide)), hi_F2]
theorem hi_F4 : v_wrF4 V (Proc.devRef .tc main_v263) = v_wrD V (Proc.devRef .tc main_v263) := by
  rw [(v_wrF4_keep main_v263 (by decide)), hi_F3]
theorem hi_F5 : v_wrF5 V (Proc.devRef .tc main_v263) = v_wrD V (Proc.devRef .tc main_v263) := by
  rw [(v_wrF5_keep main_v263 (by decide)), hi_F4]
theorem hi_F6 : v_wrF6 V (Proc.devRef .tc main_v263) = v_wrD V (Proc.devRef .tc main_v263) := by
  rw [(v_wrF6_keep main_v263 (by decide)), hi_F5]

theorem w264_F0 : v_wrF0 V (Proc.devRef .tc main_v264) = v_wrE V (Proc.devRef .tc main_v264) := by
  rw [(v_wrF0_keep main_v264 (by decide))]
theorem w264_F1 : v_wrF1 V (Proc.devRef .tc main_v264) = v_wrE V (Proc.devRef .tc main_v264) := by
  rw [(v_wrF1_keep main_v264 (by decide)), w264_F0]
theorem w264_F2 : v_wrF2 V (Proc.devRef .tc main_v264) = v_wrE V (Proc.devRef .tc main_v264) := by
  rw [(v_wrF2_keep main_v264 (by decide)), w264_F1]
theorem w264_F3 : v_wrF3 V (Proc.devRef .tc main_v264) = v_wrE V (Proc.devRef .tc main_v264) := by
  rw [(v_wrF3_keep main_v264 (by decide)), w264_F2]
theorem w264_F4 : v_wrF4 V (Proc.devRef .tc main_v264) = v_wrE V (Proc.devRef .tc main_v264) := by
  rw [(v_wrF4_keep main_v264 (by decide)), w264_F3]
theorem w264_F5 : v_wrF5 V (Proc.devRef .tc main_v264) = v_wrE V (Proc.devRef .tc main_v264) := by
  rw [(v_wrF5_keep main_v264 (by decide)), w264_F4]
theorem w264_F6 : v_wrF6 V (Proc.devRef .tc main_v264) = v_wrE V (Proc.devRef .tc main_v264) := by
  rw [(v_wrF6_keep main_v264 (by decide)), w264_F5]
theorem w265_F0 : v_wrF0 V (Proc.devRef .tc main_v265) = v_wrE V (Proc.devRef .tc main_v265) := by
  rw [(v_wrF0_keep main_v265 (by decide))]
theorem w265_F1 : v_wrF1 V (Proc.devRef .tc main_v265) = v_wrE V (Proc.devRef .tc main_v265) := by
  rw [(v_wrF1_keep main_v265 (by decide)), w265_F0]
theorem w265_F2 : v_wrF2 V (Proc.devRef .tc main_v265) = v_wrE V (Proc.devRef .tc main_v265) := by
  rw [(v_wrF2_keep main_v265 (by decide)), w265_F1]
theorem w265_F3 : v_wrF3 V (Proc.devRef .tc main_v265) = v_wrE V (Proc.devRef .tc main_v265) := by
  rw [(v_wrF3_keep main_v265 (by decide)), w265_F2]
theorem w265_F4 : v_wrF4 V (Proc.devRef .tc main_v265) = v_wrE V (Proc.devRef .tc main_v265) := by
  rw [(v_wrF4_keep main_v265 (by decide)), w265_F3]
theorem w265_F5 : v_wrF5 V (Proc.devRef .tc main_v265) = v_wrE V (Proc.devRef .tc main_v265) := by
  rw [(v_wrF5_keep main_v265 (by decide)), w265_F4]
theorem w265_F6 : v_wrF6 V (Proc.devRef .tc main_v265) = v_wrE V (Proc.devRef .tc main_v265) := by
  rw [(v_wrF6_keep main_v265 (by decide)), w265_F5]
theorem w266_F0 : v_wrF0 V (Proc.devRef .tc main_v266) = v_wrE V (Proc.devRef .tc main_v266) := by
  rw [(v_wrF0_keep main_v266 (by decide))]
theorem w266_F1 : v_wrF1 V (Proc.devRef .tc main_v266) = v_wrE V (Proc.devRef .tc main_v266) := by
  rw [(v_wrF1_keep main_v266 (by decide)), w266_F0]
theorem w266_F2 : v_wrF2 V (Proc.devRef .tc main_v266) = v_wrE V (Proc.devRef .tc main_v266) := by
  rw [(v_wrF2_keep main_v266 (by decide)), w266_F1]
theorem w266_F3 : v_wrF3 V (Proc.devRef .tc main_v266) = v_wrE V (Proc.devRef .tc main_v266) := by
  rw [(v_wrF3_keep main_v266 (by decide)), w266_F2]
theorem w266_F4 : v_wrF4 V (Proc.devRef .tc main_v266) = v_wrE V (Proc.devRef .tc main_v266) := by
  rw [(v_wrF4_keep main_v266 (by decide)), w266_F3]
theorem w266_F5 : v_wrF5 V (Proc.devRef .tc main_v266) = v_wrE V (Proc.devRef .tc main_v266) := by
  rw [(v_wrF5_keep main_v266 (by decide)), w266_F4]
theorem w266_F6 : v_wrF6 V (Proc.devRef .tc main_v266) = v_wrE V (Proc.devRef .tc main_v266) := by
  rw [(v_wrF6_keep main_v266 (by decide)), w266_F5]
theorem w268_F0 : v_wrF0 V (Proc.devRef .tc main_v268) = v_wrE V (Proc.devRef .tc main_v268) := by
  rw [(v_wrF0_keep main_v268 (by decide))]
theorem w268_F1 : v_wrF1 V (Proc.devRef .tc main_v268) = v_wrE V (Proc.devRef .tc main_v268) := by
  rw [(v_wrF1_keep main_v268 (by decide)), w268_F0]
theorem w268_F2 : v_wrF2 V (Proc.devRef .tc main_v268) = v_wrE V (Proc.devRef .tc main_v268) := by
  rw [(v_wrF2_keep main_v268 (by decide)), w268_F1]
theorem w270_F0 : v_wrF0 V (Proc.devRef .tc main_v270) = v_wrE V (Proc.devRef .tc main_v270) := by
  rw [(v_wrF0_keep main_v270 (by decide))]
theorem w270_F1 : v_wrF1 V (Proc.devRef .tc main_v270) = v_wrE V (Proc.devRef .tc main_v270) := by
  rw [(v_wrF1_keep main_v270 (by decide)), w270_F0]
theorem w270_F2 : v_wrF2 V (Proc.devRef .tc main_v270) = v_wrE V (Proc.devRef .tc main_v270) := by
  rw [(v_wrF2_keep main_v270 (by decide)), w270_F1]
theorem w270_F3 : v_wrF3 V (Proc.devRef .tc main_v270) = v_wrE V (Proc.devRef .tc main_v270) := by
  rw [(v_wrF3_keep main_v270 (by decide)), w270_F2]
theorem w270_F4 : v_wrF4 V (Proc.devRef .tc main_v270) = v_wrE V (Proc.devRef .tc main_v270) := by
  rw [(v_wrF4_keep main_v270 (by decide)), w270_F3]
theorem w272_F0 : v_wrF0 V (Proc.devRef .tc main_v272) = v_wrE V (Proc.devRef .tc main_v272) := by
  rw [(v_wrF0_keep main_v272 (by decide))]
theorem w272_F1 : v_wrF1 V (Proc.devRef .tc main_v272) = v_wrE V (Proc.devRef .tc main_v272) := by
  rw [(v_wrF1_keep main_v272 (by decide)), w272_F0]
theorem w272_F2 : v_wrF2 V (Proc.devRef .tc main_v272) = v_wrE V (Proc.devRef .tc main_v272) := by
  rw [(v_wrF2_keep main_v272 (by decide)), w272_F1]
theorem w272_F3 : v_wrF3 V (Proc.devRef .tc main_v272) = v_wrE V (Proc.devRef .tc main_v272) := by
  rw [(v_wrF3_keep main_v272 (by decide)), w272_F2]
theorem w272_F4 : v_wrF4 V (Proc.devRef .tc main_v272) = v_wrE V (Proc.devRef .tc main_v272) := by
  rw [(v_wrF4_keep main_v272 (by decide)), w272_F3]
theorem w272_F5 : v_wrF5 V (Proc.devRef .tc main_v272) = v_wrE V (Proc.devRef .tc main_v272) := by
  rw [(v_wrF5_keep main_v272 (by decide)), w272_F4]

theorem w264_apply (j : Fin 2000000) :
    (v_wrE V (Proc.devRef .tc main_v264) : FVec Ideal S2000000x1 .f32) (ix2 j (0 : Fin 1)) = frac2 V (ix2 j (0 : Fin 3)) := by
  rw [v_wrE_main_v264_eq]
  exact sliceN_apply _ _ _ j 0 rfl rfl
theorem w265_apply (j : Fin 2000000) :
    (v_wrE V (Proc.devRef .tc main_v265) : FVec Ideal S2000000x1 .f32) (ix2 j (0 : Fin 1)) = frac2 V (ix2 j (1 : Fin 3)) := by
  rw [v_wrE_main_v265_eq]
  exact sliceN_apply _ _ _ j 1 rfl rfl
theorem w266_apply (j : Fin 2000000) :
    (v_wrE V (Proc.devRef .tc main_v266) : FVec Ideal S2000000x1 .f32) (ix2 j (0 : Fin 1)) = frac2 V (ix2 j (2 : Fin 3)) := by
  rw [v_wrE_main_v266_eq]
  exact sliceN_apply _ _ _ j 2 rfl rfl

theorem w268_apply (j : Fin 2000000) :
    (v_wrE V (Proc.devRef .tc main_v268) : FVec Ideal S2000000x1 .f32) (ix2 j (0 : Fin 1)) = Cert.Spec.oneF - frac2 V (ix2 j (0 : Fin 3)) := by
  rw [v_wrE_main_v268_eq]
  show (broadcastInDim S2000000x1 ![] bcast_S_S2000000x1 (constant S_ .f32 0x3F800000#32)) (ix2 j (0 : Fin 1))
      - extractStridedSlice S2000000x1 ![0, 0] (v_wrD V (Proc.devRef .tc main_v258)) slices_S2000000x3_S2000000x1_0_0 (ix2 j (0 : Fin 1)) = _
  rw [scalarColN_apply, sliceN_apply _ _ _ j 0 rfl rfl]
  rfl
theorem w270_apply (j : Fin 2000000) :
    (v_wrE V (Proc.devRef .tc main_v270) : FVec Ideal S2000000x1 .f32) (ix2 j (0 : Fin 1)) = Cert.Spec.oneF - frac2 V (ix2 j (1 : Fin 3)) := by
  rw [v_wrE_main_v270_eq]
  show (broadcastInDim S2000000x1 ![] bcast_S_S2000000x1 (constant S_ .f32 0x3F800000#32)) (ix2 j (0 : Fin 1))
      - extractStridedSlice S2000000x1 ![0, 1] (v_wrD V (Proc.devRef .tc main_v258)) slices_S2000000x3_S2000000x1_0_1 (ix2 j (0 : Fin 1)) = _
  rw [scalarColN_apply, sliceN_apply _ _ _ j 1 rfl rfl]
  rfl
theorem w272_apply (j : Fin 2000000) :
    (v_wrE V (Proc.devRef .tc main_v272) : FVec Ideal S2000000x1 .f32) (ix2 j (0 : Fin 1)) = Cert.Spec.oneF - frac2 V (ix2 j (2 : Fin 3)) := by
  rw [v_wrE_main_v272_eq]
  show (broadcastInDim S2000000x1 ![] bcast_S_S2000000x1 (constant S_ .f32 0x3F800000#32)) (ix2 j (0 : Fin 1))
      - extractStridedSlice S2000000x1 ![0, 2] (v_wrD V (Proc.devRef .tc main_v258)) slices_S2000000x3_S2000000x1_0_2 (ix2 j (0 : Fin 1)) = _
  rw [scalarColN_apply, sliceN_apply _ _ _ j 2 rfl rfl]
  rfl

theorem stepN_apply (acc : FVec Ideal S2000000x3 .f32) (nm : FVec Ideal S128x512x512x3 .f32) (sz sx sy : IVec S2000000x3 32)
    (wz wx wy : FVec Ideal S2000000x1 .f32) (j : Fin 2000000) (ch : Fin 3)
    (hz : 0 ≤ (sz (ix2 j (0 : Fin 3))).toInt) (hx : 0 ≤ (sx (ix2 j (1 : Fin 3))).toInt) (hy : 0 ≤ (sy (ix2 j (2 : Fin 3))).toInt) :
    addf acc (cornerN nm sz sx sy wz wx wy) (ix2 j ch)
      = acc (ix2 j ch) + ((Cert.Rows.cellN nm (sz (ix2 j (0 : Fin 3))) (sx (ix2 j (1 : Fin 3))) (sy (ix2 j (2 : Fin 3))) ch
          * wz (ix2 j (0 : Fin 1))) * wx (ix2 j (0 : Fin 1))) * wy (ix2 j (0 : Fin 1)) := by
  rw [addf_apply, cornerTerm_apply nm sz sx sy wz wx wy j ch hz hx hy]

theorem sumN_0 (j : Fin 2000000) (ch : Fin 3) :
    (v_wrF0 V (Proc.devRef .tc main_v304) : FVec Ideal S2000000x3 .f32) (ix2 j ch) = ((Cert.Rows.cellN (α := EReal) (V (Proc.devRef .tc main_arg2)) (lo2 V j 0) (lo2 V j 1) (lo2 V j 2) ch * (Cert.Spec.oneF - frac2 V (ix2 j (0 : Fin 3)))) * (Cert.Spec.oneF - frac2 V (ix2 j (1 : Fin 3)))) * (Cert.Spec.oneF - frac2 V (ix2 j (2 : Fin 3))) := by
  rw [v_wrF0_main_v304_eq]
  refine (cornerTerm_apply (v_wrE V (Proc.devRef .tc main_arg2)) (v_wrE V (Proc.devRef .tc main_v260)) (v_wrE V (Proc.devRef .tc main_v260)) (v_wrE V (Proc.devRef .tc main_v260)) (v_wrE V (Proc.devRef .tc main_v268)) (v_wrE V (Proc.devRef .tc main_v270)) (v_wrE V (Proc.devRef .tc main_v272)) j ch (by rw [lo_E V]; exact (lo2_bounds V j 0).1) (by rw [lo_E V]; exact (lo2_bounds V j 1).1) (by rw [lo_E V]; exact (lo2_bounds V j 2).1)).trans ?_
  rw [arg2_E V, lo_E V, w268_apply, w270_apply, w272_apply]
  rfl

theorem sumN_1 (j : Fin 2000000) (ch : Fin 3) (s : EReal)
    (hs : (v_wrF0 V (Proc.devRef .tc main_v304) : FVec Ideal S2000000x3 .f32) (ix2 j ch) = s) :
    (v_wrF1 V (Proc.devRef .tc main_v337) : FVec Ideal S2000000x3 .f32) (ix2 j ch) = s + ((Cert.Rows.cellN (α := EReal) (V (Proc.devRef .tc main_arg2)) (lo2 V j 0) (lo2 V j 1) (hi2 V j 2) ch * (Cert.Spec.oneF - frac2 V (ix2 j (0 : Fin 3)))) * (Cert.Spec.oneF - frac2 V (ix2 j (1 : Fin 3)))) * frac2 V (ix2 j (2 : Fin 3)) := by
  rw [v_wrF1_main_v337_eq]
  refine (stepN_apply (v_wrF0 V (Proc.devRef .tc main_v304)) (v_wrF0 V (Proc.devRef .tc main_arg2)) (v_wrF0 V (Proc.devRef .tc main_v260)) (v_wrF0 V (Proc.devRef .tc main_v260)) (v_wrF0 V (Proc.devRef .tc main_v263)) (v_wrF0 V (Proc.devRef .tc main_v268)) (v_wrF0 V (Proc.devRef .tc main_v270)) (v_wrF0 V (Proc.devRef .tc main_v266)) j ch (by rw [lo_F0 V]; exact (lo2_bounds V j 0).1) (by rw [lo_F0 V]; exact (lo2_bounds V j 1).1) (by rw [hi_F0 V]; exact (hi2_bounds V j 2).1)).trans ?_
  rw [hs, arg2_F0 V, lo_F0 V, hi_F0 V, w268_F0 V, w270_F0 V, w266_F0 V, w268_apply, w270_apply, w266_apply]
  rfl

theorem sumN_2 (j : Fin 2000000) (ch : Fin 3) (s : EReal)
    (hs : (v_wrF1 V (Proc.devRef .tc main_v337) : FVec Ideal S2000000x3 .f32) (ix2 j ch) = s) :
    (v_wrF2 V (Proc.devRef .tc main_v370) : FVec Ideal S2000000x3 .f32) (ix2 j ch) = s + ((Cert.Rows.cellN (α := EReal) (V (Proc.devRef .tc main_arg2)) (lo2 V j 0) (hi2 V j 1) (lo2 V j 2) ch * (Cert.Spec.oneF - frac2 V (ix2 j (0 : Fin 3)))) * frac2 V (ix2 j (1 : Fin 3))) * (Cert.Spec.oneF - frac2 V (ix2 j (2 : Fin 3))) := by
  rw [v_wrF2_main_v370_eq]
  refine (stepN_apply (v_wrF1 V (Proc.devRef .tc main_v337)) (v_wrF1 V (Proc.devRef .tc main_arg2)) (v_wrF1 V (Proc.devRef .tc main_v260)) (v_wrF1 V (Proc.devRef .tc main_v263)) (v_wrF1 V (Proc.devRef .tc main_v260)) (v_wrF1 V (Proc.devRef .tc main_v268)) (v_wrF1 V (Proc.devRef .tc main_v265)) (v_wrF1 V (Proc.devRef .tc main_v272)) j ch (by rw [lo_F1 V]; exact (lo2_bounds V j 0).1) (by rw [hi_F1 V]; exact (hi2_bounds V j 1).1) (by rw [lo_F1 V]; exact (lo2_bounds V j 2).1)).trans ?_
  rw [hs, arg2_F1 V, lo_F1 V, hi_F1 V, w268_F1 V, w265_F1 V, w272_F1 V, w268_apply, w265_apply, w272_apply]
  rfl

theorem sumN_3 (j : Fin 2000000) (ch : Fin 3) (s : EReal)
    (hs : (v_wrF2 V (Proc.devRef .tc main_v370) : FVec Ideal S2000000x3 .f32) (ix2 j ch) = s) :
    (v_wrF3 V (Proc.devRef .tc main_v403) : FVec Ideal S2000000x3 .f32) (ix2 j ch) = s + ((Cert.Rows.cellN (α := EReal) (V (Proc.devRef .tc main_arg2)) (lo2 V j 0) (hi2 V j 1) (hi2 V j 2) ch * (Cert.Spec.oneF - frac2 V (ix2 j (0 : Fin 3)))) * frac2 V (ix2 j (1 : Fin 3))) * frac2 V (ix2 j (2 : Fin 3)) := by
  rw [v_wrF3_main_v403_eq]
  refine (stepN_apply (v_wrF2 V (Proc.devRef .tc main_v370)) (v_wrF2 V (Proc.devRef .tc main_arg2)) (v_wrF2 V (Proc.devRef .tc main_v260)) (v_wrF2 V (Proc.devRef .tc main_v263)) (v_wrF2 V (Proc.devRef .tc main_v263)) (v_wrF2 V (Proc.devRef .tc main_v268)) (v_wrF2 V (Proc.devRef .tc main_v265)) (v_wrF2 V (Proc.devRef .tc main_v266)) j ch (by rw [lo_F2 V]; exact (lo2_bounds V j 0).1) (by rw [hi_F2 V]; exact (hi2_bounds V j 1).1) (by rw [hi_F2 V]; exact (hi2_bounds V j 2).1)).trans ?_
  rw [hs, arg2_F2 V, lo_F2 V, hi_F2 V, w268_F2 V, w265_F2 V, w266_F2 V, w268_apply, w265_apply, w266_apply]
  rfl

theorem sumN_4 (j : Fin 2000000) (ch : Fin 3) (s : EReal)
    (hs : (v_wrF3 V (Proc.devRef .tc main_v403) : FVec Ideal S2000000x3 .f32) (ix2 j ch) = s) :
    (v_wrF4 V (Proc.devRef .tc main_v436) : FVec Ideal S2000000x3 .f32) (ix2 j ch) = s + ((Cert.Rows.cellN (α := EReal) (V (Proc.devRef .tc main_arg2)) (hi2 V j 0) (lo2 V j 1) (lo2 V j 2) ch * frac2 V (ix2 j (0 : Fin 3))) * (Cert.Spec.oneF - frac2 V (ix2 j (1 : Fin 3)))) * (Cert.Spec.oneF - frac2 V (ix2 j (2 : Fin 3))) := by
  rw [v_wrF4_main_v436_eq]
  refine (stepN_apply (v_wrF3 V (Proc.devRef .tc main_v403)) (v_wrF3 V (Proc.devRef .tc main_arg2)) (v_wrF3 V (Proc.devRef .tc main_v263)) (v_wrF3 V (Proc.devRef .tc main_v260)) (v_wrF3 V (Proc.devRef .tc main_v260)) (v_wrF3 V (Proc.devRef .tc main_v264)) (v_wrF3 V (Proc.devRef .tc main_v270)) (v_wrF3 V (Proc.devRef .tc main_v272)) j ch (by rw [hi_F3 V]; exact (hi2_bounds V j 0).1) (by rw [lo_F3 V]; exact (lo2_bounds V j 1).1) (by rw [lo_F3 V]; exact (lo2_bounds V j 2).1)).trans ?_
  rw [hs, arg2_F3 V, lo_F3 V, hi_F3 V, w264_F3 V, w270_F3 V, w272_F3 V, w264_apply, w270_apply, w272_apply]
  rfl

theorem sumN_5 (j : Fin 2000000) (ch : Fin 3) (s : EReal)
    (hs : (v_wrF4 V (Proc.devRef .tc main_v436) : FVec Ideal S2000000x3 .f32) (ix2 j ch) = s) :
    (v_wrF5 V (Proc.devRef .tc main_v469) : FVec Ideal S2000000x3 .f32) (ix2 j ch) = s + ((Cert.Rows.cellN (α := EReal) (V (Proc.devRef .tc main_arg2)) (hi2 V j 0) (lo2 V j 1) (hi2 V j 2) ch * frac2 V (ix2 j (0 : Fin 3))) * (Cert.Spec.oneF - frac2 V (ix2 j (1 : Fin 3)))) * frac2 V (ix2 j (2 : Fin 3)) := by
  rw [v_wrF5_main_v469_eq]
  refine (stepN_apply (v_wrF4 V (Proc.devRef .tc main_v436)) (v_wrF4 V (Proc.devRef .tc main_arg2)) (v_wrF4 V (Proc.devRef .tc main_v263)) (v_wrF4 V (Proc.devRef .tc main_v260)) (v_wrF4 V (Proc.devRef .tc main_v263)) (v_wrF4 V (Proc.devRef .tc main_v264)) (v_wrF4 V (Proc.devRef .tc main_v270)) (v_wrF4 V (Proc.devRef .tc main_v266)) j ch (by rw [hi_F4 V]; exact (hi2_bounds V j 0).1) (by rw [lo_F4 V]; exact (lo2_bounds V j 1).1) (by rw [hi_F4 V]; exact (hi2_bounds V j 2).1)).trans ?_
  rw [hs, arg2_F4 V, lo_F4 V, hi_F4 V, w264_F4 V, w270_F4 V, w266_F4 V, w264_apply, w270_apply, w266_apply]
  rfl

theorem sumN_6 (j : Fin 2000000) (ch : Fin 3) (s : EReal)
    (hs : (v_wrF5 V (Proc.devRef .tc main_v469) : FVec Ideal S2000000x3 .f32) (ix2 j ch) = s) :
    (v_wrF6 V (Proc.devRef .tc main_v502) : FVec Ideal S2000000x3 .f32) (ix2 j ch) = s + ((Cert.Rows.cellN (α := EReal) (V (Proc.devRef .tc main_arg2)) (hi2 V j 0) (hi2 V j 1) (lo2 V j 2) ch * frac2 V (ix2 j (0 : Fin 3))) * frac2 V (ix2 j (1 : Fin 3))) * (Cert.Spec.oneF - frac2 V (ix2 j (2 : Fin 3))) := by
  rw [v_wrF6_main_v502_eq]
  refine (stepN_apply (v_wrF5 V (Proc.devRef .tc main_v469)) (v_wrF5 V (Proc.devRef .tc main_arg2)) (v_wrF5 V (Proc.devRef .tc main_v263)) (v_wrF5 V (Proc.devRef .tc main_v263)) (v_wrF5 V (Proc.devRef .tc main_v260)) (v_wrF5 V (Proc.devRef .tc main_v264)) (v_wrF5 V (Proc.devRef .tc main_v265)) (v_wrF5 V (Proc.devRef .tc main_v272)) j ch (by rw [hi_F5 V]; exact (hi2_bounds V j 0).1) (by rw [hi_F5 V]; exact (hi2_bounds V j 1).1) (by rw [lo_F5 V]; exact (lo2_bounds V j 2).1)).trans ?_
  rw [hs, arg2_F5 V, lo_F5 V, hi_F5 V, w264_F5 V, w265_F5 V, w272_F5 V, w264_apply, w265_apply, w272_apply]
  rfl

theorem sumN_7 (j : Fin 2000000) (ch : Fin 3) (s : EReal)
    (hs : (v_wrF6 V (Proc.devRef .tc main_v502) : FVec Ideal S2000000x3 .f32) (ix2 j ch) = s) :
    (v_wrF7 V (Proc.devRef .tc main_v535) : FVec Ideal S2000000x3 .f32) (ix2 j ch) = s + ((Cert.Rows.cellN (α := EReal) (V (Proc.devRef .tc main_arg2)) (hi2 V j 0) (hi2 V j 1) (hi2 V j 2) ch * frac2 V (ix2 j (0 : Fin 3))) * frac2 V (ix2 j (1 : Fin 3))) * frac2 V (ix2 j (2 : Fin 3)) := by
  rw [v_wrF7_main_v535_eq]
  refine (stepN_apply (v_wrF6 V (Proc.devRef .tc main_v502)) (v_wrF6 V (Proc.devRef .tc main_arg2)) (v_wrF6 V (Proc.devRef .tc main_v263)) (v_wrF6 V (Proc.devRef .tc main_v263)) (v_wrF6 V (Proc.devRef .tc main_v263)) (v_wrF6 V (Proc.devRef .tc main_v264)) (v_wrF6 V (Proc.devRef .tc main_v265)) (v_wrF6 V (Proc.devRef .tc main_v266)) j ch (by rw [hi_F6 V]; exact (hi2_bounds V j 0).1) (by rw [hi_F6 V]; exact (hi2_bounds V j 1).1) (by rw [hi_F6 V]; exact (hi2_bounds V j 2).1)).trans ?_
  rw [hs, arg2_F6 V, hi_F6 V, w264_F6 V, w265_F6 V, w266_F6 V, w264_apply, w265_apply, w266_apply]
  rfl

/-- Row `j`, channel `ch` of the second interpolation is the reference's blend of the eight corner voxels. -/
theorem row_blendN (j : Fin 2000000) (ch : Fin 3) :
    (v_wrF7 V (Proc.devRef .tc main_v535) : FVec Ideal S2000000x3 .f32) (ix2 j ch)
      = Cert.Rows.blendR (fun k => Cert.Rows.cellN (α := EReal) (V (Proc.devRef .tc main_arg2))
          (Cert.Rows.cornerZ (lo2 V j) (hi2 V j) k) (Cert.Rows.cornerX (lo2 V j) (hi2 V j) k) (Cert.Rows.cornerY (lo2 V j) (hi2 V j) k) ch)
          (frac2 V (ix2 j (0 : Fin 3))) (frac2 V (ix2 j (1 : Fin 3))) (frac2 V (ix2 j (2 : Fin 3))) :=
  (sumN_7 V j ch _ (sumN_6 V j ch _ (sumN_5 V j ch _ (sumN_4 V j ch _ (sumN_3 V j ch _ (sumN_2 V j ch _
    (sumN_1 V j ch _ (sumN_0 V j ch)))))))).trans rfl

end Cert.ReferenceIdeal.Hand

end
-- ==== Proof.Prefix.lean ====
import proofs.«415693_j15238543966484_3_alg».proof.Proof.RVals
import proofs.«415693_j15238543966484_3_alg».proof.Proof.KVals

set_option maxRecDepth 16384

noncomputable section

namespace Cert.Prefix

open Idealize.ShloMosaic Idealize.ShloMosaic.TcCoe Idealize.SL.Sem Idealize.ShloMosaic.StableHlo
open Cert.ReferenceIdeal.Hand Cert.KernelIdeal.Hand

variable {F : FTy → Type} [FloatOps F] [Named F]

theorem litK0_eq_litR1 : Cert.KernelIdeal.lit0 = Cert.ReferenceIdeal.lit1 := rfl

theorem litK0_eq_litR2 : Cert.KernelIdeal.lit0 = Cert.ReferenceIdeal.lit2 := rfl

theorem wrC7_arg0 (V : Valuation Cert.ReferenceIdeal.τ Cert.ReferenceIdeal.sig (Elt F)) :
    v_wrC7 V (Proc.devRef .tc Cert.ReferenceIdeal.main_arg0) = V (Proc.devRef .tc Cert.ReferenceIdeal.main_arg0) := by
  rw [(v_wrC7_keep Cert.ReferenceIdeal.main_arg0 (by decide)), (v_wrC6_keep Cert.ReferenceIdeal.main_arg0 (by decide)), (v_wrC5_keep Cert.ReferenceIdeal.main_arg0 (by decide)), (v_wrC4_keep Cert.ReferenceIdeal.main_arg0 (by decide)), (v_wrC3_keep Cert.ReferenceIdeal.main_arg0 (by decide)), (v_wrC2_keep Cert.ReferenceIdeal.main_arg0 (by decide)), (v_wrC1_keep Cert.ReferenceIdeal.main_arg0 (by decide)), (v_wrC0_keep Cert.ReferenceIdeal.main_arg0 (by decide)), (v_wrB_keep Cert.ReferenceIdeal.main_arg0 (by decide)), (v_wrA_keep Cert.ReferenceIdeal.main_arg0 (by decide))]

theorem wrC7_c_0 (V : Valuation Cert.ReferenceIdeal.τ Cert.ReferenceIdeal.sig (Elt F)) :
    v_wrC7 V (Proc.devRef .tc Cert.ReferenceIdeal.main_c_0)
      = fun i => Cert.ReferenceIdeal.lit2 (Cert.ReferenceIdeal.S3.rowMajor i) := by
  rw [(v_wrC7_keep Cert.ReferenceIdeal.main_c_0 (by decide)), (v_wrC6_keep Cert.ReferenceIdeal.main_c_0 (by decide)), (v_wrC5_keep Cert.ReferenceIdeal.main_c_0 (by decide)), (v_wrC4_keep Cert.ReferenceIdeal.main_c_0 (by decide)), (v_wrC3_keep Cert.ReferenceIdeal.main_c_0 (by decide)), (v_wrC2_keep Cert.ReferenceIdeal.main_c_0 (by decide)), (v_wrC1_keep Cert.ReferenceIdeal.main_c_0 (by decide)), (v_wrC0_keep Cert.ReferenceIdeal.main_c_0 (by decide)), (v_wrB_keep Cert.ReferenceIdeal.main_c_0 (by decide)), v_wrA_main_c_0_eq]

variable (Vk : Valuation Cert.KernelIdeal.τ Cert.KernelIdeal.sig (Elt F))
  (Vr : Valuation Cert.ReferenceIdeal.τ Cert.ReferenceIdeal.sig (Elt F))

/-- From equal coordinates both programs compute the same offsets and index triples: the same operations on the same words. -/
theorem frac1_eq (h : Vr (Proc.devRef .tc Cert.ReferenceIdeal.main_arg0) = Vk (Proc.devRef .tc Cert.KernelIdeal.main_arg0)) :
    v_wrA Vr (Proc.devRef .tc Cert.ReferenceIdeal.main_v2) = v_wA Vk (Proc.devRef .tc Cert.KernelIdeal.main_v1) := by
  rw [v_wrA_main_v2_eq, v_wA_main_v1_eq, h]

theorem frac2_eq (h : Vr (Proc.devRef .tc Cert.ReferenceIdeal.main_arg0) = Vk (Proc.devRef .tc Cert.KernelIdeal.main_arg0)) :
    v_wrD Vr (Proc.devRef .tc Cert.ReferenceIdeal.main_v258) = v_wA Vk (Proc.devRef .tc Cert.KernelIdeal.main_v1) := by
  rw [v_wrD_main_v258_eq, wrC7_arg0, v_wA_main_v1_eq, h]

theorem lo1_eq (h : Vr (Proc.devRef .tc Cert.ReferenceIdeal.main_arg0) = Vk (Proc.devRef .tc Cert.KernelIdeal.main_arg0)) :
    v_wrA Vr (Proc.devRef .tc Cert.ReferenceIdeal.main_v4) = v_wA Vk (Proc.devRef .tc Cert.KernelIdeal.main_v3) := by
  rw [v_wrA_main_v4_eq, v_wA_main_v3_eq, h, litK0_eq_litR1]

theorem hi1_eq (h : Vr (Proc.devRef .tc Cert.ReferenceIdeal.main_arg0) = Vk (Proc.devRef .tc Cert.KernelIdeal.main_arg0)) :
    v_wrA Vr (Proc.devRef .tc Cert.ReferenceIdeal.main_v7) = v_wA Vk (Proc.devRef .tc Cert.KernelIdeal.main_v6) := by
  rw [v_wrA_main_v7_eq, v_wA_main_v6_eq, h, litK0_eq_litR1]

theorem lo2_eq (h : Vr (Proc.devRef .tc Cert.ReferenceIdeal.main_arg0) = Vk (Proc.devRef .tc Cert.KernelIdeal.main_arg0)) :
    v_wrD Vr (Proc.devRef .tc Cert.ReferenceIdeal.main_v260) = v_wA Vk (Proc.devRef .tc Cert.KernelIdeal.main_v3) := by
  rw [v_wrD_main_v260_eq, wrC7_arg0, wrC7_c_0, v_wA_main_v3_eq, h, litK0_eq_litR2]

theorem hi2_eq (h : Vr (Proc.devRef .tc Cert.ReferenceIdeal.main_arg0) = Vk (Proc.devRef .tc Cert.KernelIdeal.main_arg0)) :
    v_wrD Vr (Proc.devRef .tc Cert.ReferenceIdeal.main_v263) = v_wA Vk (Proc.devRef .tc Cert.KernelIdeal.main_v6) := by
  rw [v_wrD_main_v263_eq, wrC7_arg0, wrC7_c_0, v_wA_main_v6_eq, h, litK0_eq_litR2]

end Cert.Prefix

end
-- ==== Proof.Bridge.lean ====
import proofs.«415693_j15238543966484_3_alg».proof.Proof.KValue
import proofs.«415693_j15238543966484_3_alg».proof.Proof.KRows
import proofs.«415693_j15238543966484_3_alg».proof.Proof.KGlue
import proofs.«415693_j15238543966484_3_alg».proof.Proof.RGlue
import proofs.«415693_j15238543966484_3_alg».proof.Proof.RRows
import proofs.«415693_j15238543966484_3_alg».proof.Proof.RRowsN
import proofs.«415693_j15238543966484_3_alg».proof.Proof.Prefix

noncomputable section

namespace Cert.Bridge

open Idealize.ShloMosaic Idealize.ShloMosaic.TcCoe Idealize.SL.Sem Idealize.ShloMosaic.StableHlo Idealize.ShloMosaic.ValueIdx
open Cert.KernelIdeal.Hand (v_wA v_wC7 resA resN fracK loK hiK)
open Cert.ReferenceIdeal.Hand (v_wrA v_wrD v_wrF7 v_wrH frac1 lo1 hi1 frac2 lo2 hi2)

structure Agree (Vk : Valuation Cert.KernelIdeal.τ Cert.KernelIdeal.sig (Elt Ideal))
    (Vr : Valuation Cert.ReferenceIdeal.τ Cert.ReferenceIdeal.sig (Elt Ideal)) : Prop where
  h0 : (Vr (Proc.devRef .tc Cert.ReferenceIdeal.main_arg0) : Cert.Index.SM3.Idx → EReal) = Vk (Proc.devRef .tc Cert.KernelIdeal.main_arg0)
  h1 : (Vr (Proc.devRef .tc Cert.ReferenceIdeal.main_arg1) : Cert.Index.SA.Idx → EReal) = Vk (Proc.devRef .tc Cert.KernelIdeal.main_arg1)
  h2 : (Vr (Proc.devRef .tc Cert.ReferenceIdeal.main_arg2) : Cert.Index.SN.Idx → EReal) = Vk (Proc.devRef .tc Cert.KernelIdeal.main_arg2)

variable (Vk : Valuation Cert.KernelIdeal.τ Cert.KernelIdeal.sig (Elt Ideal))
  (Vr : Valuation Cert.ReferenceIdeal.τ Cert.ReferenceIdeal.sig (Elt Ideal))

theorem albedo_row (hA : Agree Vk Vr) (j : Fin 2000000) :
    v_wrH Vr (Proc.devRef .tc Cert.ReferenceIdeal.main_v536) (ix1 j)
      = Cert.Spec.eluK (v_wC7 Vk (Proc.devRef .tc Cert.KernelIdeal.main_v269) (ix2 (0 : Fin 4) j)) := by
  have e1 : lo1 Vr j = loK Vk j := funext fun r => congrFun (Cert.Prefix.lo1_eq Vk Vr hA.h0) (ix2 j r)
  have e2 : hi1 Vr j = hiK Vk j := funext fun r => congrFun (Cert.Prefix.hi1_eq Vk Vr hA.h0) (ix2 j r)
  have e3 : ∀ r : Fin 3, frac1 Vr (ix2 j r) = fracK Vk (ix2 j r) := fun r => congrFun (Cert.Prefix.frac1_eq Vk Vr hA.h0) (ix2 j r)
  rw [Cert.ReferenceIdeal.Hand.row_a, Cert.ReferenceIdeal.Hand.row_blendA, Cert.KernelIdeal.Hand.row_a, Cert.Spec.elu_eq]
  unfold Cert.Rows.pointA
  rw [Cert.Rows.blend_eq, e1, e2, e3 0, e3 1, e3 2, hA.h1]

/-- The first results agree: the activation, in either spelling, of the same blend at every point. -/
theorem albedo (hA : Agree Vk Vr) :
    (v_wrH Vr (Proc.devRef .tc Cert.ReferenceIdeal.main_v536) : Cert.Index.SM.Idx → EReal)
      = resA (v_wC7 Vk (Proc.devRef .tc Cert.KernelIdeal.main_v269)) := by
  refine funext fun (i : Cert.Index.SM.Idx) => ?_
  obtain ⟨j, rfl⟩ : ∃ j : Fin 2000000, i = ix1 j := ⟨i 0, eq_ix1 i⟩
  rw [Cert.KernelIdeal.Hand.resA_apply]
  exact albedo_row Vk Vr hA j

theorem blendN_row (hA : Agree Vk Vr) (j : Fin 2000000) (ch : Fin 3) :
    v_wrF7 Vr (Proc.devRef .tc Cert.ReferenceIdeal.main_v535) (ix2 j ch)
      = v_wC7 Vk (Proc.devRef .tc Cert.KernelIdeal.main_v269) (ix2 (ch.succ : Fin 4) j) := by
  have e1 : lo2 Vr j = loK Vk j := funext fun r => congrFun (Cert.Prefix.lo2_eq Vk Vr hA.h0) (ix2 j r)
  have e2 : hi2 Vr j = hiK Vk j := funext fun r => congrFun (Cert.Prefix.hi2_eq Vk Vr hA.h0) (ix2 j r)
  have e3 : ∀ r : Fin 3, frac2 Vr (ix2 j r) = fracK Vk (ix2 j r) := fun r => congrFun (Cert.Prefix.frac2_eq Vk Vr hA.h0) (ix2 j r)
  rw [Cert.ReferenceIdeal.Hand.row_blendN, Cert.KernelIdeal.Hand.row_n]
  unfold Cert.Rows.pointN
  rw [Cert.Rows.blend_eq, e1, e2, e3 0, e3 1, e3 2, hA.h2]

/-- The second results agree: the shifted, normalised `tanh` of the same three blends at every point. -/
theorem normal (hA : Agree Vk Vr) :
    (v_wrH Vr (Proc.devRef .tc Cert.ReferenceIdeal.main_v545) : Cert.Index.SM3.Idx → EReal)
      = resN (v_wC7 Vk (Proc.devRef .tc Cert.KernelIdeal.main_v269)) := by
  refine funext fun (i : Cert.Index.SM3.Idx) => ?_
  obtain ⟨j, ch, rfl⟩ : ∃ (j : Fin 2000000) (ch : Fin 3), i = ix2 j ch := ⟨i 0, i 1, eq_ix2 i⟩
  have b := blendN_row Vk Vr hA j
  rw [Cert.KernelIdeal.Hand.resN_apply, Cert.ReferenceIdeal.Hand.row_n, b 0, b 1, b 2, Cert.Spec.norm_eq]
  rfl

end Cert.Bridge

end
-- ==== Proof.lean ====
import proofs.«415693_j15238543966484_3_alg».proof.Defs
import proofs.«415693_j15238543966484_3_alg».proof.Proof.Gen.Kernel
import proofs.«415693_j15238543966484_3_alg».proof.Proof.Gen.KernelIdeal
import proofs.«415693_j15238543966484_3_alg».proof.Proof.Gen.ReferenceIdeal
import proofs.«415693_j15238543966484_3_alg».proof.Proof.Gen.Pre_finite_inputs
import proofs.«415693_j15238543966484_3_alg».proof.Proof.KFrame
import proofs.«415693_j15238543966484_3_alg».proof.Proof.KFrameB
import proofs.«415693_j15238543966484_3_alg».proof.Proof.Bridge
import Idealize.ShloMosaic.PureOps.IdealRules

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

/-- The ledger's one entry: the table gives `"eps_sq"` the exact square of the reference's floor under the norm. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- Both runs end at the same two functions of the arguments: the kernel's results are the witnesses, the reference's agree point by point. -/
theorem algebraic : Cert.algebraic_KernelIdeal_ReferenceIdeal := by
  intro m ρ m' ρ' _ hagree
  refine ⟨fun c => Cert.KernelIdeal.Hand.resA (Cert.KernelIdeal.Hand.V m c Cert.KernelIdeal.main_v269),
    fun c => Cert.KernelIdeal.Hand.resN (Cert.KernelIdeal.Hand.V m c Cert.KernelIdeal.main_v269),
    Cert.KernelIdeal.Hand.run_vals m ρ, ?_⟩
  refine (θ_run Cert.ReferenceIdeal.defs _ _).mono (fun r h c => ?_) (Cert.ReferenceIdeal.Hand.run_vals (F := Ideal) m' ρ')
  obtain ⟨ha, hn, h0, h1, h2⟩ := h c
  have hA : Cert.Bridge.Agree (StableHlo.launchContents m c) (StableHlo.launchContents m' c) :=
    ⟨(hagree c).1, (hagree c).2.1, (hagree c).2.2⟩
  have hX : Cert.KernelIdeal.Hand.V m c Cert.KernelIdeal.main_v269
      = Cert.KernelIdeal.Hand.v_wC7 (StableHlo.launchContents m c) (Proc.devRef .tc Cert.KernelIdeal.main_v269) :=
    congrFun (Cert.KernelIdeal.Hand.V0_eq m c) _
  refine ⟨ha.trans ?_, hn.trans ?_, h0, h1, h2⟩
  · beta_reduce; rw [hX]; exact Cert.Bridge.albedo _ _ hA
  · beta_reduce; rw [hX]; exact Cert.Bridge.normal _ _ hA

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
